-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2, 2] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2, 2] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  reducesTo_S1x1024x2048_S_d0_1_2 : S1x1024x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S2048x2048 .f32) (main_arg5 : FVec F S2048x512 .f32) (main_arg6 : FVec F S2048x32 .f32) (main_arg7 : FVec F S2048x2048 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048x32 .f32 := Host.absf main_arg6
  let main_cst_10 : FVec F S_ .f32 := constant S_ .f32 0x7F800000#32
  let main_v30 : FVec F S2048x32 .f32 := broadcastInDim S2048x32 ![] bcast_S_S2048x32 main_cst_10
  let main_v31 : IVec S2048x32 1 := cmpf .olt main_v29 main_v30
  let main_c_11 : IVec S_ 1 := constantI S_ 1 1#1
  let main_v32 : IVec S_ 1 := (fun x v => Host.reduce IntOp.andi x v reducesTo_S2048x32_S_d0_1 h_S_) main_v31 main_c_11
  let main_v33 : IVec S_ 1 := andi main_v28 main_v32
  fn_part2 (F := F) main_arg7 main_v33

def fn {F : FTy → Type} [FloatOps F] (main_arg0 : FVec F S1x1024x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S_ 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_c : IVec S_ 1 := constantI S_ 1 1#1
  let main_v3 : IVec S_ 1 := (fun x v => Host.reduce IntOp.andi x v reducesTo_S1x1024x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128x2048 .f32 := Host.absf main_arg3
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg4 main_arg5 main_arg6 main_arg7 main_v13 main_v16
-- ==== Pre_finite_inputs_ReferenceIdeal.lean ====
abbrev S1x1024x2048 : Shape := ⟨3, ![1, 1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  reducesTo_S1x1024x2048_S_d0_1_2 : S1x1024x2048.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x2048 : S_.BroadcastsInDim S256x2048 (![] : Fin 0 → Fin S256x2048.rank)
  reducesTo_S256x2048_S_d0_1 : S256x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S2048x2048 .f32) (main_arg5 : FVec F S2048x512 .f32) (main_arg6 : FVec F S2048x32 .f32) (main_arg7 : FVec F S2048x2048 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048x32 .f32 := Host.absf main_arg6
  let main_cst_10 : FVec F S_ .f32 := constant S_ .f32 0x7F800000#32
  let main_v30 : FVec F S2048x32 .f32 := broadcastInDim S2048x32 ![] bcast_S_S2048x32 main_cst_10
  let main_v31 : IVec S2048x32 1 := cmpf .olt main_v29 main_v30
  let main_c_11 : IVec S_ 1 := constantI S_ 1 1#1
  let main_v32 : IVec S_ 1 := (fun x v => Host.reduce IntOp.andi x v reducesTo_S2048x32_S_d0_1 h_S_) main_v31 main_c_11
  let main_v33 : IVec S_ 1 := andi main_v28 main_v32
  fn_part2 (F := F) main_arg7 main_v33

def fn {F : FTy → Type} [FloatOps F] (main_arg0 : FVec F S1x1024x2048 .f32) (main_arg1 : FVec F S2048x256 .f32) (main_arg2 : FVec F S256x2048 .f32) (main_arg3 : FVec F S256x2048 .f32) (main_arg4 : FVec F S2048x2048 .f32) (main_arg5 : FVec F S2048x512 .f32) (main_arg6 : FVec F S2048x32 .f32) (main_arg7 : FVec F S2048x2048 .f32) : IVec S_ 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_c : IVec S_ 1 := constantI S_ 1 1#1
  let main_v3 : IVec S_ 1 := (fun x v => Host.reduce IntOp.andi x v reducesTo_S1x1024x2048_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_arg7 main_v13 main_v16
-- ==== Kernel.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x128 : Shape := ⟨2, ![1024, 128]⟩
abbrev S128x1024 : Shape := ⟨2, ![128, 1024]⟩
abbrev S2x128x2048 : Shape := ⟨3, ![2, 128, 2048]⟩
abbrev S4x2x128x2048 : Shape := ⟨4, ![4, 2, 128, 2048]⟩
abbrev S2x512x2048 : Shape := ⟨3, ![2, 512, 2048]⟩
abbrev S3 : Shape := ⟨1, ![3]⟩
abbrev S3x2 : Shape := ⟨2, ![3, 2]⟩
abbrev S4x2 : Shape := ⟨2, ![4, 2]⟩
abbrev S2 : Shape := ⟨1, ![2]⟩
abbrev S_ : Shape := ⟨0, ![]⟩
abbrev S1024x2048 : Shape := ⟨2, ![1024, 2048]⟩
abbrev S1x256x2048 : Shape := ⟨3, ![1, 256, 2048]⟩
abbrev S256x2048 : Shape := ⟨2, ![256, 2048]⟩
abbrev S1 : Shape := ⟨1, ![1]⟩
abbrev S1x512x1024 : Shape := ⟨3, ![1, 512, 1024]⟩
abbrev S512x1024 : Shape := ⟨2, ![512, 1024]⟩
abbrev S256x512 : Shape := ⟨2, ![256, 512]⟩
abbrev S256x1024 : Shape := ⟨2, ![256, 1024]⟩
abbrev S2048x256 : Shape := ⟨2, ![2048, 256]⟩
abbrev S256x256 : Shape := ⟨2, ![256, 256]⟩
abbrev S1024x32 : Shape := ⟨2, ![1024, 32]⟩
abbrev S1024x1024 : Shape := ⟨2, ![1024, 1024]⟩
abbrev S32x1024 : Shape := ⟨2, ![32, 1024]⟩
abbrev S128x128 : Shape := ⟨2, ![128, 128]⟩
abbrev S128x32 : Shape := ⟨2, ![128, 32]⟩
abbrev S128 : Shape := ⟨1, ![128]⟩
abbrev S128x1 : Shape := ⟨2, ![128, 1]⟩
abbrev S1x512x2048 : Shape := ⟨3, ![1, 512, 2048]⟩
abbrev S512x2048 : Shape := ⟨2, ![512, 2048]⟩
abbrev S128x512 : Shape := ⟨2, ![128, 512]⟩
abbrev S1x128x2048 : Shape := ⟨3, ![1, 128, 2048]⟩
abbrev S1x1 : Shape := ⟨2, ![1, 1]⟩
abbrev S1x1x128x2048 : Shape := ⟨4, ![1, 1, 128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1x1024x2048, .f32⟩
  | .local _ .vmem, ⟨0, _⟩ => ⟨S1x1024x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x512, .f32⟩
  | .local _ .vmem, ⟨5, _⟩ => ⟨S2048x32, .f32⟩
  | .local _ .vmem, ⟨6, _⟩ => ⟨S1x1024x2048, .f32⟩
  | .local _ .vmem, ⟨7, _⟩ => ⟨S1024x128, .bf16⟩
  | .local _ .vmem, ⟨8, _⟩ => ⟨S1024x128, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S2x128x2048, .bf16⟩
  | .local _ .vmem, ⟨14, _⟩ => ⟨S4x2x128x2048, .bf16⟩
  | .local _ .vmem, ⟨15, _⟩ => ⟨S2x512x2048, .f32⟩
  | .local _ .vmem, ⟨16, _⟩ => ⟨S2x128x2048, .bf16⟩
  | .local _ .vmem, ⟨17, _⟩ => ⟨S2x128x2048, .bf16⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 2 → Bool
  | ⟨0, _⟩ => true
  | ⟨1, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 2 33 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v20 : BitVec 32 := Scalar.muli v5 c2_i32_11
  let v21 : BitVec 32 := Scalar.addi v19 v20
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_12 : BitVec 32 := 1#32
  let v22 : BitVec 32 := Scalar.muli v9 c1_i32_12
  let v23 : BitVec 32 := Scalar.addi v21 v22
  v23.toNat
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v24 : BitVec 32 := Scalar.muli v2 c4_i32_14
  let v25 : BitVec 32 := Scalar.addi c0_i32_15 v24
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_16 : BitVec 32 := 2#32
  let v26 : BitVec 32 := Scalar.muli v13 c2_i32_16
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v28 : BitVec 32 := Scalar.muli v8 c1_i32_17
  let v29 : BitVec 32 := Scalar.addi v27 v28
  v29.toNat
def k0_dev3 (d0 : Dev nD) : Nat :=
  let c0_i32_20 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_19 : BitVec 32 := 4#32
  let v30 : BitVec 32 := Scalar.muli v14 c4_i32_19
  let v31 : BitVec 32 := Scalar.addi c0_i32_20 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v32 : BitVec 32 := Scalar.muli v5 c2_i32_21
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v34 : BitVec 32 := Scalar.muli v8 c1_i32_22
  let v35 : BitVec 32 := Scalar.addi v33 v34
  v35.toNat
def k0_dev4 (d0 : Dev nD) : Nat :=
  let c0_i32_25 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_24 : BitVec 32 := 4#32
  let v36 : BitVec 32 := Scalar.muli v15 c4_i32_24
  let v37 : BitVec 32 := Scalar.addi c0_i32_25 v36
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_26 : BitVec 32 := 2#32
  let v38 : BitVec 32 := Scalar.muli v16 c2_i32_26
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v40 : BitVec 32 := Scalar.muli v8 c1_i32_27
  let v41 : BitVec 32 := Scalar.addi v39 v40
  v41.toNat
def k0_off1 (d0 : Dev nD) : Fin 3 → Nat :=
  let c0_46 : Index := 0#32
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let c256_i32 : BitVec 32 := 256#32
  let v81 : BitVec 32 := Scalar.muli v11 c256_i32
  let v82 : Index := Scalar.indexCast v81
  let c0_47 : Index := 0#32
  ![0, v82.toNat, 0]
def k0_off2 (d0 : Dev nD) : Fin 2 → Nat :=
  let c0_i32_52 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v12 : BitVec 32 := Scalar.muli v8 c1024_i32
  ![0, v12.toNat]
def k0_off3 (d0 : Dev nD) : Fin 2 → Nat :=
  let c512_i32 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v12 : BitVec 32 := Scalar.muli v8 c1024_i32
  ![512, v12.toNat]
def k0_off4 (d0 : Dev nD) : Fin 2 → Nat :=
  let c1024_i32_70 : BitVec 32 := 1024#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v12 : BitVec 32 := Scalar.muli v8 c1024_i32
  ![1024, v12.toNat]
def k0_off5 (d0 : Dev nD) : Fin 2 → Nat :=
  let c1536_i32 : BitVec 32 := 1536#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v12 : BitVec 32 := Scalar.muli v8 c1024_i32
  ![1536, v12.toNat]
def k0_dev5 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v150 : BitVec 32 := Scalar.muli v2 c4_i32_104
  let v151 : BitVec 32 := Scalar.addi c0_i32_105 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v152 : BitVec 32 := Scalar.muli v5 c2_i32_106
  let v153 : BitVec 32 := Scalar.addi v151 v152
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_107 : BitVec 32 := 1#32
  let v154 : BitVec 32 := Scalar.muli v9 c1_i32_107
  let v155 : BitVec 32 := Scalar.addi v153 v154
  v155.toNat
def k0_dev6 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v160 : BitVec 32 := Scalar.muli v2 c4_i32_110
  let v161 : BitVec 32 := Scalar.addi c0_i32_111 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v162 : BitVec 32 := Scalar.muli v5 c2_i32_112
  let v163 : BitVec 32 := Scalar.addi v161 v162
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_113 : BitVec 32 := 1#32
  let v164 : BitVec 32 := Scalar.muli v9 c1_i32_113
  let v165 : BitVec 32 := Scalar.addi v163 v164
  v165.toNat
def k0_dev7 (d0 : Dev nD) : Nat :=
  let c0_i32_117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_116 : BitVec 32 := 4#32
  let v170 : BitVec 32 := Scalar.muli v2 c4_i32_116
  let v171 : BitVec 32 := Scalar.addi c0_i32_117 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_118 : BitVec 32 := 2#32
  let v172 : BitVec 32 := Scalar.muli v5 c2_i32_118
  let v173 : BitVec 32 := Scalar.addi v171 v172
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_119 : BitVec 32 := 1#32
  let v174 : BitVec 32 := Scalar.muli v9 c1_i32_119
  let v175 : BitVec 32 := Scalar.addi v173 v174
  v175.toNat
def k0_off6 (d0 : Dev nD) (c0_i32_212 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v12 : BitVec 32 := Scalar.muli v8 c1024_i32
  let v390 : BitVec 32 := Scalar.addi v12 c0_i32_212
  let c0_i32_218 : BitVec 32 := 0#32
  ![v390.toNat, 0]
def k0_dev8 (d0 : Dev nD) : Nat :=
  let c0_i32_250 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_249 : BitVec 32 := 4#32
  let v427 : BitVec 32 := Scalar.muli v2 c4_i32_249
  let v428 : BitVec 32 := Scalar.addi c0_i32_250 v427
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_251 : BitVec 32 := 2#32
  let v429 : BitVec 32 := Scalar.muli v5 c2_i32_251
  let v430 : BitVec 32 := Scalar.addi v428 v429
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_252 : BitVec 32 := 1#32
  let v431 : BitVec 32 := Scalar.muli v9 c1_i32_252
  let v432 : BitVec 32 := Scalar.addi v430 v431
  v432.toNat
def k0_dev9 (d0 : Dev nD) : Nat :=
  let c0_i32_343 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_342 : BitVec 32 := 4#32
  let v632 : BitVec 32 := Scalar.muli v2 c4_i32_342
  let v633 : BitVec 32 := Scalar.addi c0_i32_343 v632
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_344 : BitVec 32 := 2#32
  let v634 : BitVec 32 := Scalar.muli v5 c2_i32_344
  let v635 : BitVec 32 := Scalar.addi v633 v634
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_345 : BitVec 32 := 1#32
  let v636 : BitVec 32 := Scalar.muli v9 c1_i32_345
  let v637 : BitVec 32 := Scalar.addi v635 v636
  v637.toNat
def k0_off7 (d0 : Dev nD) (c0_i32_366 : BitVec 32) : Fin 3 → Nat :=
  let c0_367 : Index := 0#32
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let c256_i32_365 : BitVec 32 := 256#32
  let v662 : BitVec 32 := Scalar.muli v11 c256_i32_365
  let v663 : BitVec 32 := Scalar.addi v662 c0_i32_366
  let v664 : Index := Scalar.indexCast v663
  let c0_368 : Index := 0#32
  ![0, v664.toNat, 0]
def k0_off8 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let c0_i32_375 : BitVec 32 := 0#32
  ![v11.toNat, 0]
def k0_off9 (d0 : Dev nD) : Fin 4 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let c0_i32_374 : BitVec 32 := 0#32
  let c0_i32_382 : BitVec 32 := 0#32
  let c0_i32_383 : BitVec 32 := 0#32
  ![v11.toNat, 0, 0, 0]
def k0_dev10 (d0 : Dev nD) : Nat :=
  let c0_i32_379 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_378 : BitVec 32 := 4#32
  let v672 : BitVec 32 := Scalar.muli v2 c4_i32_378
  let v673 : BitVec 32 := Scalar.addi c0_i32_379 v672
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_380 : BitVec 32 := 2#32
  let v674 : BitVec 32 := Scalar.muli v13 c2_i32_380
  let v675 : BitVec 32 := Scalar.addi v673 v674
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_381 : BitVec 32 := 1#32
  let v676 : BitVec 32 := Scalar.muli v8 c1_i32_381
  let v677 : BitVec 32 := Scalar.addi v675 v676
  v677.toNat
def k0_dev11 (d0 : Dev nD) : Nat :=
  let c0_i32_392 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_391 : BitVec 32 := 4#32
  let v686 : BitVec 32 := Scalar.muli v14 c4_i32_391
  let v687 : BitVec 32 := Scalar.addi c0_i32_392 v686
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_393 : BitVec 32 := 2#32
  let v688 : BitVec 32 := Scalar.muli v5 c2_i32_393
  let v689 : BitVec 32 := Scalar.addi v687 v688
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_394 : BitVec 32 := 1#32
  let v690 : BitVec 32 := Scalar.muli v8 c1_i32_394
  let v691 : BitVec 32 := Scalar.addi v689 v690
  v691.toNat
def k0_dev12 (d0 : Dev nD) : Nat :=
  let c0_i32_405 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_404 : BitVec 32 := 4#32
  let v700 : BitVec 32 := Scalar.muli v15 c4_i32_404
  let v701 : BitVec 32 := Scalar.addi c0_i32_405 v700
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_406 : BitVec 32 := 2#32
  let v702 : BitVec 32 := Scalar.muli v16 c2_i32_406
  let v703 : BitVec 32 := Scalar.addi v701 v702
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_407 : BitVec 32 := 1#32
  let v704 : BitVec 32 := Scalar.muli v8 c1_i32_407
  let v705 : BitVec 32 := Scalar.addi v703 v704
  v705.toNat
def k0_off10 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let c1_i32_435 : BitVec 32 := 1#32
  ![v11.toNat, 1]
def k0_off11 (d0 : Dev nD) : Fin 4 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let c1_i32_434 : BitVec 32 := 1#32
  let c0_i32_442 : BitVec 32 := 0#32
  let c0_i32_443 : BitVec 32 := 0#32
  ![v11.toNat, 1, 0, 0]
def k0_dev13 (d0 : Dev nD) : Nat :=
  let c0_i32_439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438 : BitVec 32 := 4#32
  let v740 : BitVec 32 := Scalar.muli v2 c4_i32_438
  let v741 : BitVec 32 := Scalar.addi c0_i32_439 v740
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_440 : BitVec 32 := 2#32
  let v742 : BitVec 32 := Scalar.muli v13 c2_i32_440
  let v743 : BitVec 32 := Scalar.addi v741 v742
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_441 : BitVec 32 := 1#32
  let v744 : BitVec 32 := Scalar.muli v8 c1_i32_441
  let v745 : BitVec 32 := Scalar.addi v743 v744
  v745.toNat
def k0_dev14 (d0 : Dev nD) : Nat :=
  let c0_i32_452 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_451 : BitVec 32 := 4#32
  let v754 : BitVec 32 := Scalar.muli v14 c4_i32_451
  let v755 : BitVec 32 := Scalar.addi c0_i32_452 v754
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_453 : BitVec 32 := 2#32
  let v756 : BitVec 32 := Scalar.muli v5 c2_i32_453
  let v757 : BitVec 32 := Scalar.addi v755 v756
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_454 : BitVec 32 := 1#32
  let v758 : BitVec 32 := Scalar.muli v8 c1_i32_454
  let v759 : BitVec 32 := Scalar.addi v757 v758
  v759.toNat
def k0_dev15 (d0 : Dev nD) : Nat :=
  let c0_i32_465 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_464 : BitVec 32 := 4#32
  let v768 : BitVec 32 := Scalar.muli v15 c4_i32_464
  let v769 : BitVec 32 := Scalar.addi c0_i32_465 v768
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_466 : BitVec 32 := 2#32
  let v770 : BitVec 32 := Scalar.muli v16 c2_i32_466
  let v771 : BitVec 32 := Scalar.addi v769 v770
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_467 : BitVec 32 := 1#32
  let v772 : BitVec 32 := Scalar.muli v8 c1_i32_467
  let v773 : BitVec 32 := Scalar.addi v771 v772
  v773.toNat
abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

class Facts₀ : Prop where
  hamt_1 : (1#32 : BitVec 32).msb = false
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  bitsLt_bf16_f32 : FTy.bits .bf16 < FTy.bits .f32
  slices_S128x2048_o0_0_S128x1024 : S128x2048.Slices ![0, 0] S128x1024
  slices_S128x2048_o0_1024_S128x1024 : S128x2048.Slices ![0, 1024] S128x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  packedbf16_S128x1024_S128x1024_0_0 : (Rect.unit (s := S128x1024) ![0, 0] S128x1024.size inb_S128x1024_S128x1024_0_0).PackedRows (EltTy.packing .bf16)
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S1024x128_S1024x128_0_0 : (Rect.unit (s := S1024x128) ![0, 0] S1024x128.size inb_S1024x128_S1024x128_0_0).PackedRows (EltTy.packing .bf16)
  h_S1x256x2048 : 0 < S1x256x2048.numel
  shapeCasts_S1x256x2048_S256x2048 : S1x256x2048.ShapeCasts S256x2048
  inb_S2_S1_0 : ∀ a, (![0] : Fin 1 → Nat) a + S1.size a ≤ S2.size a
  squeezes_S1_S_ : S1.Squeezes S_
  inb_S2x512x2048_S1x512x1024_0_0_0 : ∀ a, (![0, 0, 0] : Fin 3 → Nat) a + S1x512x1024.size a ≤ S2x512x2048.size a
  squeezes_S1x512x1024_S512x1024 : S1x512x1024.Squeezes S512x1024
  inb_S2_S1_1 : ∀ a, (![1] : Fin 1 → Nat) a + S1.size a ≤ S2.size a
  inb_S2x512x2048_S1x512x1024_1_0_0 : ∀ a, (![1, 0, 0] : Fin 3 → Nat) a + S1x512x1024.size a ≤ S2x512x2048.size a
  slices_S256x2048_o0_0_S256x512 : S256x2048.Slices ![0, 0] S256x512
  h_S1x512x1024 : 0 < S1x512x1024.numel
  shapeCasts_S1x512x1024_S512x1024 : S1x512x1024.ShapeCasts S512x1024
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  inb_S3_S1_0 : ∀ a, (![0] : Fin 1 → Nat) a + S1.size a ≤ S3.size a
  inb_S3_S1_1 : ∀ a, (![1] : Fin 1 → Nat) a + S1.size a ≤ S3.size a
  inb_S3_S1_2 : ∀ a, (![2] : Fin 1 → Nat) a + S1.size a ≤ S3.size a
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  slices_S2048x512_o0_0_S2048x256 : S2048x512.Slices ![0, 0] S2048x256
  slices_S2048x512_o0_256_S2048x256 : S2048x512.Slices ![0, 256] S2048x256
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  transposes_S1024x32_p1_0_S32x1024 : S1024x32.Transposes [1, 0] S32x1024
  slices_S256x1024_o0_0_S128x128 : S256x1024.Slices ![0, 0] S128x128
  slices_S1024x1024_o0_0_S1024x128 : S1024x1024.Slices ![0, 0] S1024x128
  slices_S256x256_o0_0_S128x32 : S256x256.Slices ![0, 0] S128x32
  transposes_S1024x128_p1_0_S128x1024 : S1024x128.Transposes [1, 0] S128x1024
  reduces_S128x1024_S128 : S128x1024.Reduces [1] S128
  shapeCasts_S128_S128x1 : S128.ShapeCasts S128x1
  broadcasts_S128x1_S128x128 : S128x1.Broadcasts S128x128
  slices_S256x1024_o0_128_S128x128 : S256x1024.Slices ![0, 128] S128x128
  slices_S1024x1024_o0_128_S1024x128 : S1024x1024.Slices ![0, 128] S1024x128
  slices_S256x256_o0_32_S128x32 : S256x256.Slices ![0, 32] S128x32
  slices_S256x1024_o0_256_S128x128 : S256x1024.Slices ![0, 256] S128x128
  slices_S1024x1024_o0_256_S1024x128 : S1024x1024.Slices ![0, 256] S1024x128
  slices_S256x256_o0_64_S128x32 : S256x256.Slices ![0, 64] S128x32
  slices_S256x1024_o0_384_S128x128 : S256x1024.Slices ![0, 384] S128x128
  slices_S1024x1024_o0_384_S1024x128 : S1024x1024.Slices ![0, 384] S1024x128
  slices_S256x256_o0_96_S128x32 : S256x256.Slices ![0, 96] S128x32
  slices_S256x1024_o0_512_S128x128 : S256x1024.Slices ![0, 512] S128x128
  slices_S1024x1024_o0_512_S1024x128 : S1024x1024.Slices ![0, 512] S1024x128
  slices_S256x256_o0_128_S128x32 : S256x256.Slices ![0, 128] S128x32
  slices_S256x1024_o0_640_S128x128 : S256x1024.Slices ![0, 640] S128x128
  slices_S1024x1024_o0_640_S1024x128 : S1024x1024.Slices ![0, 640] S1024x128
  slices_S256x256_o0_160_S128x32 : S256x256.Slices ![0, 160] S128x32
  slices_S256x1024_o0_768_S128x128 : S256x1024.Slices ![0, 768] S128x128
  slices_S1024x1024_o0_768_S1024x128 : S1024x1024.Slices ![0, 768] S1024x128
  slices_S256x256_o0_192_S128x32 : S256x256.Slices ![0, 192] S128x32
  slices_S256x1024_o0_896_S128x128 : S256x1024.Slices ![0, 896] S128x128
  slices_S1024x1024_o0_896_S1024x128 : S1024x1024.Slices ![0, 896] S1024x128
  slices_S256x256_o0_224_S128x32 : S256x256.Slices ![0, 224] S128x32
  concatenates_S128x128_S128x128_S128x128_S128x128_S128x128_S128x128_S128x128_S128x128_S128x1024_d1 : Shape.Concatenates [S128x128, S128x128, S128x128, S128x128, S128x128, S128x128, S128x128, S128x128] S128x1024 1
  inb_S2x512x2048_S1x512x2048_0_0_0 : ∀ a, (![0, 0, 0] : Fin 3 → Nat) a + S1x512x2048.size a ≤ S2x512x2048.size a
  squeezes_S1x512x2048_S512x2048 : S1x512x2048.Squeezes S512x2048
  inb_S2x512x2048_S1x512x2048_1_0_0 : ∀ a, (![1, 0, 0] : Fin 3 → Nat) a + S1x512x2048.size a ≤ S2x512x2048.size a
  slices_S128x1024_o0_0_S128x512 : S128x1024.Slices ![0, 0] S128x512
  h_S1x512x2048 : 0 < S1x512x2048.numel
  shapeCasts_S1x512x2048_S512x2048 : S1x512x2048.ShapeCasts S512x2048
  slices_S128x1024_o0_512_S128x512 : S128x1024.Slices ![0, 512] S128x512
  inb_S2x128x2048_S1x128x2048_0_0_0 : ∀ a, (![0, 0, 0] : Fin 3 → Nat) a + S1x128x2048.size a ≤ S2x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  packedbf16_S2x128x2048_S1x128x2048_0_0_0 : (Rect.unit (s := S2x128x2048) ![0, 0, 0] S1x128x2048.size inb_S2x128x2048_S1x128x2048_0_0_0).PackedRows (EltTy.packing .bf16)
  squeezes_S1x128x2048_S128x2048 : S1x128x2048.Squeezes S128x2048
  wordsbf16_S2x128x2048_S1x128x2048_0_0_0 : (Rect.unit (s := S2x128x2048) ![0, 0, 0] S1x128x2048.size inb_S2x128x2048_S1x128x2048_0_0_0).WholeWords (EltTy.packing .bf16)
  slices_S256x1024_o128_0_S128x128 : S256x1024.Slices ![128, 0] S128x128
  slices_S256x256_o128_0_S128x32 : S256x256.Slices ![128, 0] S128x32
  slices_S256x1024_o128_128_S128x128 : S256x1024.Slices ![128, 128] S128x128
  slices_S256x256_o128_32_S128x32 : S256x256.Slices ![128, 32] S128x32
  slices_S256x1024_o128_256_S128x128 : S256x1024.Slices ![128, 256] S128x128
  slices_S256x256_o128_64_S128x32 : S256x256.Slices ![128, 64] S128x32
  slices_S256x1024_o128_384_S128x128 : S256x1024.Slices ![128, 384] S128x128
  slices_S256x256_o128_96_S128x32 : S256x256.Slices ![128, 96] S128x32
  slices_S256x1024_o128_512_S128x128 : S256x1024.Slices ![128, 512] S128x128
  slices_S256x256_o128_128_S128x32 : S256x256.Slices ![128, 128] S128x32
  slices_S256x1024_o128_640_S128x128 : S256x1024.Slices ![128, 640] S128x128
  slices_S256x256_o128_160_S128x32 : S256x256.Slices ![128, 160] S128x32
  slices_S256x1024_o128_768_S128x128 : S256x1024.Slices ![128, 768] S128x128
  slices_S256x256_o128_192_S128x32 : S256x256.Slices ![128, 192] S128x32
  slices_S256x1024_o128_896_S128x128 : S256x1024.Slices ![128, 896] S128x128
  slices_S256x256_o128_224_S128x32 : S256x256.Slices ![128, 224] S128x32
  inb_S2x128x2048_S1x128x2048_1_0_0 : ∀ a, (![1, 0, 0] : Fin 3 → Nat) a + S1x128x2048.size a ≤ S2x128x2048.size a
  packedbf16_S2x128x2048_S1x128x2048_1_0_0 : (Rect.unit (s := S2x128x2048) ![1, 0, 0] S1x128x2048.size inb_S2x128x2048_S1x128x2048_1_0_0).PackedRows (EltTy.packing .bf16)
  wordsbf16_S2x128x2048_S1x128x2048_1_0_0 : (Rect.unit (s := S2x128x2048) ![1, 0, 0] S1x128x2048.size inb_S2x128x2048_S1x128x2048_1_0_0).WholeWords (EltTy.packing .bf16)
  hamt_3 : (3#32 : BitVec 32).msb = false
  inb_S3x2_S1x1_0_0 : ∀ a, (![0, 0] : Fin 2 → Nat) a + S1x1.size a ≤ S3x2.size a
  squeezes_S1x1_S_ : S1x1.Squeezes S_
  squeezes_S1x1x128x2048_S128x2048 : S1x1x128x2048.Squeezes S128x2048
  inb_S3x2_S1x1_1_0 : ∀ a, (![1, 0] : Fin 2 → Nat) a + S1x1.size a ≤ S3x2.size a
  inb_S3x2_S1x1_2_0 : ∀ a, (![2, 0] : Fin 2 → Nat) a + S1x1.size a ≤ S3x2.size a
  inb_S3x2_S1x1_0_1 : ∀ a, (![0, 1] : Fin 2 → Nat) a + S1x1.size a ≤ S3x2.size a
  inb_S3x2_S1x1_1_1 : ∀ a, (![1, 1] : Fin 2 → Nat) a + S1x1.size a ≤ S3x2.size a
  inb_S3x2_S1x1_2_1 : ∀ a, (![2, 1] : Fin 2 → Nat) a + S1x1.size a ≤ S3x2.size a
  inb_S4x2_S1x1_0_0 : ∀ a, (![0, 0] : Fin 2 → Nat) a + S1x1.size a ≤ S4x2.size a
  inb_S4x2x128x2048_S1x1x128x2048_0_0_0_0 : ∀ a, (![0, 0, 0, 0] : Fin 4 → Nat) a + S1x1x128x2048.size a ≤ S4x2x128x2048.size a
  wordsbf16_S4x2x128x2048_S1x1x128x2048_0_0_0_0 : (Rect.unit (s := S4x2x128x2048) ![0, 0, 0, 0] S1x1x128x2048.size inb_S4x2x128x2048_S1x1x128x2048_0_0_0_0).WholeWords (EltTy.packing .bf16)
  h_S1x1x128x2048 : 0 < S1x1x128x2048.numel
  shapeCasts_S1x1x128x2048_S128x2048 : S1x1x128x2048.ShapeCasts S128x2048
  inb_S1x1024x2048_S1x128x2048_0_0_0 : ∀ a, (![0, 0, 0] : Fin 3 → Nat) a + S1x128x2048.size a ≤ S1x1024x2048.size a
  inb_S4x2_S1x1_0_1 : ∀ a, (![0, 1] : Fin 2 → Nat) a + S1x1.size a ≤ S4x2.size a
  inb_S4x2x128x2048_S1x1x128x2048_0_1_0_0 : ∀ a, (![0, 1, 0, 0] : Fin 4 → Nat) a + S1x1x128x2048.size a ≤ S4x2x128x2048.size a
  wordsbf16_S4x2x128x2048_S1x1x128x2048_0_1_0_0 : (Rect.unit (s := S4x2x128x2048) ![0, 1, 0, 0] S1x1x128x2048.size inb_S4x2x128x2048_S1x1x128x2048_0_1_0_0).WholeWords (EltTy.packing .bf16)
  inb_S1x1024x2048_S1x128x2048_0_128_0 : ∀ a, (![0, 128, 0] : Fin 3 → Nat) a + S1x128x2048.size a ≤ S1x1024x2048.size a
  inb_S4x2_S1x1_1_0 : ∀ a, (![1, 0] : Fin 2 → Nat) a + S1x1.size a ≤ S4x2.size a
  inb_S4x2x128x2048_S1x1x128x2048_1_0_0_0 : ∀ a, (![1, 0, 0, 0] : Fin 4 → Nat) a + S1x1x128x2048.size a ≤ S4x2x128x2048.size a
  wordsbf16_S4x2x128x2048_S1x1x128x2048_1_0_0_0 : (Rect.unit (s := S4x2x128x2048) ![1, 0, 0, 0] S1x1x128x2048.size inb_S4x2x128x2048_S1x1x128x2048_1_0_0_0).WholeWords (EltTy.packing .bf16)
  inb_S1x1024x2048_S1x128x2048_0_256_0 : ∀ a, (![0, 256, 0] : Fin 3 → Nat) a + S1x128x2048.size a ≤ S1x1024x2048.size a
  inb_S4x2_S1x1_1_1 : ∀ a, (![1, 1] : Fin 2 → Nat) a + S1x1.size a ≤ S4x2.size a
  inb_S4x2x128x2048_S1x1x128x2048_1_1_0_0 : ∀ a, (![1, 1, 0, 0] : Fin 4 → Nat) a + S1x1x128x2048.size a ≤ S4x2x128x2048.size a
  wordsbf16_S4x2x128x2048_S1x1x128x2048_1_1_0_0 : (Rect.unit (s := S4x2x128x2048) ![1, 1, 0, 0] S1x1x128x2048.size inb_S4x2x128x2048_S1x1x128x2048_1_1_0_0).WholeWords (EltTy.packing .bf16)
  inb_S1x1024x2048_S1x128x2048_0_384_0 : ∀ a, (![0, 384, 0] : Fin 3 → Nat) a + S1x128x2048.size a ≤ S1x1024x2048.size a
  inb_S4x2_S1x1_2_0 : ∀ a, (![2, 0] : Fin 2 → Nat) a + S1x1.size a ≤ S4x2.size a
  inb_S4x2x128x2048_S1x1x128x2048_2_0_0_0 : ∀ a, (![2, 0, 0, 0] : Fin 4 → Nat) a + S1x1x128x2048.size a ≤ S4x2x128x2048.size a
  wordsbf16_S4x2x128x2048_S1x1x128x2048_2_0_0_0 : (Rect.unit (s := S4x2x128x2048) ![2, 0, 0, 0] S1x1x128x2048.size inb_S4x2x128x2048_S1x1x128x2048_2_0_0_0).WholeWords (EltTy.packing .bf16)
  inb_S1x1024x2048_S1x128x2048_0_512_0 : ∀ a, (![0, 512, 0] : Fin 3 → Nat) a + S1x128x2048.size a ≤ S1x1024x2048.size a
  inb_S4x2_S1x1_2_1 : ∀ a, (![2, 1] : Fin 2 → Nat) a + S1x1.size a ≤ S4x2.size a
  inb_S4x2x128x2048_S1x1x128x2048_2_1_0_0 : ∀ a, (![2, 1, 0, 0] : Fin 4 → Nat) a + S1x1x128x2048.size a ≤ S4x2x128x2048.size a
  wordsbf16_S4x2x128x2048_S1x1x128x2048_2_1_0_0 : (Rect.unit (s := S4x2x128x2048) ![2, 1, 0, 0] S1x1x128x2048.size inb_S4x2x128x2048_S1x1x128x2048_2_1_0_0).WholeWords (EltTy.packing .bf16)
  inb_S1x1024x2048_S1x128x2048_0_640_0 : ∀ a, (![0, 640, 0] : Fin 3 → Nat) a + S1x128x2048.size a ≤ S1x1024x2048.size a
  inb_S4x2_S1x1_3_0 : ∀ a, (![3, 0] : Fin 2 → Nat) a + S1x1.size a ≤ S4x2.size a
  inb_S4x2x128x2048_S1x1x128x2048_3_0_0_0 : ∀ a, (![3, 0, 0, 0] : Fin 4 → Nat) a + S1x1x128x2048.size a ≤ S4x2x128x2048.size a
  wordsbf16_S4x2x128x2048_S1x1x128x2048_3_0_0_0 : (Rect.unit (s := S4x2x128x2048) ![3, 0, 0, 0] S1x1x128x2048.size inb_S4x2x128x2048_S1x1x128x2048_3_0_0_0).WholeWords (EltTy.packing .bf16)
  inb_S1x1024x2048_S1x128x2048_0_768_0 : ∀ a, (![0, 768, 0] : Fin 3 → Nat) a + S1x128x2048.size a ≤ S1x1024x2048.size a
  inb_S4x2_S1x1_3_1 : ∀ a, (![3, 1] : Fin 2 → Nat) a + S1x1.size a ≤ S4x2.size a
  inb_S4x2x128x2048_S1x1x128x2048_3_1_0_0 : ∀ a, (![3, 1, 0, 0] : Fin 4 → Nat) a + S1x1x128x2048.size a ≤ S4x2x128x2048.size a
  wordsbf16_S4x2x128x2048_S1x1x128x2048_3_1_0_0 : (Rect.unit (s := S4x2x128x2048) ![3, 1, 0, 0] S1x1x128x2048.size inb_S4x2x128x2048_S1x1x128x2048_3_1_0_0).WholeWords (EltTy.packing .bf16)
  inb_S1x1024x2048_S1x128x2048_0_896_0 : ∀ a, (![0, 896, 0] : Fin 3 → Nat) a + S1x128x2048.size a ≤ S1x1024x2048.size a
  dot_S1024x2048_S2048x128_S1024x128_1_0_0_1_n_n_wf : DotDims.WF S1024x2048 S2048x128 S1024x128 [1] [0] [0] [1] [] []
  dot_S256x512_S512x1024_S256x1024_1_0_0_1_n_n_wf : DotDims.WF S256x512 S512x1024 S256x1024 [1] [0] [0] [1] [] []
  dot_S256x2048_S2048x256_S256x256_1_0_0_1_n_n_wf : DotDims.WF S256x2048 S2048x256 S256x256 [1] [0] [0] [1] [] []
  dot_S1024x2048_S2048x32_S1024x32_1_0_0_1_n_n_wf : DotDims.WF S1024x2048 S2048x32 S1024x32 [1] [0] [0] [1] [] []
  dot_S1024x128_S128x1024_S1024x1024_1_0_0_1_n_n_wf : DotDims.WF S1024x128 S128x1024 S1024x1024 [1] [0] [0] [1] [] []
  dot_S128x128_S128x1024_S128x1024_1_0_0_1_n_n_wf : DotDims.WF S128x128 S128x1024 S128x1024 [1] [0] [0] [1] [] []
  dot_S128x32_S32x1024_S128x1024_1_0_0_1_n_n_wf : DotDims.WF S128x32 S32x1024 S128x1024 [1] [0] [0] [1] [] []
  dot_S128x1024_S1024x128_S128x128_1_0_0_1_n_n_wf : DotDims.WF S128x1024 S1024x128 S128x128 [1] [0] [0] [1] [] []
  dot_S128x512_S512x2048_S128x2048_1_0_0_1_n_n_wf : DotDims.WF S128x512 S512x2048 S128x2048 [1] [0] [0] [1] [] []
  hcc0_scratch18 : 0 + S_.numel ≤ 2
  hcc0_scratch11 : 7 + S3.numel ≤ 33
  hcc0_scratch12 : 10 + S3.numel ≤ 33
  hcc0_scratch13 : 13 + S3x2.numel ≤ 33
  hcc0_scratch14 : 19 + S4x2.numel ≤ 33
  hcc0_scratch15 : 27 + S2.numel ≤ 33
  hcc0_scratch16 : 29 + S2.numel ≤ 33
  hcc0_scratch17 : 31 + S2.numel ≤ 33
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_off1_inb : ∀ d0 : Dev nD, ∀ a, (k0_off1 d0) a + S1x256x2048.size a ≤ S1x1024x2048.size a
  k0_off2_inb : ∀ d0 : Dev nD, ∀ a, (k0_off2 d0) a + S512x1024.size a ≤ S2048x2048.size a
  k0_off3_inb : ∀ d0 : Dev nD, ∀ a, (k0_off3 d0) a + S512x1024.size a ≤ S2048x2048.size a
  k0_off4_inb : ∀ d0 : Dev nD, ∀ a, (k0_off4 d0) a + S512x1024.size a ≤ S2048x2048.size a
  k0_off5_inb : ∀ d0 : Dev nD, ∀ a, (k0_off5 d0) a + S512x1024.size a ≤ S2048x2048.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off6_inb : ∀ d0 : Dev nD, ∀ (r : Fin 2), ∀ a, (k0_off6 d0 (BitVec.ofNat 32 (512 * r.val))) a + S512x2048.size a ≤ S2048x2048.size a
  k0_dev8_lt : ∀ d0 : Dev nD, (k0_dev8 d0) < nD
  k0_dev9_lt : ∀ d0 : Dev nD, (k0_dev9 d0) < nD
  k0_off7_inb : ∀ d0 : Dev nD, ∀ (r : Fin 2), ∀ a, (k0_off7 d0 (BitVec.ofNat 32 (128 * r.val))) a + S1x128x2048.size a ≤ S1x1024x2048.size a
  k0_off8_inb : ∀ d0 : Dev nD, ∀ a, (k0_off8 d0) a + S1x1.size a ≤ S4x2.size a
  k0_off9_inb : ∀ d0 : Dev nD, ∀ a, (k0_off9 d0) a + S1x1x128x2048.size a ≤ S4x2x128x2048.size a
  k0_off9_wordsbf16 : ∀ d0 : Dev nD, (Rect.unit (s := S4x2x128x2048) (k0_off9 d0) S1x1x128x2048.size (k0_off9_inb d0)).WholeWords (EltTy.packing .bf16)
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off10_inb : ∀ d0 : Dev nD, ∀ a, (k0_off10 d0) a + S1x1.size a ≤ S4x2.size a
  k0_off11_inb : ∀ d0 : Dev nD, ∀ a, (k0_off11 d0) a + S1x1x128x2048.size a ≤ S4x2x128x2048.size a
  k0_off11_wordsbf16 : ∀ d0 : Dev nD, (Rect.unit (s := S4x2x128x2048) (k0_off11 d0) S1x1x128x2048.size (k0_off11_inb d0)).WholeWords (EltTy.packing .bf16)
  k0_dev13_lt : ∀ d0 : Dev nD, (k0_dev13 d0) < nD
  k0_dev14_lt : ∀ d0 : Dev nD, (k0_dev14 d0) < nD
  k0_dev15_lt : ∀ d0 : Dev nD, (k0_dev15 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole

variable [Facts₀]

abbrev cc0_scratch18 : Sems sig S_ := SemArray.consecutive 0 S_ hcc0_scratch18
abbrev cc0_scratch11 : DmaSems sig S3 := SemArray.consecutive 7 S3 hcc0_scratch11
abbrev cc0_scratch12 : DmaSems sig S3 := SemArray.consecutive 10 S3 hcc0_scratch12
abbrev cc0_scratch13 : DmaSems sig S3x2 := SemArray.consecutive 13 S3x2 hcc0_scratch13
abbrev cc0_scratch14 : DmaSems sig S4x2 := SemArray.consecutive 19 S4x2 hcc0_scratch14
abbrev cc0_scratch15 : DmaSems sig S2 := SemArray.consecutive 27 S2 hcc0_scratch15
abbrev cc0_scratch16 : DmaSems sig S2 := SemArray.consecutive 29 S2 hcc0_scratch16
abbrev cc0_scratch17 : DmaSems sig S2 := SemArray.consecutive 31 S2 hcc0_scratch17
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf
def dot_S128x32_S32x1024_S128x1024_1_0_0_1_n_n : DotDims S128x32 S32x1024 S128x1024 where
  lhsContracting := [1]
  rhsContracting := [0]
  lhsNonContracting := [0]
  rhsNonContracting := [1]
  lhsBatch := []
  rhsBatch := []
  wf := dot_S128x32_S32x1024_S128x1024_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg5) false false (stage0_4 0) (sem0_4 0) (Memref.isWhole_whole _) (hstage0_4 0)

abbrev win0_5 : Pipeline.Window sig grid0 :=
  Pipeline.Window.whole (Memref.whole main_arg6) false false (stage0_5 0) (sem0_5 0) (Memref.isWhole_whole _) (hstage0_5 0)

abbrev win0_6 : Pipeline.Window sig grid0 :=
  Pipeline.Window.whole (Memref.whole main_v1) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x1024x2048 : Shape := ⟨3, ![1, 1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S1x1024x256 : Shape := ⟨3, ![1, 1024, 256]⟩
abbrev S1x1024x16x128 : Shape := ⟨4, ![1, 1024, 16, 128]⟩
abbrev S1x1024x512 : Shape := ⟨3, ![1, 1024, 512]⟩
abbrev S1x1024x16x32 : Shape := ⟨4, ![1, 1024, 16, 32]⟩
abbrev S1x1024x32 : Shape := ⟨3, ![1, 1024, 32]⟩
abbrev S1x1024x1x32 : Shape := ⟨4, ![1, 1024, 1, 32]⟩
abbrev S1x16x1024x1024 : Shape := ⟨4, ![1, 16, 1024, 1024]⟩
abbrev S_ : Shape := ⟨0, ![]⟩
abbrev S1x16x1024 : Shape := ⟨3, ![1, 16, 1024]⟩
abbrev S1x16x1024x1 : Shape := ⟨4, ![1, 16, 1024, 1]⟩
abbrev S1x16x128x1024 : Shape := ⟨4, ![1, 16, 128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S2048x256, .f32⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1x1024x256, .f32⟩
  | .hbm, ⟨9, _⟩ => ⟨S1x1024x2048, .f32⟩
  | .hbm, ⟨10, _⟩ => ⟨S1x1024x16x128, .f32⟩
  | .hbm, ⟨11, _⟩ => ⟨S1x1024x2048, .f32⟩
  | .hbm, ⟨12, _⟩ => ⟨S1x1024x16x128, .f32⟩
  | .hbm, ⟨13, _⟩ => ⟨S1x1024x2048, .f32⟩
  | .hbm, ⟨14, _⟩ => ⟨S1x1024x16x128, .f32⟩
  | .hbm, ⟨15, _⟩ => ⟨S1x1024x512, .f32⟩
  | .hbm, ⟨16, _⟩ => ⟨S1x1024x16x32, .f32⟩
  | .hbm, ⟨17, _⟩ => ⟨S1x1024x32, .f32⟩
  | .hbm, ⟨18, _⟩ => ⟨S1x1024x1x32, .f32⟩
  | .hbm, ⟨19, _⟩ => ⟨S1x16x1024x1024, .f32⟩
  | .hbm, ⟨20, _⟩ => ⟨S1x1024x16x32, .f32⟩
  | .hbm, ⟨21, _⟩ => ⟨S1x16x1024x1024, .f32⟩
  | .hbm, ⟨22, _⟩ => ⟨S1x16x1024x1024, .f32⟩
  | .hbm, ⟨23, _⟩ => ⟨S_, .f32⟩
  | .hbm, ⟨24, _⟩ => ⟨S1x16x1024x1024, .f32⟩
  | .hbm, ⟨25, _⟩ => ⟨S1x16x1024x1024, .f32⟩
  | .hbm, ⟨26, _⟩ => ⟨S_, .f32⟩
  | .hbm, ⟨27, _⟩ => ⟨S1x16x1024, .f32⟩
  | .hbm, ⟨28, _⟩ => ⟨S1x16x1024x1, .f32⟩
  | .hbm, ⟨29, _⟩ => ⟨S1x16x1024x1024, .f32⟩
  | .hbm, ⟨30, _⟩ => ⟨S1x16x1024x1024, .f32⟩
  | .hbm, ⟨31, _⟩ => ⟨S1x16x1024x1024, .f32⟩
  | .hbm, ⟨32, _⟩ => ⟨S_, .f32⟩
  | .hbm, ⟨33, _⟩ => ⟨S1x16x1024, .f32⟩
  | .hbm, ⟨34, _⟩ => ⟨S1x16x1024x1, .f32⟩
  | .hbm, ⟨35, _⟩ => ⟨S1x16x1024x1024, .f32⟩
  | .hbm, ⟨36, _⟩ => ⟨S1x16x1024x1024, .f32⟩
  | .hbm, ⟨37, _⟩ => ⟨S1x16x128x1024, .f32⟩
  | .hbm, ⟨38, _⟩ => ⟨S1x1024x16x128, .f32⟩
  | .hbm, ⟨39, _⟩ => ⟨S1x1024x2048, .f32⟩
  | .hbm, ⟨40, _⟩ => ⟨S1x1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S1x1024x2048_S1x1024x16x128 : S1x1024x2048.ShapeCasts S1x1024x16x128
  shapeCasts_S1x1024x512_S1x1024x16x32 : S1x1024x512.ShapeCasts S1x1024x16x32
  shapeCasts_S1x1024x32_S1x1024x1x32 : S1x1024x32.ShapeCasts S1x1024x1x32
  bcast_S1x1024x1x32_S1x1024x16x32_0_1_2_3 : S1x1024x1x32.BroadcastsInDim S1x1024x16x32 (![0, 1, 2, 3] : Fin 4 → Fin S1x1024x16x32.rank)
  bcast_S_S1x16x1024x1024 : S_.BroadcastsInDim S1x16x1024x1024 (![] : Fin 0 → Fin S1x16x1024x1024.rank)
  reducesTo_S1x16x1024x1024_S1x16x1024_d3 : S1x16x1024x1024.ReducesTo [3] S1x16x1024
  h_S_ : 0 < S_.numel
  bcast_S1x16x1024_S1x16x1024x1_0_1_2 : S1x16x1024.BroadcastsInDim S1x16x1024x1 (![0, 1, 2] : Fin 3 → Fin S1x16x1024x1.rank)
  bcast_S1x16x1024x1_S1x16x1024x1024_0_1_2_3 : S1x16x1024x1.BroadcastsInDim S1x16x1024x1024 (![0, 1, 2, 3] : Fin 4 → Fin S1x16x1024x1024.rank)
  transposes_S1x16x128x1024_S1x1024x16x128_0_3_1_2 : S1x16x128x1024.Transposes [0, 3, 1, 2] S1x1024x16x128
  shapeCasts_S1x1024x16x128_S1x1024x2048 : S1x1024x16x128.ShapeCasts S1x1024x2048
  dot_S1x1024x2048_S2048x256_S1x1024x256_2_0_01_1_n_n_wf : DotDims.WF S1x1024x2048 S2048x256 S1x1024x256 [2] [0] [0, 1] [1] [] []
  dot_S1x1024x256_S256x2048_S1x1024x2048_2_0_01_1_n_n_wf : DotDims.WF S1x1024x256 S256x2048 S1x1024x2048 [2] [0] [0, 1] [1] [] []
  dot_S1x1024x2048_S2048x2048_S1x1024x2048_2_0_01_1_n_n_wf : DotDims.WF S1x1024x2048 S2048x2048 S1x1024x2048 [2] [0] [0, 1] [1] [] []
  dot_S1x1024x2048_S2048x512_S1x1024x512_2_0_01_1_n_n_wf : DotDims.WF S1x1024x2048 S2048x512 S1x1024x512 [2] [0] [0, 1] [1] [] []
  dot_S1x1024x2048_S2048x32_S1x1024x32_2_0_01_1_n_n_wf : DotDims.WF S1x1024x2048 S2048x32 S1x1024x32 [2] [0] [0, 1] [1] [] []
  dot_S1x1024x16x128_S1x1024x16x128_S1x16x1024x1024_3_3_1_1_02_02_wf : DotDims.WF S1x1024x16x128 S1x1024x16x128 S1x16x1024x1024 [3] [3] [1] [1] [0, 2] [0, 2]
  dot_S1x1024x16x32_S1x1024x16x32_S1x16x1024x1024_3_3_1_1_02_02_wf : DotDims.WF S1x1024x16x32 S1x1024x16x32 S1x16x1024x1024 [3] [3] [1] [1] [0, 2] [0, 2]
  dot_S1x1024x16x128_S1x16x1024x1024_S1x16x128x1024_1_3_3_2_02_01_wf : DotDims.WF S1x1024x16x128 S1x16x1024x1024 S1x16x128x1024 [1] [3] [3] [2] [0, 2] [0, 1]

variable [Facts₀]

def dot_S1x1024x2048_S2048x256_S1x1024x256_2_0_01_1_n_n : DotDims S1x1024x2048 S2048x256 S1x1024x256 where
  lhsContracting := [2]
  rhsContracting := [0]
  lhsNonContracting := [0, 1]
  rhsNonContracting := [1]
  lhsBatch := []
  rhsBatch := []
  wf := dot_S1x1024x2048_S2048x256_S1x1024x256_2_0_01_1_n_n_wf
def dot_S1x1024x256_S256x2048_S1x1024x2048_2_0_01_1_n_n : DotDims S1x1024x256 S256x2048 S1x1024x2048 where
  lhsContracting := [2]
  rhsContracting := [0]
  lhsNonContracting := [0, 1]
  rhsNonContracting := [1]
  lhsBatch := []
  rhsBatch := []
  wf := dot_S1x1024x256_S256x2048_S1x1024x2048_2_0_01_1_n_n_wf
def dot_S1x1024x2048_S2048x2048_S1x1024x2048_2_0_01_1_n_n : DotDims S1x1024x2048 S2048x2048 S1x1024x2048 where
  lhsContracting := [2]
  rhsContracting := [0]
  lhsNonContracting := [0, 1]
  rhsNonContracting := [1]
  lhsBatch := []
  rhsBatch := []
  wf := dot_S1x1024x2048_S2048x2048_S1x1024x2048_2_0_01_1_n_n_wf
def dot_S1x1024x2048_S2048x512_S1x1024x512_2_0_01_1_n_n : DotDims S1x1024x2048 S2048x512 S1x1024x512 where
  lhsContracting := [2]
  rhsContracting := [0]
  lhsNonContracting := [0, 1]
  rhsNonContracting := [1]
  lhsBatch := []
  rhsBatch := []
  wf := dot_S1x1024x2048_S2048x512_S1x1024x512_2_0_01_1_n_n_wf
def dot_S1x1024x2048_S2048x32_S1x1024x32_2_0_01_1_n_n : DotDims S1x1024x2048 S2048x32 S1x1024x32 where
  lhsContracting := [2]
  rhsContracting := [0]
  lhsNonContracting := [0, 1]
  rhsNonContracting := [1]
  lhsBatch := []
  rhsBatch := []
  wf := dot_S1x1024x2048_S2048x32_S1x1024x32_2_0_01_1_n_n_wf
def dot_S1x1024x16x128_S1x1024x16x128_S1x16x1024x1024_3_3_1_1_02_02 : DotDims S1x1024x16x128 S1x1024x16x128 S1x16x1024x1024 where
  lhsContracting := [3]
  rhsContracting := [3]
  lhsNonContracting := [1]
  rhsNonContracting := [1]
  lhsBatch := [0, 2]
  rhsBatch := [0, 2]
  wf := dot_S1x1024x16x128_S1x1024x16x128_S1x16x1024x1024_3_3_1_1_02_02_wf
def dot_S1x1024x16x32_S1x1024x16x32_S1x16x1024x1024_3_3_1_1_02_02 : DotDims S1x1024x16x32 S1x1024x16x32 S1x16x1024x1024 where
  lhsContracting := [3]
  rhsContracting := [3]
  lhsNonContracting := [1]
  rhsNonContracting := [1]
  lhsBatch := [0, 2]
  rhsBatch := [0, 2]
  wf := dot_S1x1024x16x32_S1x1024x16x32_S1x16x1024x1024_3_3_1_1_02_02_wf
def dot_S1x1024x16x128_S1x16x1024x1024_S1x16x128x1024_1_3_3_2_02_01 : DotDims S1x1024x16x128 S1x16x1024x1024 S1x16x128x1024 where
  lhsContracting := [1]
  rhsContracting := [3]
  lhsNonContracting := [3]
  rhsNonContracting := [2]
  lhsBatch := [0, 2]
  rhsBatch := [0, 1]
  wf := dot_S1x1024x16x128_S1x16x1024x1024_S1x16x128x1024_1_3_3_2_02_01_wf

class Facts : Prop extends Facts₀ where

variable [Facts]
-- ==== Proof.Sched.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic
import Mathlib.Tactic.DeriveFintype

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev DN : Type := Fin 3
abbrev UB : Type := URounds (GSem nD τ sig) DN
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

def zp (c : Dev nD) : Dev nD := ⟨k0_dev1 c, k0_dev1_lt c⟩

def p0 (c : Dev nD) : Dev nD := ⟨k0_dev2 c, k0_dev2_lt c⟩
def p1 (c : Dev nD) : Dev nD := ⟨k0_dev3 c, k0_dev3_lt c⟩
def p2 (c : Dev nD) : Dev nD := ⟨k0_dev4 c, k0_dev4_lt c⟩
def pk (t : Fin 3) (c : Dev nD) : Dev nD := match t with | 0 => p0 c | 1 => p1 c | 2 => p2 c

theorem pk_zero (c : Dev nD) : pk 0 c = p0 c := rfl
theorem pk_one (c : Dev nD) : pk 1 c = p1 c := rfl
theorem pk_two (c : Dev nD) : pk 2 c = p2 c := rfl

theorem zp_val (c : Dev nD) : (zp c).val = (4 * (c.val / 4) + 2 * ((c.val / 2) % 2) + 1) - (c.val % 2) := k0_dev1_eq c
theorem p0_val (c : Dev nD) : (p0 c).val = (4 * (c.val / 4) + (c.val % 2) + 2) - 2 * ((c.val / 2) % 2) := k0_dev2_eq c
theorem p1_val (c : Dev nD) : (p1 c).val = (2 * ((c.val / 2) % 2) + (c.val % 2) + 4) - 4 * (c.val / 4) := k0_dev3_eq c
theorem p2_val (c : Dev nD) : (p2 c).val = ((c.val % 2) + 6) - (4 * (c.val / 4) + 2 * ((c.val / 2) % 2)) := k0_dev4_eq c

@[sl_canon] theorem dev1_eq (c : Dev nD) : (⟨k0_dev1 c, k0_dev1_lt c⟩ : Dev nD) = zp c := rfl
@[sl_canon] theorem dev2_eq (c : Dev nD) : (⟨k0_dev2 c, k0_dev2_lt c⟩ : Dev nD) = p0 c := rfl
@[sl_canon] theorem dev3_eq (c : Dev nD) : (⟨k0_dev3 c, k0_dev3_lt c⟩ : Dev nD) = p1 c := rfl
@[sl_canon] theorem dev4_eq (c : Dev nD) : (⟨k0_dev4 c, k0_dev4_lt c⟩ : Dev nD) = p2 c := rfl
@[sl_canon] theorem dev5_eq (c : Dev nD) : (⟨k0_dev5 c, k0_dev5_lt c⟩ : Dev nD) = zp c := Fin.ext ((k0_dev5_eq c).trans (k0_dev1_eq c).symm)
@[sl_canon] theorem dev6_eq (c : Dev nD) : (⟨k0_dev6 c, k0_dev6_lt c⟩ : Dev nD) = zp c := Fin.ext ((k0_dev6_eq c).trans (k0_dev1_eq c).symm)
@[sl_canon] theorem dev7_eq (c : Dev nD) : (⟨k0_dev7 c, k0_dev7_lt c⟩ : Dev nD) = zp c := Fin.ext ((k0_dev7_eq c).trans (k0_dev1_eq c).symm)
@[sl_canon] theorem dev8_eq (c : Dev nD) : (⟨k0_dev8 c, k0_dev8_lt c⟩ : Dev nD) = zp c := Fin.ext ((k0_dev8_eq c).trans (k0_dev1_eq c).symm)
@[sl_canon] theorem dev9_eq (c : Dev nD) : (⟨k0_dev9 c, k0_dev9_lt c⟩ : Dev nD) = zp c := Fin.ext ((k0_dev9_eq c).trans (k0_dev1_eq c).symm)
@[sl_canon] theorem dev10_eq (c : Dev nD) : (⟨k0_dev10 c, k0_dev10_lt c⟩ : Dev nD) = p0 c := Fin.ext ((k0_dev10_eq c).trans (k0_dev2_eq c).symm)
@[sl_canon] theorem dev11_eq (c : Dev nD) : (⟨k0_dev11 c, k0_dev11_lt c⟩ : Dev nD) = p1 c := Fin.ext ((k0_dev11_eq c).trans (k0_dev3_eq c).symm)
@[sl_canon] theorem dev12_eq (c : Dev nD) : (⟨k0_dev12 c, k0_dev12_lt c⟩ : Dev nD) = p2 c := Fin.ext ((k0_dev12_eq c).trans (k0_dev4_eq c).symm)
@[sl_canon] theorem dev13_eq (c : Dev nD) : (⟨k0_dev13 c, k0_dev13_lt c⟩ : Dev nD) = p0 c := Fin.ext ((k0_dev13_eq c).trans (k0_dev2_eq c).symm)
@[sl_canon] theorem dev14_eq (c : Dev nD) : (⟨k0_dev14 c, k0_dev14_lt c⟩ : Dev nD) = p1 c := Fin.ext ((k0_dev14_eq c).trans (k0_dev3_eq c).symm)
@[sl_canon] theorem dev15_eq (c : Dev nD) : (⟨k0_dev15 c, k0_dev15_lt c⟩ : Dev nD) = p2 c := Fin.ext ((k0_dev15_eq c).trans (k0_dev4_eq c).symm)

def bIdx (c : Dev nD) : Fin 4 := ⟨c.val / 2, by have hc : c.val < 8 := c.isLt; omega⟩

def srcDev (c : Dev nD) (s : Fin 4) : Dev nD := ⟨2 * s.val + c.val % 2, by have := s.isLt; show 2 * s.val + c.val % 2 < 8; omega⟩

theorem zp_zp (c : Dev nD) : zp (zp c) = c := by
  apply Fin.ext; rw [zp_val, zp_val]; have hc : c.val < 8 := c.isLt; omega
theorem p0_p0 (c : Dev nD) : p0 (p0 c) = c := by
  apply Fin.ext; rw [p0_val, p0_val]; have hc : c.val < 8 := c.isLt; omega
theorem p1_p1 (c : Dev nD) : p1 (p1 c) = c := by
  apply Fin.ext; rw [p1_val, p1_val]; have hc : c.val < 8 := c.isLt; omega
theorem p2_p2 (c : Dev nD) : p2 (p2 c) = c := by
  apply Fin.ext; rw [p2_val, p2_val]; have hc : c.val < 8 := c.isLt; omega
theorem pk_pk (t : Fin 3) (c : Dev nD) : pk t (pk t c) = c := by
  match t with
  | 0 => exact p0_p0 c
  | 1 => exact p1_p1 c
  | 2 => exact p2_p2 c

theorem bIdx_val (c : Dev nD) : (bIdx c).val = c.val / 2 := rfl
theorem bIdx_pk_ne (t : Fin 3) (c : Dev nD) : bIdx (pk t c) ≠ bIdx c := by
  intro h; have h' := congrArg Fin.val h; rw [bIdx_val, bIdx_val] at h'
  have hc : c.val < 8 := c.isLt
  match t with
  | 0 => rw [pk_zero, p0_val] at h'; omega
  | 1 => rw [pk_one, p1_val] at h'; omega
  | 2 => rw [pk_two, p2_val] at h'; omega
theorem srcDev_pk (t : Fin 3) (c : Dev nD) : srcDev c (bIdx (pk t c)) = pk t c := by
  apply Fin.ext; show 2 * ((pk t c).val / 2) + c.val % 2 = (pk t c).val
  have hc : c.val < 8 := c.isLt
  match t with
  | 0 => rw [pk_zero, p0_val]; omega
  | 1 => rw [pk_one, p1_val]; omega
  | 2 => rw [pk_two, p2_val]; omega
theorem srcDev_pk' (t : Fin 3) (c : Dev nD) : srcDev (pk t c) (bIdx c) = c := by
  apply Fin.ext; show 2 * (c.val / 2) + (pk t c).val % 2 = c.val
  have hc : c.val < 8 := c.isLt
  match t with
  | 0 => rw [pk_zero, p0_val]; omega
  | 1 => rw [pk_one, p1_val]; omega
  | 2 => rw [pk_two, p2_val]; omega

inductive CK where
  | bar | xy | zs (i : Fin 3) | zr (i : Fin 3) | os (j : Fin 2) | orr (j : Fin 2) | rs (t : Fin 3) (j : Fin 2) | rr (s : Fin 4) (j : Fin 2)
deriving DecidableEq, Fintype

abbrev barS : Sem sig := (SemArray.scalar (sig.barrier 0 rfl) : Sems sig S_).sem
abbrev xyS : Sem sig := (cc0_scratch18 : Sems sig S_).sem

theorem nDmaSem_eq : sig.nDmaSem = 33 := by decide

def dsem (n : ℕ) (h : n < 33) : DmaSem sig := ⟨n, nDmaSem_eq ▸ h⟩

def csem : CK → SemLoc sig
  | .bar => .reg barS
  | .xy => .reg xyS
  | .zs i => .dma (dsem (7 + i.val) (by have := i.isLt; omega))
  | .zr i => .dma (dsem (10 + i.val) (by have := i.isLt; omega))
  | .rs t j => .dma (dsem (13 + 2 * t.val + j.val) (by have := t.isLt; have := j.isLt; omega))
  | .rr s j => .dma (dsem (19 + 2 * s.val + j.val) (by have := s.isLt; have := j.isLt; omega))
  | .os j => .dma (dsem (29 + j.val) (by have := j.isLt; omega))
  | .orr j => .dma (dsem (31 + j.val) (by have := j.isLt; omega))

abbrev wl0 : DmaSem sig := dsem 27 (by decide)
abbrev wl1 : DmaSem sig := dsem 28 (by decide)

def ckOfNat (n : ℕ) : Option CK :=
  if h : 7 ≤ n ∧ n < 10 then some (.zs ⟨n - 7, by omega⟩)
  else if h : 10 ≤ n ∧ n < 13 then some (.zr ⟨n - 10, by omega⟩)
  else if h : 13 ≤ n ∧ n < 19 then some (.rs ⟨(n - 13) / 2, by omega⟩ ⟨(n - 13) % 2, by omega⟩)
  else if h : 19 ≤ n ∧ n < 27 then some (.rr ⟨(n - 19) / 2, by omega⟩ ⟨(n - 19) % 2, by omega⟩)
  else if h : 29 ≤ n ∧ n < 31 then some (.os ⟨n - 29, by omega⟩)
  else if h : 31 ≤ n ∧ n < 33 then some (.orr ⟨n - 31, by omega⟩)
  else none

def ckOf : SemLoc sig → Option CK
  | .reg s => if s = barS then some .bar else if s = xyS then some .xy else none
  | .dma s => ckOfNat s.val

theorem ckOfNat_zs (i : Fin 3) : ckOfNat (7 + i.val) = some (.zs i) := by
  have hi := i.isLt
  unfold ckOfNat
  rw [dif_pos (by omega)]
  congr 2; exact Fin.ext (by simp)
theorem ckOfNat_zr (i : Fin 3) : ckOfNat (10 + i.val) = some (.zr i) := by
  have hi := i.isLt
  unfold ckOfNat
  rw [dif_neg (by omega), dif_pos (by omega)]
  congr 2; exact Fin.ext (by simp)
theorem ckOfNat_rs (t : Fin 3) (j : Fin 2) : ckOfNat (13 + 2 * t.val + j.val) = some (.rs t j) := by
  have ht := t.isLt; have hj := j.isLt
  unfold ckOfNat
  rw [dif_neg (by omega), dif_neg (by omega), dif_pos (by omega)]
  congr 2
  · exact Fin.ext (by show (13 + 2 * t.val + j.val - 13) / 2 = t.val; omega)
  · exact Fin.ext (by show (13 + 2 * t.val + j.val - 13) % 2 = j.val; omega)
theorem ckOfNat_rr (s : Fin 4) (j : Fin 2) : ckOfNat (19 + 2 * s.val + j.val) = some (.rr s j) := by
  have hs := s.isLt; have hj := j.isLt
  unfold ckOfNat
  rw [dif_neg (by omega), dif_neg (by omega), dif_neg (by omega), dif_pos (by omega)]
  congr 2
  · exact Fin.ext (by show (19 + 2 * s.val + j.val - 19) / 2 = s.val; omega)
  · exact Fin.ext (by show (19 + 2 * s.val + j.val - 19) % 2 = j.val; omega)
theorem ckOfNat_os (j : Fin 2) : ckOfNat (29 + j.val) = some (.os j) := by
  have hj := j.isLt
  unfold ckOfNat
  rw [dif_neg (by omega), dif_neg (by omega), dif_neg (by omega), dif_neg (by omega), dif_pos (by omega)]
  congr 2; exact Fin.ext (by simp)
theorem ckOfNat_orr (j : Fin 2) : ckOfNat (31 + j.val) = some (.orr j) := by
  have hj := j.isLt
  unfold ckOfNat
  rw [dif_neg (by omega), dif_neg (by omega), dif_neg (by omega), dif_neg (by omega), dif_neg (by omega), dif_pos (by omega)]
  congr 2; exact Fin.ext (by simp)

theorem ckOf_csem (k : CK) : ckOf (csem k) = some k := by
  cases k with
  | bar => decide
  | xy => decide
  | zs i => exact ckOfNat_zs i
  | zr i => exact ckOfNat_zr i
  | rs t j => exact ckOfNat_rs t j
  | rr s j => exact ckOfNat_rr s j
  | os j => exact ckOfNat_os j
  | orr j => exact ckOfNat_orr j

theorem csem_injective : Function.Injective csem := fun k k' h =>
  Option.some.inj ((ckOf_csem k).symm.trans ((congrArg ckOf h).trans (ckOf_csem k')))

abbrev cell (c : Dev nD) (k : CK) : GSem nD τ sig := ((c : Thread nD τ), csem k)

theorem cell_injective : Function.Injective (fun p : Dev nD × CK => cell p.1 p.2) := by
  rintro ⟨c, k⟩ ⟨c', k'⟩ h
  have h1 : c = c' := congrArg (fun g : GSem nD τ sig => g.1.1) h
  have h2 : csem k = csem k' := congrArg (fun g : GSem nD τ sig => g.2) h
  rw [h1, csem_injective h2]

section Spelt
@[sl_canon] theorem sem_zs0 : (SemLoc.dma ((cc0_scratch11.slice (Rect.unit (s := S3) ![0] S1.size inb_S3_S1_0)).squeeze S_ squeezes_S1_S_).sem : SemLoc sig) = csem (.zs 0) := by decide
@[sl_canon] theorem sem_zs1 : (SemLoc.dma ((cc0_scratch11.slice (Rect.unit (s := S3) ![1] S1.size inb_S3_S1_1)).squeeze S_ squeezes_S1_S_).sem : SemLoc sig) = csem (.zs 1) := by decide
@[sl_canon] theorem sem_zs2 : (SemLoc.dma ((cc0_scratch11.slice (Rect.unit (s := S3) ![2] S1.size inb_S3_S1_2)).squeeze S_ squeezes_S1_S_).sem : SemLoc sig) = csem (.zs 2) := by decide
@[sl_canon] theorem sem_zr0 : (SemLoc.dma ((cc0_scratch12.slice (Rect.unit (s := S3) ![0] S1.size inb_S3_S1_0)).squeeze S_ squeezes_S1_S_).sem : SemLoc sig) = csem (.zr 0) := by decide
@[sl_canon] theorem sem_zr1 : (SemLoc.dma ((cc0_scratch12.slice (Rect.unit (s := S3) ![1] S1.size inb_S3_S1_1)).squeeze S_ squeezes_S1_S_).sem : SemLoc sig) = csem (.zr 1) := by decide
@[sl_canon] theorem sem_zr2 : (SemLoc.dma ((cc0_scratch12.slice (Rect.unit (s := S3) ![2] S1.size inb_S3_S1_2)).squeeze S_ squeezes_S1_S_).sem : SemLoc sig) = csem (.zr 2) := by decide
@[sl_canon] theorem sem_os0 : (SemLoc.dma ((cc0_scratch16.slice (Rect.unit (s := S2) ![0] S1.size inb_S2_S1_0)).squeeze S_ squeezes_S1_S_).sem : SemLoc sig) = csem (.os 0) := by decide
@[sl_canon] theorem sem_os1 : (SemLoc.dma ((cc0_scratch16.slice (Rect.unit (s := S2) ![1] S1.size inb_S2_S1_1)).squeeze S_ squeezes_S1_S_).sem : SemLoc sig) = csem (.os 1) := by decide
@[sl_canon] theorem sem_or0 : (SemLoc.dma ((cc0_scratch17.slice (Rect.unit (s := S2) ![0] S1.size inb_S2_S1_0)).squeeze S_ squeezes_S1_S_).sem : SemLoc sig) = csem (.orr 0) := by decide
@[sl_canon] theorem sem_or1 : (SemLoc.dma ((cc0_scratch17.slice (Rect.unit (s := S2) ![1] S1.size inb_S2_S1_1)).squeeze S_ squeezes_S1_S_).sem : SemLoc sig) = csem (.orr 1) := by decide
@[sl_canon] theorem sem_rs00 : (SemLoc.dma ((cc0_scratch13.slice (Rect.unit (s := S3x2) ![0, 0] S1x1.size inb_S3x2_S1x1_0_0)).squeeze S_ squeezes_S1x1_S_).sem : SemLoc sig) = csem (.rs 0 0) := by decide
@[sl_canon] theorem sem_rs10 : (SemLoc.dma ((cc0_scratch13.slice (Rect.unit (s := S3x2) ![1, 0] S1x1.size inb_S3x2_S1x1_1_0)).squeeze S_ squeezes_S1x1_S_).sem : SemLoc sig) = csem (.rs 1 0) := by decide
@[sl_canon] theorem sem_rs20 : (SemLoc.dma ((cc0_scratch13.slice (Rect.unit (s := S3x2) ![2, 0] S1x1.size inb_S3x2_S1x1_2_0)).squeeze S_ squeezes_S1x1_S_).sem : SemLoc sig) = csem (.rs 2 0) := by decide
@[sl_canon] theorem sem_rs01 : (SemLoc.dma ((cc0_scratch13.slice (Rect.unit (s := S3x2) ![0, 1] S1x1.size inb_S3x2_S1x1_0_1)).squeeze S_ squeezes_S1x1_S_).sem : SemLoc sig) = csem (.rs 0 1) := by decide
@[sl_canon] theorem sem_rs11 : (SemLoc.dma ((cc0_scratch13.slice (Rect.unit (s := S3x2) ![1, 1] S1x1.size inb_S3x2_S1x1_1_1)).squeeze S_ squeezes_S1x1_S_).sem : SemLoc sig) = csem (.rs 1 1) := by decide
@[sl_canon] theorem sem_rs21 : (SemLoc.dma ((cc0_scratch13.slice (Rect.unit (s := S3x2) ![2, 1] S1x1.size inb_S3x2_S1x1_2_1)).squeeze S_ squeezes_S1x1_S_).sem : SemLoc sig) = csem (.rs 2 1) := by decide
@[sl_canon] theorem sem_rr00 : (SemLoc.dma ((cc0_scratch14.slice (Rect.unit (s := S4x2) ![0, 0] S1x1.size inb_S4x2_S1x1_0_0)).squeeze S_ squeezes_S1x1_S_).sem : SemLoc sig) = csem (.rr 0 0) := by decide
@[sl_canon] theorem sem_rr01 : (SemLoc.dma ((cc0_scratch14.slice (Rect.unit (s := S4x2) ![0, 1] S1x1.size inb_S4x2_S1x1_0_1)).squeeze S_ squeezes_S1x1_S_).sem : SemLoc sig) = csem (.rr 0 1) := by decide
@[sl_canon] theorem sem_rr10 : (SemLoc.dma ((cc0_scratch14.slice (Rect.unit (s := S4x2) ![1, 0] S1x1.size inb_S4x2_S1x1_1_0)).squeeze S_ squeezes_S1x1_S_).sem : SemLoc sig) = csem (.rr 1 0) := by decide
@[sl_canon] theorem sem_rr11 : (SemLoc.dma ((cc0_scratch14.slice (Rect.unit (s := S4x2) ![1, 1] S1x1.size inb_S4x2_S1x1_1_1)).squeeze S_ squeezes_S1x1_S_).sem : SemLoc sig) = csem (.rr 1 1) := by decide
@[sl_canon] theorem sem_rr20 : (SemLoc.dma ((cc0_scratch14.slice (Rect.unit (s := S4x2) ![2, 0] S1x1.size inb_S4x2_S1x1_2_0)).squeeze S_ squeezes_S1x1_S_).sem : SemLoc sig) = csem (.rr 2 0) := by decide
@[sl_canon] theorem sem_rr21 : (SemLoc.dma ((cc0_scratch14.slice (Rect.unit (s := S4x2) ![2, 1] S1x1.size inb_S4x2_S1x1_2_1)).squeeze S_ squeezes_S1x1_S_).sem : SemLoc sig) = csem (.rr 2 1) := by decide
@[sl_canon] theorem sem_rr30 : (SemLoc.dma ((cc0_scratch14.slice (Rect.unit (s := S4x2) ![3, 0] S1x1.size inb_S4x2_S1x1_3_0)).squeeze S_ squeezes_S1x1_S_).sem : SemLoc sig) = csem (.rr 3 0) := by decide
@[sl_canon] theorem sem_rr31 : (SemLoc.dma ((cc0_scratch14.slice (Rect.unit (s := S4x2) ![3, 1] S1x1.size inb_S4x2_S1x1_3_1)).squeeze S_ squeezes_S1x1_S_).sem : SemLoc sig) = csem (.rr 3 1) := by decide

@[sl_canon] theorem sem_rr_own0 : ∀ c : Dev nD, (SemLoc.dma ((cc0_scratch14.slice (Rect.unit (s := S4x2) (k0_off8 c) S1x1.size (k0_off8_inb c))).squeeze S_ squeezes_S1x1_S_).sem : SemLoc sig) = csem (.rr (bIdx c) 0) := by decide +kernel
@[sl_canon] theorem sem_rr_own1 : ∀ c : Dev nD, (SemLoc.dma ((cc0_scratch14.slice (Rect.unit (s := S4x2) (k0_off10 c) S1x1.size (k0_off10_inb c))).squeeze S_ squeezes_S1x1_S_).sem : SemLoc sig) = csem (.rr (bIdx c) 1) := by decide +kernel
@[sl_canon] theorem sem_wl0 : ((cc0_scratch15.slice (Rect.unit (s := S2) ![0] S1.size inb_S2_S1_0)).squeeze S_ squeezes_S1_S_).sem = wl0 := by decide
@[sl_canon] theorem sem_wl1 : ((cc0_scratch15.slice (Rect.unit (s := S2) ![1] S1.size inb_S2_S1_1)).squeeze S_ squeezes_S1_S_).sem = wl1 := by decide
end Spelt

abbrev cRefM : Memref sig .tc .vmem S1024x128 .bf16 := Memref.whole cc0_scratch0
abbrev cRecvM : Memref sig .tc .vmem S1024x128 .bf16 := Memref.whole cc0_scratch1
abbrev wukSendM : Memref sig .tc .vmem S128x1024 .bf16 := Memref.whole cc0_scratch2
abbrev wukRecvM : Memref sig .tc .vmem S128x1024 .bf16 := Memref.whole cc0_scratch3
abbrev wuvSendM : Memref sig .tc .vmem S128x1024 .bf16 := Memref.whole cc0_scratch4
abbrev wuvRecvM : Memref sig .tc .vmem S128x1024 .bf16 := Memref.whole cc0_scratch5
abbrev oblkW : Memref sig .tc .vmem S2x128x2048 .bf16 := Memref.whole cc0_scratch6
abbrev rblkW : Memref sig .tc .vmem S4x2x128x2048 .bf16 := Memref.whole cc0_scratch7
abbrev wbufW : Memref sig .tc .vmem S2x512x2048 .f32 := Memref.whole cc0_scratch8
abbrev opSendW : Memref sig .tc .vmem S2x128x2048 .bf16 := Memref.whole cc0_scratch9
abbrev opRecvW : Memref sig .tc .vmem S2x128x2048 .bf16 := Memref.whole cc0_scratch10
abbrev outW : Memref sig .tc .vmem S1x1024x2048 .f32 := Memref.whole cc0_stg6_0

theorem slot3_inb : ∀ (j : Fin 2) (a : Fin 3), (![j.val, 0, 0] : Fin 3 → Nat) a + S1x128x2048.size a ≤ S2x128x2048.size a := by decide
theorem rslot_inb : ∀ (s : Fin 4) (j : Fin 2) (a : Fin 4), (![s.val, j.val, 0, 0] : Fin 4 → Nat) a + S1x1x128x2048.size a ≤ S4x2x128x2048.size a := by decide

abbrev slot3 (W : Memref sig .tc .vmem S2x128x2048 .bf16) (j : Fin 2) : Memref sig .tc .vmem S128x2048 .bf16 :=
  (W.slice (Rect.unit (s := S2x128x2048) ![j.val, 0, 0] S1x128x2048.size (slot3_inb j)) (fun _ => rfl)).squeeze S128x2048 squeezes_S1x128x2048_S128x2048

abbrev slot3R (j : Fin 2) : Rect S2x128x2048 := Rect.unit (s := S2x128x2048) ![j.val, 0, 0] S1x128x2048.size (slot3_inb j)

abbrev opSendM (j : Fin 2) : Memref sig .tc .vmem S128x2048 .bf16 := slot3 opSendW j
abbrev opRecvM (j : Fin 2) : Memref sig .tc .vmem S128x2048 .bf16 := slot3 opRecvW j
abbrev oblkM (j : Fin 2) : Memref sig .tc .vmem S128x2048 .bf16 := slot3 oblkW j

abbrev rslotR (s : Fin 4) (j : Fin 2) : Rect S4x2x128x2048 := Rect.unit (s := S4x2x128x2048) ![s.val, j.val, 0, 0] S1x1x128x2048.size (rslot_inb s j)
abbrev rblkM (s : Fin 4) (j : Fin 2) : Memref sig .tc .vmem S128x2048 .bf16 :=
  (rblkW.slice (rslotR s j) (fun _ => rfl)).squeeze S128x2048 squeezes_S1x1x128x2048_S128x2048

theorem k0_off9_own : ∀ c : Dev nD, k0_off9 c = ![(bIdx c).val, (0 : Fin 2).val, 0, 0] := by decide +kernel
theorem k0_off11_own : ∀ c : Dev nD, k0_off11 c = ![(bIdx c).val, (1 : Fin 2).val, 0, 0] := by decide +kernel

@[sl_canon] theorem rblk_own0 (c : Dev nD) :
    ((rblkW.slice (Rect.unit (s := S4x2x128x2048) (k0_off9 c) S1x1x128x2048.size (k0_off9_inb c)) (fun _ => rfl)).squeeze S128x2048 squeezes_S1x1x128x2048_S128x2048) = rblkM (bIdx c) 0 :=
  congrArg (fun M : Memref sig .tc .vmem S1x1x128x2048 .bf16 => M.squeeze S128x2048 squeezes_S1x1x128x2048_S128x2048)
    (Memref.slice_unit_congr rblkW (k0_off9_own c) _ _ _ _)
@[sl_canon] theorem rblk_own1 (c : Dev nD) :
    ((rblkW.slice (Rect.unit (s := S4x2x128x2048) (k0_off11 c) S1x1x128x2048.size (k0_off11_inb c)) (fun _ => rfl)).squeeze S128x2048 squeezes_S1x1x128x2048_S128x2048) = rblkM (bIdx c) 1 :=
  congrArg (fun M : Memref sig .tc .vmem S1x1x128x2048 .bf16 => M.squeeze S128x2048 squeezes_S1x1x128x2048_S128x2048)
    (Memref.slice_unit_congr rblkW (k0_off11_own c) _ _ _ _)

theorem opSend0_spelt : ((opSendW.slice (Rect.unit (s := S2x128x2048) ![0, 0, 0] S1x128x2048.size inb_S2x128x2048_S1x128x2048_0_0_0) (fun _ => rfl)).squeeze S128x2048 squeezes_S1x128x2048_S128x2048) = opSendM 0 := rfl
theorem opSend1_spelt : ((opSendW.slice (Rect.unit (s := S2x128x2048) ![1, 0, 0] S1x128x2048.size inb_S2x128x2048_S1x128x2048_1_0_0) (fun _ => rfl)).squeeze S128x2048 squeezes_S1x128x2048_S128x2048) = opSendM 1 := rfl
abbrev pts {s : Shape} {e : EltTy} (M : Memref sig .tc .vmem s e) (c : Dev nD) (q : PosShare TreeShare)
    (f : Buf (Elt F) (M.view.loc (c : Thread nD τ))) : sProp 𝕄 :=
  M.view.loc (c : Thread nD τ) ↦[M.view.set]{q} f

def slotBuf {s : Shape} {e : EltTy} (M : Memref sig .tc .vmem s e) (c : Dev nD) (w : s.Idx → Elt F e) :
    Buf (Elt F) (M.view.loc (c : Thread nD τ)) :=
  M.view.write (Elt F) (m (M.view.loc (c : Thread nD τ))) w Finset.univ

omit [FloatOps F] in

theorem pts_write_eq {s : Shape} {e : EltTy} (M : Memref sig .tc .vmem s e) (c : Dev nD) (q : PosShare TreeShare)
    (fd : Buf (Elt F) (M.view.loc (c : Thread nD τ))) (w : s.Idx → Elt F e) :
    (pts M c q (M.view.write (Elt F) fd w Finset.univ) : sProp 𝕄) = pts M c q (slotBuf m M c w) := by
  refine pointsTo_congr fun i hi => ?_
  obtain ⟨y, rfl⟩ := View.exists_emb_of_mem_set M.view hi
  unfold slotBuf
  rw [View.write_emb_of_mem _ _ (Finset.mem_univ y), View.write_emb_of_mem _ _ (Finset.mem_univ y)]

omit [FloatOps F] in

theorem pts_read_eq {s : Shape} {e : EltTy} (M : Memref sig .tc .vmem s e) (c : Dev nD) (q : PosShare TreeShare)
    (f : Buf (Elt F) (M.view.loc (c : Thread nD τ))) :
    (pts M c q f : sProp 𝕄) = pts M c q (slotBuf m M c (M.view.read (Elt F) f)) := by
  refine pointsTo_congr fun i hi => ?_
  obtain ⟨y, rfl⟩ := View.exists_emb_of_mem_set M.view hi
  unfold slotBuf
  rw [View.write_emb_of_mem _ _ (Finset.mem_univ y)]
  unfold View.read
  simp

omit [FloatOps F] in
theorem read_slotBuf {s : Shape} {e : EltTy} (M : Memref sig .tc .vmem s e) (c : Dev nD) (w : s.Idx → Elt F e) :
    M.view.read (Elt F) (slotBuf m M c w) = w := View.read_write_univ _ _

section Contents

def stg0 (c : Dev nD) : Vec F S1x1024x2048 .f32 := (win0_0.blk t0_0).view.read (Elt F) (m ((c : Thread nD τ).loc main_arg0))
def stg1 (c : Dev nD) : Vec F S2048x128 .f32 := (win0_1.blk t0_0).view.read (Elt F) (m ((c : Thread nD τ).loc main_arg1))
def stg2 (c : Dev nD) : Vec F S128x2048 .f32 := (win0_2.blk t0_0).view.read (Elt F) (m ((c : Thread nD τ).loc main_arg2))
def stg3 (c : Dev nD) : Vec F S128x2048 .f32 := (win0_3.blk t0_0).view.read (Elt F) (m ((c : Thread nD τ).loc main_arg3))
def stg4 (c : Dev nD) : Vec F S2048x512 .f32 := (win0_4.blk t0_0).view.read (Elt F) (m ((c : Thread nD τ).loc main_arg5))
def stg5 (c : Dev nD) : Vec F S2048x32 .f32 := (win0_5.blk t0_0).view.read (Elt F) (m ((c : Thread nD τ).loc main_arg6))

def zw (c : Dev nD) : BitVec 32 := Scalar.remsi (Scalar.divsi (Dev.word c) 1#32) 2#32
def bw (c : Dev nD) : BitVec 32 :=
  Scalar.addi (Scalar.muli 2#32 (Scalar.remsi (Scalar.divsi (Dev.word c) 4#32) 2#32)) (Scalar.remsi (Scalar.divsi (Dev.word c) 2#32) 2#32)

def cLat (c : Dev nD) : FVec F S1024x128 .bf16 := k0_pay10 (stg0 m c) (stg1 m c)
def wukSend (c : Dev nD) : FVec F S128x1024 .bf16 := k0_pay5 (zw c) (stg2 m c)
def wuvSend (c : Dev nD) : FVec F S128x1024 .bf16 := k0_pay7 (k0_pay6 (zw c) (stg3 m c))

def wukMy (c : Dev nD) : FVec F S128x1024 .bf16 := k0_pay3 (zw c) (stg2 m c)
def wuvMy (c : Dev nD) : FVec F S128x1024 .bf16 := k0_pay4 (zw c) (stg3 m c)
def xv (c : Dev nD) : FVec F S1024x2048 .bf16 := k0_pay8 (stg0 m c)
def cVal (c : Dev nD) : FVec F S1024x128 .bf16 := k0_pay9 (stg0 m c) (stg1 m c)
def xqLd (c : Dev nD) : Vec F S1x256x2048 .f32 :=
  (Memref.whole cc0_stg0_0 : Memref sig .tc .vmem S1x1024x2048 .f32).view.readAt (Elt F)
    (Rect.unit (s := S1x1024x2048) (k0_off1 c) S1x256x2048.size (k0_off1_inb c)).toLoadRect (stg0 m c)
def xq (c : Dev nD) : FVec F S256x2048 .bf16 := k0_pay11 (xqLd m c)

abbrev wqSrc0 (c : Dev nD) : Memref sig .tc .hbm S512x1024 .f32 := (Memref.whole main_arg4).slice (Rect.unit (s := S2048x2048) (k0_off2 c) S512x1024.size (k0_off2_inb c)) (fun _ => rfl)
abbrev wqSrc1 (c : Dev nD) : Memref sig .tc .hbm S512x1024 .f32 := (Memref.whole main_arg4).slice (Rect.unit (s := S2048x2048) (k0_off3 c) S512x1024.size (k0_off3_inb c)) (fun _ => rfl)
abbrev wqSrc2 (c : Dev nD) : Memref sig .tc .hbm S512x1024 .f32 := (Memref.whole main_arg4).slice (Rect.unit (s := S2048x2048) (k0_off4 c) S512x1024.size (k0_off4_inb c)) (fun _ => rfl)
abbrev wqSrc3 (c : Dev nD) : Memref sig .tc .hbm S512x1024 .f32 := (Memref.whole main_arg4).slice (Rect.unit (s := S2048x2048) (k0_off5 c) S512x1024.size (k0_off5_inb c)) (fun _ => rfl)
abbrev woSrc0 (c : Dev nD) : Memref sig .tc .hbm S512x2048 .f32 := (Memref.whole main_arg7).slice (Rect.unit (s := S2048x2048) (k0_off6 c 0#32) S512x2048.size (k0_off6_inb c 0)) (fun _ => rfl)
abbrev woSrc1 (c : Dev nD) : Memref sig .tc .hbm S512x2048 .f32 := (Memref.whole main_arg7).slice (Rect.unit (s := S2048x2048) (k0_off6 c 512#32) S512x2048.size (k0_off6_inb c 1)) (fun _ => rfl)
abbrev wbufQ0 : Memref sig .tc .vmem S512x1024 .f32 := (wbufW.slice (Rect.unit (s := S2x512x2048) ![0, 0, 0] S1x512x1024.size inb_S2x512x2048_S1x512x1024_0_0_0) (fun _ => rfl)).squeeze S512x1024 squeezes_S1x512x1024_S512x1024
abbrev wbufQ1 : Memref sig .tc .vmem S512x1024 .f32 := (wbufW.slice (Rect.unit (s := S2x512x2048) ![1, 0, 0] S1x512x1024.size inb_S2x512x2048_S1x512x1024_1_0_0) (fun _ => rfl)).squeeze S512x1024 squeezes_S1x512x1024_S512x1024
abbrev wbufO0 : Memref sig .tc .vmem S512x2048 .f32 := (wbufW.slice (Rect.unit (s := S2x512x2048) ![0, 0, 0] S1x512x2048.size inb_S2x512x2048_S1x512x2048_0_0_0) (fun _ => rfl)).squeeze S512x2048 squeezes_S1x512x2048_S512x2048
abbrev wbufO1 : Memref sig .tc .vmem S512x2048 .f32 := (wbufW.slice (Rect.unit (s := S2x512x2048) ![1, 0, 0] S1x512x2048.size inb_S2x512x2048_S1x512x2048_1_0_0) (fun _ => rfl)).squeeze S512x2048 squeezes_S1x512x2048_S512x2048

def wqLd0 (c : Dev nD) : Vec F S1x512x1024 .f32 :=
  wbufW.view.readAt (Elt F) (Rect.unit (s := S2x512x2048) ![0, 0, 0] S1x512x1024.size inb_S2x512x2048_S1x512x1024_0_0_0).toLoadRect
    (wbufQ0.view.write (Elt F) (m (wbufW.view.loc (c : Thread nD τ))) ((wqSrc0 c).view.read (Elt F) (m ((c : Thread nD τ).loc main_arg4))) Finset.univ)
def wqLd1 (c : Dev nD) : Vec F S1x512x1024 .f32 :=
  wbufW.view.readAt (Elt F) (Rect.unit (s := S2x512x2048) ![1, 0, 0] S1x512x1024.size inb_S2x512x2048_S1x512x1024_1_0_0).toLoadRect
    (wbufQ1.view.write (Elt F) (m (wbufW.view.loc (c : Thread nD τ))) ((wqSrc1 c).view.read (Elt F) (m ((c : Thread nD τ).loc main_arg4))) Finset.univ)
def wqLd2 (c : Dev nD) : Vec F S1x512x1024 .f32 :=
  wbufW.view.readAt (Elt F) (Rect.unit (s := S2x512x2048) ![0, 0, 0] S1x512x1024.size inb_S2x512x2048_S1x512x1024_0_0_0).toLoadRect
    (wbufQ0.view.write (Elt F) (m (wbufW.view.loc (c : Thread nD τ))) ((wqSrc2 c).view.read (Elt F) (m ((c : Thread nD τ).loc main_arg4))) Finset.univ)
def wqLd3 (c : Dev nD) : Vec F S1x512x1024 .f32 :=
  wbufW.view.readAt (Elt F) (Rect.unit (s := S2x512x2048) ![1, 0, 0] S1x512x1024.size inb_S2x512x2048_S1x512x1024_1_0_0).toLoadRect
    (wbufQ1.view.write (Elt F) (m (wbufW.view.loc (c : Thread nD τ))) ((wqSrc3 c).view.read (Elt F) (m ((c : Thread nD τ).loc main_arg4))) Finset.univ)
def woLd0 (c : Dev nD) : Vec F S1x512x2048 .f32 :=
  wbufW.view.readAt (Elt F) (Rect.unit (s := S2x512x2048) ![0, 0, 0] S1x512x2048.size inb_S2x512x2048_S1x512x2048_0_0_0).toLoadRect
    (wbufO0.view.write (Elt F) (m (wbufW.view.loc (c : Thread nD τ))) ((woSrc0 c).view.read (Elt F) (m ((c : Thread nD τ).loc main_arg7))) Finset.univ)
def woLd1 (c : Dev nD) : Vec F S1x512x2048 .f32 :=
  wbufW.view.readAt (Elt F) (Rect.unit (s := S2x512x2048) ![1, 0, 0] S1x512x2048.size inb_S2x512x2048_S1x512x2048_1_0_0).toLoadRect
    (wbufO1.view.write (Elt F) (m (wbufW.view.loc (c : Thread nD τ))) ((woSrc1 c).view.read (Elt F) (m ((c : Thread nD τ).loc main_arg7))) Finset.univ)

def qAcc (c : Dev nD) : FVec F S256x1024 .f32 := k0_pay12 (xq m c) (wqLd0 m c) (wqLd1 m c)
def qVal (c : Dev nD) : FVec F S256x1024 .bf16 := k0_pay13 (xq m c) (qAcc m c) (wqLd2 m c) (wqLd3 m c)
def qrVal (c : Dev nD) : FVec F S256x256 .bf16 := k0_pay14 (zw c) (xq m c) (stg4 m c)
def krVal (c : Dev nD) : FVec F S1024x32 .bf16 := k0_pay15 (xv m c) (stg5 m c)
def kpVal (c : Dev nD) : FVec F S1024x1024 .f32 := k0_pay16 (wukMy m c) (cVal m c)
def vpVal (c : Dev nD) : FVec F S1024x1024 .f32 := k0_pay17 (wuvMy m c) (cVal m c)

def kVal (c : Dev nD) : FVec F S1024x1024 .bf16 := k0_pay18 (kpVal m c) (cLat m (zp c)) (wukSend m (zp c))
def vVal (c : Dev nD) : FVec F S1024x1024 .bf16 := k0_pay19 (vpVal m c) (cLat m (zp c)) (wuvSend m (zp c))
def krT (c : Dev nD) : FVec F S32x1024 .bf16 := k0_pay20 (krVal m c)

def oChunk0 (c : Dev nD) : FVec F S128x1024 .bf16 :=
  let v149 := qVal m c; let v188 := qrVal m c; let v193 := krVal m c; let v194 := kpVal m c; let v195 := vpVal m c
  let v226 : Vec F S1024x128 .bf16 := cLat m (zp c); let v227 : Vec F S128x1024 .bf16 := wukSend m (zp c); let v231 : Vec F S128x1024 .bf16 := wuvSend m (zp c)
  let v230 := kVal m c; let v234 := vVal m c; let v235 := krT m c
  let v254 := k0_pay21 v149 v188 v193 v194 v195 v226 v227 v231
  let v264 := k0_pay22 v149 v188 v193 v194 v226 v227
  let v266 := k0_pay23 v149 v188 v193 v194 v226 v227
  let v267 := k0_pay24 v195 v226 v231
  let v273 := k0_pay25 v264 v266 v267
  let v292 := k0_pay26 v149 v188 v230 v234 v235
  let v311 := k0_pay27 v149 v188 v230 v234 v235
  let v312 := k0_pay28 v149
  let v313 := k0_pay29 v230
  let v330 := k0_pay30 v188 v234 v235 v312 v313
  let v349 := k0_pay31 v149 v188 v230 v234 v235
  let v358 := k0_pay32 v149 v188 v230 v235
  k0_pay33 v149 v188 v230 v234 v235 v254 v273 v292 v311 v330 v349 v358

def oChunk1 (c : Dev nD) : FVec F S128x1024 .bf16 :=
  let v149 := qVal m c; let v188 := qrVal m c
  let v230 := kVal m c; let v234 := vVal m c; let v235 := krT m c
  let v459 := k0_pay36 v149 v188 v230 v234 v235
  let v469 := k0_pay37 v149 v188 v230 v235
  let v478 := k0_pay38 v234 v469
  let v497 := k0_pay39 v149 v188 v230 v234 v235
  let v512 := k0_pay41 v149 v188 v230 v234 v235
  let v514 := k0_pay42 v149 v188 v230 v235
  let v516 := k0_pay43 v512 v514
  let v535 := k0_pay44 v149 v188 v230 v234 v235
  let v554 := k0_pay45 v149 v188 v230 v234 v235
  let v559 := k0_pay46 v149 v230
  let v560 := k0_pay47 v188 v235
  k0_pay48 v149 v188 v230 v234 v235 v459 v478 v497 v516 v535 v554 v559 v560

def opVal0 (c : Dev nD) : FVec F S128x2048 .f32 := k0_pay34 (oChunk0 m c) (woLd0 m c) (woLd1 m c)
def opVal1 (c : Dev nD) : FVec F S128x2048 .f32 := k0_pay49 (oChunk1 m c) (woLd0 m c) (woLd1 m c)
def opHalf0 (c : Dev nD) : FVec F S1x128x2048 .bf16 := k0_pay35 (oChunk0 m c) (woLd0 m c) (woLd1 m c)
def opHalf1 (c : Dev nD) : FVec F S1x128x2048 .bf16 := k0_pay50 (oChunk1 m c) (woLd0 m c) (woLd1 m c)
def opHalf (j : Fin 2) (c : Dev nD) : FVec F S1x128x2048 .bf16 := match j with | 0 => opHalf0 m c | 1 => opHalf1 m c

def outRows0 (c : Dev nD) : FVec F S128x2048 .f32 := k0_pay51 (opVal0 m c) (opHalf0 m (zp c))
def outRows1 (c : Dev nD) : FVec F S128x2048 .f32 := k0_pay54 (opVal1 m c) (opHalf1 m (zp c))

def ownRows (j : Fin 2) (c : Dev nD) : FVec F S1x128x2048 .f32 :=
  match j with | 0 => k0_pay52 (outRows0 m c) | 1 => k0_pay55 (opVal1 m c) (opHalf1 m (zp c))

def oblkVal (j : Fin 2) (c : Dev nD) : FVec F S1x128x2048 .bf16 :=
  match j with | 0 => k0_pay53 (outRows0 m c) | 1 => k0_pay56 (opVal1 m c) (opHalf1 m (zp c))

def sq3 {e : EltTy} (v : Vec F S1x128x2048 e) : Vec F S128x2048 e := shapeCast S128x2048 v shapeCasts_S1x128x2048_S128x2048
theorem shapeCasts_S128x2048_S1x1x128x2048 : S128x2048.ShapeCasts S1x1x128x2048 := by decide
def unsq4 {e : EltTy} (v : Vec F S128x2048 e) : Vec F S1x1x128x2048 e := shapeCast S1x1x128x2048 v shapeCasts_S128x2048_S1x1x128x2048

def recvRows (s : Fin 4) (j : Fin 2) (v : Vec F S1x1x128x2048 .bf16) : FVec F S1x128x2048 .f32 :=
  match s, j with
  | 0, 0 => k0_pay57 v | 0, 1 => k0_pay58 v | 1, 0 => k0_pay59 v | 1, 1 => k0_pay60 v
  | 2, 0 => k0_pay61 v | 2, 1 => k0_pay62 v | 3, 0 => k0_pay63 v | 3, 1 => k0_pay64 v

def rowsOf (c : Dev nD) (s : Fin 4) (j : Fin 2) : FVec F S1x128x2048 .f32 :=
  if s = bIdx c then ownRows m j c else recvRows s j (unsq4 (sq3 (oblkVal m j (srcDev c s))))

def rowIdx (x : S1x1024x2048.Idx) : S1x128x2048.Idx :=
  fun a => ⟨(x a).val % S1x128x2048.size a, Nat.mod_lt _ (by revert a; decide)⟩

def outFinal (c : Dev nD) : Vec F S1x1024x2048 .f32 := fun x =>
  rowsOf m c ⟨(x 1).val / 256, by have h : (x 1).val < 1024 := (x 1).isLt; omega⟩ ⟨((x 1).val / 128) % 2, Nat.mod_lt _ (by decide)⟩ (rowIdx x)

end Contents

abbrev Nc : ℕ := (cRecvM : Memref sig .tc .vmem S1024x128 .bf16).view.dmaCredit
abbrev Nk : ℕ := (wukRecvM : Memref sig .tc .vmem S128x1024 .bf16).view.dmaCredit
abbrev Nv : ℕ := (wuvRecvM : Memref sig .tc .vmem S128x1024 .bf16).view.dmaCredit
abbrev No : ℕ := (opRecvM 0).view.dmaCredit
abbrev Nr : ℕ := (rblkM 0 0).view.dmaCredit
def Nz (i : Fin 3) : ℕ := match i with | 0 => Nc | 1 => Nk | 2 => Nv

theorem Nc_pos : 0 < Nc := View.dmaCredit_pos _ (by decide)
theorem Nk_pos : 0 < Nk := View.dmaCredit_pos _ (by decide)
theorem Nv_pos : 0 < Nv := View.dmaCredit_pos _ (by decide)
theorem No_pos : 0 < No := View.dmaCredit_pos _ (by decide)
theorem Nr_pos : 0 < Nr := View.dmaCredit_pos _ (by decide)
theorem Nz_pos (i : Fin 3) : 0 < Nz i := by
  match i with
  | 0 => exact Nc_pos
  | 1 => exact Nk_pos
  | 2 => exact Nv_pos
def dutiesK (c : Dev nD) : CK → Finset DN
  | .xy => Finset.univ
  | .rr s _ => if s = bIdx c then ∅ else {0}
  | _ => {0}

def amtK : CK → ℕ
  | .bar => 1
  | .xy => 1
  | .zs i => Nz i
  | .zr i => Nz i
  | .os _ => No
  | .orr _ => No
  | .rs _ _ => Nr
  | .rr _ _ => Nr

theorem amtK_pos (k : CK) : 0 < amtK k := by
  cases k with
  | bar => exact Nat.one_pos
  | xy => exact Nat.one_pos
  | zs i => exact Nz_pos i
  | zr i => exact Nz_pos i
  | os j => exact No_pos
  | orr j => exact No_pos
  | rs t j => exact Nr_pos
  | rr s j => exact Nr_pos

def anyPts {s : Shape} {e : EltTy} (M : Memref sig .tc .vmem s e) (c : Dev nD) : sProp 𝕄 := iprop(∃ f, pts M c fullShare f)

set_option synthInstance.maxHeartbeats 200000 in
instance anyPts_storable {s : Shape} {e : EltTy} (M : Memref sig .tc .vmem s e) (c : Dev nD) :
    BI.Storable (upEmb : UEmb _ 𝕄) (anyPts (F := F) M c) := by unfold anyPts; infer_instance

def barPayFrom (d : Dev nD) : sProp 𝕄 :=
  iprop(anyPts cRecvM d ∗ anyPts wukRecvM d ∗ anyPts wuvRecvM d ∗ anyPts (opRecvM 0) d ∗ anyPts (opRecvM 1) d
    ∗ reached ER (cell d (.zr 0)) 0 ∗ reached ER (cell d (.zr 1)) 0 ∗ reached ER (cell d (.zr 2)) 0
    ∗ reached ER (cell d (.orr 0)) 0 ∗ reached ER (cell d (.orr 1)) 0)

def xyPayFrom (d : Dev nD) (b : Fin 4) : sProp 𝕄 :=
  iprop(anyPts (rblkM b 0) d ∗ anyPts (rblkM b 1) d
    ∗ reached ER (cell d (.rr b 0)) 0 ∗ reached ER (cell d (.rr b 1)) 0)

def zsPay (i : Fin 3) (c : Dev nD) : sProp 𝕄 :=
  match i with
  | 0 => pts cRefM c fullShare (cLat m c)
  | 1 => pts wukSendM c fullShare (wukSend m c)
  | 2 => pts wuvSendM c fullShare (wuvSend m c)

def zrPay (i : Fin 3) (c e : Dev nD) : sProp 𝕄 :=
  match i with
  | 0 => pts cRecvM c fullShare (cLat m e)
  | 1 => pts wukRecvM c fullShare (wukSend m e)
  | 2 => pts wuvRecvM c fullShare (wuvSend m e)
def osPay (j : Fin 2) (c : Dev nD) : sProp 𝕄 := pts (opSendM j) c fullShare (slotBuf m (opSendM j) c (sq3 (opHalf m j c)))
def orPay (j : Fin 2) (c e : Dev nD) : sProp 𝕄 := pts (opRecvM j) c fullShare (slotBuf m (opRecvM j) c (sq3 (opHalf m j e)))

def rsPay (t : Fin 3) (j : Fin 2) (c : Dev nD) : sProp 𝕄 :=
  pts (oblkM j) c (Transfers.shareTokN fullShare t.val) (slotBuf m (oblkM j) c (sq3 (oblkVal m j c)))
def rrPay (s : Fin 4) (j : Fin 2) (c e : Dev nD) : sProp 𝕄 := pts (rblkM s j) c fullShare (slotBuf m (rblkM s j) c (sq3 (oblkVal m j e)))

def payK (c : Dev nD) (k : CK) (d : DN) : sProp 𝕄 :=
  match k with
  | .bar => barPayFrom (zp c)
  | .xy => xyPayFrom (pk d c) (bIdx c)
  | .zs i => zsPay m i c
  | .zr i => zrPay m i c (zp c)
  | .os j => osPay m j c
  | .orr j => orPay m j c (zp c)
  | .rs t j => rsPay m t j c
  | .rr s j => rrPay m s j c (srcDev c s)

def dutOf (c : Dev nD) : Option CK → Finset DN
  | some k => dutiesK c k
  | none => ∅
def amtOf : Option CK → ℕ
  | some k => amtK k
  | none => 1
def payOf (c : Dev nD) (d : DN) : Option CK → sProp 𝕄
  | some k => payK m c k d
  | none => iprop(emp)
theorem amtOf_pos (o : Option CK) : 0 < amtOf o := by
  cases o with
  | none => exact Nat.one_pos
  | some k => exact amtK_pos k

def sched : Rounds.Schedule (GSem nD τ sig) DN 𝕄 where
  duties g r := if r = 0 ∧ g.1.2 = .tc then dutOf g.1.1 (ckOf g.2) else ∅
  amount g _ _ := amtOf (ckOf g.2)
  payload g _ d := payOf m g.1.1 d (ckOf g.2)
  amount_pos g _ _ _ := amtOf_pos _

set_option synthInstance.maxHeartbeats 200000 in
instance barPayFrom_storable (d : Dev nD) : BI.Storable (upEmb : UEmb _ 𝕄) (barPayFrom (F := F) d) := by unfold barPayFrom; infer_instance
set_option synthInstance.maxHeartbeats 200000 in
instance xyPayFrom_storable (d : Dev nD) (b : Fin 4) : BI.Storable (upEmb : UEmb _ 𝕄) (xyPayFrom (F := F) d b) := by unfold xyPayFrom; infer_instance
instance zsPay_storable (i : Fin 3) (c : Dev nD) : BI.Storable (upEmb : UEmb _ 𝕄) (zsPay m i c) := by
  match i with
  | 0 => exact (inferInstance : BI.Storable upEmb (pts cRefM c fullShare (cLat m c)))
  | 1 => exact (inferInstance : BI.Storable upEmb (pts wukSendM c fullShare (wukSend m c)))
  | 2 => exact (inferInstance : BI.Storable upEmb (pts wuvSendM c fullShare (wuvSend m c)))
instance zrPay_storable (i : Fin 3) (c e : Dev nD) : BI.Storable (upEmb : UEmb _ 𝕄) (zrPay m i c e) := by
  match i with
  | 0 => exact (inferInstance : BI.Storable upEmb (pts cRecvM c fullShare (cLat m e)))
  | 1 => exact (inferInstance : BI.Storable upEmb (pts wukRecvM c fullShare (wukSend m e)))
  | 2 => exact (inferInstance : BI.Storable upEmb (pts wuvRecvM c fullShare (wuvSend m e)))
instance osPay_storable (j : Fin 2) (c : Dev nD) : BI.Storable (upEmb : UEmb _ 𝕄) (osPay m j c) := by unfold osPay; infer_instance
instance orPay_storable (j : Fin 2) (c e : Dev nD) : BI.Storable (upEmb : UEmb _ 𝕄) (orPay m j c e) := by unfold orPay; infer_instance
instance rsPay_storable (t : Fin 3) (j : Fin 2) (c : Dev nD) : BI.Storable (upEmb : UEmb _ 𝕄) (rsPay m t j c) := by unfold rsPay; infer_instance
instance rrPay_storable (s : Fin 4) (j : Fin 2) (c e : Dev nD) : BI.Storable (upEmb : UEmb _ 𝕄) (rrPay m s j c e) := by unfold rrPay; infer_instance

instance payK_storable (c : Dev nD) (k : CK) (d : DN) : BI.Storable (upEmb : UEmb _ 𝕄) (payK m c k d) := by
  cases k with
  | bar => exact barPayFrom_storable (zp c)
  | xy => exact xyPayFrom_storable (pk d c) (bIdx c)
  | zs i => exact zsPay_storable m i c
  | zr i => exact zrPay_storable m i c (zp c)
  | os j => exact osPay_storable m j c
  | orr j => exact orPay_storable m j c (zp c)
  | rs t j => exact rsPay_storable m t j c
  | rr s j => exact rrPay_storable m s j c (srcDev c s)

instance sched_payload_storable (g : GSem nD τ sig) (r : ℕ) (d : DN) :
    BI.Storable (upEmb : UEmb _ 𝕄) ((sched m).payload g r d) := by
  show BI.Storable upEmb (payOf m g.1.1 d (ckOf g.2))
  cases ckOf g.2 with
  | none => unfold payOf; infer_instance
  | some k => exact payK_storable m g.1.1 k d

section Tables
variable (c : Dev nD)

theorem duties_cell (k : CK) : (sched m).duties (cell c k) 0 = dutiesK c k := by
  show (if (0 : ℕ) = 0 ∧ (cell c k).1.2 = .tc then dutOf c (ckOf (csem k)) else ∅) = _
  rw [if_pos ⟨rfl, rfl⟩, ckOf_csem]; rfl
theorem duties_later (g : GSem nD τ sig) : ∀ r, 1 ≤ r → (sched m).duties g r = ∅ :=
  fun r hr => if_neg fun h => by omega
theorem amount_cell (k : CK) (r : ℕ) (d : DN) : (sched m).amount (cell c k) r d = amtK k := by
  show amtOf (ckOf (csem k)) = _
  rw [ckOf_csem]; rfl
theorem payload_cell (k : CK) (r : ℕ) (d : DN) : (sched m).payload (cell c k) r d = payK m c k d := by
  show payOf m c d (ckOf (csem k)) = _
  rw [ckOf_csem]; rfl

theorem duties_bar : (sched m).duties (cell c .bar) 0 = {0} := duties_cell m c _
theorem duties_xy : (sched m).duties (cell c .xy) 0 = Finset.univ := duties_cell m c _
theorem duties_zs (i : Fin 3) : (sched m).duties (cell c (.zs i)) 0 = {0} := duties_cell m c _
theorem duties_zr (i : Fin 3) : (sched m).duties (cell c (.zr i)) 0 = {0} := duties_cell m c _
theorem duties_os (j : Fin 2) : (sched m).duties (cell c (.os j)) 0 = {0} := duties_cell m c _
theorem duties_orr (j : Fin 2) : (sched m).duties (cell c (.orr j)) 0 = {0} := duties_cell m c _
theorem duties_rs (t : Fin 3) (j : Fin 2) : (sched m).duties (cell c (.rs t j)) 0 = {0} := duties_cell m c _
theorem duties_rr (s : Fin 4) (j : Fin 2) (h : s ≠ bIdx c) : (sched m).duties (cell c (.rr s j)) 0 = {0} :=
  (duties_cell m c _).trans (if_neg h)
theorem duties_rr_own (j : Fin 2) : (sched m).duties (cell c (.rr (bIdx c) j)) 0 = ∅ :=
  (duties_cell m c _).trans (if_pos rfl)

theorem duties_rr_peer (t : Fin 3) (j : Fin 2) : (sched m).duties (cell (pk t c) (.rr (bIdx c) j)) 0 = {0} :=
  duties_rr m (pk t c) (bIdx c) j (fun h => bIdx_pk_ne t c h.symm)

theorem amount_bar (d : DN) : (sched m).amount (cell c .bar) 0 d = 1 := amount_cell m c _ _ _
theorem amount_xy (d : DN) : (sched m).amount (cell c .xy) 0 d = 1 := amount_cell m c _ _ _
theorem amount_zs (i : Fin 3) (d : DN) : (sched m).amount (cell c (.zs i)) 0 d = Nz i := amount_cell m c _ _ _
theorem amount_zr (i : Fin 3) (d : DN) : (sched m).amount (cell c (.zr i)) 0 d = Nz i := amount_cell m c _ _ _
theorem amount_os (j : Fin 2) (d : DN) : (sched m).amount (cell c (.os j)) 0 d = No := amount_cell m c _ _ _
theorem amount_orr (j : Fin 2) (d : DN) : (sched m).amount (cell c (.orr j)) 0 d = No := amount_cell m c _ _ _
theorem amount_rs (t : Fin 3) (j : Fin 2) (d : DN) : (sched m).amount (cell c (.rs t j)) 0 d = Nr := amount_cell m c _ _ _
theorem amount_rr (s : Fin 4) (j : Fin 2) (d : DN) : (sched m).amount (cell c (.rr s j)) 0 d = Nr := amount_cell m c _ _ _

theorem expect_one (k : CK) (h : dutiesK c k = {0}) : (sched m).expect (cell c k) 0 = amtK k := by
  unfold Schedule.expect Schedule.amountOf
  rw [duties_cell, h, Finset.sum_singleton, amount_cell]
theorem expect_bar : (sched m).expect (cell c .bar) 0 = 1 := expect_one m c _ rfl
theorem expect_xy : (sched m).expect (cell c .xy) 0 = 3 := by
  unfold Schedule.expect Schedule.amountOf
  rw [duties_xy, Finset.sum_congr rfl fun d _ => amount_xy m c d, Finset.sum_const, Finset.card_univ, Fintype.card_fin, smul_eq_mul]
theorem expect_zs (i : Fin 3) : (sched m).expect (cell c (.zs i)) 0 = Nz i := expect_one m c _ rfl
theorem expect_zr (i : Fin 3) : (sched m).expect (cell c (.zr i)) 0 = Nz i := expect_one m c _ rfl
theorem expect_os (j : Fin 2) : (sched m).expect (cell c (.os j)) 0 = No := expect_one m c _ rfl
theorem expect_orr (j : Fin 2) : (sched m).expect (cell c (.orr j)) 0 = No := expect_one m c _ rfl
theorem expect_rs (t : Fin 3) (j : Fin 2) : (sched m).expect (cell c (.rs t j)) 0 = Nr := expect_one m c _ rfl
theorem expect_rr (s : Fin 4) (j : Fin 2) (h : s ≠ bIdx c) : (sched m).expect (cell c (.rr s j)) 0 = Nr := expect_one m c _ (if_neg h)
theorem payload_bar (d : DN) : (sched m).payload (cell c .bar) 0 d = barPayFrom (zp c) := payload_cell m c _ _ _
theorem payload_xy (t : DN) : (sched m).payload (cell c .xy) 0 t = xyPayFrom (pk t c) (bIdx c) := payload_cell m c _ _ _
theorem payload_zs (i : Fin 3) (d : DN) : (sched m).payload (cell c (.zs i)) 0 d = zsPay m i c := payload_cell m c _ _ _
theorem payload_zr (i : Fin 3) (d : DN) : (sched m).payload (cell c (.zr i)) 0 d = zrPay m i c (zp c) := payload_cell m c _ _ _
theorem payload_os (j : Fin 2) (d : DN) : (sched m).payload (cell c (.os j)) 0 d = osPay m j c := payload_cell m c _ _ _
theorem payload_orr (j : Fin 2) (d : DN) : (sched m).payload (cell c (.orr j)) 0 d = orPay m j c (zp c) := payload_cell m c _ _ _
theorem payload_rs (t : Fin 3) (j : Fin 2) (d : DN) : (sched m).payload (cell c (.rs t j)) 0 d = rsPay m t j c := payload_cell m c _ _ _
theorem payload_rr (s : Fin 4) (j : Fin 2) (d : DN) : (sched m).payload (cell c (.rr s j)) 0 d = rrPay m s j c (srcDev c s) := payload_cell m c _ _ _

theorem payload_zr_peer (i : Fin 3) (d : DN) : (sched m).payload (cell (zp c) (.zr i)) 0 d = zrPay m i (zp c) c := by
  rw [payload_zr, zp_zp]
theorem payload_orr_peer (j : Fin 2) (d : DN) : (sched m).payload (cell (zp c) (.orr j)) 0 d = orPay m j (zp c) c := by
  rw [payload_orr, zp_zp]
theorem payload_rr_peer (t : Fin 3) (j : Fin 2) (d : DN) :
    (sched m).payload (cell (pk t c) (.rr (bIdx c) j)) 0 d = rrPay m (bIdx c) j (pk t c) c := by
  rw [payload_rr, srcDev_pk']

end Tables

def L (g : GSem nD τ sig) : Finset Unit := if g.1.2 = .tc then {()} else ∅

def lvK : CK → ℕ
  | .bar => 1
  | .zr _ => 2
  | .orr _ => 3
  | .xy => 4
  | .rr _ _ => 5
  | _ => 0
def lvOf : Option CK → ℕ
  | some k => lvK k
  | none => 0
def lv (g : GSem nD τ sig) (_ : Unit) : ℕ := lvOf (ckOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (cell c k) u = lvK k := by
  show lvOf (ckOf (csem k)) = _
  rw [ckOf_csem]; rfl

theorem lv_stage (c : Dev nD) (q : DmaSem sig) (h : q.val < 7 ∨ q.val = 27 ∨ q.val = 28) (u : Unit) : lv ((c : Thread nD τ), .dma q) u = 0 := by
  show lvOf (ckOfNat q.val) = 0
  have : ckOfNat q.val = none := by
    unfold ckOfNat
    rw [dif_neg (by omega), dif_neg (by omega), dif_neg (by omega), dif_neg (by omega), dif_neg (by omega), dif_neg (by omega)]
  rw [this]; rfl
theorem lv_wl0 (c : Dev nD) (u : Unit) : lv ((c : Thread nD τ), .dma wl0) u = 0 := lv_stage c wl0 (.inr (.inl rfl)) u
theorem lv_wl1 (c : Dev nD) (u : Unit) : lv ((c : Thread nD τ), .dma wl1) u = 0 := lv_stage c wl1 (.inr (.inr rfl)) u

def O_rr1 (c : Dev nD) : CellTallies nD τ sig Unit :=
  tallyAt (cell (p2 c) (.rr (bIdx c) 1)) () Nr + tallyAt (cell (p1 c) (.rr (bIdx c) 1)) () Nr + tallyAt (cell (p0 c) (.rr (bIdx c) 1)) () Nr

def O_rr (c : Dev nD) : CellTallies nD τ sig Unit :=
  O_rr1 c + tallyAt (cell (p2 c) (.rr (bIdx c) 0)) () Nr + tallyAt (cell (p1 c) (.rr (bIdx c) 0)) () Nr + tallyAt (cell (p0 c) (.rr (bIdx c) 0)) () Nr

def O_or1 (c : Dev nD) : CellTallies nD τ sig Unit := O_rr c + tallyAt (cell (zp c) (.orr 1)) () No
def O_or (c : Dev nD) : CellTallies nD τ sig Unit := O_or1 c + tallyAt (cell (zp c) (.orr 0)) () No

def O_zr (c : Dev nD) : CellTallies nD τ sig Unit :=
  O_or c + tallyAt (cell (zp c) (.zr 2)) () Nv + tallyAt (cell (zp c) (.zr 1)) () Nk + tallyAt (cell (zp c) (.zr 0)) () Nc

def O_xy (c : Dev nD) : CellTallies nD τ sig Unit :=
  O_zr c + tallyAt (cell (p2 c) .xy) () 1 + tallyAt (cell (p1 c) .xy) () 1 + tallyAt (cell (p0 c) .xy) () 1

def O₀ (c : Dev nD) : CellTallies nD τ sig Unit := O_xy c + tallyAt (cell (zp c) .bar) () 1

theorem add_tally_pos {O : CellTallies nD τ sig Unit} {d : Dev nD} {k : CK} {n : ℕ} {g : GSem nD τ sig} {u : Unit}
    (h : 0 < (O + tallyAt (cell d k) () n) g u) : 0 < O g u ∨ g = cell d k := by
  rcases Pipeline.add_pos_cases h with h | h
  · exact .inl h
  · rw [tallyAt_apply] at h
    by_cases hg : g = cell d k ∧ u = ()
    · exact .inr hg.1
    · rw [if_neg hg] at h; exact absurd h (Nat.lt_irrefl 0)
theorem tally_pos {d : Dev nD} {k : CK} {n : ℕ} {g : GSem nD τ sig} {u : Unit}
    (h : 0 < (tallyAt (cell d k) () n : CellTallies nD τ sig Unit) g u) : g = cell d k := by
  rw [tallyAt_apply] at h
  by_cases hg : g = cell d k ∧ u = ()
  · exact hg.1
  · rw [if_neg hg] at h; exact absurd h (Nat.lt_irrefl 0)

theorem O_rr1_pos {c : Dev nD} {g : GSem nD τ sig} {u : Unit} (h : 0 < O_rr1 c g u) : ∃ d k, g = cell d k ∧ 5 ≤ lvK k := by
  unfold O_rr1 at h
  rcases add_tally_pos h with h | rfl
  · rcases add_tally_pos h with h | rfl
    · exact ⟨_, _, tally_pos h, le_refl _⟩
    · exact ⟨_, _, rfl, le_refl _⟩
  · exact ⟨_, _, rfl, le_refl _⟩
theorem O_rr_pos {c : Dev nD} {g : GSem nD τ sig} {u : Unit} (h : 0 < O_rr c g u) : ∃ d k, g = cell d k ∧ 5 ≤ lvK k := by
  unfold O_rr at h
  rcases add_tally_pos h with h | rfl
  · rcases add_tally_pos h with h | rfl
    · rcases add_tally_pos h with h | rfl
      · exact O_rr1_pos h
      · exact ⟨_, _, rfl, le_refl _⟩
    · exact ⟨_, _, rfl, le_refl _⟩
  · exact ⟨_, _, rfl, le_refl _⟩
theorem O_or1_pos {c : Dev nD} {g : GSem nD τ sig} {u : Unit} (h : 0 < O_or1 c g u) : ∃ d k, g = cell d k ∧ 3 ≤ lvK k := by
  unfold O_or1 at h
  rcases add_tally_pos h with h | rfl
  · obtain ⟨d, k, hg, hk⟩ := O_rr_pos h; exact ⟨d, k, hg, by omega⟩
  · exact ⟨_, _, rfl, le_refl _⟩
theorem O_or_pos {c : Dev nD} {g : GSem nD τ sig} {u : Unit} (h : 0 < O_or c g u) : ∃ d k, g = cell d k ∧ 3 ≤ lvK k := by
  unfold O_or at h
  rcases add_tally_pos h with h | rfl
  · exact O_or1_pos h
  · exact ⟨_, _, rfl, le_refl _⟩
theorem O_zr_pos {c : Dev nD} {g : GSem nD τ sig} {u : Unit} (h : 0 < O_zr c g u) : ∃ d k, g = cell d k ∧ 2 ≤ lvK k := by
  unfold O_zr at h
  rcases add_tally_pos h with h | rfl
  · rcases add_tally_pos h with h | rfl
    · rcases add_tally_pos h with h | rfl
      · obtain ⟨d, k, hg, hk⟩ := O_or_pos h; exact ⟨d, k, hg, by omega⟩
      · exact ⟨_, _, rfl, le_refl _⟩
    · exact ⟨_, _, rfl, le_refl _⟩
  · exact ⟨_, _, rfl, le_refl _⟩
theorem O_xy_pos {c : Dev nD} {g : GSem nD τ sig} {u : Unit} (h : 0 < O_xy c g u) : ∃ d k, g = cell d k ∧ 2 ≤ lvK k := by
  unfold O_xy at h
  rcases add_tally_pos h with h | rfl
  · rcases add_tally_pos h with h | rfl
    · rcases add_tally_pos h with h | rfl
      · exact O_zr_pos h
      · exact ⟨_, _, rfl, by decide⟩
    · exact ⟨_, _, rfl, by decide⟩
  · exact ⟨_, _, rfl, by decide⟩
theorem O₀_pos {c : Dev nD} {g : GSem nD τ sig} {u : Unit} (h : 0 < O₀ c g u) : ∃ d k, g = cell d k ∧ 1 ≤ lvK k := by
  unfold O₀ at h
  rcases add_tally_pos h with h | rfl
  · obtain ⟨d, k, hg, hk⟩ := O_xy_pos h; exact ⟨d, k, hg, by omega⟩
  · exact ⟨_, _, rfl, le_refl _⟩

omit [FloatOps F] in

theorem mayWait_of_lv (c : Dev nD) (s : SemLoc sig) (O : CellTallies nD τ sig Unit) (n : ℕ)
    (hs : lv ((c : Thread nD τ), s) () < n) (hO : ∀ g u, 0 < O g u → ∃ d k, g = cell d k ∧ n ≤ lvK k) :
    (levAts L lv : sProp 𝕄) ⊢ MayWait (c : Thread nD τ) s () O :=
  Pipeline.mayWait_of_levAts (by rw [L_tc]; exact Finset.mem_singleton_self _) fun g u hg => by
    obtain ⟨d, k, rfl, hk⟩ := hO g u hg
    exact ⟨by rw [L_tc]; exact Finset.mem_singleton_self _, by rw [lv_cell]; omega⟩

omit [FloatOps F] in

theorem mayWait_stage (c : Dev nD) (q : DmaSem sig) (hq : q.val < 7) (O : CellTallies nD τ sig Unit) (hO : O = O₀ c ∨ O = 0) :
    (levAts L lv : sProp 𝕄) ⊢ MayWait (c : Thread nD τ) (.dma q) () O := by
  rcases hO with rfl | rfl
  · exact mayWait_of_lv c _ _ 1 (by rw [lv_stage c q (.inl hq)]; exact Nat.one_pos) fun g u h => O₀_pos h
  · rw [MayWait_zero]; iintro -; iempintro
omit [FloatOps F] in

theorem mayWait_wl (c : Dev nD) (q : DmaSem sig) (hq : q = wl0 ∨ q = wl1) (O : CellTallies nD τ sig Unit)
    (hO : ∀ g u, 0 < O g u → ∃ d k, g = cell d k ∧ 1 ≤ lvK k) :
    (levAts L lv : sProp 𝕄) ⊢ MayWait (c : Thread nD τ) (.dma q) () O :=
  mayWait_of_lv c _ O 1 (by
    rcases hq with rfl | rfl
    · rw [lv_wl0]; exact Nat.one_pos
    · rw [lv_wl1]; exact Nat.one_pos) hO
omit [FloatOps F] in

theorem mayWait_bar (c : Dev nD) : (levAts L lv : sProp 𝕄) ⊢ MayWait (c : Thread nD τ) (csem .bar) () (O_zr c) :=
  mayWait_of_lv c _ _ 2 (by rw [lv_cell]; decide) fun g u h => O_zr_pos h
omit [FloatOps F] in

theorem mayWait_zs (c : Dev nD) (i : Fin 3) : (levAts L lv : sProp 𝕄) ⊢ MayWait (c : Thread nD τ) (csem (.zs i)) () (O_or c) :=
  mayWait_of_lv c _ _ 3 (by rw [lv_cell]; show (0 : ℕ) < 3; omega) fun g u h => O_or_pos h
omit [FloatOps F] in
theorem mayWait_zr (c : Dev nD) (i : Fin 3) : (levAts L lv : sProp 𝕄) ⊢ MayWait (c : Thread nD τ) (csem (.zr i)) () (O_or c) :=
  mayWait_of_lv c _ _ 3 (by rw [lv_cell]; show (2 : ℕ) < 3; omega) fun g u h => O_or_pos h
omit [FloatOps F] in

theorem mayWait_orr0 (c : Dev nD) : (levAts L lv : sProp 𝕄) ⊢ MayWait (c : Thread nD τ) (csem (.orr 0)) () (O_rr c) :=
  mayWait_of_lv c _ _ 5 (by rw [lv_cell]; decide) fun g u h => O_rr_pos h
omit [FloatOps F] in
theorem mayWait_xy (c : Dev nD) : (levAts L lv : sProp 𝕄) ⊢ MayWait (c : Thread nD τ) (csem .xy) () (O_rr c) :=
  mayWait_of_lv c _ _ 5 (by rw [lv_cell]; decide) fun g u h => O_rr_pos h
omit [FloatOps F] in
theorem mayWait_orr1 (c : Dev nD) : (levAts L lv : sProp 𝕄) ⊢ MayWait (c : Thread nD τ) (csem (.orr 1)) () (O_rr1 c) :=
  mayWait_of_lv c _ _ 5 (by rw [lv_cell]; decide) fun g u h => O_rr1_pos h
section Slots

omit [FloatOps F] in
theorem sq3_injective {e : EltTy} : Function.Injective (sq3 (F := F) (e := e)) := by
  intro v w h
  funext i
  have := congrFun h ((Shape.reshapeEquiv shapeCasts_S1x128x2048_S128x2048).symm i)
  simpa [sq3, shapeCast] using this
omit [FloatOps F] in
theorem reshape_roundtrip {s s' : Shape} (h : s'.numel = s.numel) (h' : s.numel = s'.numel) (i : s.Idx) :
    Shape.reshapeEquiv h (Shape.reshapeEquiv h' i) = i := by
  apply s.rowMajor.injective; apply Fin.ext
  rw [Shape.rowMajor_reshapeEquiv, Shape.rowMajor_reshapeEquiv]

omit [FloatOps F] in
theorem slot3_set (W : Memref sig .tc .vmem S2x128x2048 .bf16) (j : Fin 2) : (slot3 W j).view.set = (W.access (slot3R j)).set :=
  View.set_reshape _ _
omit [FloatOps F] in

theorem slot3_read (W : Memref sig .tc .vmem S2x128x2048 .bf16) (j : Fin 2) (f : (W.access (slot3R j)).ty.Contents (Elt F)) :
    (slot3 W j).view.read (Elt F) f = sq3 ((W.access (slot3R j)).read (Elt F) f) := rfl
omit [FloatOps F] in
theorem rblkM_read (s : Fin 4) (j : Fin 2) (f : (rblkW.access (rslotR s j)).ty.Contents (Elt F)) :
    unsq4 ((rblkM s j).view.read (Elt F) f) = (rblkW.access (rslotR s j)).read (Elt F) f := by
  funext i
  simp [unsq4, shapeCast, View.read_apply, reshape_roundtrip]

omit [FloatOps F] in

theorem slot3_pts_store (W : Memref sig .tc .vmem S2x128x2048 .bf16) (j : Fin 2) (c : Dev nD) (q : PosShare TreeShare)
    (f : Buf (Elt F) ((W.access (slot3R j)).loc (c : Thread nD τ))) (v : Vec F S1x128x2048 .bf16) :
    (pts (slot3 W j) c q ((W.access (slot3R j)).write (Elt F) f v Finset.univ) : sProp 𝕄) = pts (slot3 W j) c q (slotBuf m (slot3 W j) c (sq3 v)) := by
  rw [pts_read_eq m (slot3 W j) c q, slot3_read, View.read_write_univ]

omit [FloatOps F] in

theorem slot3_readAt (W : Memref sig .tc .vmem S2x128x2048 .bf16) (j : Fin 2) (c : Dev nD) (w : Vec F S1x128x2048 .bf16) :
    W.view.readAt (Elt F) (slot3R j).toLoadRect (slotBuf m (slot3 W j) c (sq3 w)) = w := by
  apply sq3_injective
  show sq3 ((W.access (slot3R j)).read (Elt F) (slotBuf m (slot3 W j) c (sq3 w))) = sq3 w
  rw [← slot3_read]; exact read_slotBuf m _ c _

omit [FloatOps F] in

theorem rblkM_readAt (s : Fin 4) (j : Fin 2) (c : Dev nD) (w : Vec F S128x2048 .bf16) :
    rblkW.view.readAt (Elt F) (rslotR s j).toLoadRect (slotBuf m (rblkM s j) c w) = unsq4 w := by
  show (rblkW.access (rslotR s j)).read (Elt F) (slotBuf m (rblkM s j) c w) = unsq4 w
  rw [← rblkM_read, read_slotBuf]

end Slots

section Out

theorem outR_inb : ∀ (s : Fin 4) (j : Fin 2) (a : Fin 3), (![0, 256 * s.val + 128 * j.val, 0] : Fin 3 → Nat) a + S1x128x2048.size a ≤ S1x1024x2048.size a := by decide

abbrev outR (s : Fin 4) (j : Fin 2) : Rect S1x1024x2048 := Rect.unit (s := S1x1024x2048) ![0, 256 * s.val + 128 * j.val, 0] S1x128x2048.size (outR_inb s j)

theorem k0_off7_own : ∀ (c : Dev nD) (r : Fin 2), k0_off7 c (BitVec.ofNat 32 (128 * r.val)) = ![0, 256 * (bIdx c).val + 128 * r.val, 0] := by decide +kernel

def rowS (x : S1x1024x2048.Idx) : Fin 4 := ⟨(x 1).val / 256, by have h : (x 1).val < 1024 := (x 1).isLt; omega⟩
def rowJ (x : S1x1024x2048.Idx) : Fin 2 := ⟨((x 1).val / 128) % 2, Nat.mod_lt _ (by decide)⟩

theorem outFinal_apply (c : Dev nD) (x : S1x1024x2048.Idx) : outFinal m c x = rowsOf m c (rowS x) (rowJ x) (rowIdx x) := rfl

omit [FloatOps F] in
theorem outR_emb_rowIdx (x : S1x1024x2048.Idx) : (outR (rowS x) (rowJ x)).emb (rowIdx x) = x := by
  have h0 : (x 0).val < 1 := (x 0).isLt
  have h1 : (x 1).val < 1024 := (x 1).isLt
  have h2 : (x 2).val < 2048 := (x 2).isLt
  have key : ∀ a : Fin 3, ((outR (rowS x) (rowJ x)).emb (rowIdx x) a : ℕ) = (x a : ℕ) := by
    intro a
    rw [Rect.emb_apply]
    fin_cases a
    · show 0 + 1 * ((x 0).val % 1) = (x 0).val; omega
    · show (256 * ((x 1).val / 256) + 128 * (((x 1).val / 128) % 2)) + 1 * ((x 1).val % 128) = (x 1).val; omega
    · show 0 + 1 * ((x 2).val % 2048) = (x 2).val; omega
  exact funext fun a => Fin.ext (key a)

theorem outR_disjoint {s s' : Fin 4} {j j' : Fin 2} (h : s ≠ s' ∨ j ≠ j') : Disjoint (outR s j).set (outR s' j').set := by
  have hs := s.isLt; have hs' := s'.isLt; have hj := j.isLt; have hj' := j'.isLt
  have hne : 256 * s.val + 128 * j.val ≠ 256 * s'.val + 128 * j'.val := by
    rcases h with h | h
    · have : s.val ≠ s'.val := fun e => h (Fin.ext e); omega
    · have : j.val ≠ j'.val := fun e => h (Fin.ext e); omega
  refine Rect.unit_disjoint (1 : Fin 3) ?_
  show 256 * s.val + 128 * j.val + 128 ≤ 256 * s'.val + 128 * j'.val ∨ 256 * s'.val + 128 * j'.val + 128 ≤ 256 * s.val + 128 * j.val
  omega

end Out

end Cert.KernelIdeal.Proto

end
-- ==== Proof.Data.lean ====
import proofs.«900573_g7700000000000574_dist_mla_v7x_xyz2x2x2_z_b1_s1024_d2048_dc128_bf16_1_alg».proof.Proof.Sched
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

abbrev ownCKs : List CK :=
  [.xy, .zs 0, .zs 1, .zs 2, .zr 0, .zr 1, .zr 2, .os 0, .os 1, .orr 0, .orr 1,
   .rs 0 0, .rs 0 1, .rs 1 0, .rs 1 1, .rs 2 0, .rs 2 1,
   .rr 0 0, .rr 0 1, .rr 1 0, .rr 1 1, .rr 2 0, .rr 2 1, .rr 3 0, .rr 3 1]
abbrev allCKs : List CK := CK.bar :: ownCKs

abbrev bs2 {M : Type} [URA M] (Φ : Fin 2 → sProp M) : sProp M := iprop(Φ 0 ∗ Φ 1)
abbrev bs3 {M : Type} [URA M] (Φ : Fin 3 → sProp M) : sProp M := iprop(Φ 0 ∗ Φ 1 ∗ Φ 2)
theorem bs2_eq {M : Type} [URA M] (Φ : Fin 2 → sProp M) : bigSep Finset.univ Φ = bs2 Φ := bigSep_univ_eq_bigSepL [0, 1] (by decide) (by decide) Φ
theorem bs3_eq {M : Type} [URA M] (Φ : Fin 3 → sProp M) : bigSep Finset.univ Φ = bs3 Φ := bigSep_univ_eq_bigSepL [0, 1, 2] (by decide) (by decide) Φ

def records (K : Dev nD × CK → ℕ) : sProp 𝕄 :=
  iprop((bigSep Finset.univ fun ck : Dev nD × CK => cellInv ER (sched m) (K ck) (cell ck.1 ck.2))
    ∗ bigSep Finset.univ fun ck : Dev nD × CK => reached ER (cell ck.1 ck.2) 0)

instance records_persistent (K : Dev nD × CK → ℕ) : BI.Persistent (records m K) := by unfold records; infer_instance

theorem invs_at (K : Dev nD × CK → ℕ) (d : Dev nD) (k : CK) :
    (bigSep Finset.univ fun ck : Dev nD × CK => (cellInv ER (sched m) (K ck) (cell ck.1 ck.2) : sProp 𝕄)) ⊢ cellInv ER (sched m) (K (d, k)) (cell d k) :=
  bigSep_elim (Finset.mem_univ ((d, k) : Dev nD × CK))
theorem reacheds_at (d : Dev nD) (k : CK) :
    (bigSep Finset.univ fun ck : Dev nD × CK => (reached ER (cell ck.1 ck.2) 0 : sProp 𝕄)) ⊢ reached ER (cell d k) 0 :=
  bigSep_elim (Finset.mem_univ ((d, k) : Dev nD × CK))

theorem inv_at (K : Dev nD × CK → ℕ) (d : Dev nD) (k : CK) :
    records m K ⊢ cellInv ER (sched m) (K (d, k)) (cell d k) := by
  unfold records; iintro ⟨H, -⟩; iapply (invs_at m K d k) $$ H
theorem reached_at (K : Dev nD × CK → ℕ) (d : Dev nD) (k : CK) :
    records m K ⊢ (reached ER (cell d k) 0 : sProp 𝕄) := by
  unfold records; iintro ⟨-, H⟩; iapply (reacheds_at (F := F) d k) $$ H

def payToks (c : Dev nD) : sProp 𝕄 :=
  iprop(dutyTok ER (cell (zp c) CK.bar) 0 (0 : DN)
    ∗ bs3 (fun t => dutyTok ER (cell (pk t c) CK.xy) 0 (t : DN))
    ∗ bs3 (fun i => dutyTok ER (cell c (CK.zs i)) 0 (0 : DN))
    ∗ bs3 (fun i => dutyTok ER (cell (zp c) (CK.zr i)) 0 (0 : DN))
    ∗ bs2 (fun j => dutyTok ER (cell c (CK.os j)) 0 (0 : DN))
    ∗ bs2 (fun j => dutyTok ER (cell (zp c) (CK.orr j)) 0 (0 : DN))
    ∗ bs3 (fun t => bs2 fun j => dutyTok ER (cell c (CK.rs t j)) 0 (0 : DN))
    ∗ bs3 (fun t => bs2 fun j => dutyTok ER (cell (pk t c) (CK.rr (bIdx c) j)) 0 (0 : DN)))

def ghost (K : Dev nD × CK → ℕ) (c : Dev nD) : sProp 𝕄 :=
  iprop(records m K ∗ bigSepL allCKs (fun k => atPos ER (cell c k) 0 (∅ : Finset DN) 0) ∗ payToks c)

def creds (c : Dev nD) : sProp 𝕄 :=
  iprop(cred (tallyAt (cell c CK.bar) () ((sched m).expect (cell c CK.bar) 0))
    ∗ cred (tallyAt (cell c CK.xy) () ((sched m).expect (cell c CK.xy) 0))
    ∗ bs3 (fun i => cred (tallyAt (cell c (CK.zr i)) () ((sched m).expect (cell c (CK.zr i)) 0)))
    ∗ bs2 (fun j => cred (tallyAt (cell c (CK.orr j)) () ((sched m).expect (cell c (CK.orr j)) 0)))
    ∗ bs3 (fun t => bs2 fun j => cred (tallyAt (cell c (CK.rr (bIdx (pk t c)) j)) () ((sched m).expect (cell c (CK.rr (bIdx (pk t c)) j)) 0))))

theorem whole_pts_eq (b : Ref sig .tc) (c : Dev nD) (q : PosShare TreeShare) (f : Buf (Elt F) ((c : Thread nD τ).loc b)) :
    (((Memref.whole b).view.loc (c : Thread nD τ)) ↦[(Memref.whole b).view.set]{q} f : sProp 𝕄) = (((c : Thread nD τ).loc b) ↦{q} f) := by
  rw [show (Memref.whole b).view.set = Finset.univ from View.set_whole _]

def restPts (c : Dev nD) : sProp 𝕄 :=
  iprop((((Memref.whole main_arg4).view.loc (c : Thread nD τ)) ↦[(Memref.whole main_arg4).view.set]{fullShare} m ((c : Thread nD τ).loc main_arg4))
    ∗ (((Memref.whole main_arg7).view.loc (c : Thread nD τ)) ↦[(Memref.whole main_arg7).view.set]{fullShare} m ((c : Thread nD τ).loc main_arg7)))

theorem restPts_eq (c : Dev nD) :
    restPts m c = iprop((((c : Thread nD τ).loc main_arg4) ↦{fullShare} m ((c : Thread nD τ).loc main_arg4))
      ∗ (((c : Thread nD τ).loc main_arg7) ↦{fullShare} m ((c : Thread nD τ).loc main_arg7))) := by
  unfold restPts; rw [whole_pts_eq, whole_pts_eq]

def wlZero (c : Dev nD) : sProp 𝕄 :=
  iprop(semVal ((c : Thread nD τ), SemLoc.dma wl0) 0 ∗ semVal ((c : Thread nD τ), SemLoc.dma wl1) 0)

def scratchAny (c : Dev nD) : sProp 𝕄 :=
  iprop((∃ f, pts cRefM c fullShare f) ∗ (∃ f, pts cRecvM c fullShare f) ∗ (∃ f, pts wukSendM c fullShare f) ∗ (∃ f, pts wukRecvM c fullShare f)
    ∗ (∃ f, pts wuvSendM c fullShare f) ∗ (∃ f, pts wuvRecvM c fullShare f) ∗ (∃ f, pts oblkW c fullShare f) ∗ (∃ f, pts rblkW c fullShare f)
    ∗ (∃ f, pts wbufW c fullShare f) ∗ (∃ f, pts opSendW c fullShare f) ∗ (∃ f, pts opRecvW c fullShare f))

theorem scratchAny_eq (c : Dev nD) :
    (scratchAny c : sProp 𝕄) = Pipeline.scopedRest (Ix := Unit) (Name := ℕ) (U := UU) (Lvl := ℕ) (Val := Elt F) cfg0.spec c := by
  rw [scopedRest0_eq]
  unfold scratchAny
  simp only [pts, View.set_whole] <;> rfl

def start (c : Dev nD) : sProp 𝕄 :=
  iprop((∃ K, ghost m K c) ∗ creds m c ∗ levAts L lv ∗ wlZero c ∗ restPts m c)

def Φ₀ (c : Dev nD) : sProp 𝕄 := iprop(start m c ∗ scratchAny c)

def Φ₁ (c : Dev nD) : sProp 𝕄 :=
  iprop(scratchAny c ∗ bigSepL ownCKs (fun k => semVal (cell c k) 0) ∗ wlZero c ∗ restPts m c)

def aft (c : Dev nD) : (w : Fin cfg0.W) → (cfg0.win w).block.Idx → Elt F (cfg0.win w).elt
  | ⟨0, _⟩ => stg0 m c
  | ⟨1, _⟩ => stg1 m c
  | ⟨2, _⟩ => stg2 m c
  | ⟨3, _⟩ => stg3 m c
  | ⟨4, _⟩ => stg4 m c
  | ⟨5, _⟩ => stg5 m c
  | ⟨6, _⟩ => outFinal m c
  | ⟨_ + 7, h⟩ => absurd h (Nat.not_lt.2 (Nat.le_add_left _ _))

def dats (m : (ℓ : Loc nD τ sig) → Buf (Elt F) ℓ) (ρ : Dev nD → PrngReg) (_ : Fin 1) (c : Dev nD) : Dat τ (Elt F) Unit ℕ UU ℕ cfg0 c where
  A w := m ((cfg0.win w).arr.view.loc (c : Thread nD τ))
  after w _ := aft m c w
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Proto

end
-- ==== Proof.Glob.lean ====
import proofs.«900573_g7700000000000574_dist_mla_v7x_xyz2x2x2_z_b1_s1024_d2048_dc128_bf16_1_alg».proof.Proof.Data
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev OKey : Type := {k : CK // k ≠ CK.bar} ⊕ Fin 2
abbrev wlSem (i : Fin 2) : SemLoc sig := match i with | 0 => SemLoc.dma wl0 | 1 => SemLoc.dma wl1
abbrev osem : OKey → SemLoc sig := Sum.elim (fun k => csem k.1) wlSem

theorem ownSemFacts : Pipeline.OwnSemFacts cfg0.spec osem := by decide

theorem unscopedSems0_eq (c : Dev nD) : (unscopedSems0 c : sProp 𝕄) = semVal (cell c CK.bar) 0 := by
  unfold unscopedSems0; rw [bigSep_eq_bigSepL_of_eq [csem CK.bar] (by decide) (by decide)]; rfl

theorem ownSems0_erase (c : Dev nD) :
    (Pipeline.ownSems0 (Ix := Unit) (Name := ℕ) (U := UU) (Lvl := ℕ) (Val := Elt F) (τ := τ) osem c : sProp 𝕄)
      = iprop((bigSep (Finset.univ.erase CK.bar) fun k : CK => semVal (cell c k) 0) ∗ wlZero c) := by
  unfold Pipeline.ownSems0 wlZero
  rw [bigSep_univ_sum, ← bigSep_subtype_ne CK.bar (fun k : CK => (semVal (cell c k) 0 : sProp 𝕄)), bs2_eq]
  rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (cell c k) 0) ∗ wlZero c : sProp 𝕄) := by
  rw [ownSems0_erase, unscopedSems0_eq, bigSep_univ_at (fun k : CK => (semVal (cell c k) 0 : sProp 𝕄)) CK.bar]
  iintro ⟨⟨Hk, Hw⟩, HB⟩
  isplitr [Hw]
  · isplitl [HB] <;> iassumption
  · iexact Hw

abbrev kcell (ck : Dev nD × CK) : GSem nD τ sig := cell ck.1 ck.2
def ringCells : Finset (GSem nD τ sig) := Finset.univ.map ⟨kcell, cell_injective⟩

abbrev TK : Type := Unit ⊕ Fin 3 ⊕ Fin 3 ⊕ Fin 3 ⊕ Fin 2 ⊕ Fin 2 ⊕ (Fin 3 × Fin 2) ⊕ (Fin 3 × Fin 2)
def tkCell (c : Dev nD) : TK → CK :=
  Sum.elim (fun _ => CK.bar) <| Sum.elim (fun _ => CK.xy) <| Sum.elim CK.zs <| Sum.elim CK.zr <| Sum.elim CK.os <| Sum.elim CK.orr <|
    Sum.elim (fun tj => CK.rs tj.1 tj.2) (fun tj => CK.rr (bIdx (pk tj.1 c)) tj.2)
def tkDuty : TK → DN := Sum.elim (fun _ => 0) <| Sum.elim (fun t => t) (fun _ => 0)
abbrev tokOf (cx : Dev nD × TK) : GSem nD τ sig × ℕ × DN := (cell cx.1 (tkCell cx.1 cx.2), 0, tkDuty cx.2)

theorem pk_inj_t (c : Dev nD) {t t' : Fin 3} (h : pk t c = pk t' c) : t = t' := by
  have hc : c.val < 8 := c.isLt
  have d01 : p0 c ≠ p1 c := fun e => by have := congrArg Fin.val e; rw [p0_val, p1_val] at this; omega
  have d02 : p0 c ≠ p2 c := fun e => by have := congrArg Fin.val e; rw [p0_val, p2_val] at this; omega
  have d12 : p1 c ≠ p2 c := fun e => by have := congrArg Fin.val e; rw [p1_val, p2_val] at this; omega
  match t, t', h with
  | 0, 0, _ => rfl
  | 1, 1, _ => rfl
  | 2, 2, _ => rfl
  | 0, 1, h => exact absurd h d01
  | 1, 0, h => exact absurd h.symm d01
  | 0, 2, h => exact absurd h d02
  | 2, 0, h => exact absurd h.symm d02
  | 1, 2, h => exact absurd h d12
  | 2, 1, h => exact absurd h.symm d12

theorem bIdx_pk_inj (c : Dev nD) {t t' : Fin 3} (h : bIdx (pk t c) = bIdx (pk t' c)) : t = t' :=
  pk_inj_t c (by rw [← srcDev_pk t c, ← srcDev_pk t' c, h])

theorem tk_inj (c : Dev nD) : Function.Injective (fun x : TK => (tkCell c x, tkDuty x)) := by
  intro x y h
  have h1 : tkCell c x = tkCell c y := congrArg Prod.fst h
  have h2 : tkDuty x = tkDuty y := congrArg Prod.snd h
  rcases x with _ | t | i | i | j | j | ⟨t, j⟩ | ⟨t, j⟩ <;> rcases y with _ | t' | i' | i' | j' | j' | ⟨t', j'⟩ | ⟨t', j'⟩ <;>
    simp only [tkCell, tkDuty, Sum.elim_inl, Sum.elim_inr, Function.comp, reduceCtorEq, CK.zs.injEq, CK.zr.injEq, CK.os.injEq, CK.orr.injEq,
      CK.rs.injEq, CK.rr.injEq] at h1 h2 <;>
    first
      | rfl
      | (subst h2; rfl)
      | (subst h1; rfl)
      | (obtain ⟨ha, hb⟩ := h1; subst ha; subst hb; rfl)
      | (obtain ⟨ha, hb⟩ := h1; have := bIdx_pk_inj c ha; subst this; subst hb; rfl)

theorem tokOf_injective : Function.Injective (tokOf : Dev nD × TK → GSem nD τ sig × ℕ × DN) := by
  rintro ⟨c, x⟩ ⟨c', y⟩ h
  have h1 : c = c' := congrArg (fun z : GSem nD τ sig × ℕ × DN => z.1.1.1) h
  subst h1
  have hc : cell c (tkCell c x) = cell c (tkCell c y) := congrArg (fun z : GSem nD τ sig × ℕ × DN => z.1) h
  have hk : tkCell c x = tkCell c y := congrArg Prod.snd (cell_injective (a₁ := (c, tkCell c x)) (a₂ := (c, tkCell c y)) hc)
  have hd : tkDuty x = tkDuty y := congrArg (fun z : GSem nD τ sig × ℕ × DN => z.2.2) h
  rw [tk_inj c (a₁ := x) (a₂ := y) (Prod.ext hk hd)]
def ringToks : Finset (GSem nD τ sig × ℕ × DN) := Finset.univ.map ⟨tokOf, tokOf_injective⟩

def u₀ : UU :=
  (initOf (Pipeline.cells cfgs cellOf_inj) (Pipeline.launchToks cfgs cellOf_inj), (initOf ringCells ringToks, 1))

theorem own_ER_eq (x : UB) : (BI.own ((embR : Emb (UB × Counters) 𝕄) (x, (1 : Counters))) : sProp 𝕄) = BI.own (ER x) := rfl

def toks (c : Dev nD) : sProp 𝕄 := bigSep Finset.univ fun x : TK => dutyTok ER (cell c (tkCell c x)) 0 (tkDuty x)

def G (c : Dev nD) : sProp 𝕄 :=
  iprop((bigSep Finset.univ fun k : CK => roundState ER (sched m) (cell c k) 0)
    ∗ (bigSep Finset.univ fun k : CK => iprop(atPos ER (cell c k) 0 (∅ : Finset DN) 0 ∗ reached ER (cell c k) 0)) ∗ toks c)

def G' (c : Dev nD) : sProp 𝕄 := iprop((∃ K, ghost m K c) ∗ wlZero c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (cell c k)))
          ∗ (bigSep Finset.univ fun k : CK => iprop(atPos ER (cell c k) 0 (∅ : Finset DN) 0 ∗ reached ER (cell c k) 0)) ∗ toks c ∗ wlZero c) := by
  unfold G
  iintro ⟨Hos, Hus, Hst, Hat, Htok⟩
  ihave Hv := (sems0_eq (F := F) c) $$ [Hos Hus]
  · isplitl [Hos] <;> iassumption
  icases Hv with ⟨Hv, Hw⟩
  imod (show iprop((bigSep Finset.univ fun k : CK => semVal (cell c k) 0) ∗ bigSep Finset.univ fun k : CK => roundState ER (sched m) (cell c k) 0)
      ⊢ (|={Set.univ}=> bigSep Finset.univ fun k : CK => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hw

def zpE : Dev nD ≃ Dev nD := ⟨zp, zp, zp_zp, zp_zp⟩
def pkE (t : Fin 3) : Dev nD ≃ Dev nD := ⟨pk t, pk t, pk_pk t, pk_pk t⟩

theorem deal {I : Type} [Fintype I] (f : I → (Dev nD ≃ Dev nD)) (Φ : Dev nD → I → sProp 𝕄) :
    (bigSep Finset.univ fun c : Dev nD => bigSep Finset.univ fun i : I => Φ c i)
      = bigSep Finset.univ fun d : Dev nD => bigSep Finset.univ fun i : I => Φ (f i d) i := by
  rw [bigSep_univ_comm Φ, bigSep_univ_comm (fun d i => Φ (f i d) i)]
  exact bigSep_congr fun i _ => bigSep_univ_equiv (f i) (fun c => Φ c i)

def toksG (c : Dev nD) : sProp 𝕄 :=
  iprop(dutyTok ER (cell c CK.bar) 0 (0 : DN)
    ∗ (bigSep Finset.univ fun t : Fin 3 => dutyTok ER (cell c CK.xy) 0 (t : DN))
    ∗ (bigSep Finset.univ fun i : Fin 3 => dutyTok ER (cell c (CK.zs i)) 0 (0 : DN))
    ∗ (bigSep Finset.univ fun i : Fin 3 => dutyTok ER (cell c (CK.zr i)) 0 (0 : DN))
    ∗ (bigSep Finset.univ fun j : Fin 2 => dutyTok ER (cell c (CK.os j)) 0 (0 : DN))
    ∗ (bigSep Finset.univ fun j : Fin 2 => dutyTok ER (cell c (CK.orr j)) 0 (0 : DN))
    ∗ (bigSep Finset.univ fun tj : Fin 3 × Fin 2 => dutyTok ER (cell c (CK.rs tj.1 tj.2)) 0 (0 : DN))
    ∗ (bigSep Finset.univ fun tj : Fin 3 × Fin 2 => dutyTok ER (cell c (CK.rr (bIdx (pk tj.1 c)) tj.2)) 0 (0 : DN)))

def payG (d : Dev nD) : sProp 𝕄 :=
  iprop(dutyTok ER (cell (zp d) CK.bar) 0 (0 : DN)
    ∗ (bigSep Finset.univ fun t : Fin 3 => dutyTok ER (cell (pk t d) CK.xy) 0 (t : DN))
    ∗ (bigSep Finset.univ fun i : Fin 3 => dutyTok ER (cell d (CK.zs i)) 0 (0 : DN))
    ∗ (bigSep Finset.univ fun i : Fin 3 => dutyTok ER (cell (zp d) (CK.zr i)) 0 (0 : DN))
    ∗ (bigSep Finset.univ fun j : Fin 2 => dutyTok ER (cell d (CK.os j)) 0 (0 : DN))
    ∗ (bigSep Finset.univ fun j : Fin 2 => dutyTok ER (cell (zp d) (CK.orr j)) 0 (0 : DN))
    ∗ (bigSep Finset.univ fun tj : Fin 3 × Fin 2 => dutyTok ER (cell d (CK.rs tj.1 tj.2)) 0 (0 : DN))
    ∗ (bigSep Finset.univ fun tj : Fin 3 × Fin 2 => dutyTok ER (cell (pk tj.1 d) (CK.rr (bIdx d) tj.2)) 0 (0 : DN)))

theorem toks_eq (c : Dev nD) : (toks c : sProp 𝕄) = toksG c := by
  unfold toks toksG
  rw [bigSep_univ_sum, bigSep_univ_sum, bigSep_univ_sum, bigSep_univ_sum, bigSep_univ_sum, bigSep_univ_sum, bigSep_univ_sum,
    bigSep_univ_of_subsingleton ()]
  rfl

theorem payG_eq (d : Dev nD) : (payG d : sProp 𝕄) = payToks d := by
  unfold payG payToks
  simp only [bigSep_univ_prod, bs3_eq, bs2_eq]

theorem toks_around : (bigSep Finset.univ fun c : Dev nD => (toks c : sProp 𝕄)) ⊢ bigSep Finset.univ fun d : Dev nD => (payG d : sProp 𝕄) := by
  rw [bigSep_congr (s := Finset.univ) fun (c : Dev nD) _ => toks_eq (F := F) c]
  unfold toksG payG
  simp only [bigSep_sep']
  refine sep_mono (Entails.of_eq ?_) (sep_mono (Entails.of_eq ?_) (sep_mono .rfl (sep_mono (Entails.of_eq ?_) (sep_mono .rfl
    (sep_mono (Entails.of_eq ?_) (sep_mono .rfl (Entails.of_eq ?_)))))))
  · exact bigSep_univ_equiv zpE (fun c : Dev nD => (dutyTok ER (cell c CK.bar) 0 (0 : DN) : sProp 𝕄))
  · exact deal pkE (fun (c : Dev nD) (t : Fin 3) => (dutyTok ER (cell c CK.xy) 0 (t : DN) : sProp 𝕄))
  · exact deal (fun _ => zpE) (fun (c : Dev nD) (i : Fin 3) => (dutyTok ER (cell c (CK.zr i)) 0 (0 : DN) : sProp 𝕄))
  · exact deal (fun _ => zpE) (fun (c : Dev nD) (j : Fin 2) => (dutyTok ER (cell c (CK.orr j)) 0 (0 : DN) : sProp 𝕄))
  · refine (deal (fun tj : Fin 3 × Fin 2 => pkE tj.1) (fun (c : Dev nD) (tj : Fin 3 × Fin 2) =>
      (dutyTok ER (cell c (CK.rr (bIdx (pk tj.1 c)) tj.2)) 0 (0 : DN) : sProp 𝕄))).trans ?_
    exact bigSep_congr fun d _ => bigSep_congr fun tj _ => by
      show (dutyTok ER (cell (pk tj.1 d) (CK.rr (bIdx (pk tj.1 (pk tj.1 d))) tj.2)) 0 (0 : DN) : sProp 𝕄) = _
      rw [pk_pk]

def linear (c : Dev nD) : sProp 𝕄 :=
  iprop((bigSep Finset.univ fun k : CK => atPos ER (cell c k) 0 (∅ : Finset DN) 0) ∗ payG c)

theorem ghost_intro (K : Dev nD × CK → ℕ) (c : Dev nD) : iprop(records m K ∗ linear c) ⊢ iprop(∃ K, ghost m K c) := by
  unfold linear ghost
  rw [payG_eq, bigSep_univ_eq_bigSepL allCKs (by decide) (by decide)]
  iintro ⟨#HR, Hat, Htok⟩
  iexists K
  isplitr; · iexact HR
  isplitl [Hat] <;> iassumption

theorem regroup :
    (bigSep Finset.univ fun c : Dev nD => iprop((bigSep Finset.univ fun k : CK => iprop(∃ κ : ℕ, cellInv ER (sched m) κ (cell c k)))
          ∗ (bigSep Finset.univ fun k : CK => iprop(atPos ER (cell c k) 0 (∅ : Finset DN) 0 ∗ reached ER (cell c k) 0)) ∗ toks c ∗ wlZero c) : sProp 𝕄)
      ⊢ bigSep Finset.univ (G' m) := by
  rw [bigSep_sep', bigSep_sep', bigSep_sep', ← bigSep_univ_prod (fun ck : Dev nD × CK => iprop(∃ κ : ℕ, cellInv ER (sched m) κ (cell ck.1 ck.2))),
    bigSep_congr (s := Finset.univ) (fun (c : Dev nD) _ => bigSep_sep' Finset.univ (fun k : CK => (atPos ER (cell c k) 0 (∅ : Finset DN) 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok, Hw⟩
  ihave HK := (BI.bigSep_exists_pi Finset.univ (fun (ck : Dev nD × CK) (κ : ℕ) => (cellInv ER (sched m) κ (cell ck.1 ck.2) : sProp 𝕄))) $$ HI
  icases HK with ⟨%K, #HI⟩
  ihave Htk := (toks_around (F := F)) $$ Htok
  unfold G'
  rw [bigSep_sep']
  isplitr [Hw]
  · iapply (bigSep_with_persistent (R := records m K) fun c _ => ghost_intro m K c)
    isplitr
    · unfold records; isplitl; · iexact HI
      iexact HR
    · iapply (Entails.of_eq (bigSep_sep' Finset.univ (fun c : Dev nD => bigSep Finset.univ fun k : CK => (atPos ER (cell c k) 0 (∅ : Finset DN) 0 : sProp 𝕄)) payG).symm)
      isplitl [Hat]; · iexact Hat
      iexact Htk
  · iexact Hw

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Proto

end
-- ==== Proof.LaunchCred.lean ====
import proofs.«900573_g7700000000000574_dist_mla_v7x_xyz2x2x2_z_b1_s1024_d2048_dc128_bf16_1_alg».proof.Proof.Data

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in

theorem lc_split (O D : Dev nD → CellTallies nD τ sig Unit) (c : Dev nD) (P Q : sProp 𝕄)
    (hO : (Pipeline.launchCred O c : sProp 𝕄) ⊢ P) (hD : (Pipeline.launchCred D c : sProp 𝕄) ⊢ Q) :
    (Pipeline.launchCred (fun d => O d + D d) c : sProp 𝕄) ⊢ iprop(P ∗ Q) := by
  rw [Pipeline.launchCred_add]
  exact BI.sep_mono hO hD

omit [FloatOps F] in

theorem launchCred_tallyAt_dep (sm : Dev nD → SemLoc sig) (f finv : Dev nD → Dev nD) (h1 : ∀ c, f (finv c) = c)
    (h2 : ∀ d, finv (f d) = d) (n : ℕ) (c : Dev nD) :
    (Pipeline.launchCred (fun d => tallyAt (((f d) : Thread nD τ), sm d) () n) c : sProp 𝕄)
      ⊢ cred (tallyAt ((c : Thread nD τ), sm (finv c)) () n) := by
  refine (Pipeline.launchCred_elim _ c (sm (finv c))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d) : Thread nD τ), sm d) (Finsupp.single () n) ((c : Thread nD τ), sm (finv c)) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

abbrev crK (m : (ℓ : Loc nD τ sig) → Buf (Elt F) ℓ) (c : Dev nD) (k : CK) : sProp 𝕄 :=
  cred (tallyAt (cell c k) () ((sched m).expect (cell c k) 0))

theorem lc_bar (m : (ℓ : Loc nD τ sig) → Buf (Elt F) ℓ) (c : Dev nD) :
    (Pipeline.launchCred (fun d => tallyAt (cell (zp d) CK.bar) () 1) c : sProp 𝕄) ⊢ crK m c CK.bar := by
  show _ ⊢ cred (tallyAt (cell c CK.bar) () ((sched m).expect (cell c CK.bar) 0))
  rw [expect_bar]
  exact Pipeline.launchCred_tallyAt (csem CK.bar) zp zp zp_zp zp_zp () 1 c

omit [FloatOps F] in

theorem lc_xy (t : Fin 3) (c : Dev nD) :
    (Pipeline.launchCred (fun d => tallyAt (cell (pk t d) CK.xy) () 1) c : sProp 𝕄) ⊢ cred (tallyAt (cell c CK.xy) () 1) :=
  Pipeline.launchCred_tallyAt (csem CK.xy) (pk t) (pk t) (pk_pk t) (pk_pk t) () 1 c

theorem cred_xy3 (m : (ℓ : Loc nD τ sig) → Buf (Elt F) ℓ) (c : Dev nD) :
    (iprop(cred (tallyAt (cell c CK.xy) () 1) ∗ cred (tallyAt (cell c CK.xy) () 1) ∗ cred (tallyAt (cell c CK.xy) () 1)) : sProp 𝕄)
      ⊢ crK m c CK.xy := by
  show _ ⊢ cred (tallyAt (cell c CK.xy) () ((sched m).expect (cell c CK.xy) 0))
  rw [expect_xy]
  refine (sep_mono_right (cred_add _ _).2).trans ?_
  refine (cred_add _ _).2.trans ?_
  rw [tallyAt_add, tallyAt_add]

theorem lc_zr0 (m : (ℓ : Loc nD τ sig) → Buf (Elt F) ℓ) (c : Dev nD) :
    (Pipeline.launchCred (fun d => tallyAt (cell (zp d) (CK.zr 0)) () Nc) c : sProp 𝕄) ⊢ crK m c (CK.zr 0) := by
  show _ ⊢ cred (tallyAt (cell c (CK.zr 0)) () ((sched m).expect (cell c (CK.zr 0)) 0))
  rw [expect_zr]
  exact Pipeline.launchCred_tallyAt (csem (CK.zr 0)) zp zp zp_zp zp_zp () Nc c
theorem lc_zr1 (m : (ℓ : Loc nD τ sig) → Buf (Elt F) ℓ) (c : Dev nD) :
    (Pipeline.launchCred (fun d => tallyAt (cell (zp d) (CK.zr 1)) () Nk) c : sProp 𝕄) ⊢ crK m c (CK.zr 1) := by
  show _ ⊢ cred (tallyAt (cell c (CK.zr 1)) () ((sched m).expect (cell c (CK.zr 1)) 0))
  rw [expect_zr]
  exact Pipeline.launchCred_tallyAt (csem (CK.zr 1)) zp zp zp_zp zp_zp () Nk c
theorem lc_zr2 (m : (ℓ : Loc nD τ sig) → Buf (Elt F) ℓ) (c : Dev nD) :
    (Pipeline.launchCred (fun d => tallyAt (cell (zp d) (CK.zr 2)) () Nv) c : sProp 𝕄) ⊢ crK m c (CK.zr 2) := by
  show _ ⊢ cred (tallyAt (cell c (CK.zr 2)) () ((sched m).expect (cell c (CK.zr 2)) 0))
  rw [expect_zr]
  exact Pipeline.launchCred_tallyAt (csem (CK.zr 2)) zp zp zp_zp zp_zp () Nv c

theorem lc_orr (m : (ℓ : Loc nD τ sig) → Buf (Elt F) ℓ) (j : Fin 2) (c : Dev nD) :
    (Pipeline.launchCred (fun d => tallyAt (cell (zp d) (CK.orr j)) () No) c : sProp 𝕄) ⊢ crK m c (CK.orr j) := by
  show _ ⊢ cred (tallyAt (cell c (CK.orr j)) () ((sched m).expect (cell c (CK.orr j)) 0))
  rw [expect_orr]
  exact Pipeline.launchCred_tallyAt (csem (CK.orr j)) zp zp zp_zp zp_zp () No c

theorem lc_rr (m : (ℓ : Loc nD τ sig) → Buf (Elt F) ℓ) (t : Fin 3) (j : Fin 2) (c : Dev nD) :
    (Pipeline.launchCred (fun d => tallyAt (cell (pk t d) (CK.rr (bIdx d) j)) () Nr) c : sProp 𝕄)
      ⊢ crK m c (CK.rr (bIdx (pk t c)) j) := by
  show _ ⊢ cred (tallyAt (cell c (CK.rr (bIdx (pk t c)) j)) () ((sched m).expect (cell c (CK.rr (bIdx (pk t c)) j)) 0))
  rw [expect_rr m c _ _ (bIdx_pk_ne t c)]
  exact launchCred_tallyAt_dep (fun d => csem (CK.rr (bIdx d) j)) (pk t) (pk t) (pk_pk t) (pk_pk t) Nr c

theorem creds_intro (m : (ℓ : Loc nD τ sig) → Buf (Elt F) ℓ) (c : Dev nD) : (Pipeline.launchCred O₀ c : sProp 𝕄) ⊢ creds m c := by
  have h1 := lc_split (fun d => tallyAt (cell (p2 d) (CK.rr (bIdx d) 1)) () Nr) (fun d => tallyAt (cell (p1 d) (CK.rr (bIdx d) 1)) () Nr) c _ _ (lc_rr m 2 1 c) (lc_rr m 1 1 c)
  have h2 := lc_split (fun d => tallyAt (cell (p2 d) (CK.rr (bIdx d) 1)) () Nr + tallyAt (cell (p1 d) (CK.rr (bIdx d) 1)) () Nr) (fun d => tallyAt (cell (p0 d) (CK.rr (bIdx d) 1)) () Nr) c _ _ h1 (lc_rr m 0 1 c)
  have h3 := lc_split O_rr1 (fun d => tallyAt (cell (p2 d) (CK.rr (bIdx d) 0)) () Nr) c _ _ h2 (lc_rr m 2 0 c)
  have h4 := lc_split (fun d => O_rr1 d + tallyAt (cell (p2 d) (CK.rr (bIdx d) 0)) () Nr) (fun d => tallyAt (cell (p1 d) (CK.rr (bIdx d) 0)) () Nr) c _ _ h3 (lc_rr m 1 0 c)
  have h5 := lc_split (fun d => O_rr1 d + tallyAt (cell (p2 d) (CK.rr (bIdx d) 0)) () Nr + tallyAt (cell (p1 d) (CK.rr (bIdx d) 0)) () Nr) (fun d => tallyAt (cell (p0 d) (CK.rr (bIdx d) 0)) () Nr) c _ _ h4 (lc_rr m 0 0 c)
  have h6 := lc_split O_rr (fun d => tallyAt (cell (zp d) (CK.orr 1)) () No) c _ _ h5 (lc_orr m 1 c)
  have h7 := lc_split O_or1 (fun d => tallyAt (cell (zp d) (CK.orr 0)) () No) c _ _ h6 (lc_orr m 0 c)
  have h8 := lc_split O_or (fun d => tallyAt (cell (zp d) (CK.zr 2)) () Nv) c _ _ h7 (lc_zr2 m c)
  have h9 := lc_split (fun d => O_or d + tallyAt (cell (zp d) (CK.zr 2)) () Nv) (fun d => tallyAt (cell (zp d) (CK.zr 1)) () Nk) c _ _ h8 (lc_zr1 m c)
  have h10 := lc_split (fun d => O_or d + tallyAt (cell (zp d) (CK.zr 2)) () Nv + tallyAt (cell (zp d) (CK.zr 1)) () Nk) (fun d => tallyAt (cell (zp d) (CK.zr 0)) () Nc) c _ _ h9 (lc_zr0 m c)
  have h11 := lc_split O_zr (fun d => tallyAt (cell (p2 d) CK.xy) () 1) c _ _ h10 (lc_xy (F := F) 2 c)
  have h12 := lc_split (fun d => O_zr d + tallyAt (cell (p2 d) CK.xy) () 1) (fun d => tallyAt (cell (p1 d) CK.xy) () 1) c _ _ h11 (lc_xy (F := F) 1 c)
  have h13 := lc_split (fun d => O_zr d + tallyAt (cell (p2 d) CK.xy) () 1 + tallyAt (cell (p1 d) CK.xy) () 1) (fun d => tallyAt (cell (p0 d) CK.xy) () 1) c _ _ h12 (lc_xy (F := F) 0 c)
  have h14 := lc_split O_xy (fun d => tallyAt (cell (zp d) CK.bar) () 1) c _ _ h13 (lc_bar m c)
  refine h14.trans ?_
  show _ ⊢ iprop(crK m c CK.bar ∗ crK m c CK.xy
    ∗ (crK m c (CK.zr 0) ∗ crK m c (CK.zr 1) ∗ crK m c (CK.zr 2))
    ∗ (crK m c (CK.orr 0) ∗ crK m c (CK.orr 1))
    ∗ ((crK m c (CK.rr (bIdx (pk 0 c)) 0) ∗ crK m c (CK.rr (bIdx (pk 0 c)) 1))
      ∗ (crK m c (CK.rr (bIdx (pk 1 c)) 0) ∗ crK m c (CK.rr (bIdx (pk 1 c)) 1))
      ∗ (crK m c (CK.rr (bIdx (pk 2 c)) 0) ∗ crK m c (CK.rr (bIdx (pk 2 c)) 1))))
  iintro ⟨⟨⟨⟨⟨⟨⟨⟨⟨⟨⟨⟨⟨⟨A21, A11⟩, A01⟩, A20⟩, A10⟩, A00⟩, Or1⟩, Or0⟩, Z2⟩, Z1⟩, Z0⟩, X2⟩, X1⟩, X0⟩, B⟩
  isplitl [B]; · iexact B
  isplitl [X0 X1 X2]
  · iapply cred_xy3 m c
    isplitl [X0]; · iexact X0
    isplitl [X1]; · iexact X1
    iexact X2
  isplitl [Z0 Z1 Z2]
  · isplitl [Z0]; · iexact Z0
    isplitl [Z1]; · iexact Z1
    iexact Z2
  isplitl [Or0 Or1]
  · isplitl [Or0]; · iexact Or0
    iexact Or1
  isplitl [A00 A01]
  · isplitl [A00]; · iexact A00
    iexact A01
  isplitl [A10 A11]
  · isplitl [A10]; · iexact A10
    iexact A11
  isplitl [A20]; · iexact A20
  iexact A21

end Cert.KernelIdeal.Proto

end
-- ==== Proof.Launch.lean ====
import proofs.«900573_g7700000000000574_dist_mla_v7x_xyz2x2x2_z_b1_s1024_d2048_dc128_bf16_1_alg».proof.Proof.Glob
import proofs.«900573_g7700000000000574_dist_mla_v7x_xyz2x2x2_z_b1_s1024_d2048_dc128_bf16_1_alg».proof.Proof.LaunchCred
import proofs.«900573_g7700000000000574_dist_mla_v7x_xyz2x2x2_z_b1_s1024_d2048_dc128_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem ownSems0_eq (c : Dev nD) :
    (Pipeline.ownSems0 (Ix := Unit) (Name := ℕ) (U := UU) (Lvl := ℕ) (Val := Elt F) (τ := τ) osem c : sProp 𝕄)
      = iprop(bigSepL ownCKs (fun k => semVal (cell c k) 0) ∗ wlZero c) := by
  rw [ownSems0_erase, bigSep_eq_bigSepL_of_eq ownCKs (by decide) (by decide) (fun k : CK => (semVal (cell c k) 0 : sProp 𝕄))]

theorem rest_intro (c : Dev nD) :
    (Pipeline.unscopedRestP Pipeline.Prefetch.none cfg0.spec c (fun b => m ((c : Thread nD τ).loc b)) : sProp 𝕄) = restPts m c := by
  rw [restPts_eq, Pipeline.unscopedRestP_none, unscopedRest0_eq]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [rest_intro]
  unfold G'
  iintro ⟨Hrest, Hlev, Hcr, -, Hg, Hw⟩
  ihave Hc := (creds_intro m c) $$ Hcr
  imodintro
  unfold start
  isplitl
  · isplitl [Hg]; · iexact Hg
    isplitl [Hc]; · iexact Hc
    isplitl [Hlev]; · iexact Hlev
    isplitl [Hw]; · iexact Hw
    iexact Hrest
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratchAny_eq]
  unfold Φ₀
  iintro ⟨Hs, -, Hr⟩
  isplitl [Hs] <;> iassumption

theorem phi1_exit (c : Dev nD) :
    (dats m ρ 0 c).Φ (Fin.last cfg0.N) ⊢ iprop(restPts m c ∗ Pipeline.ownSems0 osem c ∗ Pipeline.scopedRest cfg0.spec c) := by
  rw [show (dats m ρ 0 c).Φ (Fin.last cfg0.N) = Φ₁ m c from rfl, ← scratchAny_eq, ownSems0_eq]
  unfold Φ₁
  iintro ⟨Hs, Hk, Hw, Hr⟩
  isplitl [Hr]; · iexact Hr
  isplitl [Hk Hw]
  · isplitl [Hk] <;> iassumption
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem rest_read (c : Dev nD) (s' : Phys nD τ sig (Elt F)) :
    iprop(restPts m c ∗ iprop(emp) ∗ SI s') ⊢ (|={Set.univ}=> iprop(⌜s'.mem.mem ((c : Thread nD τ).loc main_arg4) = m ((c : Thread nD τ).loc main_arg4)
        ∧ s'.mem.mem ((c : Thread nD τ).loc main_arg7) = m ((c : Thread nD τ).loc main_arg7)⌝ ∗ SI s') : sProp 𝕄) := by
  rw [restPts_eq]
  iintro ⟨⟨H4, H7⟩, -, HSI⟩
  icombine HSI H4 gives %h4
  icombine HSI H7 gives %h7
  imodintro
  isplitr; · ipureintro; exact ⟨Buf.eq_of_forall_mem_univ h4, Buf.eq_of_forall_mem_univ h7⟩
  iexact HSI

def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg4) = m ((c : Thread nD τ).loc main_arg4)
    ∧ r.2.mem ((c : Thread nD τ).loc main_arg7) = m ((c : Thread nD τ).loc main_arg7)

set_option maxRecDepth 8000 in

theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX' := (Entails.of_eq (own_ER_eq (F := F) _)) $$ HX
      imod (fund_ring m) $$ HX' with HG
      imodintro
      isplitl [HP] <;> iassumption)
    (hglob := glob m)
    (hA := fun _ _ => rfl) (hpf := fun _ k => k.elim0)
    (X := start m) (Y := restPts m) (Z := fun _ => iprop(emp))
    (hX := start_intro m ρ) (hin := phi0_intro m ρ) (hout := phi1_exit m ρ)
    (QY := fun c s => s.mem ((c : Thread nD τ).loc main_arg4) = m ((c : Thread nD τ).loc main_arg4)
        ∧ s.mem ((c : Thread nD τ).loc main_arg7) = m ((c : Thread nD τ).loc main_arg7))
    (hY := rest_read m)
    (hQ := fun _ h c => ⟨(h c).1, (h c).2.2⟩)

theorem final_in (c : Dev nD) (w : Fin cfg0.W) (hin : (cfg0.win w).isOut = false) :
    (dats m ρ 0 c).arrAt w cfg0.N = m ((cfg0.win w).arr.view.loc (c : Thread nD τ)) :=
  (dats (F := F) m ρ 0 c).arrAt_in w hin _

theorem final_out_read (c : Dev nD) :
    ((cfg0.win (6 : Fin 7)).blk t0_0).view.read (Elt F) ((dats m ρ 0 c).arrAt (6 : Fin 7) cfg0.N) = (dats m ρ 0 c).flushed (6 : Fin 7) t0_0 := by
  rw [show cfg0.N = (t0_0 : Fin cfg0.N).val + 1 from rfl, (dats m ρ 0 c).arrAt_succ (6 : Fin 7) t0_0]
  rw [flush0_6 t0_0, if_pos rfl]
  exact View.read_write_univ _ _

theorem final_out (c : Dev nD) : (dats m ρ 0 c).arrAt (6 : Fin 7) cfg0.N = outFinal m c := by
  have ho := final_out_read m ρ c
  have hz : (fun a => (win0_6.index t0_0) a * main_v1.ty.shape.size a) = fun _ => 0 := funext fun a => by fin_cases a <;> decide
  have hr := fun f => Memref.read_access_unit_zero (Elt F) main_v1 hz (fun a => by fin_cases a <;> decide) f
  exact (hr _).symm.trans (ho.trans rfl)

def QV : PUnit × MemSt nD τ sig (Elt F) → Prop := fun r => ∀ c : Dev nD,
  r.2.mem ((c : Thread nD τ).loc main_v1) = outFinal m c
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)
  ∧ r.2.mem ((c : Thread nD τ).loc main_arg6) = m ((c : Thread nD τ).loc main_arg6)
  ∧ r.2.mem ((c : Thread nD τ).loc main_arg7) = m ((c : Thread nD τ).loc main_arg7)

theorem run_main_val (hbody : ∀ c, BodyObligation (dats (F := F) m ρ 0 c) (defs₀ (F := F)) 𝒱₀ () Set.univ) :
    θ_run defs (onTc (τ := τ) (main (F := F))) (s₀ m ρ) (QV m) :=
  (θ_run defs _ _).mono (fun _ h c => ⟨((h c).1 6).trans (final_out m ρ c),
      ((h c).1 0).trans (final_in m ρ c 0 rfl), ((h c).1 1).trans (final_in m ρ c 1 rfl), ((h c).1 2).trans (final_in m ρ c 2 rfl),
      ((h c).1 3).trans (final_in m ρ c 3 rfl), (h c).2.1, ((h c).1 4).trans (final_in m ρ c 4 rfl), ((h c).1 5).trans (final_in m ρ c 5 rfl),
      (h c).2.2⟩) (run_main m ρ hbody)

end Cert.KernelIdeal.Proto

end
-- ==== Proof.BodyArgs.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

universe u

abbrev withBufs {α : Sort u} (f : (a0 : Memref sig .tc .vmem S1x1024x2048 .f32) → a0.IsWhole → (a1 : Memref sig .tc .vmem S2048x128 .f32) → a1.IsWhole → (a2 : Memref sig .tc .vmem S128x2048 .f32) → a2.IsWhole → (a3 : Memref sig .tc .vmem S128x2048 .f32) → a3.IsWhole → (a4 : Memref sig .tc .hbm S2048x2048 .f32) → a4.IsWhole → (a5 : Memref sig .tc .vmem S2048x512 .f32) → a5.IsWhole → (a6 : Memref sig .tc .vmem S2048x32 .f32) → a6.IsWhole → (a7 : Memref sig .tc .hbm S2048x2048 .f32) → a7.IsWhole → (a8 : Memref sig .tc .vmem S1x1024x2048 .f32) → a8.IsWhole → (a9 : Memref sig .tc .vmem S1024x128 .bf16) → a9.IsWhole → (a10 : Memref sig .tc .vmem S1024x128 .bf16) → a10.IsWhole → (a11 : Memref sig .tc .vmem S128x1024 .bf16) → a11.IsWhole → (a12 : Memref sig .tc .vmem S128x1024 .bf16) → a12.IsWhole → (a13 : Memref sig .tc .vmem S128x1024 .bf16) → a13.IsWhole → (a14 : Memref sig .tc .vmem S128x1024 .bf16) → a14.IsWhole → (a15 : Memref sig .tc .vmem S2x128x2048 .bf16) → a15.IsWhole → (a16 : Memref sig .tc .vmem S4x2x128x2048 .bf16) → a16.IsWhole → (a17 : Memref sig .tc .vmem S2x512x2048 .f32) → a17.IsWhole → (a18 : Memref sig .tc .vmem S2x128x2048 .bf16) → a18.IsWhole → (a19 : Memref sig .tc .vmem S2x128x2048 .bf16) → a19.IsWhole → DmaSems sig S3 → DmaSems sig S3 → DmaSems sig S3x2 → DmaSems sig S4x2 → DmaSems sig S2 → DmaSems sig S2 → DmaSems sig S2 → Sems sig S_ → α) : α :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole cc0_stg4_0) (Memref.isWhole_whole _) (Memref.whole cc0_stg5_0) (Memref.isWhole_whole _) (Memref.whole main_arg7) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18

abbrev bodyProg : Prog (TpuEff nD τ sig (Elt F) Λ₀ .tc) PUnit :=
  withBufs (cc0_body (F := F))

abbrev P1  : Prog (TpuEff nD τ sig (Elt F) Λ₀ .tc) (Σ' (d0 : Dev nD) (v2 : BitVec 32) (v5 : BitVec 32) (v8 : BitVec 32) (v9 : BitVec 32) (v11 : BitVec 32) (v12 : BitVec 32) (v13 : BitVec 32) (v14 : BitVec 32) (v15 : BitVec 32) (v16 : BitVec 32) (v17 : Sems sig S_) (v30 : BitVec 32), BitVec 32) :=
  withBufs (k0_part1 (F := F))

abbrev P2 (d0 : Dev nD) (v5 : BitVec 32) (v8 : BitVec 32) (v15 : BitVec 32) (v16 : BitVec 32) (v30 : BitVec 32) (c0_i32_20 : BitVec 32) : Prog (TpuEff nD τ sig (Elt F) Λ₀ .tc) (Σ' (v51 : FVec F S128x1024 .bf16) (v55 : FVec F S128x1024 .bf16), FVec F S128x1024 .bf16) :=
  withBufs (k0_part2 (F := F)) d0 v5 v8 v15 v16 v30 c0_i32_20

abbrev P3 (d0 : Dev nD) (v11 : BitVec 32) (v66 : FVec F S128x1024 .bf16) : Prog (TpuEff nD τ sig (Elt F) Λ₀ .tc) (Σ' (v72 : FVec F S1024x2048 .bf16) (v77 : FVec F S1024x128 .bf16), FVec F S256x2048 .bf16) :=
  withBufs (k0_part3 (F := F)) d0 v11 v66

abbrev P4 (d0 : Dev nD) (v85 : FVec F S256x2048 .bf16) : Prog (TpuEff nD τ sig (Elt F) Λ₀ .tc) (FVec F S256x1024 .f32) :=
  withBufs (k0_part4 (F := F)) d0 v85

abbrev P5 (d0 : Dev nD) (v2 : BitVec 32) (v5 : BitVec 32) (v9 : BitVec 32) (v17 : Sems sig S_) (v85 : FVec F S256x2048 .bf16) (v126 : FVec F S256x1024 .f32) : Prog (TpuEff nD τ sig (Elt F) Λ₀ .tc) (FVec F S256x1024 .bf16) :=
  withBufs (k0_part5 (F := F)) d0 v2 v5 v9 v17 v85 v126

abbrev P6 (d0 : Dev nD) (v2 : BitVec 32) (v5 : BitVec 32) (v8 : BitVec 32) (v9 : BitVec 32) (v51 : FVec F S128x1024 .bf16) (v55 : FVec F S128x1024 .bf16) (v72 : FVec F S1024x2048 .bf16) (v77 : FVec F S1024x128 .bf16) (v85 : FVec F S256x2048 .bf16) : Prog (TpuEff nD τ sig (Elt F) Λ₀ .tc) (Σ' (v188 : FVec F S256x256 .bf16) (v193 : FVec F S1024x32 .bf16) (v194 : FVec F S1024x1024 .f32), FVec F S1024x1024 .f32) :=
  withBufs (k0_part6 (F := F)) d0 v2 v5 v8 v9 v51 v55 v72 v77 v85

abbrev P7 (v2 : BitVec 32) (v5 : BitVec 32) (v9 : BitVec 32) : Prog (TpuEff nD τ sig (Elt F) Λ₀ .tc) (PUnit) :=
  withBufs (k0_part7 (F := F)) v2 v5 v9

abbrev P8 (v149 : FVec F S256x1024 .bf16) (v188 : FVec F S256x256 .bf16) (v193 : FVec F S1024x32 .bf16) (v194 : FVec F S1024x1024 .f32) (v195 : FVec F S1024x1024 .f32) : Prog (TpuEff nD τ sig (Elt F) Λ₀ .tc) (Σ' (v230 : FVec F S1024x1024 .bf16) (v234 : FVec F S1024x1024 .bf16) (v235 : FVec F S32x1024 .bf16) (v254 : FVec F S128x128 .f32) (v264 : FVec F S128x1024 .f32) (v266 : FVec F S128x1 .f32), FVec F S1024x128 .bf16) :=
  withBufs (k0_part8 (F := F)) v149 v188 v193 v194 v195

abbrev P9 (v149 : FVec F S256x1024 .bf16) (v188 : FVec F S256x256 .bf16) (v230 : FVec F S1024x1024 .bf16) (v234 : FVec F S1024x1024 .bf16) (v235 : FVec F S32x1024 .bf16) (v264 : FVec F S128x1024 .f32) (v266 : FVec F S128x1 .f32) (v267 : FVec F S1024x128 .bf16) : Prog (TpuEff nD τ sig (Elt F) Λ₀ .tc) (Σ' (v273 : FVec F S128x128 .f32) (v292 : FVec F S128x128 .f32) (v311 : FVec F S128x128 .f32) (v312 : FVec F S128x128 .bf16), FVec F S1024x128 .bf16) :=
  withBufs (k0_part9 (F := F)) v149 v188 v230 v234 v235 v264 v266 v267

abbrev P10 (v149 : FVec F S256x1024 .bf16) (v188 : FVec F S256x256 .bf16) (v230 : FVec F S1024x1024 .bf16) (v234 : FVec F S1024x1024 .bf16) (v235 : FVec F S32x1024 .bf16) (v312 : FVec F S128x128 .bf16) (v313 : FVec F S1024x128 .bf16) : Prog (TpuEff nD τ sig (Elt F) Λ₀ .tc) (Σ' (v330 : FVec F S128x128 .f32) (v349 : FVec F S128x128 .f32), FVec F S128x1024 .f32) :=
  withBufs (k0_part10 (F := F)) v149 v188 v230 v234 v235 v312 v313

abbrev P11 (d0 : Dev nD) (v12 : BitVec 32) (v149 : FVec F S256x1024 .bf16) (v188 : FVec F S256x256 .bf16) (v230 : FVec F S1024x1024 .bf16) (v234 : FVec F S1024x1024 .bf16) (v235 : FVec F S32x1024 .bf16) (v254 : FVec F S128x128 .f32) (v273 : FVec F S128x128 .f32) (v292 : FVec F S128x128 .f32) (v311 : FVec F S128x128 .f32) (v330 : FVec F S128x128 .f32) (v349 : FVec F S128x128 .f32) (v358 : FVec F S128x1024 .f32) : Prog (TpuEff nD τ sig (Elt F) Λ₀ .tc) (FVec F S128x1024 .bf16) :=
  withBufs (k0_part11 (F := F)) d0 v12 v149 v188 v230 v234 v235 v254 v273 v292 v311 v330 v349 v358

abbrev P12 (d0 : Dev nD) (v389 : FVec F S128x1024 .bf16) : Prog (TpuEff nD τ sig (Elt F) Λ₀ .tc) (Σ' (v422 : FVec F S128x2048 .f32), BitVec 32) :=
  withBufs (k0_part12 (F := F)) d0 v389

abbrev P13 (d0 : Dev nD) (v2 : BitVec 32) (v5 : BitVec 32) (v9 : BitVec 32) (v149 : FVec F S256x1024 .bf16) (v188 : FVec F S256x256 .bf16) (v230 : FVec F S1024x1024 .bf16) (v234 : FVec F S1024x1024 .bf16) (v235 : FVec F S32x1024 .bf16) (c4_i32_249 : BitVec 32) : Prog (TpuEff nD τ sig (Elt F) Λ₀ .tc) (Σ' (v459 : FVec F S128x128 .f32), FVec F S128x1024 .f32) :=
  withBufs (k0_part13 (F := F)) d0 v2 v5 v9 v149 v188 v230 v234 v235 c4_i32_249

abbrev P14 (v149 : FVec F S256x1024 .bf16) (v188 : FVec F S256x256 .bf16) (v230 : FVec F S1024x1024 .bf16) (v234 : FVec F S1024x1024 .bf16) (v235 : FVec F S32x1024 .bf16) (v469 : FVec F S128x1024 .f32) : Prog (TpuEff nD τ sig (Elt F) Λ₀ .tc) (Σ' (v478 : FVec F S128x128 .f32) (v497 : FVec F S128x128 .f32) (v512 : FVec F S128x128 .f32), FVec F S128x1 .f32) :=
  withBufs (k0_part14 (F := F)) v149 v188 v230 v234 v235 v469

abbrev P15 (v149 : FVec F S256x1024 .bf16) (v188 : FVec F S256x256 .bf16) (v230 : FVec F S1024x1024 .bf16) (v234 : FVec F S1024x1024 .bf16) (v235 : FVec F S32x1024 .bf16) (v512 : FVec F S128x128 .f32) (v514 : FVec F S128x1 .f32) : Prog (TpuEff nD τ sig (Elt F) Λ₀ .tc) (Σ' (v516 : FVec F S128x128 .f32) (v535 : FVec F S128x128 .f32) (v554 : FVec F S128x128 .f32) (v559 : FVec F S128x1024 .f32), FVec F S128x1024 .f32) :=
  withBufs (k0_part15 (F := F)) v149 v188 v230 v234 v235 v512 v514

abbrev P16 (d0 : Dev nD) (v12 : BitVec 32) (v149 : FVec F S256x1024 .bf16) (v188 : FVec F S256x256 .bf16) (v230 : FVec F S1024x1024 .bf16) (v234 : FVec F S1024x1024 .bf16) (v235 : FVec F S32x1024 .bf16) (v459 : FVec F S128x128 .f32) (v478 : FVec F S128x128 .f32) (v497 : FVec F S128x128 .f32) (v516 : FVec F S128x128 .f32) (v535 : FVec F S128x128 .f32) (v554 : FVec F S128x128 .f32) (v559 : FVec F S128x1024 .f32) (v560 : FVec F S128x1024 .f32) : Prog (TpuEff nD τ sig (Elt F) Λ₀ .tc) (FVec F S128x1024 .bf16) :=
  withBufs (k0_part16 (F := F)) d0 v12 v149 v188 v230 v234 v235 v459 v478 v497 v516 v535 v554 v559 v560

abbrev P17 (d0 : Dev nD) (v594 : FVec F S128x1024 .bf16) : Prog (TpuEff nD τ sig (Elt F) Λ₀ .tc) (FVec F S128x2048 .f32) :=
  withBufs (k0_part17 (F := F)) d0 v594

abbrev P18 (d0 : Dev nD) (v2 : BitVec 32) (v5 : BitVec 32) (v9 : BitVec 32) (v11 : BitVec 32) (v422 : FVec F S128x2048 .f32) : Prog (TpuEff nD τ sig (Elt F) Λ₀ .tc) (Σ' (v661 : FVec F S128x2048 .f32), BitVec 32) :=
  withBufs (k0_part18 (F := F)) d0 v2 v5 v9 v11 v422

abbrev P19 (d0 : Dev nD) (v2 : BitVec 32) (v5 : BitVec 32) (v8 : BitVec 32) (v13 : BitVec 32) (v14 : BitVec 32) (v661 : FVec F S128x2048 .f32) (v662 : BitVec 32) : Prog (TpuEff nD τ sig (Elt F) Λ₀ .tc) (BitVec 32) :=
  withBufs (k0_part19 (F := F)) d0 v2 v5 v8 v13 v14 v661 v662

abbrev P20 (d0 : Dev nD) (v2 : BitVec 32) (v5 : BitVec 32) (v8 : BitVec 32) (v9 : BitVec 32) (v15 : BitVec 32) (v16 : BitVec 32) (v689 : BitVec 32) : Prog (TpuEff nD τ sig (Elt F) Λ₀ .tc) (PUnit) :=
  withBufs (k0_part20 (F := F)) d0 v2 v5 v8 v9 v15 v16 v689

abbrev P21 (d0 : Dev nD) (v2 : BitVec 32) (v8 : BitVec 32) (v11 : BitVec 32) (v13 : BitVec 32) (v627 : FVec F S128x2048 .f32) : Prog (TpuEff nD τ sig (Elt F) Λ₀ .tc) (PUnit) :=
  withBufs (k0_part21 (F := F)) d0 v2 v8 v11 v13 v627

abbrev P22 (d0 : Dev nD) (v5 : BitVec 32) (v8 : BitVec 32) (v14 : BitVec 32) (v15 : BitVec 32) (v16 : BitVec 32) : Prog (TpuEff nD τ sig (Elt F) Λ₀ .tc) (BitVec 32) :=
  withBufs (k0_part22 (F := F)) d0 v5 v8 v14 v15 v16

abbrev P23 (v2 : BitVec 32) (v5 : BitVec 32) (v9 : BitVec 32) (v11 : BitVec 32) (c0_i32_472 : BitVec 32) : Prog (TpuEff nD τ sig (Elt F) Λ₀ .tc) (PUnit) :=
  withBufs (k0_part23 (F := F)) v2 v5 v9 v11 c0_i32_472

abbrev P24 (d0 : Dev nD) : Prog (TpuEff nD τ sig (Elt F) Λ₀ .tc) (PUnit) :=
  withBufs (k0_part24 (F := F)) d0

abbrev P25 (d0 : Dev nD) : Prog (TpuEff nD τ sig (Elt F) Λ₀ .tc) (PUnit) :=
  withBufs (k0_part25 (F := F)) d0

end Cert.KernelIdeal.Body

end
-- ==== Proof.BodySeg.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.BodyArgs

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

def Seg1 (k : (Dev nD) → (BitVec 32) → (BitVec 32) → (BitVec 32) → (BitVec 32) → (BitVec 32) → (BitVec 32) → (BitVec 32) → (BitVec 32) → (BitVec 32) → (BitVec 32) → (Sems sig S_) → (FVec F S128x1024 .bf16) → (FVec F S128x1024 .bf16) → (FVec F S128x1024 .bf16) → Prog (TpuEff nD τ sig (Elt F) Λ₀ .tc) PUnit) :
    Prog (TpuEff nD τ sig (Elt F) Λ₀ .tc) PUnit := do
  let ⟨d0, v2, v5, v8, v9, v11, v12, v13, v14, v15, v16, v17, v30, c0_i32_20⟩ ← P1
  let ⟨v51, v55, v66⟩ ← P2 d0 v5 v8 v15 v16 v30 c0_i32_20
  k d0 v2 v5 v8 v9 v11 v12 v13 v14 v15 v16 v17 v51 v55 v66

def Seg2 (d0 : Dev nD) (v11 : BitVec 32) (v66 : FVec F S128x1024 .bf16) (v2 : BitVec 32) (v5 : BitVec 32) (v9 : BitVec 32) (v17 : Sems sig S_) (k : (FVec F S1024x2048 .bf16) → (FVec F S1024x128 .bf16) → (FVec F S256x2048 .bf16) → (FVec F S256x1024 .bf16) → Prog (TpuEff nD τ sig (Elt F) Λ₀ .tc) PUnit) :
    Prog (TpuEff nD τ sig (Elt F) Λ₀ .tc) PUnit := do
  let ⟨v72, v77, v85⟩ ← P3 d0 v11 v66
  let v126 ← P4 d0 v85
  let v149 ← P5 d0 v2 v5 v9 v17 v85 v126
  k v72 v77 v85 v149

def Seg3 (d0 : Dev nD) (v2 : BitVec 32) (v5 : BitVec 32) (v8 : BitVec 32) (v9 : BitVec 32) (v51 : FVec F S128x1024 .bf16) (v55 : FVec F S128x1024 .bf16) (v72 : FVec F S1024x2048 .bf16) (v77 : FVec F S1024x128 .bf16) (v85 : FVec F S256x2048 .bf16) (k : (FVec F S256x256 .bf16) → (FVec F S1024x32 .bf16) → (FVec F S1024x1024 .f32) → (FVec F S1024x1024 .f32) → Prog (TpuEff nD τ sig (Elt F) Λ₀ .tc) PUnit) :
    Prog (TpuEff nD τ sig (Elt F) Λ₀ .tc) PUnit := do
  let ⟨v188, v193, v194, v195⟩ ← P6 d0 v2 v5 v8 v9 v51 v55 v72 v77 v85
  P7 v2 v5 v9
  k v188 v193 v194 v195

def Seg4 (v149 : FVec F S256x1024 .bf16) (v188 : FVec F S256x256 .bf16) (v193 : FVec F S1024x32 .bf16) (v194 : FVec F S1024x1024 .f32) (v195 : FVec F S1024x1024 .f32) (k : (FVec F S1024x1024 .bf16) → (FVec F S1024x1024 .bf16) → (FVec F S32x1024 .bf16) → (FVec F S128x128 .f32) → (FVec F S128x128 .f32) → (FVec F S128x128 .f32) → (FVec F S128x128 .f32) → (FVec F S128x128 .f32) → (FVec F S128x128 .f32) → (FVec F S128x1024 .f32) → Prog (TpuEff nD τ sig (Elt F) Λ₀ .tc) PUnit) :
    Prog (TpuEff nD τ sig (Elt F) Λ₀ .tc) PUnit := do
  let ⟨v230, v234, v235, v254, v264, v266, v267⟩ ← P8 v149 v188 v193 v194 v195
  let ⟨v273, v292, v311, v312, v313⟩ ← P9 v149 v188 v230 v234 v235 v264 v266 v267
  let ⟨v330, v349, v358⟩ ← P10 v149 v188 v230 v234 v235 v312 v313
  k v230 v234 v235 v254 v273 v292 v311 v330 v349 v358

def Seg5 (d0 : Dev nD) (v12 : BitVec 32) (v149 : FVec F S256x1024 .bf16) (v188 : FVec F S256x256 .bf16) (v230 : FVec F S1024x1024 .bf16) (v234 : FVec F S1024x1024 .bf16) (v235 : FVec F S32x1024 .bf16) (v254 : FVec F S128x128 .f32) (v273 : FVec F S128x128 .f32) (v292 : FVec F S128x128 .f32) (v311 : FVec F S128x128 .f32) (v330 : FVec F S128x128 .f32) (v349 : FVec F S128x128 .f32) (v358 : FVec F S128x1024 .f32) (v2 : BitVec 32) (v5 : BitVec 32) (v9 : BitVec 32) (k : (FVec F S128x2048 .f32) → (FVec F S128x128 .f32) → (FVec F S128x1024 .f32) → Prog (TpuEff nD τ sig (Elt F) Λ₀ .tc) PUnit) :
    Prog (TpuEff nD τ sig (Elt F) Λ₀ .tc) PUnit := do
  let v389 ← P11 d0 v12 v149 v188 v230 v234 v235 v254 v273 v292 v311 v330 v349 v358
  let ⟨v422, c4_i32_249⟩ ← P12 d0 v389
  let ⟨v459, v469⟩ ← P13 d0 v2 v5 v9 v149 v188 v230 v234 v235 c4_i32_249
  k v422 v459 v469

def Seg6 (v149 : FVec F S256x1024 .bf16) (v188 : FVec F S256x256 .bf16) (v230 : FVec F S1024x1024 .bf16) (v234 : FVec F S1024x1024 .bf16) (v235 : FVec F S32x1024 .bf16) (v469 : FVec F S128x1024 .f32) (d0 : Dev nD) (v12 : BitVec 32) (v459 : FVec F S128x128 .f32) (v2 : BitVec 32) (v5 : BitVec 32) (v9 : BitVec 32) (v11 : BitVec 32) (v422 : FVec F S128x2048 .f32) (k : (FVec F S128x2048 .f32) → (FVec F S128x2048 .f32) → (BitVec 32) → Prog (TpuEff nD τ sig (Elt F) Λ₀ .tc) PUnit) :
    Prog (TpuEff nD τ sig (Elt F) Λ₀ .tc) PUnit := do
  let ⟨v478, v497, v512, v514⟩ ← P14 v149 v188 v230 v234 v235 v469
  let ⟨v516, v535, v554, v559, v560⟩ ← P15 v149 v188 v230 v234 v235 v512 v514
  let v594 ← P16 d0 v12 v149 v188 v230 v234 v235 v459 v478 v497 v516 v535 v554 v559 v560
  let v627 ← P17 d0 v594
  let ⟨v661, v662⟩ ← P18 d0 v2 v5 v9 v11 v422
  k v627 v661 v662

def Seg7 (d0 : Dev nD) (v2 : BitVec 32) (v5 : BitVec 32) (v8 : BitVec 32) (v13 : BitVec 32) (v14 : BitVec 32) (v661 : FVec F S128x2048 .f32) (v662 : BitVec 32) (v9 : BitVec 32) (v15 : BitVec 32) (v16 : BitVec 32) (k : Prog (TpuEff nD τ sig (Elt F) Λ₀ .tc) PUnit) :
    Prog (TpuEff nD τ sig (Elt F) Λ₀ .tc) PUnit := do
  let v689 ← P19 d0 v2 v5 v8 v13 v14 v661 v662
  P20 d0 v2 v5 v8 v9 v15 v16 v689
  k

def Seg8 (d0 : Dev nD) (v2 : BitVec 32) (v8 : BitVec 32) (v11 : BitVec 32) (v13 : BitVec 32) (v627 : FVec F S128x2048 .f32) (v5 : BitVec 32) (v14 : BitVec 32) (v15 : BitVec 32) (v16 : BitVec 32) (k : (BitVec 32) → Prog (TpuEff nD τ sig (Elt F) Λ₀ .tc) PUnit) :
    Prog (TpuEff nD τ sig (Elt F) Λ₀ .tc) PUnit := do
  P21 d0 v2 v8 v11 v13 v627
  let c0_i32_472 ← P22 d0 v5 v8 v14 v15 v16
  k c0_i32_472

def Seg9 (v2 : BitVec 32) (v5 : BitVec 32) (v9 : BitVec 32) (v11 : BitVec 32) (c0_i32_472 : BitVec 32) (k : Prog (TpuEff nD τ sig (Elt F) Λ₀ .tc) PUnit) :
    Prog (TpuEff nD τ sig (Elt F) Λ₀ .tc) PUnit := do
  P23 v2 v5 v9 v11 c0_i32_472
  k

def Seg10 (d0 : Dev nD) (k : Prog (TpuEff nD τ sig (Elt F) Λ₀ .tc) PUnit) :
    Prog (TpuEff nD τ sig (Elt F) Λ₀ .tc) PUnit := do
  P24 d0
  P25 d0
  let v848 : DmaSems sig S1 := cc0_scratch16.slice (Rect.unit (s := S2) ![1] S1.size inb_S2_S1_1)
  let v849 : DmaSems sig S_ := v848.squeeze S_ squeezes_S1_S_
  let v850 : Memref sig .tc .vmem S1x128x2048 .bf16 := (Memref.whole cc0_scratch9 : Memref sig .tc .vmem S2x128x2048 .bf16).slice (Rect.unit (s := S2x128x2048) ![1, 0, 0] S1x128x2048.size inb_S2x128x2048_S1x128x2048_1_0_0) (fun _ => rfl)
  let v851 : Memref sig .tc .vmem S128x2048 .bf16 := v850.squeeze S128x2048 squeezes_S1x128x2048_S128x2048
  let v852 : Memref sig .tc .vmem S1x128x2048 .bf16 := (Memref.whole cc0_scratch10 : Memref sig .tc .vmem S2x128x2048 .bf16).slice (Rect.unit (s := S2x128x2048) ![1, 0, 0] S1x128x2048.size inb_S2x128x2048_S1x128x2048_1_0_0) (fun _ => rfl)
  let v853 : Memref sig .tc .vmem S128x2048 .bf16 := v852.squeeze S128x2048 squeezes_S1x128x2048_S128x2048
  Prog.lift (.waitDma2 v849.sem v853 v851 (((Memref.isWhole_whole cc0_scratch10 : (Memref.whole cc0_scratch10 : Memref sig .tc .vmem S2x128x2048 .bf16).IsWhole).wordExact_slice rfl _ wordsbf16_S2x128x2048_S1x128x2048_1_0_0).reshape _ _) (((Memref.isWhole_whole cc0_scratch9 : (Memref.whole cc0_scratch9 : Memref sig .tc .vmem S2x128x2048 .bf16).IsWhole).wordExact_slice rfl _ wordsbf16_S2x128x2048_S1x128x2048_1_0_0).reshape _ _))
  k

set_option maxRecDepth 65536 in
set_option maxHeartbeats 4000000 in

theorem bodyProg_eq : bodyProg (F := F) =
  Seg1 (fun d0 v2 v5 v8 v9 v11 v12 v13 v14 v15 v16 v17 v51 v55 v66 =>
    Seg2 d0 v11 v66 v2 v5 v9 v17 (fun v72 v77 v85 v149 =>
      Seg3 d0 v2 v5 v8 v9 v51 v55 v72 v77 v85 (fun v188 v193 v194 v195 =>
        Seg4 v149 v188 v193 v194 v195 (fun v230 v234 v235 v254 v273 v292 v311 v330 v349 v358 =>
          Seg5 d0 v12 v149 v188 v230 v234 v235 v254 v273 v292 v311 v330 v349 v358 v2 v5 v9 (fun v422 v459 v469 =>
            Seg6 v149 v188 v230 v234 v235 v469 d0 v12 v459 v2 v5 v9 v11 v422 (fun v627 v661 v662 =>
              Seg7 d0 v2 v5 v8 v13 v14 v661 v662 v9 v15 v16 (
                Seg8 d0 v2 v8 v11 v13 v627 v5 v14 v15 v16 (fun c0_i32_472 =>
                  Seg9 v2 v5 v9 v11 c0_i32_472 (
                    Seg10 d0 (
                      pure ⟨⟩)))))))))) := rfl

end Cert.KernelIdeal.Body

end
-- ==== Proof.Body0.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.BodySeg
import proofs.«900573_g7700000000000574_dist_mla_v7x_xyz2x2x2_z_b1_s1024_d2048_dc128_bf16_1_alg».proof.Proof.Sched

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

abbrev xW : Memref sig .tc .vmem S1x1024x2048 .f32 := Memref.whole cc0_stg0_0
abbrev wdkvW : Memref sig .tc .vmem S2048x128 .f32 := Memref.whole cc0_stg1_0
abbrev wukW : Memref sig .tc .vmem S128x2048 .f32 := Memref.whole cc0_stg2_0
abbrev wuvW : Memref sig .tc .vmem S128x2048 .f32 := Memref.whole cc0_stg3_0
abbrev wqrW : Memref sig .tc .vmem S2048x512 .f32 := Memref.whole cc0_stg4_0
abbrev wkrW : Memref sig .tc .vmem S2048x32 .f32 := Memref.whole cc0_stg5_0
abbrev wqW : Memref sig .tc .hbm S2048x2048 .f32 := Memref.whole main_arg4
abbrev woW : Memref sig .tc .hbm S2048x2048 .f32 := Memref.whole main_arg7

def w2 (c : Dev nD) : BitVec 32 := Scalar.remsi (Scalar.divsi (Dev.word c) 4#32) 2#32
def w5 (c : Dev nD) : BitVec 32 := Scalar.remsi (Scalar.divsi (Dev.word c) 2#32) 2#32
def w9 (c : Dev nD) : BitVec 32 := Scalar.subi 1#32 (zw c)
def w12 (c : Dev nD) : BitVec 32 := Scalar.muli (zw c) 1024#32
def w13 (c : Dev nD) : BitVec 32 := Scalar.subi 1#32 (w5 c)
def w14 (c : Dev nD) : BitVec 32 := Scalar.subi 1#32 (w2 c)
abbrev barSems : Sems sig S_ := SemArray.scalar (sig.barrier 0 rfl)

def c0v254 (c : Dev nD) : FVec F S128x128 .f32 := k0_pay21 (qVal m c) (qrVal m c) (krVal m c) (kpVal m c) (vpVal m c) (cLat m (zp c)) (wukSend m (zp c)) (wuvSend m (zp c))
def c0v264 (c : Dev nD) : FVec F S128x1024 .f32 := k0_pay22 (qVal m c) (qrVal m c) (krVal m c) (kpVal m c) (cLat m (zp c)) (wukSend m (zp c))
def c0v266 (c : Dev nD) : FVec F S128x1 .f32 := k0_pay23 (qVal m c) (qrVal m c) (krVal m c) (kpVal m c) (cLat m (zp c)) (wukSend m (zp c))
def c0v267 (c : Dev nD) : FVec F S1024x128 .bf16 := k0_pay24 (vpVal m c) (cLat m (zp c)) (wuvSend m (zp c))
def c0v273 (c : Dev nD) : FVec F S128x128 .f32 := k0_pay25 (c0v264 m c) (c0v266 m c) (c0v267 m c)
def c0v292 (c : Dev nD) : FVec F S128x128 .f32 := k0_pay26 (qVal m c) (qrVal m c) (kVal m c) (vVal m c) (krT m c)
def c0v311 (c : Dev nD) : FVec F S128x128 .f32 := k0_pay27 (qVal m c) (qrVal m c) (kVal m c) (vVal m c) (krT m c)
def c0v330 (c : Dev nD) : FVec F S128x128 .f32 := k0_pay30 (qrVal m c) (vVal m c) (krT m c) (k0_pay28 (qVal m c)) (k0_pay29 (kVal m c))
def c0v349 (c : Dev nD) : FVec F S128x128 .f32 := k0_pay31 (qVal m c) (qrVal m c) (kVal m c) (vVal m c) (krT m c)
def c0v358 (c : Dev nD) : FVec F S128x1024 .f32 := k0_pay32 (qVal m c) (qrVal m c) (kVal m c) (krT m c)
attribute [sl_rounds] duties_bar duties_xy duties_zs duties_zr duties_os duties_orr duties_rs duties_rr_peer
  amount_bar amount_xy amount_zs amount_zr amount_os amount_orr amount_rs amount_rr
  expect_bar expect_xy expect_zs expect_zr expect_os expect_orr expect_rs
  payload_bar payload_xy payload_zs payload_zr payload_os payload_orr payload_rs payload_rr
  zp_zp p0_p0 p1_p1 p2_p2 pk_zero pk_one pk_two

theorem srcDev_p0 (c : Dev nD) : srcDev (p0 c) (bIdx c) = c := srcDev_pk' 0 c
theorem srcDev_p1 (c : Dev nD) : srcDev (p1 c) (bIdx c) = c := srcDev_pk' 1 c
theorem srcDev_p2 (c : Dev nD) : srcDev (p2 c) (bIdx c) = c := srcDev_pk' 2 c
attribute [sl_rounds] srcDev_p0 srcDev_p1 srcDev_p2

set_option synthInstance.maxHeartbeats 1000000 in
theorem barPayFrom_eq (d : Dev nD) : (barPayFrom (F := F) d : sProp 𝕄) =
  iprop((∃ f, pts cRecvM d fullShare f) ∗ (∃ f, pts wukRecvM d fullShare f) ∗ (∃ f, pts wuvRecvM d fullShare f)
    ∗ (∃ f, pts (opRecvM 0) d fullShare f) ∗ (∃ f, pts (opRecvM 1) d fullShare f)
    ∗ reached ER (cell d (.zr 0)) 0 ∗ reached ER (cell d (.zr 1)) 0 ∗ reached ER (cell d (.zr 2)) 0
    ∗ reached ER (cell d (.orr 0)) 0 ∗ reached ER (cell d (.orr 1)) 0) := rfl
set_option synthInstance.maxHeartbeats 1000000 in
theorem xyPayFrom_eq (d : Dev nD) (b : Fin 4) : (xyPayFrom (F := F) d b : sProp 𝕄) =
  iprop((∃ f, pts (rblkM b 0) d fullShare f) ∗ (∃ f, pts (rblkM b 1) d fullShare f)
    ∗ reached ER (cell d (.rr b 0)) 0 ∗ reached ER (cell d (.rr b 1)) 0) := rfl
theorem zsPay_0 (c : Dev nD) : zsPay m 0 c = pts cRefM c fullShare (cLat m c) := rfl
theorem zsPay_1 (c : Dev nD) : zsPay m 1 c = pts wukSendM c fullShare (wukSend m c) := rfl
theorem zsPay_2 (c : Dev nD) : zsPay m 2 c = pts wuvSendM c fullShare (wuvSend m c) := rfl
theorem zrPay_0 (c e : Dev nD) : zrPay m 0 c e = pts cRecvM c fullShare (cLat m e) := rfl
theorem zrPay_1 (c e : Dev nD) : zrPay m 1 c e = pts wukRecvM c fullShare (wukSend m e) := rfl
theorem zrPay_2 (c e : Dev nD) : zrPay m 2 c e = pts wuvRecvM c fullShare (wuvSend m e) := rfl
theorem osPay_eq (j : Fin 2) (c : Dev nD) : osPay m j c = pts (opSendM j) c fullShare (slotBuf m (opSendM j) c (sq3 (opHalf m j c))) := rfl
theorem orPay_eq (j : Fin 2) (c e : Dev nD) : orPay m j c e = pts (opRecvM j) c fullShare (slotBuf m (opRecvM j) c (sq3 (opHalf m j e))) := rfl
theorem rsPay_eq (t : Fin 3) (j : Fin 2) (c : Dev nD) : rsPay m t j c = pts (oblkM j) c (Transfers.shareTokN fullShare t.val) (slotBuf m (oblkM j) c (sq3 (oblkVal m j c))) := rfl
theorem rrPay_eq (s : Fin 4) (j : Fin 2) (c e : Dev nD) : rrPay m s j c e = pts (rblkM s j) c fullShare (slotBuf m (rblkM s j) c (sq3 (oblkVal m j e))) := rfl
attribute [sl_rounds] barPayFrom_eq xyPayFrom_eq zsPay_0 zsPay_1 zsPay_2 zrPay_0 zrPay_1 zrPay_2 osPay_eq orPay_eq rsPay_eq rrPay_eq

theorem read_whole (b : Ref sig .tc) {off : Fin b.ty.shape.rank → Nat} (h : off = fun _ => 0)
    (inb : ∀ a, off a + b.ty.shape.size a ≤ b.ty.shape.size a) (f : b.ty.Contents (Elt F)) :
    (Memref.whole b : Memref sig .tc _ _ _).view.readAt (Elt F) (Rect.unit off b.ty.shape.size inb).toLoadRect f = f :=
  Memref.readAt_unit_zero (Elt F) b h inb f

theorem store_whole (b : Ref sig .tc) {off : Fin b.ty.shape.rank → Nat} (h : off = fun _ => 0)
    (inb : ∀ a, off a + b.ty.shape.size a ≤ b.ty.shape.size a) (f w : b.ty.Contents (Elt F)) :
    (Memref.whole b : Memref sig .tc _ _ _).view.writes (Elt F) f [⟨Rect.unit off b.ty.shape.size inb, w⟩] = w :=
  Memref.write_access_unit_zero_univ (Elt F) b h inb f w

theorem vec2_zero : (![0, 0] : Fin 2 → Nat) = fun _ => 0 := funext fun a => by fin_cases a <;> rfl
theorem vec3_zero : (![0, 0, 0] : Fin 3 → Nat) = fun _ => 0 := funext fun a => by fin_cases a <;> rfl

end Cert.KernelIdeal.Body

end
-- ==== Proof.BodyWrap.lean ====
import proofs.«900573_g7700000000000574_dist_mla_v7x_xyz2x2x2_z_b1_s1024_d2048_dc128_bf16_1_alg».proof.Proof.Data
import proofs.«900573_g7700000000000574_dist_mla_v7x_xyz2x2x2_z_b1_s1024_d2048_dc128_bf16_1_alg».proof.Proof.BodyArgs
import proofs.«900573_g7700000000000574_dist_mla_v7x_xyz2x2x2_z_b1_s1024_d2048_dc128_bf16_1_alg».proof.Proof.BodySeg
import proofs.«900573_g7700000000000574_dist_mla_v7x_xyz2x2x2_z_b1_s1024_d2048_dc128_bf16_1_alg».proof.Proof.Body0
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

def winsIn (c : Dev nD) : sProp 𝕄 :=
  iprop((xW.view.loc (c : Thread nD τ) ↦{fullShare} stg0 m c) ∗ (wdkvW.view.loc (c : Thread nD τ) ↦{fullShare} stg1 m c)
    ∗ (wukW.view.loc (c : Thread nD τ) ↦{fullShare} stg2 m c) ∗ (wuvW.view.loc (c : Thread nD τ) ↦{fullShare} stg3 m c)
    ∗ (wqrW.view.loc (c : Thread nD τ) ↦{fullShare} stg4 m c) ∗ (wkrW.view.loc (c : Thread nD τ) ↦{fullShare} stg5 m c))

def bodyPre (c : Dev nD) : sProp 𝕄 :=
  iprop((∃ K, ghost m K c) ∗ creds m c ∗ levAts L lv ∗ wlZero c ∗ restPts m c ∗ scratchAny c
    ∗ (∃ W, owes (c : Thread nD τ) (O₀ c) W)
    ∗ winsIn m c
    ∗ (∃ f, outW.view.loc (c : Thread nD τ) ↦{fullShare} f))

def bodyPost (c : Dev nD) : sProp 𝕄 :=
  iprop(Φ₁ m c ∗ (∃ W, owes (c : Thread nD τ) (0 : CellTallies nD τ sig Unit) W)
    ∗ winsIn m c
    ∗ (outW.view.loc (c : Thread nD τ) ↦{fullShare} outFinal m c))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stgP (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_all (w : Fin 7) (hw : w ≠ 6) (t : Fin cfg0.N) : (cfg0.win w).fetch t = true := by
  rw [fin_N0 t]; fin_cases w <;> first | rfl | exact absurd rfl hw

set_option maxRecDepth 8000 in

def obPre (c : Dev nD) : sProp 𝕄 :=
  iprop(Φ₀ m c ∗ (dats m ρ 0 c).owesAt () t0_0.castSucc
    ∗ (∃ d, stgP c cc0_stg0_0 ((dats m ρ 0 c).before (0 : Fin 7) t0_0 d))
    ∗ (∃ d, stgP c cc0_stg1_0 ((dats m ρ 0 c).before (1 : Fin 7) t0_0 d))
    ∗ (∃ d, stgP c cc0_stg2_0 ((dats m ρ 0 c).before (2 : Fin 7) t0_0 d))
    ∗ (∃ d, stgP c cc0_stg3_0 ((dats m ρ 0 c).before (3 : Fin 7) t0_0 d))
    ∗ (∃ d, stgP c cc0_stg4_0 ((dats m ρ 0 c).before (4 : Fin 7) t0_0 d))
    ∗ (∃ d, stgP c cc0_stg5_0 ((dats m ρ 0 c).before (5 : Fin 7) t0_0 d))
    ∗ (∃ d, stgP c cc0_stg6_0 ((dats m ρ 0 c).before (6 : Fin 7) t0_0 d)))

def obPost (c : Dev nD) : sProp 𝕄 :=
  iprop(Φ₁ m c ∗ (dats m ρ 0 c).owesAt () t0_0.succ
    ∗ stgP c cc0_stg0_0 (stg0 m c) ∗ stgP c cc0_stg1_0 (stg1 m c) ∗ stgP c cc0_stg2_0 (stg2 m c) ∗ stgP c cc0_stg3_0 (stg3 m c)
    ∗ stgP c cc0_stg4_0 (stg4 m c) ∗ stgP c cc0_stg5_0 (stg5 m c) ∗ stgP c cc0_stg6_0 (outFinal m c))

theorem before_in (c : Dev nD) (w : Fin 7) (hw : w ≠ 6) (d) : (dats m ρ 0 c).before w t0_0 d = aft m c w := by
  unfold Dat.before; rw [if_pos (fetch_all w hw t0_0)]
  fin_cases w <;> first | rfl | exact absurd rfl hw

theorem pre_of_obPre (c : Dev nD) : obPre m ρ c ⊢ bodyPre m c := by
  unfold obPre bodyPre Φ₀ start winsIn
  iintro ⟨⟨⟨Hg, Hc, Hl, Hw, Hr⟩, Hs⟩, Ho, ⟨%d0, %f0, %h0, H0⟩, ⟨%d1, %f1, %h1, H1⟩, ⟨%d2, %f2, %h2, H2⟩, ⟨%d3, %f3, %h3, H3⟩,
    ⟨%d4, %f4, %h4, H4⟩, ⟨%d5, %f5, %h5, H5⟩, ⟨%d6, %f6, %h6, H6⟩⟩
  have e0 : f0 = stg0 m c := h0.trans (before_in m ρ c 0 (by decide) d0)
  have e1 : f1 = stg1 m c := h1.trans (before_in m ρ c 1 (by decide) d1)
  have e2 : f2 = stg2 m c := h2.trans (before_in m ρ c 2 (by decide) d2)
  have e3 : f3 = stg3 m c := h3.trans (before_in m ρ c 3 (by decide) d3)
  have e4 : f4 = stg4 m c := h4.trans (before_in m ρ c 4 (by decide) d4)
  have e5 : f5 = stg5 m c := h5.trans (before_in m ρ c 5 (by decide) d5)
  subst e0 e1 e2 e3 e4 e5
  unfold Dat.owesAt Pipeline.owesWithin
  icases Ho with ⟨%W, -, HO⟩
  isplitl [Hg]; · iexact Hg
  isplitl [Hc]; · iexact Hc
  isplitl [Hl]; · iexact Hl
  isplitl [Hw]; · iexact Hw
  isplitl [Hr]; · iexact Hr
  isplitl [Hs]; · iexact Hs
  isplitl [HO]; · iexists W; iexact HO
  isplitl [H0 H1 H2 H3 H4 H5]
  · isplitl [H0]; · iexact H0
    isplitl [H1]; · iexact H1
    isplitl [H2]; · iexact H2
    isplitl [H3]; · iexact H3
    isplitl [H4]; · iexact H4
    iexact H5
  iexists f6; iexact H6

theorem obPost_of_post (c : Dev nD) : bodyPost m c ⊢ obPost m ρ c := by
  unfold obPost bodyPost winsIn
  iintro ⟨H1, ⟨%W, HO⟩, ⟨H0, Hb, Hc, Hd, He, Hf⟩, H6⟩
  isplitl [H1]; · iexact H1
  isplitl [HO]
  · unfold Dat.owesAt Pipeline.owesWithin
    iexists W
    isplitr; · ipureintro; exact fun _ _ => Or.inl trivial
    iexact HO
  isplitl [H0]; · iexists _; isplitr; · (ipureintro; rfl)
                  iexact H0
  isplitl [Hb]; · iexists _; isplitr; · (ipureintro; rfl)
                  iexact Hb
  isplitl [Hc]; · iexists _; isplitr; · (ipureintro; rfl)
                  iexact Hc
  isplitl [Hd]; · iexists _; isplitr; · (ipureintro; rfl)
                  iexact Hd
  isplitl [He]; · iexists _; isplitr; · (ipureintro; rfl)
                  iexact He
  isplitl [Hf]; · iexists _; isplitr; · (ipureintro; rfl)
                  iexact Hf
  iexists _; isplitr; · (ipureintro; rfl)
  iexact H6

set_option maxRecDepth 8000 in

theorem body_obligation_of (c : Dev nD)
    (hsound : ∀ (Kt : PUnit → sProp 𝕄), iprop(bodyPre m c ∗ (bodyPost m c -∗ Kt ⟨⟩))
      ⊢ wp frame (wpE (defs₀ (F := F)) 𝒱₀ c none) Set.univ (bodyProg (F := F)) Kt) :
    BodyObligation (dats (F := F) m ρ 0 c) (defs₀ (F := F)) 𝒱₀ () Set.univ := fun t => by
  rw [fin_N0 t]
  rw [bigSep_W0, bigSep_W0]
  simp only [owns_whole_eq]
  show obPre m ρ c ⊢ wp frame (wpE (defs₀ (F := F)) 𝒱₀ c none) Set.univ (bodyProg (F := F)) (fun _ => obPost m ρ c)
  iintro H
  iapply (hsound fun _ => obPost m ρ c)
  isplitl [H]
  · iapply (pre_of_obPre m ρ c) $$ H
  · iintro H; iapply (obPost_of_post m ρ c) $$ H

end Cert.KernelIdeal.Body

end
-- ==== Proof.BodyS1.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.Body0

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

def pre1 (c : Dev nD) (W : Waits sig Unit)
    (f11 : Buf (Elt F) (wukSendM.view.loc (c : Thread nD τ))) (f13 : Buf (Elt F) (wuvSendM.view.loc (c : Thread nD τ))) : sProp 𝕄 :=
  iprop(dutyTok ER (cell (zp c) .bar) 0 (0 : DN) ∗ dutyTok ER (cell (p0 c) .xy) 0 (0 : DN) ∗ dutyTok ER (cell (p1 c) .xy) 0 (1 : DN) ∗ dutyTok ER (cell (p2 c) .xy) 0 (2 : DN)
    ∗ owes (c : Thread nD τ) (O₀ c) W
    ∗ (∃ f, pts cRecvM c fullShare f) ∗ (∃ f, pts wukRecvM c fullShare f) ∗ (∃ f, pts wuvRecvM c fullShare f) ∗ (∃ f, pts (opRecvM 0) c fullShare f) ∗ (∃ f, pts (opRecvM 1) c fullShare f)
    ∗ (∃ f, pts (rblkM (bIdx (p0 c)) 0) c fullShare f) ∗ (∃ f, pts (rblkM (bIdx (p0 c)) 1) c fullShare f)
    ∗ (∃ f, pts (rblkM (bIdx (p1 c)) 0) c fullShare f) ∗ (∃ f, pts (rblkM (bIdx (p1 c)) 1) c fullShare f)
    ∗ (∃ f, pts (rblkM (bIdx (p2 c)) 0) c fullShare f) ∗ (∃ f, pts (rblkM (bIdx (p2 c)) 1) c fullShare f)
    ∗ (wukW.view.loc (c : Thread nD τ) ↦{fullShare} stg2 m c) ∗ (wuvW.view.loc (c : Thread nD τ) ↦{fullShare} stg3 m c)
    ∗ pts wukSendM c fullShare f11 ∗ pts wuvSendM c fullShare f13)

def rec1 (K : Dev nD × CK → ℕ) (c : Dev nD) : sProp 𝕄 :=
  iprop(cellInv ER (sched m) (K (zp c, CK.bar)) (cell (zp c) .bar) ∗ cellInv ER (sched m) (K (p0 c, CK.xy)) (cell (p0 c) .xy)
    ∗ cellInv ER (sched m) (K (p1 c, CK.xy)) (cell (p1 c) .xy) ∗ cellInv ER (sched m) (K (p2 c, CK.xy)) (cell (p2 c) .xy)
    ∗ reached ER (cell (zp c) .bar) 0 ∗ reached ER (cell (p0 c) .xy) 0 ∗ reached ER (cell (p1 c) .xy) 0 ∗ reached ER (cell (p2 c) .xy) 0
    ∗ reached ER (cell c (.zr 0)) 0 ∗ reached ER (cell c (.zr 1)) 0 ∗ reached ER (cell c (.zr 2)) 0 ∗ reached ER (cell c (.orr 0)) 0 ∗ reached ER (cell c (.orr 1)) 0
    ∗ reached ER (cell c (.rr (bIdx (p0 c)) 0)) 0 ∗ reached ER (cell c (.rr (bIdx (p0 c)) 1)) 0
    ∗ reached ER (cell c (.rr (bIdx (p1 c)) 0)) 0 ∗ reached ER (cell c (.rr (bIdx (p1 c)) 1)) 0
    ∗ reached ER (cell c (.rr (bIdx (p2 c)) 0)) 0 ∗ reached ER (cell c (.rr (bIdx (p2 c)) 1)) 0)

def post1 (c : Dev nD) (W : Waits sig Unit) (f13 : Buf (Elt F) (wuvSendM.view.loc (c : Thread nD τ))) : sProp 𝕄 :=
  iprop(owes (c : Thread nD τ) (O_zr c) W
    ∗ (wukW.view.loc (c : Thread nD τ) ↦{fullShare} stg2 m c) ∗ (wuvW.view.loc (c : Thread nD τ) ↦{fullShare} stg3 m c)
    ∗ pts wukSendM c fullShare (wukSend m c) ∗ pts wuvSendM c fullShare f13)

theorem seg1 (c : Dev nD) (K : Dev nD × CK → ℕ) (W : Waits sig Unit)
    (f11 : Buf (Elt F) (wukSendM.view.loc (c : Thread nD τ))) (f13 : Buf (Elt F) (wuvSendM.view.loc (c : Thread nD τ)))
    (k : (Dev nD) → (BitVec 32) → (BitVec 32) → (BitVec 32) → (BitVec 32) → (BitVec 32) → (BitVec 32) → (BitVec 32) → (BitVec 32) → (BitVec 32) → (BitVec 32) → (Sems sig S_) → (FVec F S128x1024 .bf16) → (FVec F S128x1024 .bf16) → (FVec F S128x1024 .bf16) → Prog (TpuEff nD τ sig (Elt F) Λ₀ .tc) PUnit)
    (Q : PUnit → sProp 𝕄) :
    iprop(rec1 m K c ∗ pre1 m c W f11 f13
        ∗ (post1 m c W f13 -∗ wp frame (wpE (defs₀ (F := F)) Variants.none c none) Set.univ
            (k c (w2 c) (w5 c) (zw c) (w9 c) (bw c) (w12 c) (w13 c) (w14 c) (w14 c) (w13 c) barSems (wukMy m c) (wuvMy m c) (k0_pay6 (zw c) (stg3 m c))) Q))
      ⊢ wp frame (wpE (defs₀ (F := F)) Variants.none c none) Set.univ (Seg1 k) Q := by
  unfold rec1 pre1
  iintro ⟨⟨#HIb, #HIx0, #HIx1, #HIx2, #Hrb, #Hrx0, #Hrx1, #Hrx2, #Hz0, #Hz1, #Hz2, #Ho0, #Ho1, #Hr00, #Hr01, #Hr10, #Hr11, #Hr20, #Hr21⟩,
    ⟨Htb, Htx0, Htx1, Htx2, HO, ⟨%g10, Hg10⟩, ⟨%g12, Hg12⟩, ⟨%g14, Hg14⟩, ⟨%g190, Hg190⟩, ⟨%g191, Hg191⟩,
      ⟨%r00, Hs00⟩, ⟨%r01, Hs01⟩, ⟨%r10, Hs10⟩, ⟨%r11, Hs11⟩, ⟨%r20, Hs20⟩, ⟨%r21, Hs21⟩, H2, H3, H11, H13⟩, Hk⟩
  unfold Seg1 O₀ O_xy
  sl_exec_parts
  have hr2 : View.readAt (Elt F) wukW.view (Rect.unit ![0, 0] S128x2048.size inb_S128x2048_S128x2048_0_0).toLoadRect (stg2 m c) = stg2 m c :=
    read_whole cc0_stg2_0 vec2_zero _ _
  have hr3 : View.readAt (Elt F) wuvW.view (Rect.unit ![0, 0] S128x2048.size inb_S128x2048_S128x2048_0_0).toLoadRect (stg3 m c) = stg3 m c :=
    read_whole cc0_stg3_0 vec2_zero _ _
  have e1 : seg1.sl.r m c = wukMy m c := by unfold seg1.sl.r wukMy; rw [hr2]; rfl
  have e2 : seg1.sl.r_1 m c = wuvMy m c := by unfold seg1.sl.r_1 wuvMy; rw [hr3]; rfl
  have e3 : seg1.sl.r_2 m c = k0_pay6 (zw c) (stg3 m c) := by unfold seg1.sl.r_2; rw [hr3]; rfl
  have e11 : wukSendM.view.writes (Elt F) f11
      [⟨Rect.unit ![0, 0] S128x1024.size inb_S128x1024_S128x1024_0_0,
          k0_pay5 (seg1.sl.v8 c)
            (View.readAt (Elt F) wukW.view (Rect.unit ![0, 0] S128x2048.size inb_S128x2048_S128x2048_0_0).toLoadRect (stg2 m c))⟩] = wukSend m c := by
    rw [hr2]; exact store_whole cc0_scratch2 vec2_zero _ _ _
  rw [e1, e2, e3, e11]
  iapply Hk
  unfold post1
  isplitl [HO]; · iexact HO
  isplitl [H2]; · iexact H2
  isplitl [H3]; · iexact H3
  isplitl [H11]; · iexact H11
  iexact H13

end Cert.KernelIdeal.Body

end
-- ==== Proof.BodyGeom.lean ====
import proofs.«900573_g7700000000000574_dist_mla_v7x_xyz2x2x2_z_b1_s1024_d2048_dc128_bf16_1_alg».proof.Proof.Sched

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem slot3R_disjoint : Disjoint (slot3R 0).set (slot3R 1).set :=
  Rect.unit_disjoint (0 : Fin 3) (Or.inl (by decide))

theorem slot3R_cover : (slot3R 0).set ∪ (slot3R 1).set = Finset.univ := by
  ext i
  simp only [Finset.mem_union, Finset.mem_univ, iff_true, Rect.mem_set_unit]
  have h0 : (i 0).val < 2 := (i 0).isLt
  have h1 : (i 1).val < 128 := (i 1).isLt
  have h2 : (i 2).val < 2048 := (i 2).isLt
  by_cases h : (i 0).val = 0
  · refine Or.inl fun a => ?_
    fin_cases a
    · show (0 : Nat) ≤ (i 0).val ∧ (i 0).val < 0 + 1; omega
    · show (0 : Nat) ≤ (i 1).val ∧ (i 1).val < 0 + 128; omega
    · show (0 : Nat) ≤ (i 2).val ∧ (i 2).val < 0 + 2048; omega
  · refine Or.inr fun a => ?_
    fin_cases a
    · show (1 : Nat) ≤ (i 0).val ∧ (i 0).val < 1 + 1; omega
    · show (0 : Nat) ≤ (i 1).val ∧ (i 1).val < 0 + 128; omega
    · show (0 : Nat) ≤ (i 2).val ∧ (i 2).val < 0 + 2048; omega

theorem slot3_set_map (W : Memref sig .tc .vmem S2x128x2048 .bf16) (j : Fin 2) :
    (slot3 W j).view.set = (slot3R j).set.map W.view.emb := by
  exact (View.set_reshape (W.view.slice (slot3R j)) _).trans (View.set_slice W.view (slot3R j))

theorem slot3_split (W : Memref sig .tc .vmem S2x128x2048 .bf16) (c : Dev nD) (q : PosShare TreeShare)
    (f : Buf (Elt F) (W.view.loc (c : Thread nD τ))) :
    (pts W c q f : sProp 𝕄) ⊣⊢ iprop(pts (slot3 W 0) c q f ∗ pts (slot3 W 1) c q f) := by
  have hd : Disjoint (slot3 W 0).view.set (slot3 W 1).view.set := by
    rw [slot3_set_map, slot3_set_map]; exact (Finset.disjoint_map _).mpr slot3R_disjoint
  have hu : W.view.set = (slot3 W 0).view.set ∪ (slot3 W 1).view.set := by
    rw [slot3_set_map, slot3_set_map, ← Finset.map_union, slot3R_cover]; rfl
  unfold pts
  rw [hu]
  exact pointsTo_union hd

theorem pointsTo_union_eq {ℓ : Loc nD τ sig} {I J : Finset (Idx ℓ)} (h : Disjoint I J) (q : PosShare TreeShare) (f : Buf (Elt F) ℓ) :
    (ℓ ↦[I ∪ J]{q} f : sProp 𝕄) = iprop((ℓ ↦[I]{q} f) ∗ ℓ ↦[J]{q} f) :=
  BI.equiv_iff.mp ⟨(pointsTo_union h).1, (pointsTo_union h).2⟩

theorem mem_rslotR (s : Fin 4) (j : Fin 2) (i : S4x2x128x2048.Idx) (hs : (i 0).val = s.val) (hj : (i 1).val = j.val) :
    i ∈ (rslotR s j).set := by
  rw [Rect.mem_set_unit]
  have h2 : (i 2).val < 128 := (i 2).isLt
  have h3 : (i 3).val < 2048 := (i 3).isLt
  intro a
  fin_cases a
  · show s.val ≤ (i 0).val ∧ (i 0).val < s.val + 1; omega
  · show j.val ≤ (i 1).val ∧ (i 1).val < j.val + 1; omega
  · show (0 : Nat) ≤ (i 2).val ∧ (i 2).val < 0 + 128; omega
  · show (0 : Nat) ≤ (i 3).val ∧ (i 3).val < 0 + 2048; omega

theorem rslotR_disjoint (s s' : Fin 4) (j j' : Fin 2) (h : s ≠ s' ∨ j ≠ j') :
    Disjoint (rslotR s j).set (rslotR s' j').set := by
  rcases h with h | h
  · refine Rect.unit_disjoint (0 : Fin 4) ?_
    have := Fin.val_ne_of_ne h
    show s.val + 1 ≤ s'.val ∨ s'.val + 1 ≤ s.val; omega
  · refine Rect.unit_disjoint (1 : Fin 4) ?_
    have := Fin.val_ne_of_ne h
    show j.val + 1 ≤ j'.val ∨ j'.val + 1 ≤ j.val; omega

theorem rslotR_cover :
    (rslotR 0 0).set ∪ ((rslotR 0 1).set ∪ ((rslotR 1 0).set ∪ ((rslotR 1 1).set ∪
      ((rslotR 2 0).set ∪ ((rslotR 2 1).set ∪ ((rslotR 3 0).set ∪ (rslotR 3 1).set)))))) = Finset.univ := by
  ext i
  simp only [Finset.mem_union, Finset.mem_univ, iff_true]
  have h0 : (i 0).val < 4 := (i 0).isLt
  have h1 : (i 1).val < 2 := (i 1).isLt
  have e0 : (i 0).val = 0 ∨ (i 0).val = 1 ∨ (i 0).val = 2 ∨ (i 0).val = 3 := by omega
  have e1 : (i 1).val = 0 ∨ (i 1).val = 1 := by omega
  rcases e0 with e0 | e0 | e0 | e0 <;> rcases e1 with e1 | e1
  · exact Or.inl (mem_rslotR 0 0 i e0 e1)
  · exact Or.inr (Or.inl (mem_rslotR 0 1 i e0 e1))
  · exact Or.inr (Or.inr (Or.inl (mem_rslotR 1 0 i e0 e1)))
  · exact Or.inr (Or.inr (Or.inr (Or.inl (mem_rslotR 1 1 i e0 e1))))
  · exact Or.inr (Or.inr (Or.inr (Or.inr (Or.inl (mem_rslotR 2 0 i e0 e1)))))
  · exact Or.inr (Or.inr (Or.inr (Or.inr (Or.inr (Or.inl (mem_rslotR 2 1 i e0 e1))))))
  · exact Or.inr (Or.inr (Or.inr (Or.inr (Or.inr (Or.inr (Or.inl (mem_rslotR 3 0 i e0 e1)))))))
  · exact Or.inr (Or.inr (Or.inr (Or.inr (Or.inr (Or.inr (Or.inr (mem_rslotR 3 1 i e0 e1)))))))

theorem rblkM_set_map (s : Fin 4) (j : Fin 2) : (rblkM s j).view.set = (rslotR s j).set.map rblkW.view.emb :=
  (View.set_reshape (rblkW.view.slice (rslotR s j)) _).trans (View.set_slice rblkW.view (rslotR s j))

theorem rblkM_disjoint (s s' : Fin 4) (j j' : Fin 2) (h : s ≠ s' ∨ j ≠ j') :
    Disjoint (rblkM s j).view.set (rblkM s' j').view.set := by
  rw [rblkM_set_map, rblkM_set_map]; exact (Finset.disjoint_map _).mpr (rslotR_disjoint s s' j j' h)

theorem rblkW_set :
    rblkW.view.set = (rblkM 0 0).view.set ∪ ((rblkM 0 1).view.set ∪ ((rblkM 1 0).view.set ∪ ((rblkM 1 1).view.set ∪
      ((rblkM 2 0).view.set ∪ ((rblkM 2 1).view.set ∪ ((rblkM 3 0).view.set ∪ (rblkM 3 1).view.set)))))) := by
  rw [rblkM_set_map 0 0, rblkM_set_map 0 1, rblkM_set_map 1 0, rblkM_set_map 1 1, rblkM_set_map 2 0, rblkM_set_map 2 1, rblkM_set_map 3 0, rblkM_set_map 3 1]
  simp only [← Finset.map_union]
  rw [rslotR_cover]; rfl

theorem pts_toks3 {s : Shape} {e : EltTy} (M : Memref sig .tc .vmem s e) (c : Dev nD) (q : PosShare TreeShare)
    (f : Buf (Elt F) (M.view.loc (c : Thread nD τ))) :
    (pts M c q f : sProp 𝕄) ⊣⊢ iprop(pts M c (Transfers.shareDrop q 3) f ∗ pts M c (Transfers.shareTokN q 0) f
      ∗ pts M c (Transfers.shareTokN q 1) f ∗ pts M c (Transfers.shareTokN q 2) f) := by
  have s0 : (pts M c q f : sProp 𝕄) ⊣⊢ iprop(pts M c (Transfers.shareDrop q 1) f ∗ pts M c (Transfers.shareTokN q 0) f) :=
    pointsTo_share (PosShare.mem_left_op_right _)
  have s1 : (pts M c (Transfers.shareDrop q 1) f : sProp 𝕄)
      ⊣⊢ iprop(pts M c (Transfers.shareDrop q 2) f ∗ pts M c (Transfers.shareTokN q 1) f) :=
    pointsTo_share (PosShare.mem_left_op_right _)
  have s2 : (pts M c (Transfers.shareDrop q 2) f : sProp 𝕄)
      ⊣⊢ iprop(pts M c (Transfers.shareDrop q 3) f ∗ pts M c (Transfers.shareTokN q 2) f) :=
    pointsTo_share (PosShare.mem_left_op_right _)
  constructor
  · refine s0.1.trans ((sep_mono_left s1.1).trans ((sep_mono_left (sep_mono_left s2.1)).trans ?_))
    iintro ⟨⟨⟨Hd, H2⟩, H1⟩, H0⟩
    isplitl [Hd]; · iexact Hd
    isplitl [H0]; · iexact H0
    isplitl [H1]; · iexact H1
    iexact H2
  · refine BIBase.Entails.trans ?_ ((sep_mono_left (sep_mono_left s2.2)).trans ((sep_mono_left s1.2).trans s0.2))
    iintro ⟨Hd, H0, H1, H2⟩
    isplitl [Hd H2 H1]
    · isplitl [Hd H2]
      · isplitl [Hd]; · iexact Hd
        iexact H2
      · iexact H1
    · iexact H0

end Cert.KernelIdeal.Proto
-- ==== Proof.BodyGeom2.lean ====
import proofs.«900573_g7700000000000574_dist_mla_v7x_xyz2x2x2_z_b1_s1024_d2048_dc128_bf16_1_alg».proof.Proof.BodyGeom

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem pointsTo_join_ex {ℓ : Loc nD τ sig} {I J : Finset (Idx ℓ)} (h : Disjoint I J) (q : PosShare TreeShare) :
    iprop((∃ f : Buf (Elt F) ℓ, ℓ ↦[I]{q} f) ∗ (∃ g : Buf (Elt F) ℓ, ℓ ↦[J]{q} g))
      ⊢ (iprop(∃ g : Buf (Elt F) ℓ, ℓ ↦[I ∪ J]{q} g) : sProp 𝕄) := by
  iintro ⟨⟨%f, Hf⟩, ⟨%g, Hg⟩⟩
  iexists (J.piecewise g f)
  iapply (pointsTo_join h)
  isplitl [Hf]
  · iexact Hf
  · iexact Hg

theorem wbufH_inb : ∀ (j : Fin 2) (a : Fin 3), (![j.val, 0, 0] : Fin 3 → Nat) a + S1x512x2048.size a ≤ S2x512x2048.size a := by decide

abbrev wbufHR (j : Fin 2) : Rect S2x512x2048 := Rect.unit (s := S2x512x2048) ![j.val, 0, 0] S1x512x2048.size (wbufH_inb j)

abbrev wbufH (j : Fin 2) : Memref sig .tc .vmem S1x512x2048 .f32 := wbufW.slice (wbufHR j) (fun _ => rfl)

theorem wbufHR_disjoint : Disjoint (wbufHR 0).set (wbufHR 1).set :=
  Rect.unit_disjoint (0 : Fin 3) (Or.inl (by decide))

theorem wbufHR_cover : (wbufHR 0).set ∪ (wbufHR 1).set = Finset.univ := by
  ext i
  simp only [Finset.mem_union, Finset.mem_univ, iff_true, Rect.mem_set_unit]
  have h0 : (i 0).val < 2 := (i 0).isLt
  have h1 : (i 1).val < 512 := (i 1).isLt
  have h2 : (i 2).val < 2048 := (i 2).isLt
  by_cases h : (i 0).val = 0
  · refine Or.inl fun a => ?_
    fin_cases a
    · show (0 : Nat) ≤ (i 0).val ∧ (i 0).val < 0 + 1; omega
    · show (0 : Nat) ≤ (i 1).val ∧ (i 1).val < 0 + 512; omega
    · show (0 : Nat) ≤ (i 2).val ∧ (i 2).val < 0 + 2048; omega
  · refine Or.inr fun a => ?_
    fin_cases a
    · show (1 : Nat) ≤ (i 0).val ∧ (i 0).val < 1 + 1; omega
    · show (0 : Nat) ≤ (i 1).val ∧ (i 1).val < 0 + 512; omega
    · show (0 : Nat) ≤ (i 2).val ∧ (i 2).val < 0 + 2048; omega

theorem wbufH_set_map (j : Fin 2) : (wbufH j).view.set = (wbufHR j).set.map wbufW.view.emb :=
  View.set_slice wbufW.view (wbufHR j)

theorem wbufH_view_disjoint : Disjoint (wbufH 0).view.set (wbufH 1).view.set := by
  rw [wbufH_set_map, wbufH_set_map]; exact (Finset.disjoint_map _).mpr wbufHR_disjoint

theorem wbufH_view_cover : wbufW.view.set = (wbufH 0).view.set ∪ (wbufH 1).view.set := by
  rw [wbufH_set_map, wbufH_set_map, ← Finset.map_union, wbufHR_cover]; rfl

theorem wbuf_split (c : Dev nD) (q : PosShare TreeShare) (f : Buf (Elt F) (wbufW.view.loc (c : Thread nD τ))) :
    (pts wbufW c q f : sProp 𝕄) ⊣⊢ iprop(pts (wbufH 0) c q f ∗ pts (wbufH 1) c q f) := by
  unfold pts
  rw [wbufH_view_cover]
  exact pointsTo_union wbufH_view_disjoint

theorem wbuf_join_ex (c : Dev nD) (q : PosShare TreeShare) :
    iprop((∃ f0, pts (wbufH 0) c q f0) ∗ (∃ f1, pts (wbufH 1) c q f1)) ⊢ (iprop(∃ g, pts wbufW c q g) : sProp 𝕄) := by
  refine (pointsTo_join_ex (F := F) (ℓ := wbufW.view.loc (c : Thread nD τ)) wbufH_view_disjoint q).trans (Entails.of_eq ?_)
  unfold pts
  rw [← wbufH_view_cover]

theorem slot3_view_disjoint (W : Memref sig .tc .vmem S2x128x2048 .bf16) :
    Disjoint (slot3 W 0).view.set (slot3 W 1).view.set := by
  rw [slot3_set_map, slot3_set_map]; exact (Finset.disjoint_map _).mpr slot3R_disjoint

theorem fin4_cover : ∀ (s0 s1 s2 s3 : Fin 4), s0 ≠ s1 → s0 ≠ s2 → s0 ≠ s3 → s1 ≠ s2 → s1 ≠ s3 → s2 ≠ s3 →
    ∀ x : Fin 4, x = s0 ∨ x = s1 ∨ x = s2 ∨ x = s3 := by decide

abbrev rowSet (s : Fin 4) : Finset (rblkW.view.ty.Idx) := (rblkM s 0).view.set ∪ (rblkM s 1).view.set

theorem rowSet_disjoint (s s' : Fin 4) (h : s ≠ s') : Disjoint (rowSet s) (rowSet s') :=
  Finset.disjoint_union_left.mpr
    ⟨Finset.disjoint_union_right.mpr ⟨rblkM_disjoint s s' 0 0 (Or.inl h), rblkM_disjoint s s' 0 1 (Or.inl h)⟩,
     Finset.disjoint_union_right.mpr ⟨rblkM_disjoint s s' 1 0 (Or.inl h), rblkM_disjoint s s' 1 1 (Or.inl h)⟩⟩

theorem rslotR_rows_cover (s0 s1 s2 s3 : Fin 4) (h01 : s0 ≠ s1) (h02 : s0 ≠ s2) (h03 : s0 ≠ s3) (h12 : s1 ≠ s2)
    (h13 : s1 ≠ s3) (h23 : s2 ≠ s3) :
    ((rslotR s0 0).set ∪ (rslotR s0 1).set) ∪ (((rslotR s1 0).set ∪ (rslotR s1 1).set) ∪
      (((rslotR s2 0).set ∪ (rslotR s2 1).set) ∪ ((rslotR s3 0).set ∪ (rslotR s3 1).set))) = Finset.univ := by
  ext i
  simp only [Finset.mem_union, Finset.mem_univ, iff_true]
  have h1 : (i 1).val < 2 := (i 1).isLt
  have e1 : (i 1).val = 0 ∨ (i 1).val = 1 := by omega
  rcases fin4_cover s0 s1 s2 s3 h01 h02 h03 h12 h13 h23 (i 0) with e0 | e0 | e0 | e0 <;> rcases e1 with e1 | e1
  · exact Or.inl (Or.inl (mem_rslotR s0 0 i (congrArg Fin.val e0) e1))
  · exact Or.inl (Or.inr (mem_rslotR s0 1 i (congrArg Fin.val e0) e1))
  · exact Or.inr (Or.inl (Or.inl (mem_rslotR s1 0 i (congrArg Fin.val e0) e1)))
  · exact Or.inr (Or.inl (Or.inr (mem_rslotR s1 1 i (congrArg Fin.val e0) e1)))
  · exact Or.inr (Or.inr (Or.inl (Or.inl (mem_rslotR s2 0 i (congrArg Fin.val e0) e1))))
  · exact Or.inr (Or.inr (Or.inl (Or.inr (mem_rslotR s2 1 i (congrArg Fin.val e0) e1))))
  · exact Or.inr (Or.inr (Or.inr (Or.inl (mem_rslotR s3 0 i (congrArg Fin.val e0) e1))))
  · exact Or.inr (Or.inr (Or.inr (Or.inr (mem_rslotR s3 1 i (congrArg Fin.val e0) e1))))

theorem rblkW_set_rows (s0 s1 s2 s3 : Fin 4) (h01 : s0 ≠ s1) (h02 : s0 ≠ s2) (h03 : s0 ≠ s3) (h12 : s1 ≠ s2)
    (h13 : s1 ≠ s3) (h23 : s2 ≠ s3) :
    rblkW.view.set = rowSet s0 ∪ (rowSet s1 ∪ (rowSet s2 ∪ rowSet s3)) := by
  show rblkW.view.set = ((rblkM s0 0).view.set ∪ (rblkM s0 1).view.set) ∪ (((rblkM s1 0).view.set ∪ (rblkM s1 1).view.set) ∪
    (((rblkM s2 0).view.set ∪ (rblkM s2 1).view.set) ∪ ((rblkM s3 0).view.set ∪ (rblkM s3 1).view.set)))
  rw [rblkM_set_map s0 0, rblkM_set_map s0 1, rblkM_set_map s1 0, rblkM_set_map s1 1, rblkM_set_map s2 0, rblkM_set_map s2 1,
    rblkM_set_map s3 0, rblkM_set_map s3 1]
  simp only [← Finset.map_union]
  rw [rslotR_rows_cover s0 s1 s2 s3 h01 h02 h03 h12 h13 h23]; rfl

theorem rblk_rows_gen_eq (s0 s1 s2 s3 : Fin 4) (h01 : s0 ≠ s1) (h02 : s0 ≠ s2) (h03 : s0 ≠ s3) (h12 : s1 ≠ s2)
    (h13 : s1 ≠ s3) (h23 : s2 ≠ s3) (c : Dev nD) (q : PosShare TreeShare)
    (f : Buf (Elt F) (rblkW.view.loc (c : Thread nD τ))) :
    (pts rblkW c q f : sProp 𝕄) = iprop((pts (rblkM s0 0) c q f ∗ pts (rblkM s0 1) c q f) ∗ (pts (rblkM s1 0) c q f ∗ pts (rblkM s1 1) c q f)
      ∗ (pts (rblkM s2 0) c q f ∗ pts (rblkM s2 1) c q f) ∗ (pts (rblkM s3 0) c q f ∗ pts (rblkM s3 1) c q f)) := by
  have r := fun (s : Fin 4) => pointsTo_union_eq (F := F) (I := (rblkM s 0).view.set) (J := (rblkM s 1).view.set)
    (rblkM_disjoint s s 0 1 (Or.inr (by decide))) q f
  have e3 := pointsTo_union_eq (F := F) (I := rowSet s2) (J := rowSet s3) (rowSet_disjoint s2 s3 h23) q f
  rw [r s2, r s3] at e3
  have e2 := pointsTo_union_eq (F := F) (I := rowSet s1) (J := rowSet s2 ∪ rowSet s3)
    (Finset.disjoint_union_right.mpr ⟨rowSet_disjoint s1 s2 h12, rowSet_disjoint s1 s3 h13⟩) q f
  rw [r s1, e3] at e2
  have e1 := pointsTo_union_eq (F := F) (I := rowSet s0) (J := rowSet s1 ∪ (rowSet s2 ∪ rowSet s3))
    (Finset.disjoint_union_right.mpr ⟨rowSet_disjoint s0 s1 h01,
      Finset.disjoint_union_right.mpr ⟨rowSet_disjoint s0 s2 h02, rowSet_disjoint s0 s3 h03⟩⟩) q f
  rw [r s0, e2] at e1
  unfold pts
  rw [rblkW_set_rows s0 s1 s2 s3 h01 h02 h03 h12 h13 h23]
  exact e1

theorem bIdx_p0_ne (c : Dev nD) : bIdx c ≠ bIdx (p0 c) := fun h => bIdx_pk_ne 0 c h.symm
theorem bIdx_p1_ne (c : Dev nD) : bIdx c ≠ bIdx (p1 c) := fun h => bIdx_pk_ne 1 c h.symm
theorem bIdx_p2_ne (c : Dev nD) : bIdx c ≠ bIdx (p2 c) := fun h => bIdx_pk_ne 2 c h.symm
theorem bIdx_p0_p1_ne (c : Dev nD) : bIdx (p0 c) ≠ bIdx (p1 c) := by
  intro h; have h' := congrArg Fin.val h; rw [bIdx_val, bIdx_val, p0_val, p1_val] at h'
  have hc : c.val < 8 := c.isLt; omega
theorem bIdx_p0_p2_ne (c : Dev nD) : bIdx (p0 c) ≠ bIdx (p2 c) := by
  intro h; have h' := congrArg Fin.val h; rw [bIdx_val, bIdx_val, p0_val, p2_val] at h'
  have hc : c.val < 8 := c.isLt; omega
theorem bIdx_p1_p2_ne (c : Dev nD) : bIdx (p1 c) ≠ bIdx (p2 c) := by
  intro h; have h' := congrArg Fin.val h; rw [bIdx_val, bIdx_val, p1_val, p2_val] at h'
  have hc : c.val < 8 := c.isLt; omega

theorem rblk_rows_eq (c : Dev nD) (q : PosShare TreeShare) (f : Buf (Elt F) (rblkW.view.loc (c : Thread nD τ))) :
    (pts rblkW c q f : sProp 𝕄) = iprop((pts (rblkM (bIdx c) 0) c q f ∗ pts (rblkM (bIdx c) 1) c q f)
      ∗ (pts (rblkM (bIdx (p0 c)) 0) c q f ∗ pts (rblkM (bIdx (p0 c)) 1) c q f)
      ∗ (pts (rblkM (bIdx (p1 c)) 0) c q f ∗ pts (rblkM (bIdx (p1 c)) 1) c q f)
      ∗ (pts (rblkM (bIdx (p2 c)) 0) c q f ∗ pts (rblkM (bIdx (p2 c)) 1) c q f)) :=
  rblk_rows_gen_eq (bIdx c) (bIdx (p0 c)) (bIdx (p1 c)) (bIdx (p2 c)) (bIdx_p0_ne c) (bIdx_p1_ne c) (bIdx_p2_ne c)
    (bIdx_p0_p1_ne c) (bIdx_p0_p2_ne c) (bIdx_p1_p2_ne c) c q f

theorem rblk_rows (c : Dev nD) (q : PosShare TreeShare) (f : Buf (Elt F) (rblkW.view.loc (c : Thread nD τ))) :
    (pts rblkW c q f : sProp 𝕄) ⊣⊢ iprop((pts (rblkM (bIdx c) 0) c q f ∗ pts (rblkM (bIdx c) 1) c q f)
      ∗ (pts (rblkM (bIdx (p0 c)) 0) c q f ∗ pts (rblkM (bIdx (p0 c)) 1) c q f)
      ∗ (pts (rblkM (bIdx (p1 c)) 0) c q f ∗ pts (rblkM (bIdx (p1 c)) 1) c q f)
      ∗ (pts (rblkM (bIdx (p2 c)) 0) c q f ∗ pts (rblkM (bIdx (p2 c)) 1) c q f)) :=
  ⟨Entails.of_eq (rblk_rows_eq c q f), Entails.of_eq (rblk_rows_eq c q f).symm⟩

end Cert.KernelIdeal.Proto
-- ==== Proof.BodyGeom3.lean ====
import proofs.«900573_g7700000000000574_dist_mla_v7x_xyz2x2x2_z_b1_s1024_d2048_dc128_bf16_1_alg».proof.Proof.BodyGeom2

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem rectQ_sub (j : Fin 2) (inb : ∀ a, (![j.val, 0, 0] : Fin 3 → Nat) a + S1x512x1024.size a ≤ S2x512x2048.size a) :
    (Rect.unit (s := S2x512x2048) ![j.val, 0, 0] S1x512x1024.size inb).set ⊆ (wbufHR j).set := by
  intro i hi
  rw [Rect.mem_set_unit] at hi ⊢
  intro a
  fin_cases a
  · have h := hi 0
    change j.val ≤ (i 0).val ∧ (i 0).val < j.val + 1 at h
    show j.val ≤ (i 0).val ∧ (i 0).val < j.val + 1; exact h
  · have h := hi 1
    change (0 : Nat) ≤ (i 1).val ∧ (i 1).val < 0 + 512 at h
    show (0 : Nat) ≤ (i 1).val ∧ (i 1).val < 0 + 512; exact h
  · have h := hi 2
    change (0 : Nat) ≤ (i 2).val ∧ (i 2).val < 0 + 1024 at h
    show (0 : Nat) ≤ (i 2).val ∧ (i 2).val < 0 + 2048; omega

theorem wbufQ0_set : wbufQ0.view.set
    = (Rect.unit (s := S2x512x2048) ![0, 0, 0] S1x512x1024.size inb_S2x512x2048_S1x512x1024_0_0_0).set.map wbufW.view.emb :=
  (View.set_reshape (wbufW.view.slice _) _).trans (View.set_slice wbufW.view _)
theorem wbufQ1_set : wbufQ1.view.set
    = (Rect.unit (s := S2x512x2048) ![1, 0, 0] S1x512x1024.size inb_S2x512x2048_S1x512x1024_1_0_0).set.map wbufW.view.emb :=
  (View.set_reshape (wbufW.view.slice _) _).trans (View.set_slice wbufW.view _)
theorem hSdQ0 : wbufQ0.view.set ⊆ (wbufH 0).view.set := by
  rw [wbufQ0_set, wbufH_set_map]; exact Finset.map_subset_map.mpr (rectQ_sub 0 _)
theorem hSdQ1 : wbufQ1.view.set ⊆ (wbufH 1).view.set := by
  rw [wbufQ1_set, wbufH_set_map]; exact Finset.map_subset_map.mpr (rectQ_sub 1 _)
theorem ldQ0_sub : wbufW.view.setOn (Rect.unit (s := S2x512x2048) ![0, 0, 0] S1x512x1024.size inb_S2x512x2048_S1x512x1024_0_0_0).toLoadRect.set
    ⊆ (wbufH 0).view.set := by
  rw [wbufH_set_map]; exact Finset.map_subset_map.mpr (rectQ_sub 0 _)
theorem ldQ1_sub : wbufW.view.setOn (Rect.unit (s := S2x512x2048) ![1, 0, 0] S1x512x1024.size inb_S2x512x2048_S1x512x1024_1_0_0).toLoadRect.set
    ⊆ (wbufH 1).view.set := by
  rw [wbufH_set_map]; exact Finset.map_subset_map.mpr (rectQ_sub 1 _)
end Cert.KernelIdeal.Proto
-- ==== Proof.SchedVal.lean ====
import proofs.«900573_g7700000000000574_dist_mla_v7x_xyz2x2x2_z_b1_s1024_d2048_dc128_bf16_1_alg».proof.Proof.Sched

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Loads
variable {c : Dev nD}

omit [FloatOps F] in

theorem read_reshape_write {κ : Kind} {sp : Space} {s s' : Shape} {e : EltTy} (v : View sig κ sp s e) (h : s'.numel = s.numel)
    (fd : v.ty.Contents (Elt F)) (w : s'.Idx → Elt F e) :
    v.read (Elt F) ((v.reshape s' h).write (Elt F) fd w Finset.univ) = shapeCast s w h.symm := by
  funext y
  have hy : v.emb y = (v.reshape s' h).emb (Shape.reshapeEquiv h.symm y) := by
    rw [View.emb_reshape]; show v.emb y = v.emb (Shape.reshapeEquiv h (Shape.reshapeEquiv h.symm y)); rw [reshape_roundtrip]
  rw [View.read_apply, hy, View.write_emb_of_mem _ _ (Finset.mem_univ _)]
  simp [shapeCast]

theorem shapeCasts_S512x1024_S1x512x1024 : S512x1024.ShapeCasts S1x512x1024 := by decide
theorem shapeCasts_S512x2048_S1x512x2048 : S512x2048.ShapeCasts S1x512x2048 := by decide

omit [FloatOps F] in

theorem wbuf_ld_Q0 (fd : Buf (Elt F) (wbufW.view.loc (c : Thread nD τ))) (w : S512x1024.Idx → Elt F .f32) :
    wbufW.view.readAt (Elt F) (Rect.unit (s := S2x512x2048) ![0, 0, 0] S1x512x1024.size inb_S2x512x2048_S1x512x1024_0_0_0).toLoadRect
      (wbufQ0.view.write (Elt F) fd w Finset.univ) = shapeCast S1x512x1024 w shapeCasts_S512x1024_S1x512x1024 :=
  read_reshape_write (F := F) (wbufW.view.slice (Rect.unit (s := S2x512x2048) ![0, 0, 0] S1x512x1024.size inb_S2x512x2048_S1x512x1024_0_0_0))
    squeezes_S1x512x1024_S512x1024.numel_eq fd w
omit [FloatOps F] in
theorem wbuf_ld_Q1 (fd : Buf (Elt F) (wbufW.view.loc (c : Thread nD τ))) (w : S512x1024.Idx → Elt F .f32) :
    wbufW.view.readAt (Elt F) (Rect.unit (s := S2x512x2048) ![1, 0, 0] S1x512x1024.size inb_S2x512x2048_S1x512x1024_1_0_0).toLoadRect
      (wbufQ1.view.write (Elt F) fd w Finset.univ) = shapeCast S1x512x1024 w shapeCasts_S512x1024_S1x512x1024 :=
  read_reshape_write (F := F) (wbufW.view.slice (Rect.unit (s := S2x512x2048) ![1, 0, 0] S1x512x1024.size inb_S2x512x2048_S1x512x1024_1_0_0))
    squeezes_S1x512x1024_S512x1024.numel_eq fd w
omit [FloatOps F] in
theorem wbuf_ld_O0 (fd : Buf (Elt F) (wbufW.view.loc (c : Thread nD τ))) (w : S512x2048.Idx → Elt F .f32) :
    wbufW.view.readAt (Elt F) (Rect.unit (s := S2x512x2048) ![0, 0, 0] S1x512x2048.size inb_S2x512x2048_S1x512x2048_0_0_0).toLoadRect
      (wbufO0.view.write (Elt F) fd w Finset.univ) = shapeCast S1x512x2048 w shapeCasts_S512x2048_S1x512x2048 :=
  read_reshape_write (F := F) (wbufW.view.slice (Rect.unit (s := S2x512x2048) ![0, 0, 0] S1x512x2048.size inb_S2x512x2048_S1x512x2048_0_0_0))
    squeezes_S1x512x2048_S512x2048.numel_eq fd w
omit [FloatOps F] in
theorem wbuf_ld_O1 (fd : Buf (Elt F) (wbufW.view.loc (c : Thread nD τ))) (w : S512x2048.Idx → Elt F .f32) :
    wbufW.view.readAt (Elt F) (Rect.unit (s := S2x512x2048) ![1, 0, 0] S1x512x2048.size inb_S2x512x2048_S1x512x2048_1_0_0).toLoadRect
      (wbufO1.view.write (Elt F) fd w Finset.univ) = shapeCast S1x512x2048 w shapeCasts_S512x2048_S1x512x2048 :=
  read_reshape_write (F := F) (wbufW.view.slice (Rect.unit (s := S2x512x2048) ![1, 0, 0] S1x512x2048.size inb_S2x512x2048_S1x512x2048_1_0_0))
    squeezes_S1x512x2048_S512x2048.numel_eq fd w

theorem wqLd0_eq (c : Dev nD) : wqLd0 m c = shapeCast S1x512x1024 ((wqSrc0 c).view.read (Elt F) (m ((c : Thread nD τ).loc main_arg4))) shapeCasts_S512x1024_S1x512x1024 := wbuf_ld_Q0 _ _
theorem wqLd1_eq (c : Dev nD) : wqLd1 m c = shapeCast S1x512x1024 ((wqSrc1 c).view.read (Elt F) (m ((c : Thread nD τ).loc main_arg4))) shapeCasts_S512x1024_S1x512x1024 := wbuf_ld_Q1 _ _
theorem wqLd2_eq (c : Dev nD) : wqLd2 m c = shapeCast S1x512x1024 ((wqSrc2 c).view.read (Elt F) (m ((c : Thread nD τ).loc main_arg4))) shapeCasts_S512x1024_S1x512x1024 := wbuf_ld_Q0 _ _
theorem wqLd3_eq (c : Dev nD) : wqLd3 m c = shapeCast S1x512x1024 ((wqSrc3 c).view.read (Elt F) (m ((c : Thread nD τ).loc main_arg4))) shapeCasts_S512x1024_S1x512x1024 := wbuf_ld_Q1 _ _
theorem woLd0_eq (c : Dev nD) : woLd0 m c = shapeCast S1x512x2048 ((woSrc0 c).view.read (Elt F) (m ((c : Thread nD τ).loc main_arg7))) shapeCasts_S512x2048_S1x512x2048 := wbuf_ld_O0 _ _
theorem woLd1_eq (c : Dev nD) : woLd1 m c = shapeCast S1x512x2048 ((woSrc1 c).view.read (Elt F) (m ((c : Thread nD τ).loc main_arg7))) shapeCasts_S512x2048_S1x512x2048 := wbuf_ld_O1 _ _

end Loads

section OutSpelt

omit [FloatOps F] in

theorem out_read_store_ne {s s' : Fin 4} {j j' : Fin 2} (h : s ≠ s' ∨ j ≠ j') (f : Vec F S1x1024x2048 .f32) (w : Vec F S1x128x2048 .f32) :
    (outW.access (outR s j)).read (Elt F) ((outW.access (outR s' j')).write (Elt F) f w Finset.univ) = (outW.access (outR s j)).read (Elt F) f :=
  View.read_slice_write_slice_of_disjoint _ _ _ _ _ (by
    rw [View.setOn_univ, View.set_slice_whole, View.set_slice_whole]; exact outR_disjoint h)
omit [FloatOps F] in

theorem out_read_store (s : Fin 4) (j : Fin 2) (f : Vec F S1x1024x2048 .f32) (w : Vec F S1x128x2048 .f32) :
    (outW.access (outR s j)).read (Elt F) ((outW.access (outR s j)).write (Elt F) f w Finset.univ) = w :=
  View.read_write_univ _ _

end OutSpelt

end Cert.KernelIdeal.Proto

end
-- ==== Proof.BodyStreamVal.lean ====
import proofs.«900573_g7700000000000574_dist_mla_v7x_xyz2x2x2_z_b1_s1024_d2048_dc128_bf16_1_alg».proof.Proof.Body0
import proofs.«900573_g7700000000000574_dist_mla_v7x_xyz2x2x2_z_b1_s1024_d2048_dc128_bf16_1_alg».proof.Proof.SchedVal

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

theorem wqLd0_run (c : Dev nD) (f : Buf (Elt F) (wbufW.view.loc (c : Thread nD τ))) :
    (wbufW.view.readAt (Elt F) (Rect.unit (s := S2x512x2048) ![0, 0, 0] S1x512x1024.size inb_S2x512x2048_S1x512x1024_0_0_0).toLoadRect
        (wbufQ0.view.write (Elt F) f (ReadAs.same.apply ((wqSrc0 c).view.read (Elt F) (m ((c : Thread nD τ).loc main_arg4)))) Finset.univ)) = wqLd0 m c := by
  rw [wqLd0_eq, wbuf_ld_Q0]
theorem wqLd1_run (c : Dev nD) (f : Buf (Elt F) (wbufW.view.loc (c : Thread nD τ))) :
    (wbufW.view.readAt (Elt F) (Rect.unit (s := S2x512x2048) ![1, 0, 0] S1x512x1024.size inb_S2x512x2048_S1x512x1024_1_0_0).toLoadRect
        (wbufQ1.view.write (Elt F) f (ReadAs.same.apply ((wqSrc1 c).view.read (Elt F) (m ((c : Thread nD τ).loc main_arg4)))) Finset.univ)) = wqLd1 m c := by
  rw [wqLd1_eq, wbuf_ld_Q1]
theorem wqLd2_run (c : Dev nD) (f : Buf (Elt F) (wbufW.view.loc (c : Thread nD τ))) :
    (wbufW.view.readAt (Elt F) (Rect.unit (s := S2x512x2048) ![0, 0, 0] S1x512x1024.size inb_S2x512x2048_S1x512x1024_0_0_0).toLoadRect
        (wbufQ0.view.write (Elt F) f (ReadAs.same.apply ((wqSrc2 c).view.read (Elt F) (m ((c : Thread nD τ).loc main_arg4)))) Finset.univ)) = wqLd2 m c := by
  rw [wqLd2_eq, wbuf_ld_Q0]
theorem wqLd3_run (c : Dev nD) (f : Buf (Elt F) (wbufW.view.loc (c : Thread nD τ))) :
    (wbufW.view.readAt (Elt F) (Rect.unit (s := S2x512x2048) ![1, 0, 0] S1x512x1024.size inb_S2x512x2048_S1x512x1024_1_0_0).toLoadRect
        (wbufQ1.view.write (Elt F) f (ReadAs.same.apply ((wqSrc3 c).view.read (Elt F) (m ((c : Thread nD τ).loc main_arg4)))) Finset.univ)) = wqLd3 m c := by
  rw [wqLd3_eq, wbuf_ld_Q1]
theorem woLd0_run (c : Dev nD) (f : Buf (Elt F) (wbufW.view.loc (c : Thread nD τ))) :
    (wbufW.view.readAt (Elt F) (Rect.unit (s := S2x512x2048) ![0, 0, 0] S1x512x2048.size inb_S2x512x2048_S1x512x2048_0_0_0).toLoadRect
        (wbufO0.view.write (Elt F) f (ReadAs.same.apply ((woSrc0 c).view.read (Elt F) (m ((c : Thread nD τ).loc main_arg7)))) Finset.univ)) = woLd0 m c := by
  rw [woLd0_eq, wbuf_ld_O0]
theorem woLd1_run (c : Dev nD) (f : Buf (Elt F) (wbufW.view.loc (c : Thread nD τ))) :
    (wbufW.view.readAt (Elt F) (Rect.unit (s := S2x512x2048) ![1, 0, 0] S1x512x2048.size inb_S2x512x2048_S1x512x2048_1_0_0).toLoadRect
        (wbufO1.view.write (Elt F) f (ReadAs.same.apply ((woSrc1 c).view.read (Elt F) (m ((c : Thread nD τ).loc main_arg7)))) Finset.univ)) = woLd1 m c := by
  rw [woLd1_eq, wbuf_ld_O1]

theorem qAcc_run (c : Dev nD) (fa fb : Buf (Elt F) (wbufW.view.loc (c : Thread nD τ))) :
    k0_pay12 (xq m c)
      (wbufW.view.readAt (Elt F) (Rect.unit (s := S2x512x2048) ![0, 0, 0] S1x512x1024.size inb_S2x512x2048_S1x512x1024_0_0_0).toLoadRect
        (wbufQ0.view.write (Elt F) fa (ReadAs.same.apply ((wqSrc0 c).view.read (Elt F) (m ((c : Thread nD τ).loc main_arg4)))) Finset.univ))
      (wbufW.view.readAt (Elt F) (Rect.unit (s := S2x512x2048) ![1, 0, 0] S1x512x1024.size inb_S2x512x2048_S1x512x1024_1_0_0).toLoadRect
        (wbufQ1.view.write (Elt F) fb (ReadAs.same.apply ((wqSrc1 c).view.read (Elt F) (m ((c : Thread nD τ).loc main_arg4)))) Finset.univ)) = qAcc m c := by
  rw [wqLd0_run, wqLd1_run]; rfl

theorem qVal_run (c : Dev nD) (fa fb : Buf (Elt F) (wbufW.view.loc (c : Thread nD τ))) :
    k0_pay13 (xq m c) (qAcc m c)
      (wbufW.view.readAt (Elt F) (Rect.unit (s := S2x512x2048) ![0, 0, 0] S1x512x1024.size inb_S2x512x2048_S1x512x1024_0_0_0).toLoadRect
        (wbufQ0.view.write (Elt F) fa (ReadAs.same.apply ((wqSrc2 c).view.read (Elt F) (m ((c : Thread nD τ).loc main_arg4)))) Finset.univ))
      (wbufW.view.readAt (Elt F) (Rect.unit (s := S2x512x2048) ![1, 0, 0] S1x512x1024.size inb_S2x512x2048_S1x512x1024_1_0_0).toLoadRect
        (wbufQ1.view.write (Elt F) fb (ReadAs.same.apply ((wqSrc3 c).view.read (Elt F) (m ((c : Thread nD τ).loc main_arg4)))) Finset.univ)) = qVal m c := by
  rw [wqLd2_run, wqLd3_run]; rfl

end Cert.KernelIdeal.Body
-- ==== Proof.BodyS2.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.Body0
import proofs.«900573_g7700000000000574_dist_mla_v7x_xyz2x2x2_z_b1_s1024_d2048_dc128_bf16_1_alg».proof.Proof.BodyGeom3
import proofs.«900573_g7700000000000574_dist_mla_v7x_xyz2x2x2_z_b1_s1024_d2048_dc128_bf16_1_alg».proof.Proof.BodyStreamVal

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

def rec2 (K : Dev nD × CK → ℕ) (c : Dev nD) : sProp 𝕄 :=
  iprop(cellInv ER (sched m) (K (c, CK.bar)) (cell c .bar) ∗ cellInv ER (sched m) (K (c, CK.zs 0)) (cell c (.zs 0))
    ∗ cellInv ER (sched m) (K (zp c, CK.zr 0)) (cell (zp c) (.zr 0))
    ∗ reached ER (cell c (.zs 0)) 0 ∗ levAts L lv)

def pre2 (c : Dev nD) (W : Waits sig Unit)
    (f13 : Buf (Elt F) (wuvSendM.view.loc (c : Thread nD τ))) (f9 : Buf (Elt F) (cRefM.view.loc (c : Thread nD τ)))
    (f17 f17b : Buf (Elt F) (wbufW.view.loc (c : Thread nD τ))) : sProp 𝕄 :=
  iprop(pts wuvSendM c fullShare f13 ∗ (xW.view.loc (c : Thread nD τ) ↦{fullShare} stg0 m c) ∗ (wdkvW.view.loc (c : Thread nD τ) ↦{fullShare} stg1 m c)
    ∗ pts cRefM c fullShare f9
    ∗ (wqW.view.loc (c : Thread nD τ) ↦[wqW.view.set]{fullShare} m ((c : Thread nD τ).loc main_arg4))
    ∗ pts (wbufH 0) c fullShare f17 ∗ pts (wbufH 1) c fullShare f17b
    ∗ semVal ((c : Thread nD τ), SemLoc.dma wl0) 0 ∗ semVal ((c : Thread nD τ), SemLoc.dma wl1) 0
    ∗ owes (c : Thread nD τ) (O_zr c) W
    ∗ atPos ER (cell c .bar) 0 (∅ : Finset DN) 0 ∗ cred (tallyAt (cell c .bar) () 1)
    ∗ dutyTok ER (cell c (.zs 0)) 0 (0 : DN) ∗ dutyTok ER (cell (zp c) (.zr 0)) 0 (0 : DN))

def post2 (c : Dev nD) : sProp 𝕄 :=
  iprop(pts wuvSendM c fullShare (wuvSend m c) ∗ (xW.view.loc (c : Thread nD τ) ↦{fullShare} stg0 m c) ∗ (wdkvW.view.loc (c : Thread nD τ) ↦{fullShare} stg1 m c)
    ∗ (wqW.view.loc (c : Thread nD τ) ↦[wqW.view.set]{fullShare} m ((c : Thread nD τ).loc main_arg4))
    ∗ (∃ f, pts (wbufH 0) c fullShare f) ∗ (∃ f, pts (wbufH 1) c fullShare f)
    ∗ semVal ((c : Thread nD τ), SemLoc.dma wl0) 0 ∗ semVal ((c : Thread nD τ), SemLoc.dma wl1) 0
    ∗ (∃ W', owes (c : Thread nD τ) (O_or c + tallyAt (cell (zp c) (.zr 2)) () Nv + tallyAt (cell (zp c) (.zr 1)) () Nk) W')
    ∗ atPos ER (cell c .bar) 1 (∅ : Finset DN) 0 ∗ cred (tallyAt (cell c (.zs 0)) () Nc)
    ∗ (∃ f, pts wukRecvM (zp c) fullShare f) ∗ (∃ f, pts wuvRecvM (zp c) fullShare f)
    ∗ (∃ f, pts (opRecvM 0) (zp c) fullShare f) ∗ (∃ f, pts (opRecvM 1) (zp c) fullShare f)
    ∗ reached ER (cell (zp c) (.zr 0)) 0 ∗ reached ER (cell (zp c) (.zr 1)) 0 ∗ reached ER (cell (zp c) (.zr 2)) 0
    ∗ reached ER (cell (zp c) (.orr 0)) 0 ∗ reached ER (cell (zp c) (.orr 1)) 0)

set_option sl_exec.stepHeartbeats 2000000 in
set_option maxHeartbeats 8000000 in
theorem seg2 (c : Dev nD) (K : Dev nD × CK → ℕ) (W : Waits sig Unit)
    (f13 : Buf (Elt F) (wuvSendM.view.loc (c : Thread nD τ))) (f9 : Buf (Elt F) (cRefM.view.loc (c : Thread nD τ)))
    (f17 f17b : Buf (Elt F) (wbufW.view.loc (c : Thread nD τ)))
    (k : (FVec F S1024x2048 .bf16) → (FVec F S1024x128 .bf16) → (FVec F S256x2048 .bf16) → (FVec F S256x1024 .bf16) → Prog (TpuEff nD τ sig (Elt F) Λ₀ .tc) PUnit)
    (Q : PUnit → sProp 𝕄) :
    iprop(rec2 m K c ∗ pre2 m c W f13 f9 f17 f17b
        ∗ (post2 m c -∗ wp frame (wpE (defs₀ (F := F)) Variants.none c none) Set.univ
            (k (xv m c) (cVal m c) (xq m c) (qVal m c)) Q))
      ⊢ wp frame (wpE (defs₀ (F := F)) Variants.none c none) Set.univ
          (Seg2 c (bw c) (k0_pay6 (zw c) (stg3 m c)) (w2 c) (w5 c) (w9 c) barSems k) Q := by
  unfold rec2 pre2
  iintro ⟨⟨#HIb, #HIs, #HIr, #Hrs, #Hlev⟩, ⟨H13, H0, H1, H9, Hq, H17a, H17b, Hw0, Hw1, HO, Hat, Hcb, Hts, Htr⟩, Hk⟩
  have hw0 : (levAts L lv : sProp 𝕄) ⊢ MayWait (c : Thread nD τ) (.dma wl0) () (O_zr c) :=
    mayWait_wl c wl0 (.inl rfl) _ (fun g u h => by obtain ⟨d, k, hg, hk⟩ := O_zr_pos h; exact ⟨d, k, hg, by omega⟩)
  have hw1 : (levAts L lv : sProp 𝕄) ⊢ MayWait (c : Thread nD τ) (.dma wl1) () (O_zr c) :=
    mayWait_wl c wl1 (.inr rfl) _ (fun g u h => by obtain ⟨d, k, hg, hk⟩ := O_zr_pos h; exact ⟨d, k, hg, by omega⟩)
  have hwb := mayWait_bar (F := F) c
  have hpeel : O_zr c = (O_or c + tallyAt (cell (zp c) (.zr 2)) () Nv + tallyAt (cell (zp c) (.zr 1)) () Nk) + tallyAt (cell (zp c) (.zr 0)) () Nc := rfl
  unfold Seg2 pts

  ihave Hq2 := ((pointsTo_share (PosShare.mem_left_op_right fullShare)).1) $$ [Hq]
  · iexact Hq
  icases Hq2 with ⟨HqL, HqR⟩
  sl_exec_parts
  ihave Hs0 := ((pointsTo_split_subset (ℓ := (wqW : Memref sig .tc .hbm S2048x2048 .f32).view.loc (c : Thread nD τ)) (I := (wqSrc0 c).view.set) (S := (wqW : Memref sig .tc .hbm S2048x2048 .f32).view.set) (q := fullShare.left) (f := m ((c : Thread nD τ).loc main_arg4)) (View.set_slice_subset _ _)).1) $$ [HqL]
  · iexact HqL
  icases Hs0 with ⟨Hc0, HqL⟩
  iapply (Transfers.wp_dmaLocal countersEmb Variants.none (c : Thread nD τ) none () _ rfl (View.dmaCredit_pos _ (by decide)) hSdQ0) $$ [Hc0 H17a Hw0]
  · isplitl [Hc0]; · iexact Hc0
    isplitl [H17a]; · iexact H17a
    iexact Hw0
  iintro HF0
  sl_exec_parts
  ihave Hs1 := ((pointsTo_split_subset (ℓ := (wqW : Memref sig .tc .hbm S2048x2048 .f32).view.loc (c : Thread nD τ)) (I := (wqSrc1 c).view.set) (S := (wqW : Memref sig .tc .hbm S2048x2048 .f32).view.set) (q := fullShare.right) (f := m ((c : Thread nD τ).loc main_arg4)) (View.set_slice_subset _ _)).1) $$ [HqR]
  · iexact HqR
  icases Hs1 with ⟨Hc1, HqR⟩
  iapply (Transfers.wp_dmaLocal countersEmb Variants.none (c : Thread nD τ) none () _ rfl (View.dmaCredit_pos _ (by decide)) hSdQ1) $$ [Hc1 H17b Hw1]
  · isplitl [Hc1]; · iexact Hc1
    isplitl [H17b]; · iexact H17b
    iexact Hw1
  iintro HF1
  sl_exec_parts
  iapply (wp_load Variants.none (c : Thread nD τ) none Set.univ (m := wbufW) ldQ0_sub) $$ [HF0_dst]
  · iexact HF0_dst
  iintro HF0_dst
  sl_exec_parts
  ihave Hs2 := ((pointsTo_split_subset (ℓ := (wqW : Memref sig .tc .hbm S2048x2048 .f32).view.loc (c : Thread nD τ)) (I := (wqSrc2 c).view.set) (S := (wqW : Memref sig .tc .hbm S2048x2048 .f32).view.set) (q := fullShare.left) (f := m ((c : Thread nD τ).loc main_arg4)) (View.set_slice_subset _ _)).1) $$ [HqL]
  · iexact HqL
  icases Hs2 with ⟨Hc2, HqL⟩
  iapply (Transfers.wp_dmaLocal countersEmb Variants.none (c : Thread nD τ) none () _ rfl (View.dmaCredit_pos _ (by decide)) hSdQ0) $$ [Hc2 HF0_dst HF0]
  · isplitl [Hc2]; · iexact Hc2
    isplitl [HF0_dst]; · iexact HF0_dst
    iexact HF0
  iintro HF2
  sl_exec_parts
  iapply (wp_load Variants.none (c : Thread nD τ) none Set.univ (m := wbufW) ldQ1_sub) $$ [HF1_dst]
  · iexact HF1_dst
  iintro HF1_dst
  sl_exec_parts
  ihave Hs3 := ((pointsTo_split_subset (ℓ := (wqW : Memref sig .tc .hbm S2048x2048 .f32).view.loc (c : Thread nD τ)) (I := (wqSrc3 c).view.set) (S := (wqW : Memref sig .tc .hbm S2048x2048 .f32).view.set) (q := fullShare.right) (f := m ((c : Thread nD τ).loc main_arg4)) (View.set_slice_subset _ _)).1) $$ [HqR]
  · iexact HqR
  icases Hs3 with ⟨Hc3, HqR⟩
  iapply (Transfers.wp_dmaLocal countersEmb Variants.none (c : Thread nD τ) none () _ rfl (View.dmaCredit_pos _ (by decide)) hSdQ1) $$ [Hc3 HF1_dst HF1]
  · isplitl [Hc3]; · iexact Hc3
    isplitl [HF1_dst]; · iexact HF1_dst
    iexact HF1
  iintro HF3
  sl_exec_parts
  iapply (wp_load Variants.none (c : Thread nD τ) none Set.univ (m := wbufW) ldQ0_sub) $$ [HF2_dst]
  · iexact HF2_dst
  iintro HF2_dst
  sl_exec_parts
  iapply (wp_load Variants.none (c : Thread nD τ) none Set.univ (m := wbufW) ldQ1_sub) $$ [HF3_dst]
  · iexact HF3_dst
  iintro HF3_dst
  sl_exec_parts

  have hr0 : View.readAt (Elt F) xW.view (Rect.unit ![0, 0, 0] S1x1024x2048.size inb_S1x1024x2048_S1x1024x2048_0_0_0).toLoadRect (stg0 m c) = stg0 m c :=
    read_whole cc0_stg0_0 vec3_zero _ _
  have hr1 : View.readAt (Elt F) wdkvW.view (Rect.unit ![0, 0] S2048x128.size inb_S2048x128_S2048x128_0_0).toLoadRect (stg1 m c) = stg1 m c :=
    read_whole cc0_stg1_0 vec2_zero _ _
  have e9 : cRefM.view.writes (Elt F) f9
      [⟨Rect.unit ![0, 0] S1024x128.size inb_S1024x128_S1024x128_0_0,
          k0_pay10
            (View.readAt (Elt F) xW.view (Rect.unit ![0, 0, 0] S1x1024x2048.size inb_S1x1024x2048_S1x1024x2048_0_0_0).toLoadRect (stg0 m c))
            (View.readAt (Elt F) wdkvW.view (Rect.unit ![0, 0] S2048x128.size inb_S2048x128_S2048x128_0_0).toLoadRect (stg1 m c))⟩] = cLat m c := by
    rw [hr0, hr1]; exact store_whole cc0_scratch0 vec2_zero _ _ _
  have e13 : wuvSendM.view.writes (Elt F) f13
      [⟨Rect.unit ![0, 0] S128x1024.size inb_S128x1024_S128x1024_0_0, k0_pay7 (k0_pay6 (zw c) (stg3 m c))⟩] = wuvSend m c :=
    store_whole cc0_scratch4 vec2_zero _ _ _
  rw [e9, e13]
  have wr_c : ∀ (g : Buf (Elt F) (cRecvM.view.loc ((zp c : Dev nD) : Thread nD τ))) (fs : Buf (Elt F) (cRefM.view.loc (c : Thread nD τ))),
      View.write (Elt F) cRecvM.view g (View.read (Elt F) cRefM.view fs) Finset.univ = fs :=
    fun g fs => (View.write_whole_univ _ _ _).trans (View.read_whole _ _)
  unfold pts
  simp only [dev5_eq]
  icases Hat_pay6 with #Hp6
  iapply (Rounds.wp_send_pointsTo Variants.none ER (sched m) (c : Thread nD τ) none
      (c' := ((zp c : Dev nD) : Thread nD τ)) (src := cRefM) (dst := cRecvM) (sS := csem (.zs 0)) (sem := csem (.zr 0))
      (q := fullShare) (fs := cLat m c) (fd := Hat_pay1_v) (r₁ := 0) (r₂ := 0) (d₁ := (0 : DN)) (d₂ := (0 : DN))
      (by rw [duties_zs]; exact Finset.mem_singleton_self _) (by rw [duties_zr]; exact Finset.mem_singleton_self _)
      () () Nc rfl (amount_zs m c 0 0) (amount_zr m (zp c) 0 0)
      (O_or c + tallyAt (cell (zp c) (.zr 2)) () Nv + tallyAt (cell (zp c) (.zr 1)) () Nk) rfl
      (by rw [payload_zs, zsPay_0])
      (by rw [payload_zr_peer, zrPay_0, wr_c])) $$ [H9 Hat_pay1 HO Hts Htr]
  · isplitr; · iexact HIs
    isplitr; · iexact HIr
    isplitl [H9]; · iexact H9
    isplitl [Hat_pay1]; · iexact Hat_pay1
    isplitl [HO]; · iexact HO
    isplitl [Hts]; · iexact Hts
    isplitr; · iexact Hrs
    isplitl [Htr]; · iexact Htr
    iexact Hp6
  iintro ⟨Hcz, HO⟩
  sl_exec_parts
  have q1 : seg2.sl.r m c = xv m c := by unfold seg2.sl.r xv; rw [hr0]
  have q2 : seg2.sl.r_1 m c = cVal m c := by unfold seg2.sl.r_1 cVal; rw [hr0, hr1]
  have q3 : seg2.sl.r_2 m c = xq m c := by unfold seg2.sl.r_2 xq xqLd; rfl
  have q4 : seg2.sl.r_4 m c f17 f17b = qVal m c := by
    unfold seg2.sl.r_4 seg2.sl.r_3
    rw [q3]
    exact (congrArg (fun a => k0_pay13 (xq m c) a _ _) (qAcc_run m c f17 f17b)).trans (qVal_run m c _ _)
  rw [q1, q2, q3, q4]
  iapply Hk
  unfold post2 pts
  isplitl [H13]; · iexact H13
  isplitl [H0]; · iexact H0
  isplitl [H1]; · iexact H1
  isplitl [HqL HqR]
  · iapply ((pointsTo_share (PosShare.mem_left_op_right fullShare)).2)
    isplitl [HqL]; · iexact HqL
    iexact HqR
  isplitl [HF2_dst]; · iexists _; iexact HF2_dst
  isplitl [HF3_dst]; · iexists _; iexact HF3_dst
  isplitl [HF2]; · iexact HF2
  isplitl [HF3]; · iexact HF3
  isplitl [HO]; · iexists _; iexact HO
  isplitl [Hat]; · iexact Hat
  isplitl [Hcz]; · iexact Hcz
  isplitl [Hat_pay2]; · iexists _; iexact Hat_pay2
  isplitl [Hat_pay3]; · iexists _; iexact Hat_pay3
  isplitl [Hat_pay4]; · iexists _; iexact Hat_pay4
  isplitl [Hat_pay5]; · iexists _; iexact Hat_pay5
  isplitr; · iexact Hp6
  isplitl [Hat_pay7]; · iexact Hat_pay7
  isplitl [Hat_pay8]; · iexact Hat_pay8
  isplitl [Hat_pay9]; · iexact Hat_pay9
  iexact Hat_pay10

end Cert.KernelIdeal.Body

end
-- ==== Proof.BodyS3.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.Body0

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

def rec3 (K : Dev nD × CK → ℕ) (c : Dev nD) : sProp 𝕄 :=
  iprop(cellInv ER (sched m) (K (c, CK.zs 0)) (cell c (.zs 0)) ∗ cellInv ER (sched m) (K (c, CK.zs 1)) (cell c (.zs 1)) ∗ cellInv ER (sched m) (K (c, CK.zs 2)) (cell c (.zs 2)) ∗ cellInv ER (sched m) (K (c, CK.zr 0)) (cell c (.zr 0)) ∗ cellInv ER (sched m) (K (c, CK.zr 1)) (cell c (.zr 1)) ∗ cellInv ER (sched m) (K (c, CK.zr 2)) (cell c (.zr 2))
    ∗ cellInv ER (sched m) (K (zp c, CK.zr 1)) (cell (zp c) (.zr 1)) ∗ cellInv ER (sched m) (K (zp c, CK.zr 2)) (cell (zp c) (.zr 2))
    ∗ reached ER (cell c (.zs 0)) 0 ∗ reached ER (cell c (.zs 1)) 0 ∗ reached ER (cell c (.zs 2)) 0
    ∗ reached ER (cell (zp c) (.zr 1)) 0 ∗ reached ER (cell (zp c) (.zr 2)) 0
    ∗ levAts L lv)

def pre3 (c : Dev nD) (W : Waits sig Unit) : sProp 𝕄 :=
  iprop(pts wukSendM c fullShare (wukSend m c) ∗ pts wuvSendM c fullShare (wuvSend m c)
    ∗ (∃ f, pts wukRecvM (zp c) fullShare f) ∗ (∃ f, pts wuvRecvM (zp c) fullShare f)
    ∗ owes (c : Thread nD τ) (O_or c + tallyAt (cell (zp c) (.zr 2)) () Nv + tallyAt (cell (zp c) (.zr 1)) () Nk) W
    ∗ dutyTok ER (cell c (.zs 1)) 0 (0 : DN) ∗ dutyTok ER (cell c (.zs 2)) 0 (0 : DN)
    ∗ dutyTok ER (cell (zp c) (.zr 1)) 0 (0 : DN) ∗ dutyTok ER (cell (zp c) (.zr 2)) 0 (0 : DN)
    ∗ cred (tallyAt (cell c (.zs 0)) () Nc)
    ∗ cred (tallyAt (cell c (.zr 0)) () Nc) ∗ cred (tallyAt (cell c (.zr 1)) () Nk) ∗ cred (tallyAt (cell c (.zr 2)) () Nv)
    ∗ atPos ER (cell c (.zs 0)) 0 (∅ : Finset DN) 0 ∗ atPos ER (cell c (.zs 1)) 0 (∅ : Finset DN) 0 ∗ atPos ER (cell c (.zs 2)) 0 (∅ : Finset DN) 0 ∗ atPos ER (cell c (.zr 0)) 0 (∅ : Finset DN) 0 ∗ atPos ER (cell c (.zr 1)) 0 (∅ : Finset DN) 0 ∗ atPos ER (cell c (.zr 2)) 0 (∅ : Finset DN) 0
    ∗ (wqrW.view.loc (c : Thread nD τ) ↦{fullShare} stg4 m c) ∗ (wkrW.view.loc (c : Thread nD τ) ↦{fullShare} stg5 m c))

def post3 (c : Dev nD) : sProp 𝕄 :=
  iprop((∃ W', owes (c : Thread nD τ) (O_or c) W')
    ∗ atPos ER (cell c (.zs 0)) 1 (∅ : Finset DN) 0 ∗ atPos ER (cell c (.zs 1)) 1 (∅ : Finset DN) 0 ∗ atPos ER (cell c (.zs 2)) 1 (∅ : Finset DN) 0 ∗ atPos ER (cell c (.zr 0)) 1 (∅ : Finset DN) 0 ∗ atPos ER (cell c (.zr 1)) 1 (∅ : Finset DN) 0 ∗ atPos ER (cell c (.zr 2)) 1 (∅ : Finset DN) 0
    ∗ pts cRefM c fullShare (cLat m c) ∗ pts wukSendM c fullShare (wukSend m c) ∗ pts wuvSendM c fullShare (wuvSend m c)
    ∗ pts cRecvM c fullShare (cLat m (zp c)) ∗ pts wukRecvM c fullShare (wukSend m (zp c)) ∗ pts wuvRecvM c fullShare (wuvSend m (zp c))
    ∗ (wqrW.view.loc (c : Thread nD τ) ↦{fullShare} stg4 m c) ∗ (wkrW.view.loc (c : Thread nD τ) ↦{fullShare} stg5 m c))

theorem wr_wuk (c c' : Dev nD) (g : Buf (Elt F) (wukRecvM.view.loc (c' : Thread nD τ))) (fs : Buf (Elt F) (wukSendM.view.loc (c : Thread nD τ))) :
    View.write (Elt F) wukRecvM.view g (View.read (Elt F) wukSendM.view fs) Finset.univ = (fs : S128x1024.Idx → Elt F .bf16) :=
  (View.write_whole_univ _ _ _).trans (View.read_whole _ _)

theorem wr_wuv (c c' : Dev nD) (g : Buf (Elt F) (wuvRecvM.view.loc (c' : Thread nD τ))) (fs : Buf (Elt F) (wuvSendM.view.loc (c : Thread nD τ))) :
    View.write (Elt F) wuvRecvM.view g (View.read (Elt F) wuvSendM.view fs) Finset.univ = (fs : S128x1024.Idx → Elt F .bf16) :=
  (View.write_whole_univ _ _ _).trans (View.read_whole _ _)

attribute [local sl_rounds] wr_wuk wr_wuv

set_option sl_exec.stepHeartbeats 2000000 in
set_option maxHeartbeats 8000000 in

theorem seg3 (c : Dev nD) (K : Dev nD × CK → ℕ) (W : Waits sig Unit)
    (k : (FVec F S256x256 .bf16) → (FVec F S1024x32 .bf16) → (FVec F S1024x1024 .f32) → (FVec F S1024x1024 .f32) → Prog (TpuEff nD τ sig (Elt F) Λ₀ .tc) PUnit)
    (Q : PUnit → sProp 𝕄) :
    iprop(rec3 m K c ∗ pre3 m c W
        ∗ (post3 m c -∗ wp frame (wpE (defs₀ (F := F)) Variants.none c none) Set.univ
            (k (qrVal m c) (krVal m c) (kpVal m c) (vpVal m c)) Q))
      ⊢ wp frame (wpE (defs₀ (F := F)) Variants.none c none) Set.univ
          (Seg3 c (w2 c) (w5 c) (zw c) (w9 c) (wukMy m c) (wuvMy m c) (xv m c) (cVal m c) (xq m c) k) Q := by
  unfold rec3 pre3 post3
  unfold pts
  iintro ⟨⟨#HIs0, #HIs1, #HIs2, #HIr0, #HIr1, #HIr2, #HIp1, #HIp2, #Hrs0, #Hrs1, #Hrs2, #Hrp1, #Hrp2, #Hlev⟩,
    ⟨H11, H13, ⟨%g12, Hg12⟩, ⟨%g14, Hg14⟩, HO, Hts1, Hts2, Htp1, Htp2, Hcs0, Hcr0, Hcr1, Hcr2,
      Has0, Has1, Has2, Har0, Har1, Har2, H4, H5⟩, Hk⟩
  have hzs0 := mayWait_zs (F := F) c 0
  have hzs1 := mayWait_zs (F := F) c 1
  have hzs2 := mayWait_zs (F := F) c 2
  have hzr0 := mayWait_zr (F := F) c 0
  have hzr1 := mayWait_zr (F := F) c 1
  have hzr2 := mayWait_zr (F := F) c 2
  unfold Seg3
  sl_exec_parts
  iapply (Rounds.wp_send_pointsTo Variants.none ER (sched m) (c : Thread nD τ) none
      (c' := ((zp c : Dev nD) : Thread nD τ)) (src := wukSendM) (dst := wukRecvM) (sS := csem (.zs 1)) (sem := csem (.zr 1))
      (q := fullShare) (fs := wukSend m c) (fd := g12) (r₁ := 0) (r₂ := 0) (d₁ := (0 : DN)) (d₂ := (0 : DN))
      (by rw [duties_zs]; exact Finset.mem_singleton_self _) (by rw [duties_zr]; exact Finset.mem_singleton_self _)
      () () Nk rfl (amount_zs m c 1 0) (amount_zr m (zp c) 1 0)
      (O_or c + tallyAt (cell (zp c) (.zr 2)) () Nv) rfl
      (by rw [payload_zs, zsPay_1])
      (by rw [payload_zr_peer, zrPay_1, wr_wuk c (zp c) g12 (wukSend m c)])) $$ [H11 Hg12 HO Hts1 Htp1]
  · isplitr; · iexact HIs1
    isplitr; · iexact HIp1
    isplitl [H11]; · iexact H11
    isplitl [Hg12]; · iexact Hg12
    isplitl [HO]; · iexact HO
    isplitl [Hts1]; · iexact Hts1
    isplitr; · iexact Hrs1
    isplitl [Htp1]; · iexact Htp1
    iexact Hrp1
  iintro ⟨Hcs1, HO⟩
  sl_exec_parts
  iapply (Rounds.wp_send_pointsTo Variants.none ER (sched m) (c : Thread nD τ) none
      (c' := ((zp c : Dev nD) : Thread nD τ)) (src := wuvSendM) (dst := wuvRecvM) (sS := csem (.zs 2)) (sem := csem (.zr 2))
      (q := fullShare) (fs := wuvSend m c) (fd := g14) (r₁ := 0) (r₂ := 0) (d₁ := (0 : DN)) (d₂ := (0 : DN))
      (by rw [duties_zs]; exact Finset.mem_singleton_self _) (by rw [duties_zr]; exact Finset.mem_singleton_self _)
      () () Nv rfl (amount_zs m c 2 0) (amount_zr m (zp c) 2 0)
      (O_or c) rfl
      (by rw [payload_zs, zsPay_2])
      (by rw [payload_zr_peer, zrPay_2, wr_wuv c (zp c) g14 (wuvSend m c)])) $$ [H13 Hg14 HO Hts2 Htp2]
  · isplitr; · iexact HIs2
    isplitr; · iexact HIp2
    isplitl [H13]; · iexact H13
    isplitl [Hg14]; · iexact Hg14
    isplitl [HO]; · iexact HO
    isplitl [Hts2]; · iexact Hts2
    isplitr; · iexact Hrs2
    isplitl [Htp2]; · iexact Htp2
    iexact Hrp2
  iintro ⟨Hcs2, HO⟩
  sl_exec_parts
  have hr4 : View.readAt (Elt F) wqrW.view (Rect.unit ![0, 0] S2048x512.size inb_S2048x512_S2048x512_0_0).toLoadRect (stg4 m c) = stg4 m c := read_whole cc0_stg4_0 vec2_zero _ _
  have hr5 : View.readAt (Elt F) wkrW.view (Rect.unit ![0, 0] S2048x32.size inb_S2048x32_S2048x32_0_0).toLoadRect (stg5 m c) = stg5 m c := read_whole cc0_stg5_0 vec2_zero _ _
  have e0 : seg3.sl.r m c = qrVal m c := by unfold seg3.sl.r qrVal; rw [hr4]
  have e1 : seg3.sl.r_1 m c = krVal m c := by unfold seg3.sl.r_1 krVal; rw [hr5]
  have e2 : seg3.sl.r_2 m c = kpVal m c := rfl
  have e3 : seg3.sl.r_3 m c = vpVal m c := rfl
  rw [e0, e1, e2, e3]
  iapply Hk
  isplitl [HO]; · iexists _; iexact HO
  isplitl [Has0]; · iexact Has0
  isplitl [Has1]; · iexact Has1
  isplitl [Has2]; · iexact Has2
  isplitl [Har0]; · iexact Har0
  isplitl [Har1]; · iexact Har1
  isplitl [Har2]; · iexact Har2
  isplitl [Has0_pay1]; · iexact Has0_pay1
  isplitl [Has1_pay1]; · iexact Has1_pay1
  isplitl [Has2_pay1]; · iexact Has2_pay1
  isplitl [Har0_pay1]; · iexact Har0_pay1
  isplitl [Har1_pay1]; · iexact Har1_pay1
  isplitl [Har2_pay1]; · iexact Har2_pay1
  isplitl [H4]; · iexact H4
  iexact H5

end Cert.KernelIdeal.Body

end
-- ==== Proof.BodyS4.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.Body0

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

def pre4 (c : Dev nD) : sProp 𝕄 :=
  iprop(pts cRecvM c fullShare (cLat m (zp c)) ∗ pts wukRecvM c fullShare (wukSend m (zp c)) ∗ pts wuvRecvM c fullShare (wuvSend m (zp c)))

theorem seg4 (c : Dev nD)
    (k : (FVec F S1024x1024 .bf16) → (FVec F S1024x1024 .bf16) → (FVec F S32x1024 .bf16) → (FVec F S128x128 .f32) → (FVec F S128x128 .f32) → (FVec F S128x128 .f32) → (FVec F S128x128 .f32) → (FVec F S128x128 .f32) → (FVec F S128x128 .f32) → (FVec F S128x1024 .f32) → Prog (TpuEff nD τ sig (Elt F) Λ₀ .tc) PUnit)
    (Q : PUnit → sProp 𝕄) :
    iprop(pre4 m c ∗ (pre4 m c -∗ wp frame (wpE (defs₀ (F := F)) Variants.none c none) Set.univ
        (k (kVal m c) (vVal m c) (krT m c) (c0v254 m c) (c0v273 m c) (c0v292 m c) (c0v311 m c) (c0v330 m c) (c0v349 m c) (c0v358 m c)) Q))
      ⊢ wp frame (wpE (defs₀ (F := F)) Variants.none c none) Set.univ (Seg4 (qVal m c) (qrVal m c) (krVal m c) (kpVal m c) (vpVal m c) k) Q := by
  unfold pre4
  iintro ⟨⟨H10, H12, H14⟩, Hk⟩
  unfold Seg4
  sl_exec_parts
  have hr10 : View.readAt (Elt F) cRecvM.view (Rect.unit ![0, 0] S1024x128.size inb_S1024x128_S1024x128_0_0).toLoadRect (cLat m (zp c)) = cLat m (zp c) := read_whole cc0_scratch1 vec2_zero _ _
  have hr12 : View.readAt (Elt F) wukRecvM.view (Rect.unit ![0, 0] S128x1024.size inb_S128x1024_S128x1024_0_0).toLoadRect (wukSend m (zp c)) = wukSend m (zp c) := read_whole cc0_scratch3 vec2_zero _ _
  have hr14 : View.readAt (Elt F) wuvRecvM.view (Rect.unit ![0, 0] S128x1024.size inb_S128x1024_S128x1024_0_0).toLoadRect (wuvSend m (zp c)) = wuvSend m (zp c) := read_whole cc0_scratch5 vec2_zero _ _
  have e0 : seg4.sl.r m c = kVal m c := by unfold seg4.sl.r kVal; rw [hr10, hr12]
  have e1 : seg4.sl.r_1 m c = vVal m c := by unfold seg4.sl.r_1 vVal; rw [hr10, hr14]
  have e2 : seg4.sl.r_2 m c = krT m c := rfl
  have e3 : seg4.sl.r_3 m c = c0v254 m c := by unfold seg4.sl.r_3 c0v254; rw [hr10, hr12, hr14]
  have e4 : seg4.sl.r_4 m c = c0v264 m c := by unfold seg4.sl.r_4 c0v264; rw [hr10, hr12]
  have e5 : seg4.sl.r_5 m c = c0v266 m c := by unfold seg4.sl.r_5 c0v266; rw [hr10, hr12]
  have e6 : seg4.sl.r_6 m c = c0v267 m c := by unfold seg4.sl.r_6 c0v267; rw [hr10, hr14]
  have e7 : seg4.sl.r_7 m c = c0v273 m c := by unfold seg4.sl.r_7 c0v273; rw [e4, e5, e6]
  have e8 : seg4.sl.r_8 m c = c0v292 m c := by unfold seg4.sl.r_8 c0v292; rw [e0, e1, e2]
  have e9 : seg4.sl.r_9 m c = c0v311 m c := by unfold seg4.sl.r_9 c0v311; rw [e0, e1, e2]
  have e12 : seg4.sl.r_12 m c = c0v330 m c := by unfold seg4.sl.r_12 seg4.sl.r_10 seg4.sl.r_11 c0v330; rw [e0, e1, e2]
  have e13 : seg4.sl.r_13 m c = c0v349 m c := by unfold seg4.sl.r_13 c0v349; rw [e0, e1, e2]
  have e14 : seg4.sl.r_14 m c = c0v358 m c := by unfold seg4.sl.r_14 c0v358; rw [e0, e2]
  rw [e0, e1, e2, e3, e7, e8, e9, e12, e13, e14]
  iapply Hk
  isplitl [H10]; · iexact H10
  isplitl [H12]; · iexact H12
  iexact H14

end Cert.KernelIdeal.Body

end
-- ==== Proof.BodyS5.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.Body0
import proofs.«900573_g7700000000000574_dist_mla_v7x_xyz2x2x2_z_b1_s1024_d2048_dc128_bf16_1_alg».proof.Proof.SchedVal
import proofs.«900573_g7700000000000574_dist_mla_v7x_xyz2x2x2_z_b1_s1024_d2048_dc128_bf16_1_alg».proof.Proof.BodyGeom3

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

def rec5 (K : Dev nD × CK → ℕ) (c : Dev nD) : sProp 𝕄 :=
  iprop(cellInv ER (sched m) (K (c, CK.os 0)) (cell c (.os 0)) ∗ cellInv ER (sched m) (K (zp c, CK.orr 0)) (cell (zp c) (.orr 0))
    ∗ reached ER (cell c (.os 0)) 0 ∗ reached ER (cell (zp c) (.orr 0)) 0 ∗ levAts L lv)

def toks5 (c : Dev nD) : sProp 𝕄 :=
  iprop(dutyTok ER (cell c (.os 0)) 0 (0 : DN) ∗ dutyTok ER (cell (zp c) (.orr 0)) 0 (0 : DN))

def pre5 (c : Dev nD) (W : Waits sig Unit) (f18 : Buf (Elt F) (opSendW.view.loc (c : Thread nD τ)))
    (g19 : Buf (Elt F) ((opRecvM 0).view.loc ((zp c : Dev nD) : Thread nD τ))) : sProp 𝕄 :=
  iprop(toks5 c
    ∗ owes (c : Thread nD τ) (O_or c) W
    ∗ semVal ((c : Thread nD τ), SemLoc.dma wl0) 0 ∗ semVal ((c : Thread nD τ), SemLoc.dma wl1) 0
    ∗ (woW.view.loc (c : Thread nD τ) ↦[woW.view.set]{fullShare} m ((c : Thread nD τ).loc main_arg7))
    ∗ (∃ f, pts (wbufH 0) c fullShare f) ∗ (∃ f, pts (wbufH 1) c fullShare f)
    ∗ pts opSendW c fullShare f18
    ∗ pts (opRecvM 0) (zp c) fullShare g19)

def post5 (c : Dev nD) (W : Waits sig Unit) (f18 : Buf (Elt F) (opSendW.view.loc (c : Thread nD τ))) : sProp 𝕄 :=
  iprop((∃ W', owes (c : Thread nD τ) (O_or1 c) W') ∗ cred (tallyAt (cell c (.os 0)) () No)
    ∗ semVal ((c : Thread nD τ), SemLoc.dma wl0) 0 ∗ semVal ((c : Thread nD τ), SemLoc.dma wl1) 0
    ∗ (woW.view.loc (c : Thread nD τ) ↦[woW.view.set]{fullShare} m ((c : Thread nD τ).loc main_arg7))
    ∗ (∃ f, pts (wbufH 0) c fullShare f) ∗ (∃ f, pts (wbufH 1) c fullShare f)
    ∗ pts (opSendM 1) c fullShare f18)

omit [FloatOps F] in

theorem slot1_kept (W : Memref sig .tc .vmem S2x128x2048 .bf16) (c : Dev nD) (q : PosShare TreeShare)
    (f : Buf (Elt F) (W.view.loc (c : Thread nD τ))) (v : Vec F S1x128x2048 .bf16) :
    (pts (slot3 W 1) c q ((W.access (slot3R 0)).write (Elt F) f v Finset.univ) : sProp 𝕄) = pts (slot3 W 1) c q f := by
  refine pointsTo_congr fun i hi => ?_
  refine View.write_of_not_mem _ _ _ ?_
  rw [View.setOn_univ, ← Proto.slot3_set W 0]
  exact Finset.disjoint_right.mp (slot3_view_disjoint W) hi

omit [FloatOps F] in

theorem land_op (c e : Dev nD) (j : Fin 2)
    (fd : Buf (Elt F) ((opRecvM j).view.loc (e : Thread nD τ))) (w : Vec F S128x2048 .bf16) :
    (pts (opRecvM j) e fullShare ((opRecvM j).view.write (Elt F) fd ((opSendM j).view.read (Elt F) (slotBuf m (opSendM j) c w)) Finset.univ) : sProp 𝕄)
      = pts (opRecvM j) e fullShare (slotBuf m (opRecvM j) e w) := by
  rw [pts_write_eq m, read_slotBuf]

set_option sl_exec.stepHeartbeats 2000000 in
set_option maxHeartbeats 8000000 in
theorem seg5 (c : Dev nD) (K : Dev nD × CK → ℕ) (W : Waits sig Unit)
    (f18 : Buf (Elt F) (opSendW.view.loc (c : Thread nD τ)))
    (g19 : Buf (Elt F) ((opRecvM 0).view.loc ((zp c : Dev nD) : Thread nD τ)))
    (k : (FVec F S128x2048 .f32) → (FVec F S128x128 .f32) → (FVec F S128x1024 .f32) → Prog (TpuEff nD τ sig (Elt F) Λ₀ .tc) PUnit)
    (Q : PUnit → sProp 𝕄) :
    iprop(rec5 m K c ∗ pre5 m c W f18 g19
        ∗ (post5 m c W f18 -∗ wp frame (wpE (defs₀ (F := F)) Variants.none c none) Set.univ
            (k (opVal0 m c) (k0_pay36 (qVal m c) (qrVal m c) (kVal m c) (vVal m c) (krT m c))
              (k0_pay37 (qVal m c) (qrVal m c) (kVal m c) (krT m c))) Q))
      ⊢ wp frame (wpE (defs₀ (F := F)) Variants.none c none) Set.univ
          (Seg5 c (w12 c) (qVal m c) (qrVal m c) (kVal m c) (vVal m c) (krT m c) (c0v254 m c) (c0v273 m c) (c0v292 m c)
            (c0v311 m c) (c0v330 m c) (c0v349 m c) (c0v358 m c) (w2 c) (w5 c) (w9 c) k) Q := by
  unfold rec5 pre5 post5
  unfold pts
  iintro ⟨⟨#HIos, #HIor, #Hros, #Hror, #Hlev⟩, ⟨Htoks, HO, Hw0, Hw1, Hq, ⟨%f17a, H17a⟩, ⟨%f17b, H17b⟩, H18, H19⟩, Hk⟩
  have hw0 : (levAts L lv : sProp 𝕄) ⊢ MayWait (c : Thread nD τ) (.dma wl0) () (O_or c) :=
    mayWait_wl c wl0 (.inl rfl) _ (fun g u h => by obtain ⟨d, k, hg, hk⟩ := O_or_pos h; exact ⟨d, k, hg, by omega⟩)
  have hw1 : (levAts L lv : sProp 𝕄) ⊢ MayWait (c : Thread nD τ) (.dma wl1) () (O_or c) :=
    mayWait_wl c wl1 (.inr rfl) _ (fun g u h => by obtain ⟨d, k, hg, hk⟩ := O_or_pos h; exact ⟨d, k, hg, by omega⟩)
  unfold Seg5

  ihave Hq2 := ((pointsTo_share (PosShare.mem_left_op_right fullShare)).1) $$ [Hq]
  · iexact Hq
  icases Hq2 with ⟨HqL, HqR⟩
  sl_exec_parts
  unfold seg5.sl.H18_1 seg5.sl.r_1

  have e408 : seg5.sl.v408 m c f17a = woLd0 m c := by
    unfold seg5.sl.v408 seg5.sl.dma0
    exact (wbuf_ld_O0 _ _).trans (woLd0_eq m c).symm
  have e418 : seg5.sl.v418 m c f17b = woLd1 m c := by
    unfold seg5.sl.v418 seg5.sl.dma0_1
    exact (wbuf_ld_O1 _ _).trans (woLd1_eq m c).symm
  have eH : k0_pay35 (seg5.sl.r m c) (seg5.sl.v408 m c f17a) (seg5.sl.v418 m c f17b) = opHalf m 0 c := by
    rw [e408, e418]; rfl
  have eV : k0_pay34 (seg5.sl.r m c) (seg5.sl.v408 m c f17a) (seg5.sl.v418 m c f17b) = opVal0 m c := by
    rw [e408, e418]; rfl
  rw [eH, eV]
  have hw : opSendW.view.writes (Elt F) f18
      [⟨Rect.unit (s := S2x128x2048) ![0, 0, 0] S1x128x2048.size inb_S2x128x2048_S1x128x2048_0_0_0, opHalf m 0 c⟩]
      = (opSendW.access (slot3R 0)).write (Elt F) f18 (opHalf m 0 c) Finset.univ := rfl
  rw [hw]

  ihave Hsl := ((slot3_split opSendW c fullShare _).1) $$ [H18]
  · iexact H18
  icases Hsl with ⟨Hs0, Hs1⟩
  ihave Hs0' := (Entails.of_eq (slot3_pts_store m opSendW 0 c fullShare f18 (opHalf m 0 c))) $$ [Hs0]
  · iexact Hs0
  ihave Hs1' := (Entails.of_eq (slot1_kept opSendW c fullShare f18 (opHalf m 0 c))) $$ [Hs1]
  · iexact Hs1
  unfold toks5
  icases Htoks with ⟨Htos, Htor⟩

  iapply (Rounds.wp_send_pointsTo Variants.none ER (sched m) (c : Thread nD τ) none
      (c' := ((zp c : Dev nD) : Thread nD τ)) (src := opSendM 0) (dst := opRecvM 0) (sS := csem (.os 0)) (sem := csem (.orr 0))
      (q := fullShare) (fs := slotBuf m (opSendM 0) c (sq3 (opHalf m 0 c))) (fd := g19)
      (r₁ := 0) (r₂ := 0) (d₁ := (0 : DN)) (d₂ := (0 : DN))
      (by rw [duties_os]; exact Finset.mem_singleton_self _) (by rw [duties_orr]; exact Finset.mem_singleton_self _)
      () () No rfl (amount_os m c 0 0) (amount_orr m (zp c) 0 0)
      (O_or1 c) rfl
      (Entails.of_eq (by rw [payload_os]; rfl))
      (Entails.of_eq (by rw [payload_orr_peer, orPay_eq]; exact land_op m c (zp c) 0 g19 (sq3 (opHalf m 0 c))))) $$ [Hs0' H19 HO Htos Htor]
  · isplitr; · iexact HIos
    isplitr; · iexact HIor
    isplitl [Hs0']; · iexact Hs0'
    isplitl [H19]; · iexact H19
    isplitl [HO]; · iexact HO
    isplitl [Htos]; · iexact Htos
    isplitr; · iexact Hros
    isplitl [Htor]; · iexact Htor
    iexact Hror
  iintro ⟨Hcs, HO⟩
  sl_exec_parts
  have e2 : seg5.sl.r_2 m c = k0_pay36 (qVal m c) (qrVal m c) (kVal m c) (vVal m c) (krT m c) := rfl
  have e3 : seg5.sl.r_3 m c = k0_pay37 (qVal m c) (qrVal m c) (kVal m c) (krT m c) := rfl
  rw [e2, e3]

  ihave Hq := ((pointsTo_share (PosShare.mem_left_op_right fullShare)).2) $$ [HqL HqR]
  · isplitl [HqL]; · iexact HqL
    iexact HqR
  iapply Hk
  isplitl [HO]; · iexists _; iexact HO
  isplitl [Hcs]; · iexact Hcs
  isplitl [Hw0]; · iexact Hw0
  isplitl [Hw1]; · iexact Hw1
  isplitl [Hq]; · iexact Hq
  isplitl [H17a]; · iexists _; iexact H17a
  isplitl [H17b]; · iexists _; iexact H17b
  iexact Hs1'

end Cert.KernelIdeal.Body

end
-- ==== Proof.BodyS6.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.Body0
import proofs.«900573_g7700000000000574_dist_mla_v7x_xyz2x2x2_z_b1_s1024_d2048_dc128_bf16_1_alg».proof.Proof.BodyGeom2
import proofs.«900573_g7700000000000574_dist_mla_v7x_xyz2x2x2_z_b1_s1024_d2048_dc128_bf16_1_alg».proof.Proof.BodyStreamVal

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

theorem opRecv0_spelt : ((opRecvW.slice (Rect.unit (s := S2x128x2048) ![0, 0, 0] S1x128x2048.size inb_S2x128x2048_S1x128x2048_0_0_0) (fun _ => rfl)).squeeze S128x2048 squeezes_S1x128x2048_S128x2048) = opRecvM 0 := rfl
theorem opRecv1_spelt : ((opRecvW.slice (Rect.unit (s := S2x128x2048) ![1, 0, 0] S1x128x2048.size inb_S2x128x2048_S1x128x2048_1_0_0) (fun _ => rfl)).squeeze S128x2048 squeezes_S1x128x2048_S128x2048) = opRecvM 1 := rfl
attribute [local sl_canon] opSend0_spelt opSend1_spelt opRecv0_spelt opRecv1_spelt

def c1v459 (m : (ℓ : Loc nD τ sig) → Buf (Elt F) ℓ) (c : Dev nD) : FVec F S128x128 .f32 := k0_pay36 (qVal m c) (qrVal m c) (kVal m c) (vVal m c) (krT m c)
def c1v469 (m : (ℓ : Loc nD τ sig) → Buf (Elt F) ℓ) (c : Dev nD) : FVec F S128x1024 .f32 := k0_pay37 (qVal m c) (qrVal m c) (kVal m c) (krT m c)
def rec6 (m : (ℓ : Loc nD τ sig) → Buf (Elt F) ℓ) (K : Dev nD × CK → ℕ) (c : Dev nD) : sProp 𝕄 :=
  iprop(cellInv ER (sched m) (K (c, CK.os 1)) (cell c (.os 1)) ∗ cellInv ER (sched m) (K (zp c, CK.orr 1)) (cell (zp c) (.orr 1))
    ∗ cellInv ER (sched m) (K (c, CK.orr 0)) (cell c (.orr 0))
    ∗ reached ER (cell c (.os 1)) 0 ∗ reached ER (cell (zp c) (.orr 1)) 0 ∗ levAts L lv)

def tok6 (c : Dev nD) : sProp 𝕄 :=
  iprop(dutyTok ER (cell c (.os 1)) 0 (0 : DN) ∗ dutyTok ER (cell (zp c) (.orr 1)) 0 (0 : DN))

def pre6 (m : (ℓ : Loc nD τ sig) → Buf (Elt F) ℓ) (c : Dev nD) : sProp 𝕄 :=
  iprop(tok6 (F := F) c
    ∗ (∃ W, owes (c : Thread nD τ) (O_or1 c) W)
    ∗ semVal ((c : Thread nD τ), SemLoc.dma wl0) 0 ∗ semVal ((c : Thread nD τ), SemLoc.dma wl1) 0
    ∗ (woW.view.loc (c : Thread nD τ) ↦[woW.view.set]{fullShare} m ((c : Thread nD τ).loc main_arg7))
    ∗ (∃ f, pts (wbufH 0) c fullShare f) ∗ (∃ f, pts (wbufH 1) c fullShare f)
    ∗ (∃ f, pts (opSendM 1) c fullShare f)
    ∗ (∃ g, pts (opRecvM 1) (zp c) fullShare g)
    ∗ atPos ER (cell c (.orr 0)) 0 (∅ : Finset DN) 0
    ∗ cred (tallyAt (cell c (.orr 0)) () No))

def post6 (m : (ℓ : Loc nD τ sig) → Buf (Elt F) ℓ) (c : Dev nD) : sProp 𝕄 :=
  iprop((∃ W', owes (c : Thread nD τ) (O_rr c) W')
    ∗ semVal ((c : Thread nD τ), SemLoc.dma wl0) 0 ∗ semVal ((c : Thread nD τ), SemLoc.dma wl1) 0
    ∗ (woW.view.loc (c : Thread nD τ) ↦[woW.view.set]{fullShare} m ((c : Thread nD τ).loc main_arg7))
    ∗ (∃ f, pts (wbufH 0) c fullShare f) ∗ (∃ f, pts (wbufH 1) c fullShare f)
    ∗ cred (tallyAt (cell c (.os 1)) () No)
    ∗ atPos ER (cell c (.orr 0)) 1 (∅ : Finset DN) 0
    ∗ pts (opRecvM 0) c fullShare (slotBuf m (opRecvM 0) c (sq3 (opHalf m 0 (zp c)))))

set_option sl_exec.stepHeartbeats 2000000 in
set_option maxHeartbeats 8000000 in

theorem seg6 (m : (ℓ : Loc nD τ sig) → Buf (Elt F) ℓ) (c : Dev nD) (K : Dev nD × CK → ℕ)
    (k : (FVec F S128x2048 .f32) → (FVec F S128x2048 .f32) → (BitVec 32) → Prog (TpuEff nD τ sig (Elt F) Λ₀ .tc) PUnit)
    (Q : PUnit → sProp 𝕄) :
    iprop(rec6 m K c ∗ pre6 m c
        ∗ (post6 m c -∗ wp frame (wpE (defs₀ (F := F)) Variants.none c none) Set.univ
            (k (opVal1 m c) (outRows0 m c) (Scalar.muli (bw c) 256#32)) Q))
      ⊢ wp frame (wpE (defs₀ (F := F)) Variants.none c none) Set.univ
          (Seg6 (qVal m c) (qrVal m c) (kVal m c) (vVal m c) (krT m c) (c1v469 m c) c (w12 c) (c1v459 m c) (w2 c) (w5 c) (w9 c) (bw c) (opVal0 m c) k) Q := by
  unfold rec6 pre6 post6
  unfold pts
  iintro ⟨⟨#HIos, #HIor, #HIo0, #Hros, #Hror, #Hlev⟩,
    ⟨Htok, ⟨%W, HO⟩, Hwl0, Hwl1, Hwo, ⟨%fa, H17a⟩, ⟨%fb, H17b⟩, ⟨%f18, H18⟩, ⟨%g19, H19⟩, Hpos, Hcr⟩, Hk⟩
  have hw0 : (levAts L lv : sProp 𝕄) ⊢ MayWait (c : Thread nD τ) (.dma wl0) () (O_rr c + tallyAt (cell (zp c) (.orr 1)) () No) :=
    mayWait_wl c wl0 (.inl rfl) _ (fun g u h => by obtain ⟨d, k, hg, hk⟩ := O_or1_pos h; exact ⟨d, k, hg, by omega⟩)
  have hw1 : (levAts L lv : sProp 𝕄) ⊢ MayWait (c : Thread nD τ) (.dma wl1) () (O_rr c + tallyAt (cell (zp c) (.orr 1)) () No) :=
    mayWait_wl c wl1 (.inr rfl) _ (fun g u h => by obtain ⟨d, k, hg, hk⟩ := O_or1_pos h; exact ⟨d, k, hg, by omega⟩)
  have hwo := mayWait_orr0 (F := F) c
  ihave Hq2 := ((pointsTo_share (PosShare.mem_left_op_right fullShare)).1) $$ [Hwo]
  · iexact Hwo
  icases Hq2 with ⟨HqL, HqR⟩
  unfold Seg6 O_or1
  sl_exec_parts
  have e9 : seg6.sl.r_9 m c = oChunk1 m c := rfl
  have e613 : seg6.sl.v613 m c fa = woLd0 m c := woLd0_run m c fa
  have e623 : seg6.sl.v623 m c fb = woLd1 m c := woLd1_run m c fb
  unfold seg6.sl.H18_w3 seg6.sl.r_10
  rw [e9, e613, e623]
  ihave H18' := (Entails.of_eq (slot3_pts_store m opSendW 1 c fullShare f18 (opHalf m 1 c))) $$ [H18]
  · iexact H18
  unfold tok6
  icases Htok with ⟨Htos, Htor⟩
  iapply (Rounds.wp_send_pointsTo Variants.none ER (sched m) (c : Thread nD τ) none
      (c' := ((zp c : Dev nD) : Thread nD τ)) (src := opSendM 1) (dst := opRecvM 1) (sS := csem (.os 1)) (sem := csem (.orr 1))
      (q := fullShare) (fs := slotBuf m (opSendM 1) c (sq3 (opHalf m 1 c))) (fd := g19) (r₁ := 0) (r₂ := 0) (d₁ := (0 : DN)) (d₂ := (0 : DN))
      (by rw [duties_os]; exact Finset.mem_singleton_self _) (by rw [duties_orr]; exact Finset.mem_singleton_self _)
      () () No rfl (amount_os m c 1 0) (amount_orr m (zp c) 1 0)
      (O_rr c) rfl
      (by rw [payload_os, osPay_eq])
      (by rw [payload_orr_peer, orPay_eq, read_slotBuf]; exact Entails.of_eq (pts_write_eq m (opRecvM 1) (zp c) fullShare g19 _))) $$ [H18' H19 HO Htos Htor]
  · isplitr; · iexact HIos
    isplitr; · iexact HIor
    isplitl [H18']; · iexact H18'
    isplitl [H19]; · iexact H19
    isplitl [HO]; · iexact HO
    isplitl [Htos]; · iexact Htos
    isplitr; · iexact Hros
    isplitl [Htor]; · iexact Htor
    iexact Hror
  iintro ⟨Hcs1, HO⟩
  sl_exec_parts
  have e11 : seg6.sl.r_11 m c = outRows0 m c :=
    congrArg (k0_pay51 (opVal0 m c)) (slot3_readAt m opRecvW 0 c (opHalf m 0 (zp c)))
  have e662 : seg6.sl.v662 c = Scalar.muli (bw c) 256#32 := rfl
  rw [e11, e662]
  iapply Hk
  isplitl [HO]; · iexists _; iexact HO
  isplitl [Hwl0]; · iexact Hwl0
  isplitl [Hwl1]; · iexact Hwl1
  isplitl [HqL HqR]
  · iapply ((pointsTo_share (PosShare.mem_left_op_right fullShare)).2)
    isplitl [HqL]; · iexact HqL
    iexact HqR
  isplitl [H17a]; · iexists _; iexact H17a
  isplitl [H17b]; · iexists _; iexact H17b
  isplitl [Hcs1]; · iexact Hcs1
  isplitl [Hpos]; · iexact Hpos
  iexact Hpos_pay1

end Cert.KernelIdeal.Body

end
-- ==== Proof.BodyS7.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.Body0
import proofs.«900573_g7700000000000574_dist_mla_v7x_xyz2x2x2_z_b1_s1024_d2048_dc128_bf16_1_alg».proof.Proof.BodyGeom
import proofs.«900573_g7700000000000574_dist_mla_v7x_xyz2x2x2_z_b1_s1024_d2048_dc128_bf16_1_alg».proof.Proof.Data

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

def rsInvs (K : Dev nD × CK → ℕ) (c : Dev nD) (j : Fin 2) : sProp 𝕄 :=
  iprop(cellInv ER (sched m) (K (c, CK.rs 0 j)) (cell c (.rs 0 j)) ∗ cellInv ER (sched m) (K (c, CK.rs 1 j)) (cell c (.rs 1 j))
    ∗ cellInv ER (sched m) (K (c, CK.rs 2 j)) (cell c (.rs 2 j)))

instance rsInvs_persistent (K : Dev nD × CK → ℕ) (c : Dev nD) (j : Fin 2) : BI.Persistent (rsInvs m K c j) := by
  unfold rsInvs; infer_instance

theorem rsInvs_0 (K : Dev nD × CK → ℕ) (c : Dev nD) (j : Fin 2) :
    rsInvs m K c j ⊢ cellInv ER (sched m) (K (c, CK.rs 0 j)) (cell c (.rs 0 j)) := by
  unfold rsInvs; iintro ⟨#H0, #H1, #H2⟩; iexact H0
theorem rsInvs_1 (K : Dev nD × CK → ℕ) (c : Dev nD) (j : Fin 2) :
    rsInvs m K c j ⊢ cellInv ER (sched m) (K (c, CK.rs 1 j)) (cell c (.rs 1 j)) := by
  unfold rsInvs; iintro ⟨#H0, #H1, #H2⟩; iexact H1
theorem rsInvs_2 (K : Dev nD × CK → ℕ) (c : Dev nD) (j : Fin 2) :
    rsInvs m K c j ⊢ cellInv ER (sched m) (K (c, CK.rs 2 j)) (cell c (.rs 2 j)) := by
  unfold rsInvs; iintro ⟨#H0, #H1, #H2⟩; iexact H2

def rec7 (K : Dev nD × CK → ℕ) (c : Dev nD) : sProp 𝕄 :=
  iprop(cellInv ER (sched m) (K (c, CK.xy)) (cell c .xy)
    ∗ rsInvs m K c 0
    ∗ cellInv ER (sched m) (K (p0 c, CK.rr (bIdx c) 0)) (cell (p0 c) (.rr (bIdx c) 0))
    ∗ cellInv ER (sched m) (K (p1 c, CK.rr (bIdx c) 0)) (cell (p1 c) (.rr (bIdx c) 0))
    ∗ cellInv ER (sched m) (K (p2 c, CK.rr (bIdx c) 0)) (cell (p2 c) (.rr (bIdx c) 0))
    ∗ reached ER (cell c (.rs 0 0)) 0 ∗ reached ER (cell c (.rs 1 0)) 0 ∗ reached ER (cell c (.rs 2 0)) 0
    ∗ reached ER (cell c .xy) 0
    ∗ levAts L lv)

def pre7 (c : Dev nD) (W : Waits sig Unit)
    (fo : Buf (Elt F) (outW.view.loc (c : Thread nD τ))) (fb : Buf (Elt F) (oblkW.view.loc (c : Thread nD τ))) : sProp 𝕄 :=
  iprop((outW.view.loc (c : Thread nD τ) ↦{fullShare} fo) ∗ (oblkW.view.loc (c : Thread nD τ) ↦{fullShare} fb)
    ∗ atPos ER (cell c .xy) 0 (∅ : Finset DN) 0 ∗ cred (tallyAt (cell c .xy) () 3)
    ∗ owes (c : Thread nD τ) (O_rr c) W
    ∗ dutyTok ER (cell c (.rs 0 0)) 0 (0 : DN) ∗ dutyTok ER (cell c (.rs 1 0)) 0 (0 : DN) ∗ dutyTok ER (cell c (.rs 2 0)) 0 (0 : DN)
    ∗ dutyTok ER (cell (p0 c) (.rr (bIdx c) 0)) 0 (0 : DN) ∗ dutyTok ER (cell (p1 c) (.rr (bIdx c) 0)) 0 (0 : DN)
    ∗ dutyTok ER (cell (p2 c) (.rr (bIdx c) 0)) 0 (0 : DN))

def post7 (c : Dev nD) (W : Waits sig Unit) (fo : Buf (Elt F) (outW.view.loc (c : Thread nD τ))) : sProp 𝕄 :=
  iprop((outW.view.loc (c : Thread nD τ) ↦{fullShare}
        outW.view.writes (Elt F) fo [⟨Rect.unit (s := S1x1024x2048) (k0_off7 c 0#32) S1x128x2048.size (k0_off7_inb c 0), ownRows m 0 c⟩])
    ∗ pts (oblkM 0) c (Transfers.shareDrop fullShare 3) (slotBuf m (oblkM 0) c (sq3 (oblkVal m 0 c)))
    ∗ (∃ f, pts (oblkM 1) c fullShare f)
    ∗ atPos ER (cell c .xy) 1 (∅ : Finset DN) 0
    ∗ (∃ f, pts (rblkM (bIdx c) 1) (p0 c) fullShare f) ∗ (∃ f, pts (rblkM (bIdx c) 1) (p1 c) fullShare f)
    ∗ (∃ f, pts (rblkM (bIdx c) 1) (p2 c) fullShare f)
    ∗ reached ER (cell (p0 c) (.rr (bIdx c) 1)) 0 ∗ reached ER (cell (p1 c) (.rr (bIdx c) 1)) 0
    ∗ reached ER (cell (p2 c) (.rr (bIdx c) 1)) 0
    ∗ cred (tallyAt (cell c (.rs 0 0)) () Nr) ∗ cred (tallyAt (cell c (.rs 1 0)) () Nr) ∗ cred (tallyAt (cell c (.rs 2 0)) () Nr)
    ∗ owes (c : Thread nD τ) (O_rr1 c) (insert (csem .xy, ()) W))

theorem duties_rr_p0 (c : Dev nD) (j : Fin 2) : (sched m).duties (cell (p0 c) (.rr (bIdx c) j)) 0 = {0} := duties_rr_peer m c 0 j
theorem duties_rr_p1 (c : Dev nD) (j : Fin 2) : (sched m).duties (cell (p1 c) (.rr (bIdx c) j)) 0 = {0} := duties_rr_peer m c 1 j
theorem duties_rr_p2 (c : Dev nD) (j : Fin 2) : (sched m).duties (cell (p2 c) (.rr (bIdx c) j)) 0 = {0} := duties_rr_peer m c 2 j
theorem payload_rr_p0 (c : Dev nD) (j : Fin 2) (d : DN) :
    (sched m).payload (cell (p0 c) (.rr (bIdx c) j)) 0 d = rrPay m (bIdx c) j (p0 c) c := payload_rr_peer m c 0 j d
theorem payload_rr_p1 (c : Dev nD) (j : Fin 2) (d : DN) :
    (sched m).payload (cell (p1 c) (.rr (bIdx c) j)) 0 d = rrPay m (bIdx c) j (p1 c) c := payload_rr_peer m c 1 j d
theorem payload_rr_p2 (c : Dev nD) (j : Fin 2) (d : DN) :
    (sched m).payload (cell (p2 c) (.rr (bIdx c) j)) 0 d = rrPay m (bIdx c) j (p2 c) c := payload_rr_peer m c 2 j d

@[sl_canon] theorem oblk0_spelt : ((oblkW.slice (Rect.unit (s := S2x128x2048) ![0, 0, 0] S1x128x2048.size inb_S2x128x2048_S1x128x2048_0_0_0) (fun _ => rfl)).squeeze S128x2048 squeezes_S1x128x2048_S128x2048) = oblkM 0 := rfl
@[sl_canon] theorem oblk1_spelt : ((oblkW.slice (Rect.unit (s := S2x128x2048) ![1, 0, 0] S1x128x2048.size inb_S2x128x2048_S1x128x2048_1_0_0) (fun _ => rfl)).squeeze S128x2048 squeezes_S1x128x2048_S128x2048) = oblkM 1 := rfl

theorem land_slot (c e : Dev nD) (s : Fin 4) (j : Fin 2) (M : Memref sig .tc .vmem S128x2048 .bf16)
    (fd : Buf (Elt F) ((rblkM s j).view.loc (e : Thread nD τ))) (w : Vec F S128x2048 .bf16) :
    (pts (rblkM s j) e fullShare ((rblkM s j).view.write (Elt F) fd (M.view.read (Elt F) (slotBuf m M c w)) Finset.univ) : sProp 𝕄)
      = pts (rblkM s j) e fullShare (slotBuf m (rblkM s j) e w) := by
  rw [pts_write_eq m, read_slotBuf]

set_option maxHeartbeats 4000000 in
theorem seg7 (c : Dev nD) (K : Dev nD × CK → ℕ) (W : Waits sig Unit)
    (v2 v5 v8 v13 v14 v662 v9 v15 v16 : BitVec 32)
    (fo : Buf (Elt F) (outW.view.loc (c : Thread nD τ))) (fb : Buf (Elt F) (oblkW.view.loc (c : Thread nD τ)))
    (k : Prog (TpuEff nD τ sig (Elt F) Λ₀ .tc) PUnit)
    (Q : PUnit → sProp 𝕄) :
    iprop(rec7 m K c ∗ pre7 c W fo fb
        ∗ (post7 m c W fo -∗ wp frame (wpE (defs₀ (F := F)) Variants.none c none) Set.univ k Q))
      ⊢ wp frame (wpE (defs₀ (F := F)) Variants.none c none) Set.univ
          (Seg7 c v2 v5 v8 v13 v14 (outRows0 m c) v662 v9 v15 v16 k) Q := by
  unfold rec7 pre7
  iintro ⟨⟨#HIxy, #HIrs, #HIr0, #HIr1, #HIr2, #Hrs0, #Hrs1, #Hrs2, #Hrxy, #Hlev⟩,
    ⟨Hout, Hob, Hat, Hc, HO, Hts0, Hts1, Hts2, Htr0, Htr1, Htr2⟩, Hk⟩
  have hmw := mayWait_xy (F := F) c
  unfold Seg7
  sl_exec
  rw [show k0_pay53 (outRows0 m c) = oblkVal m 0 c from rfl, show k0_pay52 (outRows0 m c) = ownRows m 0 c from rfl]
  have hw : oblkW.view.writes (Elt F) fb
      [⟨Rect.unit (s := S2x128x2048) ![0, 0, 0] S1x128x2048.size inb_S2x128x2048_S1x128x2048_0_0_0, oblkVal m 0 c⟩]
      = (oblkW.access (slot3R 0)).write (Elt F) fb (oblkVal m 0 c) Finset.univ := rfl
  rw [hw]

  ihave Hp := (Entails.of_eq (bs3_eq (M := 𝕄) _)) $$ Hat_pay1
  icases Hp with ⟨⟨⟨%g00, Hd00⟩, ⟨%g01, Hd01⟩, #Hq00, #Hq01⟩, ⟨⟨%g10, Hd10⟩, ⟨%g11, Hd11⟩, #Hq10, #Hq11⟩, ⟨%g20, Hd20⟩, ⟨%g21, Hd21⟩, #Hq20, #Hq21⟩

  ihave Hob' := (Entails.of_eq (whole_pts_eq (F := F) cc0_scratch6 c fullShare _).symm) $$ Hob
  ihave Hsl := (slot3_split oblkW c fullShare _).1 $$ Hob'
  icases Hsl with ⟨Hs0, Hs1⟩
  ihave Hs0' := (Entails.of_eq (slot3_pts_store m oblkW 0 c fullShare fb (oblkVal m 0 c))) $$ Hs0
  ihave Ht := (pts_toks3 (oblkM 0) c fullShare _).1 $$ Hs0'
  icases Ht with ⟨Hkeep, Hk0, Hk1, Hk2⟩
  unfold O_rr

  ihave #HIs0 := (rsInvs_0 m K c 0) $$ HIrs
  iapply (Rounds.wp_send_pointsTo Variants.none ER (sched m) (c : Thread nD τ) none
      (c' := ((p0 c : Dev nD) : Thread nD τ)) (src := oblkM 0) (dst := rblkM (bIdx c) 0)
      (sS := csem (.rs 0 0)) (sem := csem (.rr (bIdx c) 0))
      (q := Transfers.shareTokN fullShare 0) (fs := slotBuf m (oblkM 0) c (sq3 (oblkVal m 0 c))) (fd := g00)
      (r₁ := 0) (r₂ := 0) (d₁ := (0 : DN)) (d₂ := (0 : DN))
      (by rw [duties_rs]; exact Finset.mem_singleton_self _) (by rw [duties_rr_p0]; exact Finset.mem_singleton_self _)
      () () Nr rfl (amount_rs m c 0 0 0) (amount_rr m (p0 c) (bIdx c) 0 0)
      (O_rr1 c + tallyAt (cell (p2 c) (.rr (bIdx c) 0)) () Nr + tallyAt (cell (p1 c) (.rr (bIdx c) 0)) () Nr) rfl
      (Entails.of_eq (by rw [payload_rs]; rfl))
      (Entails.of_eq (by rw [payload_rr_p0, rrPay_eq]; exact land_slot m c (p0 c) (bIdx c) 0 (oblkM 0) g00 (sq3 (oblkVal m 0 c))))) $$ [Hk0 Hd00 HO Hts0 Htr0]
  · isplitr; · iexact HIs0
    isplitr; · iexact HIr0
    isplitl [Hk0]; · iexact Hk0
    isplitl [Hd00]; · iexact Hd00
    isplitl [HO]; · iexact HO
    isplitl [Hts0]; · iexact Hts0
    isplitr; · iexact Hrs0
    isplitl [Htr0]; · iexact Htr0
    iexact Hq00
  iintro ⟨Hcs0, HO⟩
  sl_exec

  ihave #HIs1 := (rsInvs_1 m K c 0) $$ HIrs
  iapply (Rounds.wp_send_pointsTo Variants.none ER (sched m) (c : Thread nD τ) none
      (c' := ((p1 c : Dev nD) : Thread nD τ)) (src := oblkM 0) (dst := rblkM (bIdx c) 0)
      (sS := csem (.rs 1 0)) (sem := csem (.rr (bIdx c) 0))
      (q := Transfers.shareTokN fullShare 1) (fs := slotBuf m (oblkM 0) c (sq3 (oblkVal m 0 c))) (fd := g10)
      (r₁ := 0) (r₂ := 0) (d₁ := (0 : DN)) (d₂ := (0 : DN))
      (by rw [duties_rs]; exact Finset.mem_singleton_self _) (by rw [duties_rr_p1]; exact Finset.mem_singleton_self _)
      () () Nr rfl (amount_rs m c 1 0 0) (amount_rr m (p1 c) (bIdx c) 0 0)
      (O_rr1 c + tallyAt (cell (p2 c) (.rr (bIdx c) 0)) () Nr) rfl
      (Entails.of_eq (by rw [payload_rs]; rfl))
      (Entails.of_eq (by rw [payload_rr_p1, rrPay_eq]; exact land_slot m c (p1 c) (bIdx c) 0 (oblkM 0) g10 (sq3 (oblkVal m 0 c))))) $$ [Hk1 Hd10 HO Hts1 Htr1]
  · isplitr; · iexact HIs1
    isplitr; · iexact HIr1
    isplitl [Hk1]; · iexact Hk1
    isplitl [Hd10]; · iexact Hd10
    isplitl [HO]; · iexact HO
    isplitl [Hts1]; · iexact Hts1
    isplitr; · iexact Hrs1
    isplitl [Htr1]; · iexact Htr1
    iexact Hq10
  iintro ⟨Hcs1, HO⟩
  sl_exec

  ihave #HIs2 := (rsInvs_2 m K c 0) $$ HIrs
  iapply (Rounds.wp_send_pointsTo Variants.none ER (sched m) (c : Thread nD τ) none
      (c' := ((p2 c : Dev nD) : Thread nD τ)) (src := oblkM 0) (dst := rblkM (bIdx c) 0)
      (sS := csem (.rs 2 0)) (sem := csem (.rr (bIdx c) 0))
      (q := Transfers.shareTokN fullShare 2) (fs := slotBuf m (oblkM 0) c (sq3 (oblkVal m 0 c))) (fd := g20)
      (r₁ := 0) (r₂ := 0) (d₁ := (0 : DN)) (d₂ := (0 : DN))
      (by rw [duties_rs]; exact Finset.mem_singleton_self _) (by rw [duties_rr_p2]; exact Finset.mem_singleton_self _)
      () () Nr rfl (amount_rs m c 2 0 0) (amount_rr m (p2 c) (bIdx c) 0 0)
      (O_rr1 c) rfl
      (Entails.of_eq (by rw [payload_rs]; rfl))
      (Entails.of_eq (by rw [payload_rr_p2, rrPay_eq]; exact land_slot m c (p2 c) (bIdx c) 0 (oblkM 0) g20 (sq3 (oblkVal m 0 c))))) $$ [Hk2 Hd20 HO Hts2 Htr2]
  · isplitr; · iexact HIs2
    isplitr; · iexact HIr2
    isplitl [Hk2]; · iexact Hk2
    isplitl [Hd20]; · iexact Hd20
    isplitl [HO]; · iexact HO
    isplitl [Hts2]; · iexact Hts2
    isplitr; · iexact Hrs2
    isplitl [Htr2]; · iexact Htr2
    iexact Hq20
  iintro ⟨Hcs2, HO⟩
  sl_exec
  iapply Hk
  unfold post7
  isplitl [Hout]; · iexact Hout
  isplitl [Hkeep]; · iexact Hkeep
  isplitl [Hs1]; · iexists _; iexact Hs1
  isplitl [Hat]; · iexact Hat
  isplitl [Hd01]; · iexists g01; iexact Hd01
  isplitl [Hd11]; · iexists g11; iexact Hd11
  isplitl [Hd21]; · iexists g21; iexact Hd21
  isplitr; · iexact Hq01
  isplitr; · iexact Hq11
  isplitr; · iexact Hq21
  isplitl [Hcs0]; · iexact Hcs0
  isplitl [Hcs1]; · iexact Hcs1
  isplitl [Hcs2]; · iexact Hcs2
  iexact HO

end Cert.KernelIdeal.Body

end
-- ==== Proof.BodyS8.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.Body0
import proofs.«900573_g7700000000000574_dist_mla_v7x_xyz2x2x2_z_b1_s1024_d2048_dc128_bf16_1_alg».proof.Proof.BodyGeom
import proofs.«900573_g7700000000000574_dist_mla_v7x_xyz2x2x2_z_b1_s1024_d2048_dc128_bf16_1_alg».proof.Proof.Data
import proofs.«900573_g7700000000000574_dist_mla_v7x_xyz2x2x2_z_b1_s1024_d2048_dc128_bf16_1_alg».proof.Proof.BodyS7

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

def rec8 (K : Dev nD × CK → ℕ) (c : Dev nD) : sProp 𝕄 :=
  iprop(cellInv ER (sched m) (K (c, CK.orr 1)) (cell c (.orr 1))
    ∗ rsInvs m K c 1
    ∗ cellInv ER (sched m) (K (p0 c, CK.rr (bIdx c) 1)) (cell (p0 c) (.rr (bIdx c) 1))
    ∗ cellInv ER (sched m) (K (p1 c, CK.rr (bIdx c) 1)) (cell (p1 c) (.rr (bIdx c) 1))
    ∗ cellInv ER (sched m) (K (p2 c, CK.rr (bIdx c) 1)) (cell (p2 c) (.rr (bIdx c) 1))
    ∗ reached ER (cell c (.rs 0 1)) 0 ∗ reached ER (cell c (.rs 1 1)) 0 ∗ reached ER (cell c (.rs 2 1)) 0
    ∗ reached ER (cell (p0 c) (.rr (bIdx c) 1)) 0 ∗ reached ER (cell (p1 c) (.rr (bIdx c) 1)) 0
    ∗ reached ER (cell (p2 c) (.rr (bIdx c) 1)) 0
    ∗ levAts L lv)

def pre8 (c : Dev nD) (W : Waits sig Unit) (fo : Buf (Elt F) (outW.view.loc (c : Thread nD τ))) : sProp 𝕄 :=
  iprop((outW.view.loc (c : Thread nD τ) ↦{fullShare} fo) ∗ (∃ f, pts (oblkM 1) c fullShare f)
    ∗ atPos ER (cell c (.orr 1)) 0 (∅ : Finset DN) 0 ∗ cred (tallyAt (cell c (.orr 1)) () No)
    ∗ owes (c : Thread nD τ) (O_rr1 c) W
    ∗ dutyTok ER (cell c (.rs 0 1)) 0 (0 : DN) ∗ dutyTok ER (cell c (.rs 1 1)) 0 (0 : DN) ∗ dutyTok ER (cell c (.rs 2 1)) 0 (0 : DN)
    ∗ dutyTok ER (cell (p0 c) (.rr (bIdx c) 1)) 0 (0 : DN) ∗ dutyTok ER (cell (p1 c) (.rr (bIdx c) 1)) 0 (0 : DN)
    ∗ dutyTok ER (cell (p2 c) (.rr (bIdx c) 1)) 0 (0 : DN)
    ∗ (∃ f, pts (rblkM (bIdx c) 1) (p0 c) fullShare f) ∗ (∃ f, pts (rblkM (bIdx c) 1) (p1 c) fullShare f)
    ∗ (∃ f, pts (rblkM (bIdx c) 1) (p2 c) fullShare f))

def post8 (c : Dev nD) (W : Waits sig Unit) (fo : Buf (Elt F) (outW.view.loc (c : Thread nD τ))) : sProp 𝕄 :=
  iprop((outW.view.loc (c : Thread nD τ) ↦{fullShare}
        outW.view.writes (Elt F) fo [⟨Rect.unit (s := S1x1024x2048) (k0_off7 c 128#32) S1x128x2048.size (k0_off7_inb c 1), ownRows m 1 c⟩])
    ∗ pts (oblkM 1) c (Transfers.shareDrop fullShare 3) (slotBuf m (oblkM 1) c (sq3 (oblkVal m 1 c)))
    ∗ pts (opRecvM 1) c fullShare (slotBuf m (opRecvM 1) c (sq3 (opHalf m 1 (zp c))))
    ∗ atPos ER (cell c (.orr 1)) 1 (∅ : Finset DN) 0
    ∗ cred (tallyAt (cell c (.rs 0 1)) () Nr) ∗ cred (tallyAt (cell c (.rs 1 1)) () Nr) ∗ cred (tallyAt (cell c (.rs 2 1)) () Nr)
    ∗ owes (c : Thread nD τ) 0 (insert (csem (.orr 1), ()) W))

set_option maxHeartbeats 4000000 in
theorem seg8 (c : Dev nD) (K : Dev nD × CK → ℕ) (W : Waits sig Unit)
    (v2 v8 v11 v13 v5 v14 v15 v16 : BitVec 32)
    (fo : Buf (Elt F) (outW.view.loc (c : Thread nD τ)))
    (k : (BitVec 32) → Prog (TpuEff nD τ sig (Elt F) Λ₀ .tc) PUnit)
    (Q : PUnit → sProp 𝕄) :
    iprop(rec8 m K c ∗ pre8 c W fo
        ∗ (post8 m c W fo -∗ wp frame (wpE (defs₀ (F := F)) Variants.none c none) Set.univ (k 0#32) Q))
      ⊢ wp frame (wpE (defs₀ (F := F)) Variants.none c none) Set.univ
          (Seg8 c v2 v8 v11 v13 (opVal1 m c) v5 v14 v15 v16 k) Q := by
  unfold rec8 pre8
  iintro ⟨⟨#HIo, #HIrs, #HIr0, #HIr1, #HIr2, #Hrs0, #Hrs1, #Hrs2, #Hq0, #Hq1, #Hq2, #Hlev⟩,
    ⟨Hout, ⟨%f1, Hob1⟩, Hat, Hcr, HO, Hts0, Hts1, Hts2, Htr0, Htr1, Htr2, ⟨%g0, Hd0⟩, ⟨%g1, Hd1⟩, ⟨%g2, Hd2⟩⟩, Hk⟩
  have hmw := mayWait_orr1 (F := F) c
  unfold Seg8
  sl_exec
  have hrd : View.readAt (Elt F) (Memref.whole cc0_scratch10 : Memref sig .tc .vmem S2x128x2048 .bf16).view
      (Rect.unit (s := S2x128x2048) ![1, 0, 0] S1x128x2048.size inb_S2x128x2048_S1x128x2048_1_0_0).toLoadRect
      (slotBuf m (opRecvM 1) c (sq3 (opHalf m 1 (zp c)))) = opHalf m 1 (zp c) := slot3_readAt m opRecvW 1 c _
  unfold seg8.sl.Hob1_w1
  rw [hrd, show k0_pay56 (opVal1 m c) (opHalf m 1 (zp c)) = oblkVal m 1 c from rfl,
    show k0_pay55 (opVal1 m c) (opHalf m 1 (zp c)) = ownRows m 1 c from rfl, sem_or1]

  have hw : View.write (Elt F) ((Memref.whole cc0_scratch6 : Memref sig .tc .vmem S2x128x2048 .bf16).access
        (Rect.unit (s := S2x128x2048) ![1, 0, 0] S1x128x2048.size inb_S2x128x2048_S1x128x2048_1_0_0)) f1 (oblkVal m 1 c) Finset.univ
      = View.write (Elt F) (oblkW.access (slot3R 1)) f1 (oblkVal m 1 c) Finset.univ := rfl
  rw [hw]
  ihave Hs1' := (Entails.of_eq (slot3_pts_store m oblkW 1 c fullShare f1 (oblkVal m 1 c))) $$ Hob1
  ihave Ht := (pts_toks3 (oblkM 1) c fullShare _).1 $$ Hs1'
  icases Ht with ⟨Hkeep, Hk0, Hk1, Hk2⟩
  unfold O_rr1

  ihave #HIs0 := (rsInvs_0 m K c 1) $$ HIrs
  iapply (Rounds.wp_send_pointsTo Variants.none ER (sched m) (c : Thread nD τ) none
      (c' := ((p0 c : Dev nD) : Thread nD τ)) (src := oblkM 1) (dst := rblkM (bIdx c) 1)
      (sS := csem (.rs 0 1)) (sem := csem (.rr (bIdx c) 1))
      (q := Transfers.shareTokN fullShare 0) (fs := slotBuf m (oblkM 1) c (sq3 (oblkVal m 1 c))) (fd := g0)
      (r₁ := 0) (r₂ := 0) (d₁ := (0 : DN)) (d₂ := (0 : DN))
      (by rw [duties_rs]; exact Finset.mem_singleton_self _) (by rw [duties_rr_p0]; exact Finset.mem_singleton_self _)
      () () Nr rfl (amount_rs m c 0 1 0) (amount_rr m (p0 c) (bIdx c) 1 0)
      (tallyAt (cell (p2 c) (.rr (bIdx c) 1)) () Nr + tallyAt (cell (p1 c) (.rr (bIdx c) 1)) () Nr) rfl
      (Entails.of_eq (by rw [payload_rs]; rfl))
      (Entails.of_eq (by rw [payload_rr_p0, rrPay_eq]; exact land_slot m c (p0 c) (bIdx c) 1 (oblkM 1) g0 (sq3 (oblkVal m 1 c))))) $$ [Hk0 Hd0 HO Hts0 Htr0]
  · isplitr; · iexact HIs0
    isplitr; · iexact HIr0
    isplitl [Hk0]; · iexact Hk0
    isplitl [Hd0]; · iexact Hd0
    isplitl [HO]; · iexact HO
    isplitl [Hts0]; · iexact Hts0
    isplitr; · iexact Hrs0
    isplitl [Htr0]; · iexact Htr0
    iexact Hq0
  iintro ⟨Hcs0, HO⟩
  sl_exec

  ihave #HIs1 := (rsInvs_1 m K c 1) $$ HIrs
  iapply (Rounds.wp_send_pointsTo Variants.none ER (sched m) (c : Thread nD τ) none
      (c' := ((p1 c : Dev nD) : Thread nD τ)) (src := oblkM 1) (dst := rblkM (bIdx c) 1)
      (sS := csem (.rs 1 1)) (sem := csem (.rr (bIdx c) 1))
      (q := Transfers.shareTokN fullShare 1) (fs := slotBuf m (oblkM 1) c (sq3 (oblkVal m 1 c))) (fd := g1)
      (r₁ := 0) (r₂ := 0) (d₁ := (0 : DN)) (d₂ := (0 : DN))
      (by rw [duties_rs]; exact Finset.mem_singleton_self _) (by rw [duties_rr_p1]; exact Finset.mem_singleton_self _)
      () () Nr rfl (amount_rs m c 1 1 0) (amount_rr m (p1 c) (bIdx c) 1 0)
      (tallyAt (cell (p2 c) (.rr (bIdx c) 1)) () Nr) rfl
      (Entails.of_eq (by rw [payload_rs]; rfl))
      (Entails.of_eq (by rw [payload_rr_p1, rrPay_eq]; exact land_slot m c (p1 c) (bIdx c) 1 (oblkM 1) g1 (sq3 (oblkVal m 1 c))))) $$ [Hk1 Hd1 HO Hts1 Htr1]
  · isplitr; · iexact HIs1
    isplitr; · iexact HIr1
    isplitl [Hk1]; · iexact Hk1
    isplitl [Hd1]; · iexact Hd1
    isplitl [HO]; · iexact HO
    isplitl [Hts1]; · iexact Hts1
    isplitr; · iexact Hrs1
    isplitl [Htr1]; · iexact Htr1
    iexact Hq1
  iintro ⟨Hcs1, HO⟩
  sl_exec

  ihave #HIs2 := (rsInvs_2 m K c 1) $$ HIrs
  iapply (Rounds.wp_send_pointsTo Variants.none ER (sched m) (c : Thread nD τ) none
      (c' := ((p2 c : Dev nD) : Thread nD τ)) (src := oblkM 1) (dst := rblkM (bIdx c) 1)
      (sS := csem (.rs 2 1)) (sem := csem (.rr (bIdx c) 1))
      (q := Transfers.shareTokN fullShare 2) (fs := slotBuf m (oblkM 1) c (sq3 (oblkVal m 1 c))) (fd := g2)
      (r₁ := 0) (r₂ := 0) (d₁ := (0 : DN)) (d₂ := (0 : DN))
      (by rw [duties_rs]; exact Finset.mem_singleton_self _) (by rw [duties_rr_p2]; exact Finset.mem_singleton_self _)
      () () Nr rfl (amount_rs m c 2 1 0) (amount_rr m (p2 c) (bIdx c) 1 0)
      (0) (zero_add _).symm
      (Entails.of_eq (by rw [payload_rs]; rfl))
      (Entails.of_eq (by rw [payload_rr_p2, rrPay_eq]; exact land_slot m c (p2 c) (bIdx c) 1 (oblkM 1) g2 (sq3 (oblkVal m 1 c))))) $$ [Hk2 Hd2 HO Hts2 Htr2]
  · isplitr; · iexact HIs2
    isplitr; · iexact HIr2
    isplitl [Hk2]; · iexact Hk2
    isplitl [Hd2]; · iexact Hd2
    isplitl [HO]; · iexact HO
    isplitl [Hts2]; · iexact Hts2
    isplitr; · iexact Hrs2
    isplitl [Htr2]; · iexact Htr2
    iexact Hq2
  iintro ⟨Hcs2, HO⟩
  sl_exec
  iapply Hk
  unfold post8
  isplitl [Hout]; · iexact Hout
  isplitl [Hkeep]; · iexact Hkeep
  isplitl [Hat_pay1]; · iexact Hat_pay1
  isplitl [Hat]; · iexact Hat
  isplitl [Hcs0]; · iexact Hcs0
  isplitl [Hcs1]; · iexact Hcs1
  isplitl [Hcs2]; · iexact Hcs2
  iexact HO

end Cert.KernelIdeal.Body

end
-- ==== Proof.BodyS10.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.Body0
import proofs.«900573_g7700000000000574_dist_mla_v7x_xyz2x2x2_z_b1_s1024_d2048_dc128_bf16_1_alg».proof.Proof.BodyGeom
import proofs.«900573_g7700000000000574_dist_mla_v7x_xyz2x2x2_z_b1_s1024_d2048_dc128_bf16_1_alg».proof.Proof.Data

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in

theorem any_join {ℓ : Loc nD τ sig} {I J : Finset (Idx ℓ)} (h : Disjoint I J) (q : PosShare TreeShare) :
    (iprop((∃ f : Buf (Elt F) ℓ, ℓ ↦[I]{q} f) ∗ (∃ g : Buf (Elt F) ℓ, ℓ ↦[J]{q} g)) : sProp 𝕄) ⊢ iprop(∃ f : Buf (Elt F) ℓ, ℓ ↦[I ∪ J]{q} f) := by
  iintro ⟨⟨%f, Hf⟩, ⟨%g, Hg⟩⟩
  iexists (J.piecewise g f)
  iapply (BI.Region.is_join h)
  isplitl [Hf]; · iexact Hf
  iexact Hg

omit [FloatOps F] in
theorem slot3_any_join (W : Memref sig .tc .vmem S2x128x2048 .bf16) (c : Dev nD) :
    (iprop((∃ f, pts (slot3 W 0) c fullShare f) ∗ (∃ f, pts (slot3 W 1) c fullShare f)) : sProp 𝕄) ⊢ iprop(∃ f, pts W c fullShare f) := by
  have hd : Disjoint (slot3 W 0).view.set (slot3 W 1).view.set := by
    rw [slot3_set_map, slot3_set_map]; exact (Finset.disjoint_map _).mpr slot3R_disjoint
  have hu : W.view.set = (slot3 W 0).view.set ∪ (slot3 W 1).view.set := by
    rw [slot3_set_map, slot3_set_map, ← Finset.map_union, slot3R_cover]; rfl
  unfold pts
  rw [hu]
  exact any_join hd fullShare

set_option maxHeartbeats 3200000 in
omit [FloatOps F] in

theorem rblk_any_join (c : Dev nD) :
    (iprop((∃ f, pts (rblkM 0 0) c fullShare f) ∗ (∃ f, pts (rblkM 0 1) c fullShare f) ∗ (∃ f, pts (rblkM 1 0) c fullShare f) ∗ (∃ f, pts (rblkM 1 1) c fullShare f)
      ∗ (∃ f, pts (rblkM 2 0) c fullShare f) ∗ (∃ f, pts (rblkM 2 1) c fullShare f) ∗ (∃ f, pts (rblkM 3 0) c fullShare f) ∗ (∃ f, pts (rblkM 3 1) c fullShare f)) : sProp 𝕄)
      ⊢ iprop(∃ f, pts rblkW c fullShare f) := by
  have d := fun (s s' : Fin 4) (j j' : Fin 2) (h : s ≠ s' ∨ j ≠ j') => rblkM_disjoint s s' j j' h
  unfold pts
  rw [rblkW_set]
  iintro ⟨H00, H01, H10, H11, H20, H21, H30, H31⟩
  iapply (any_join (Finset.disjoint_union_right.mpr ⟨d 0 0 0 1 (by decide), Finset.disjoint_union_right.mpr ⟨d 0 1 0 0 (by decide),
      Finset.disjoint_union_right.mpr ⟨d 0 1 0 1 (by decide), Finset.disjoint_union_right.mpr ⟨d 0 2 0 0 (by decide),
      Finset.disjoint_union_right.mpr ⟨d 0 2 0 1 (by decide),
      Finset.disjoint_union_right.mpr ⟨d 0 3 0 0 (by decide), d 0 3 0 1 (by decide)⟩⟩⟩⟩⟩⟩) fullShare)
  isplitl [H00]; · iexact H00
  iapply (any_join (Finset.disjoint_union_right.mpr ⟨d 0 1 1 0 (by decide), Finset.disjoint_union_right.mpr ⟨d 0 1 1 1 (by decide),
      Finset.disjoint_union_right.mpr ⟨d 0 2 1 0 (by decide), Finset.disjoint_union_right.mpr ⟨d 0 2 1 1 (by decide),
      Finset.disjoint_union_right.mpr ⟨d 0 3 1 0 (by decide), d 0 3 1 1 (by decide)⟩⟩⟩⟩⟩) fullShare)
  isplitl [H01]; · iexact H01
  iapply (any_join (Finset.disjoint_union_right.mpr ⟨d 1 1 0 1 (by decide), Finset.disjoint_union_right.mpr ⟨d 1 2 0 0 (by decide),
      Finset.disjoint_union_right.mpr ⟨d 1 2 0 1 (by decide),
      Finset.disjoint_union_right.mpr ⟨d 1 3 0 0 (by decide), d 1 3 0 1 (by decide)⟩⟩⟩⟩) fullShare)
  isplitl [H10]; · iexact H10
  iapply (any_join (Finset.disjoint_union_right.mpr ⟨d 1 2 1 0 (by decide), Finset.disjoint_union_right.mpr ⟨d 1 2 1 1 (by decide),
      Finset.disjoint_union_right.mpr ⟨d 1 3 1 0 (by decide), d 1 3 1 1 (by decide)⟩⟩⟩) fullShare)
  isplitl [H11]; · iexact H11
  iapply (any_join (Finset.disjoint_union_right.mpr ⟨d 2 2 0 1 (by decide),
      Finset.disjoint_union_right.mpr ⟨d 2 3 0 0 (by decide), d 2 3 0 1 (by decide)⟩⟩) fullShare)
  isplitl [H20]; · iexact H20
  iapply (any_join (Finset.disjoint_union_right.mpr ⟨d 2 3 1 0 (by decide), d 2 3 1 1 (by decide)⟩) fullShare)
  isplitl [H21]; · iexact H21
  iapply (any_join (d 3 3 0 1 (by decide)) fullShare)
  isplitl [H30]; · iexact H30
  iexact H31

def rrRound (c : Dev nD) (s : Fin 4) : ℕ := if s = bIdx c then 0 else 1

theorem rr_no_duty (c : Dev nD) (s : Fin 4) (j : Fin 2) : ∀ r, rrRound c s ≤ r → (sched m).duties (cell c (.rr s j)) r = ∅ := by
  intro r hr
  by_cases hs : s = bIdx c
  · rcases Nat.eq_zero_or_pos r with h0 | h
    · rw [h0, hs]; exact duties_rr_own m c j
    · exact duties_later m _ r h
  · unfold rrRound at hr; rw [if_neg hs] at hr; exact duties_later m _ r hr

theorem close_cell (K : Dev nD × CK → ℕ) (c : Dev nD) (k : CK) (R : ℕ) (hR : ∀ r, R ≤ r → (sched m).duties (cell c k) r = ∅) :
    iprop(records m K ∗ atPos ER (cell c k) R (∅ : Finset DN) 0) ⊢ (iprop(|={Set.univ}=> semVal (cell c k) 0) : sProp 𝕄) := by
  iintro ⟨#Hrec, Hat⟩
  ihave #HI := (inv_at m K c k) $$ Hrec
  iapply (cell_close ER (sched m) (g := cell c k) (Set.mem_univ (K (c, k))) (fun h => h) (R := R) hR)
  isplitr; · iexact HI
  iexact Hat

def pre10 (c : Dev nD) (W : Waits sig Unit) : sProp 𝕄 :=
  iprop(owes (c : Thread nD τ) 0 W
    ∗ cred (tallyAt (cell c (.rs 0 0)) () Nr) ∗ cred (tallyAt (cell c (.rs 1 0)) () Nr) ∗ cred (tallyAt (cell c (.rs 2 0)) () Nr)
    ∗ cred (tallyAt (cell c (.rs 0 1)) () Nr) ∗ cred (tallyAt (cell c (.rs 1 1)) () Nr) ∗ cred (tallyAt (cell c (.rs 2 1)) () Nr)
    ∗ cred (tallyAt (cell c (.os 0)) () No) ∗ cred (tallyAt (cell c (.os 1)) () No)
    ∗ atPos ER (cell c (.rs 0 0)) 0 (∅ : Finset DN) 0 ∗ atPos ER (cell c (.rs 1 0)) 0 (∅ : Finset DN) 0 ∗ atPos ER (cell c (.rs 2 0)) 0 (∅ : Finset DN) 0
    ∗ atPos ER (cell c (.rs 0 1)) 0 (∅ : Finset DN) 0 ∗ atPos ER (cell c (.rs 1 1)) 0 (∅ : Finset DN) 0 ∗ atPos ER (cell c (.rs 2 1)) 0 (∅ : Finset DN) 0
    ∗ atPos ER (cell c (.os 0)) 0 (∅ : Finset DN) 0 ∗ atPos ER (cell c (.os 1)) 0 (∅ : Finset DN) 0
    ∗ atPos ER (cell c .xy) 1 (∅ : Finset DN) 0
    ∗ atPos ER (cell c (.zs 0)) 1 (∅ : Finset DN) 0 ∗ atPos ER (cell c (.zs 1)) 1 (∅ : Finset DN) 0 ∗ atPos ER (cell c (.zs 2)) 1 (∅ : Finset DN) 0
    ∗ atPos ER (cell c (.zr 0)) 1 (∅ : Finset DN) 0 ∗ atPos ER (cell c (.zr 1)) 1 (∅ : Finset DN) 0 ∗ atPos ER (cell c (.zr 2)) 1 (∅ : Finset DN) 0
    ∗ atPos ER (cell c (.orr 0)) 1 (∅ : Finset DN) 0 ∗ atPos ER (cell c (.orr 1)) 1 (∅ : Finset DN) 0
    ∗ atPos ER (cell c (.rr 0 0)) (rrRound c 0) (∅ : Finset DN) 0 ∗ atPos ER (cell c (.rr 0 1)) (rrRound c 0) (∅ : Finset DN) 0
    ∗ atPos ER (cell c (.rr 1 0)) (rrRound c 1) (∅ : Finset DN) 0 ∗ atPos ER (cell c (.rr 1 1)) (rrRound c 1) (∅ : Finset DN) 0
    ∗ atPos ER (cell c (.rr 2 0)) (rrRound c 2) (∅ : Finset DN) 0 ∗ atPos ER (cell c (.rr 2 1)) (rrRound c 2) (∅ : Finset DN) 0
    ∗ atPos ER (cell c (.rr 3 0)) (rrRound c 3) (∅ : Finset DN) 0 ∗ atPos ER (cell c (.rr 3 1)) (rrRound c 3) (∅ : Finset DN) 0
    ∗ (∃ f, pts cRefM c fullShare f) ∗ (∃ f, pts cRecvM c fullShare f) ∗ (∃ f, pts wukSendM c fullShare f) ∗ (∃ f, pts wukRecvM c fullShare f)
    ∗ (∃ f, pts wuvSendM c fullShare f) ∗ (∃ f, pts wuvRecvM c fullShare f)
    ∗ pts (oblkM 0) c (Transfers.shareDrop fullShare 3) (slotBuf m (oblkM 0) c (sq3 (oblkVal m 0 c)))
    ∗ pts (oblkM 1) c (Transfers.shareDrop fullShare 3) (slotBuf m (oblkM 1) c (sq3 (oblkVal m 1 c)))
    ∗ ((∃ f, pts (rblkM 0 0) c fullShare f) ∗ (∃ f, pts (rblkM 0 1) c fullShare f) ∗ (∃ f, pts (rblkM 1 0) c fullShare f) ∗ (∃ f, pts (rblkM 1 1) c fullShare f)
      ∗ (∃ f, pts (rblkM 2 0) c fullShare f) ∗ (∃ f, pts (rblkM 2 1) c fullShare f) ∗ (∃ f, pts (rblkM 3 0) c fullShare f) ∗ (∃ f, pts (rblkM 3 1) c fullShare f))
    ∗ (∃ f, pts wbufW c fullShare f)
    ∗ (∃ f, pts (opRecvM 0) c fullShare f) ∗ (∃ f, pts (opRecvM 1) c fullShare f))

theorem ownCKs_zero (c : Dev nD) :
    (iprop(semVal (cell c .xy) 0 ∗ semVal (cell c (.zs 0)) 0 ∗ semVal (cell c (.zs 1)) 0 ∗ semVal (cell c (.zs 2)) 0
      ∗ semVal (cell c (.zr 0)) 0 ∗ semVal (cell c (.zr 1)) 0 ∗ semVal (cell c (.zr 2)) 0
      ∗ semVal (cell c (.os 0)) 0 ∗ semVal (cell c (.os 1)) 0 ∗ semVal (cell c (.orr 0)) 0 ∗ semVal (cell c (.orr 1)) 0
      ∗ semVal (cell c (.rs 0 0)) 0 ∗ semVal (cell c (.rs 0 1)) 0 ∗ semVal (cell c (.rs 1 0)) 0 ∗ semVal (cell c (.rs 1 1)) 0
      ∗ semVal (cell c (.rs 2 0)) 0 ∗ semVal (cell c (.rs 2 1)) 0
      ∗ semVal (cell c (.rr 0 0)) 0 ∗ semVal (cell c (.rr 0 1)) 0 ∗ semVal (cell c (.rr 1 0)) 0 ∗ semVal (cell c (.rr 1 1)) 0
      ∗ semVal (cell c (.rr 2 0)) 0 ∗ semVal (cell c (.rr 2 1)) 0 ∗ semVal (cell c (.rr 3 0)) 0 ∗ semVal (cell c (.rr 3 1)) 0) : sProp 𝕄)
      ⊢ bigSepL ownCKs (fun k => semVal (cell c k) 0) := Entails.of_eq rfl

def post10 (c : Dev nD) : sProp 𝕄 :=
  iprop(scratchAny c ∗ bigSepL ownCKs (fun k => semVal (cell c k) 0) ∗ ∃ W', owes (c : Thread nD τ) 0 W')

set_option maxHeartbeats 1600000 in
theorem seg10 (c : Dev nD) (K : Dev nD × CK → ℕ) (W : Waits sig Unit)
    (k : Prog (TpuEff nD τ sig (Elt F) Λ₀ .tc) PUnit) (Q : PUnit → sProp 𝕄) :
    iprop(records m K ∗ pre10 m c W
        ∗ (post10 c -∗ wp frame (wpE (defs₀ (F := F)) Variants.none c none) Set.univ k Q))
      ⊢ wp frame (wpE (defs₀ (F := F)) Variants.none c none) Set.univ (Seg10 c k) Q := by
  unfold pre10
  iintro ⟨#Hrec, ⟨HO, Hc00, Hc10, Hc20, Hc01, Hc11, Hc21, Hco0, Hco1, Ha00, Ha10, Ha20, Ha01, Ha11, Ha21, Hao0, Hao1,
    Hxy, Hzs0, Hzs1, Hzs2, Hzr0, Hzr1, Hzr2, Hor0, Hor1, Hr00, Hr01, Hr10, Hr11, Hr20, Hr21, Hr30, Hr31,
    B0, B1, B2, B3, B4, B5, Bo0, Bo1, Brb, Bw, Bq0, Bq1⟩, Hk⟩
  ihave #HI00 := (inv_at m K c (.rs 0 0)) $$ Hrec
  ihave #HI10 := (inv_at m K c (.rs 1 0)) $$ Hrec
  ihave #HI20 := (inv_at m K c (.rs 2 0)) $$ Hrec
  ihave #HI01 := (inv_at m K c (.rs 0 1)) $$ Hrec
  ihave #HI11 := (inv_at m K c (.rs 1 1)) $$ Hrec
  ihave #HI21 := (inv_at m K c (.rs 2 1)) $$ Hrec
  ihave #HIo0 := (inv_at m K c (.os 0)) $$ Hrec
  ihave #HIo1 := (inv_at m K c (.os 1)) $$ Hrec
  unfold Seg10
  sl_exec_parts

  imod (close_cell m K c .xy 1 (duties_later m _)) $$ [Hxy] with Sxy
  · isplitr; · iexact Hrec
    iexact Hxy
  imod (close_cell m K c (.zs 0) 1 (duties_later m _)) $$ [Hzs0] with Szs0
  · isplitr; · iexact Hrec
    iexact Hzs0
  imod (close_cell m K c (.zs 1) 1 (duties_later m _)) $$ [Hzs1] with Szs1
  · isplitr; · iexact Hrec
    iexact Hzs1
  imod (close_cell m K c (.zs 2) 1 (duties_later m _)) $$ [Hzs2] with Szs2
  · isplitr; · iexact Hrec
    iexact Hzs2
  imod (close_cell m K c (.zr 0) 1 (duties_later m _)) $$ [Hzr0] with Szr0
  · isplitr; · iexact Hrec
    iexact Hzr0
  imod (close_cell m K c (.zr 1) 1 (duties_later m _)) $$ [Hzr1] with Szr1
  · isplitr; · iexact Hrec
    iexact Hzr1
  imod (close_cell m K c (.zr 2) 1 (duties_later m _)) $$ [Hzr2] with Szr2
  · isplitr; · iexact Hrec
    iexact Hzr2
  imod (close_cell m K c (.os 0) 1 (duties_later m _)) $$ [Hao0] with Sos0
  · isplitr; · iexact Hrec
    iexact Hao0
  imod (close_cell m K c (.os 1) 1 (duties_later m _)) $$ [Hao1] with Sos1
  · isplitr; · iexact Hrec
    iexact Hao1
  imod (close_cell m K c (.orr 0) 1 (duties_later m _)) $$ [Hor0] with Sor0
  · isplitr; · iexact Hrec
    iexact Hor0
  imod (close_cell m K c (.orr 1) 1 (duties_later m _)) $$ [Hor1] with Sor1
  · isplitr; · iexact Hrec
    iexact Hor1
  imod (close_cell m K c (.rs 0 0) 1 (duties_later m _)) $$ [Ha00] with Srs00
  · isplitr; · iexact Hrec
    iexact Ha00
  imod (close_cell m K c (.rs 0 1) 1 (duties_later m _)) $$ [Ha01] with Srs01
  · isplitr; · iexact Hrec
    iexact Ha01
  imod (close_cell m K c (.rs 1 0) 1 (duties_later m _)) $$ [Ha10] with Srs10
  · isplitr; · iexact Hrec
    iexact Ha10
  imod (close_cell m K c (.rs 1 1) 1 (duties_later m _)) $$ [Ha11] with Srs11
  · isplitr; · iexact Hrec
    iexact Ha11
  imod (close_cell m K c (.rs 2 0) 1 (duties_later m _)) $$ [Ha20] with Srs20
  · isplitr; · iexact Hrec
    iexact Ha20
  imod (close_cell m K c (.rs 2 1) 1 (duties_later m _)) $$ [Ha21] with Srs21
  · isplitr; · iexact Hrec
    iexact Ha21
  imod (close_cell m K c (.rr 0 0) (rrRound c 0) (rr_no_duty m c 0 0)) $$ [Hr00] with Srr00
  · isplitr; · iexact Hrec
    iexact Hr00
  imod (close_cell m K c (.rr 0 1) (rrRound c 0) (rr_no_duty m c 0 1)) $$ [Hr01] with Srr01
  · isplitr; · iexact Hrec
    iexact Hr01
  imod (close_cell m K c (.rr 1 0) (rrRound c 1) (rr_no_duty m c 1 0)) $$ [Hr10] with Srr10
  · isplitr; · iexact Hrec
    iexact Hr10
  imod (close_cell m K c (.rr 1 1) (rrRound c 1) (rr_no_duty m c 1 1)) $$ [Hr11] with Srr11
  · isplitr; · iexact Hrec
    iexact Hr11
  imod (close_cell m K c (.rr 2 0) (rrRound c 2) (rr_no_duty m c 2 0)) $$ [Hr20] with Srr20
  · isplitr; · iexact Hrec
    iexact Hr20
  imod (close_cell m K c (.rr 2 1) (rrRound c 2) (rr_no_duty m c 2 1)) $$ [Hr21] with Srr21
  · isplitr; · iexact Hrec
    iexact Hr21
  imod (close_cell m K c (.rr 3 0) (rrRound c 3) (rr_no_duty m c 3 0)) $$ [Hr30] with Srr30
  · isplitr; · iexact Hrec
    iexact Hr30
  imod (close_cell m K c (.rr 3 1) (rrRound c 3) (rr_no_duty m c 3 1)) $$ [Hr31] with Srr31
  · isplitr; · iexact Hrec
    iexact Hr31

  ihave Ho0 := (pts_toks3 (oblkM 0) c fullShare (slotBuf m (oblkM 0) c (sq3 (oblkVal m 0 c)))).2 $$ [Bo0 Ha00_pay1 Ha10_pay1 Ha20_pay1]
  · isplitl [Bo0]; · iexact Bo0
    isplitl [Ha00_pay1]; · iexact Ha00_pay1
    isplitl [Ha10_pay1]; · iexact Ha10_pay1
    iexact Ha20_pay1
  ihave Ho1 := (pts_toks3 (oblkM 1) c fullShare (slotBuf m (oblkM 1) c (sq3 (oblkVal m 1 c)))).2 $$ [Bo1 Ha01_pay1 Ha11_pay1 Ha21_pay1]
  · isplitl [Bo1]; · iexact Bo1
    isplitl [Ha01_pay1]; · iexact Ha01_pay1
    isplitl [Ha11_pay1]; · iexact Ha11_pay1
    iexact Ha21_pay1
  ihave Hoblk := (slot3_any_join oblkW c) $$ [Ho0 Ho1]
  · isplitl [Ho0]
    · iexists _; iexact Ho0
    · iexists _; iexact Ho1
  ihave Hops := (slot3_any_join opSendW c) $$ [Hao0_pay1 Hao1_pay1]
  · isplitl [Hao0_pay1]
    · iexists _; iexact Hao0_pay1
    · iexists _; iexact Hao1_pay1
  ihave Hopr := (slot3_any_join opRecvW c) $$ [Bq0 Bq1]
  · isplitl [Bq0]; · iexact Bq0
    iexact Bq1
  ihave Hrblk := (rblk_any_join c) $$ Brb
  iapply Hk
  unfold post10 scratchAny
  isplitl [B0 B1 B2 B3 B4 B5 Hoblk Hrblk Bw Hops Hopr]
  · isplitl [B0]; · iexact B0
    isplitl [B1]; · iexact B1
    isplitl [B2]; · iexact B2
    isplitl [B3]; · iexact B3
    isplitl [B4]; · iexact B4
    isplitl [B5]; · iexact B5
    isplitl [Hoblk]; · iexact Hoblk
    isplitl [Hrblk]; · iexact Hrblk
    isplitl [Bw]; · iexact Bw
    isplitl [Hops]; · iexact Hops
    iexact Hopr
  isplitr [HO]
  · iapply (ownCKs_zero c)
    isplitl [Sxy]; · iexact Sxy
    isplitl [Szs0]; · iexact Szs0
    isplitl [Szs1]; · iexact Szs1
    isplitl [Szs2]; · iexact Szs2
    isplitl [Szr0]; · iexact Szr0
    isplitl [Szr1]; · iexact Szr1
    isplitl [Szr2]; · iexact Szr2
    isplitl [Sos0]; · iexact Sos0
    isplitl [Sos1]; · iexact Sos1
    isplitl [Sor0]; · iexact Sor0
    isplitl [Sor1]; · iexact Sor1
    isplitl [Srs00]; · iexact Srs00
    isplitl [Srs01]; · iexact Srs01
    isplitl [Srs10]; · iexact Srs10
    isplitl [Srs11]; · iexact Srs11
    isplitl [Srs20]; · iexact Srs20
    isplitl [Srs21]; · iexact Srs21
    isplitl [Srr00]; · iexact Srr00
    isplitl [Srr01]; · iexact Srr01
    isplitl [Srr10]; · iexact Srr10
    isplitl [Srr11]; · iexact Srr11
    isplitl [Srr20]; · iexact Srr20
    isplitl [Srr21]; · iexact Srr21
    isplitl [Srr30]; · iexact Srr30
    iexact Srr31
  · iexists _; iexact HO

end Cert.KernelIdeal.Body

end
-- ==== Proof.BodyS9Geom.lean ====
import proofs.«900573_g7700000000000574_dist_mla_v7x_xyz2x2x2_z_b1_s1024_d2048_dc128_bf16_1_alg».proof.Proof.Body0
import proofs.«900573_g7700000000000574_dist_mla_v7x_xyz2x2x2_z_b1_s1024_d2048_dc128_bf16_1_alg».proof.Proof.SchedVal

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

theorem cond_ne : ∀ (c : Dev nD) (s : Fin 4), bIdx c ≠ s →
    Scalar.cmpi .ne (Scalar.extui (Scalar.cmpi .ne (bw c) (BitVec.ofNat 32 s.val))) 0#32 = 1#1 := by decide +kernel

theorem cond_eq : ∀ (c : Dev nD) (s : Fin 4), bIdx c = s →
    Scalar.cmpi .ne (Scalar.extui (Scalar.cmpi .ne (bw c) (BitVec.ofNat 32 s.val))) 0#32 = 0#1 := by decide +kernel

theorem cond_ne0 (c : Dev nD) (h : bIdx c ≠ 0) : Scalar.cmpi .ne (Scalar.extui (Scalar.cmpi .ne (bw c) 0#32)) 0#32 = 1#1 := cond_ne c 0 h
theorem cond_ne1 (c : Dev nD) (h : bIdx c ≠ 1) : Scalar.cmpi .ne (Scalar.extui (Scalar.cmpi .ne (bw c) 1#32)) 0#32 = 1#1 := cond_ne c 1 h
theorem cond_ne2 (c : Dev nD) (h : bIdx c ≠ 2) : Scalar.cmpi .ne (Scalar.extui (Scalar.cmpi .ne (bw c) 2#32)) 0#32 = 1#1 := cond_ne c 2 h
theorem cond_ne3 (c : Dev nD) (h : bIdx c ≠ 3) : Scalar.cmpi .ne (Scalar.extui (Scalar.cmpi .ne (bw c) 3#32)) 0#32 = 1#1 := cond_ne c 3 h
theorem cond_eq0 (c : Dev nD) (h : bIdx c = 0) : Scalar.cmpi .ne (Scalar.extui (Scalar.cmpi .ne (bw c) 0#32)) 0#32 = 0#1 := cond_eq c 0 h
theorem cond_eq1 (c : Dev nD) (h : bIdx c = 1) : Scalar.cmpi .ne (Scalar.extui (Scalar.cmpi .ne (bw c) 1#32)) 0#32 = 0#1 := cond_eq c 1 h
theorem cond_eq2 (c : Dev nD) (h : bIdx c = 2) : Scalar.cmpi .ne (Scalar.extui (Scalar.cmpi .ne (bw c) 2#32)) 0#32 = 0#1 := cond_eq c 2 h
theorem cond_eq3 (c : Dev nD) (h : bIdx c = 3) : Scalar.cmpi .ne (Scalar.extui (Scalar.cmpi .ne (bw c) 3#32)) 0#32 = 0#1 := cond_eq c 3 h

theorem bIdx_p0_val (c : Dev nD) : (bIdx (p0 c)).val = (bIdx c).val + 1 - 2 * ((bIdx c).val % 2) := by
  rw [bIdx_val, bIdx_val, p0_val]; have hc : c.val < 8 := c.isLt; omega
theorem bIdx_p1_val (c : Dev nD) : (bIdx (p1 c)).val = (bIdx c).val + 2 - 4 * ((bIdx c).val / 2) := by
  rw [bIdx_val, bIdx_val, p1_val]; have hc : c.val < 8 := c.isLt; omega
theorem bIdx_p2_val (c : Dev nD) : (bIdx (p2 c)).val = 3 - (bIdx c).val := by
  rw [bIdx_val, bIdx_val, p2_val]; have hc : c.val < 8 := c.isLt; omega

theorem peers_of_b0 (c : Dev nD) (h : bIdx c = 0) : bIdx (p0 c) = 1 ∧ bIdx (p1 c) = 2 ∧ bIdx (p2 c) = 3 := by
  have h' : (bIdx c).val = 0 := congrArg Fin.val h
  refine ⟨Fin.ext ?_, Fin.ext ?_, Fin.ext ?_⟩
  · rw [bIdx_p0_val, h']; rfl
  · rw [bIdx_p1_val, h']; rfl
  · rw [bIdx_p2_val, h']; rfl
theorem peers_of_b1 (c : Dev nD) (h : bIdx c = 1) : bIdx (p0 c) = 0 ∧ bIdx (p1 c) = 3 ∧ bIdx (p2 c) = 2 := by
  have h' : (bIdx c).val = 1 := congrArg Fin.val h
  refine ⟨Fin.ext ?_, Fin.ext ?_, Fin.ext ?_⟩
  · rw [bIdx_p0_val, h']; rfl
  · rw [bIdx_p1_val, h']; rfl
  · rw [bIdx_p2_val, h']; rfl
theorem peers_of_b2 (c : Dev nD) (h : bIdx c = 2) : bIdx (p0 c) = 3 ∧ bIdx (p1 c) = 0 ∧ bIdx (p2 c) = 1 := by
  have h' : (bIdx c).val = 2 := congrArg Fin.val h
  refine ⟨Fin.ext ?_, Fin.ext ?_, Fin.ext ?_⟩
  · rw [bIdx_p0_val, h']; rfl
  · rw [bIdx_p1_val, h']; rfl
  · rw [bIdx_p2_val, h']; rfl
theorem peers_of_b3 (c : Dev nD) (h : bIdx c = 3) : bIdx (p0 c) = 2 ∧ bIdx (p1 c) = 1 ∧ bIdx (p2 c) = 0 := by
  have h' : (bIdx c).val = 3 := congrArg Fin.val h
  refine ⟨Fin.ext ?_, Fin.ext ?_, Fin.ext ?_⟩
  · rw [bIdx_p0_val, h']; rfl
  · rw [bIdx_p1_val, h']; rfl
  · rw [bIdx_p2_val, h']; rfl

theorem bIdx_cases (c : Dev nD) : bIdx c = 0 ∨ bIdx c = 1 ∨ bIdx c = 2 ∨ bIdx c = 3 := by
  have h : ∀ b : Fin 4, b = 0 ∨ b = 1 ∨ b = 2 ∨ b = 3 := by decide
  exact h (bIdx c)

omit [FloatOps F] in

theorem out_read_writes_same (s : Fin 4) (j : Fin 2) (f : Vec F S1x1024x2048 .f32) (w : Vec F S1x128x2048 .f32)
    (L : List (View.Piece (Elt F) S1x1024x2048 .f32)) :
    (outW.access (outR s j)).read (Elt F) (outW.view.writes (Elt F) f (⟨outR s j, w⟩ :: L)) = w :=
  out_read_store s j _ w

omit [FloatOps F] in

theorem out_read_writes_ne {s s' : Fin 4} {j j' : Fin 2} (h : s ≠ s' ∨ j ≠ j') (f : Vec F S1x1024x2048 .f32)
    (w : Vec F S1x128x2048 .f32) (L : List (View.Piece (Elt F) S1x1024x2048 .f32)) :
    (outW.access (outR s j)).read (Elt F) (outW.view.writes (Elt F) f (⟨outR s' j', w⟩ :: L))
      = (outW.access (outR s j)).read (Elt F) (outW.view.writes (Elt F) f L) :=
  out_read_store_ne h _ w

omit [FloatOps F] in
theorem out_read_writes_nil (s : Fin 4) (j : Fin 2) (f : Vec F S1x1024x2048 .f32) :
    (outW.access (outR s j)).read (Elt F) (outW.view.writes (Elt F) f []) = (outW.access (outR s j)).read (Elt F) f := rfl

end Cert.KernelIdeal.Body
-- ==== Proof.BodyOut.lean ====
import proofs.«900573_g7700000000000574_dist_mla_v7x_xyz2x2x2_z_b1_s1024_d2048_dc128_bf16_1_alg».proof.Proof.Sched
import proofs.«900573_g7700000000000574_dist_mla_v7x_xyz2x2x2_z_b1_s1024_d2048_dc128_bf16_1_alg».proof.Proof.SchedVal
import Idealize.ShloMosaic.Lib.Writes

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.View (Piece)

variable {F : FTy → Type} [FloatOps F]

variable (m : (ℓ : Loc nD τ sig) → Buf (Elt F) ℓ)

theorem mem_outR_iff (s : Fin 4) (j : Fin 2) (y : S1x1024x2048.Idx) : y ∈ (outR s j).set ↔ rowS y = s ∧ rowJ y = j := by
  have h0 : (y 0).val < 1 := (y 0).isLt
  have h1 : (y 1).val < 1024 := (y 1).isLt
  have h2 : (y 2).val < 2048 := (y 2).isLt
  have hs : s.val < 4 := s.isLt
  have hj : j.val < 2 := j.isLt
  rw [Rect.mem_set_unit]
  constructor
  · intro h
    have h' := h 1
    change 256 * s.val + 128 * j.val ≤ (y 1).val ∧ (y 1).val < 256 * s.val + 128 * j.val + 128 at h'
    refine ⟨Fin.ext ?_, Fin.ext ?_⟩
    · show (y 1).val / 256 = s.val; omega
    · show ((y 1).val / 128) % 2 = j.val; omega
  · rintro ⟨es, ej⟩ a
    have es' : (y 1).val / 256 = s.val := congrArg Fin.val es
    have ej' : ((y 1).val / 128) % 2 = j.val := congrArg Fin.val ej
    fin_cases a
    · show (0 : Nat) ≤ (y 0).val ∧ (y 0).val < 0 + 1; omega
    · show 256 * s.val + 128 * j.val ≤ (y 1).val ∧ (y 1).val < 256 * s.val + 128 * j.val + 128; omega
    · show (0 : Nat) ≤ (y 2).val ∧ (y 2).val < 0 + 2048; omega

theorem outR_emb_val (s : Fin 4) (j : Fin 2) (x : S1x128x2048.Idx) :
    ((outR s j).emb x 0).val = (x 0).val ∧ ((outR s j).emb x 1).val = 256 * s.val + 128 * j.val + (x 1).val
      ∧ ((outR s j).emb x 2).val = (x 2).val := by
  refine ⟨?_, ?_, ?_⟩
  · rw [Rect.emb_apply]; show 0 + 1 * (x 0).val = (x 0).val; omega
  · rw [Rect.emb_apply]; show 256 * s.val + 128 * j.val + 1 * (x 1).val = 256 * s.val + 128 * j.val + (x 1).val; omega
  · rw [Rect.emb_apply]; show 0 + 1 * (x 2).val = (x 2).val; omega

theorem rowS_emb (s : Fin 4) (j : Fin 2) (x : S1x128x2048.Idx) : rowS ((outR s j).emb x) = s := by
  have h1 : (x 1).val < 128 := (x 1).isLt
  have hj : j.val < 2 := j.isLt
  refine Fin.ext ?_
  show ((outR s j).emb x 1).val / 256 = s.val
  rw [(outR_emb_val s j x).2.1]; omega

theorem rowJ_emb (s : Fin 4) (j : Fin 2) (x : S1x128x2048.Idx) : rowJ ((outR s j).emb x) = j := by
  have h1 : (x 1).val < 128 := (x 1).isLt
  have hj : j.val < 2 := j.isLt
  refine Fin.ext ?_
  show (((outR s j).emb x 1).val / 128) % 2 = j.val
  rw [(outR_emb_val s j x).2.1]; omega

theorem rowIdx_emb (s : Fin 4) (j : Fin 2) (x : S1x128x2048.Idx) : rowIdx ((outR s j).emb x) = x := by
  have h0 : (x 0).val < 1 := (x 0).isLt
  have h1 : (x 1).val < 128 := (x 1).isLt
  have h2 : (x 2).val < 2048 := (x 2).isLt
  have hj : j.val < 2 := j.isLt
  refine funext fun a => Fin.ext ?_
  fin_cases a
  · show ((outR s j).emb x 0).val % 1 = (x 0).val
    rw [(outR_emb_val s j x).1]; omega
  · show ((outR s j).emb x 1).val % 128 = (x 1).val
    rw [(outR_emb_val s j x).2.1]; omega
  · show ((outR s j).emb x 2).val % 2048 = (x 2).val
    rw [(outR_emb_val s j x).2.2]; omega

omit [FloatOps F] in

theorem piece_unit_congr {off off' : Fin S1x1024x2048.rank → Nat} (h : off = off') (size : Fin S1x1024x2048.rank → Nat)
    (p : ∀ a, off a + size a ≤ S1x1024x2048.size a) (p' : ∀ a, off' a + size a ≤ S1x1024x2048.size a)
    (w : (Rect.unit (s := S1x1024x2048) off size p).shape.Idx → Elt F .f32) :
    (⟨Rect.unit (s := S1x1024x2048) off size p, w⟩ : Piece (Elt F) S1x1024x2048 .f32) = ⟨Rect.unit (s := S1x1024x2048) off' size p', w⟩ := by
  subst h; rfl

omit [FloatOps F] in

theorem own_piece0 (c : Dev nD) (w : Vec F S1x128x2048 .f32) :
    (⟨Rect.unit (s := S1x1024x2048) (k0_off7 c 0#32) S1x128x2048.size (k0_off7_inb c 0), w⟩ : Piece (Elt F) S1x1024x2048 .f32)
      = ⟨outR (bIdx c) 0, w⟩ :=
  piece_unit_congr (k0_off7_own c 0) _ _ _ w
omit [FloatOps F] in
theorem own_piece1 (c : Dev nD) (w : Vec F S1x128x2048 .f32) :
    (⟨Rect.unit (s := S1x1024x2048) (k0_off7 c 128#32) S1x128x2048.size (k0_off7_inb c 1), w⟩ : Piece (Elt F) S1x1024x2048 .f32)
      = ⟨outR (bIdx c) 1, w⟩ :=
  piece_unit_congr (k0_off7_own c 1) _ _ _ w

theorem rowsOf_eq_outFinal (c : Dev nD) (s : Fin 4) (j : Fin 2) (x : S1x128x2048.Idx) :
    rowsOf m c s j x = outFinal m c ((outR s j).emb x) := by
  rw [outFinal_apply, rowS_emb, rowJ_emb, rowIdx_emb]

theorem out_final_of_writes (c : Dev nD) (g : Vec F S1x1024x2048 .f32) (L : List (Piece (Elt F) S1x1024x2048 .f32))
    (hg : ∀ j, (outW.access (outR (bIdx c) j)).read (Elt F) g = rowsOf m c (bIdx c) j)
    (hL : ∀ p ∈ L, ∃ s j, s ≠ bIdx c ∧ p = ⟨outR s j, rowsOf m c s j⟩)
    (hcov : ∀ s j, s ≠ bIdx c → (⟨outR s j, rowsOf m c s j⟩ : Piece (Elt F) S1x1024x2048 .f32) ∈ L) :
    outW.view.writes (Elt F) g L = outFinal m c := by
  funext y
  show outW.view.read (Elt F) (outW.view.writes (Elt F) g L) y = outFinal m c y
  by_cases hs : rowS y = bIdx c
  · rw [View.read_writes_apply_of_forall_not_mem outW.view g y L fun p hp hy => by
      obtain ⟨s, j, hne, rfl⟩ := hL p hp
      exact hne (((mem_outR_iff s j y).mp hy).1.symm.trans hs)]
    show g y = outFinal m c y
    have e : g y = (outW.access (outR (rowS y) (rowJ y))).read (Elt F) g (rowIdx y) := by
      show g y = g ((outR (rowS y) (rowJ y)).emb (rowIdx y))
      rw [outR_emb_rowIdx]
    rw [e, outFinal_apply, hs]
    exact congrFun (hg (rowJ y)) (rowIdx y)
  · refine View.read_writes_apply_of_pieces outW.view g (outFinal m c) L (fun p hp x => ?_) y ?_
    · obtain ⟨s, j, _, rfl⟩ := hL p hp
      exact rowsOf_eq_outFinal m c s j x
    · exact ⟨⟨outR (rowS y) (rowJ y), rowsOf m c (rowS y) (rowJ y)⟩, hcov _ _ hs, (mem_outR_iff _ _ y).mpr ⟨rfl, rfl⟩⟩

end Cert.KernelIdeal.Proto
-- ==== Proof.BodyS9Val.lean ====
import proofs.«900573_g7700000000000574_dist_mla_v7x_xyz2x2x2_z_b1_s1024_d2048_dc128_bf16_1_alg».proof.Proof.BodyOut

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.View (Piece)

variable {F : FTy → Type} [FloatOps F]

variable (m : (ℓ : Loc nD τ sig) → Buf (Elt F) ℓ)

theorem recv_payload (c : Dev nD) (s : Fin 4) (j : Fin 2) (h : s ≠ bIdx c) :
    recvRows s j (rblkW.view.readAt (Elt F) (rslotR s j).toLoadRect (slotBuf m (rblkM s j) c (sq3 (oblkVal m j (srcDev c s)))))
      = rowsOf m c s j := by
  rw [rblkM_readAt]; unfold rowsOf; rw [if_neg h]

theorem out_after_recv (c : Dev nD) (s1 s2 s3 : Fin 4) (h1 : s1 ≠ bIdx c) (h2 : s2 ≠ bIdx c) (h3 : s3 ≠ bIdx c)
    (hall : ∀ s, s ≠ bIdx c → s = s1 ∨ s = s2 ∨ s = s3) (g : Vec F S1x1024x2048 .f32)
    (hg : ∀ j, (outW.access (outR (bIdx c) j)).read (Elt F) g = rowsOf m c (bIdx c) j) :
    outW.view.writes (Elt F) g
      [⟨outR s3 1, rowsOf m c s3 1⟩, ⟨outR s3 0, rowsOf m c s3 0⟩, ⟨outR s2 1, rowsOf m c s2 1⟩, ⟨outR s2 0, rowsOf m c s2 0⟩,
       ⟨outR s1 1, rowsOf m c s1 1⟩, ⟨outR s1 0, rowsOf m c s1 0⟩] = outFinal m c := by
  refine out_final_of_writes m c g _ hg (fun p hp => ?_) (fun s j hne => ?_)
  · simp only [List.mem_cons, List.not_mem_nil, or_false] at hp
    rcases hp with rfl | rfl | rfl | rfl | rfl | rfl
    · exact ⟨s3, 1, h3, rfl⟩
    · exact ⟨s3, 0, h3, rfl⟩
    · exact ⟨s2, 1, h2, rfl⟩
    · exact ⟨s2, 0, h2, rfl⟩
    · exact ⟨s1, 1, h1, rfl⟩
    · exact ⟨s1, 0, h1, rfl⟩
  · have hj : j = 0 ∨ j = 1 := by revert j; decide
    simp only [List.mem_cons, List.not_mem_nil, or_false]
    rcases hall s hne with rfl | rfl | rfl <;> rcases hj with rfl | rfl
    · exact Or.inr (Or.inr (Or.inr (Or.inr (Or.inr rfl))))
    · exact Or.inr (Or.inr (Or.inr (Or.inr (Or.inl rfl))))
    · exact Or.inr (Or.inr (Or.inr (Or.inl rfl)))
    · exact Or.inr (Or.inr (Or.inl rfl))
    · exact Or.inr (Or.inl rfl)
    · exact Or.inl rfl

theorem others_of_b0 (c : Dev nD) (h : bIdx c = 0) : (1 : Fin 4) ≠ bIdx c ∧ (2 : Fin 4) ≠ bIdx c ∧ (3 : Fin 4) ≠ bIdx c
    ∧ ∀ s, s ≠ bIdx c → s = 1 ∨ s = 2 ∨ s = 3 := by rw [h]; decide
theorem others_of_b1 (c : Dev nD) (h : bIdx c = 1) : (0 : Fin 4) ≠ bIdx c ∧ (2 : Fin 4) ≠ bIdx c ∧ (3 : Fin 4) ≠ bIdx c
    ∧ ∀ s, s ≠ bIdx c → s = 0 ∨ s = 2 ∨ s = 3 := by rw [h]; decide
theorem others_of_b2 (c : Dev nD) (h : bIdx c = 2) : (0 : Fin 4) ≠ bIdx c ∧ (1 : Fin 4) ≠ bIdx c ∧ (3 : Fin 4) ≠ bIdx c
    ∧ ∀ s, s ≠ bIdx c → s = 0 ∨ s = 1 ∨ s = 3 := by rw [h]; decide
theorem others_of_b3 (c : Dev nD) (h : bIdx c = 3) : (0 : Fin 4) ≠ bIdx c ∧ (1 : Fin 4) ≠ bIdx c ∧ (2 : Fin 4) ≠ bIdx c
    ∧ ∀ s, s ≠ bIdx c → s = 0 ∨ s = 1 ∨ s = 2 := by rw [h]; decide

end Cert.KernelIdeal.Proto
-- ==== Proof.BodyS9Vals.lean ====
import proofs.«900573_g7700000000000574_dist_mla_v7x_xyz2x2x2_z_b1_s1024_d2048_dc128_bf16_1_alg».proof.Proof.BodyS9Val

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.View (Piece)

variable {F : FTy → Type} [FloatOps F]

variable (m : (ℓ : Loc nD τ sig) → Buf (Elt F) ℓ)

theorem recv_rows_eq (c : Dev nD) (s : Fin 4) (j : Fin 2) (hs : s ≠ bIdx c) :
    recvRows s j (rblkW.view.readAt (Elt F) (rslotR s j).toLoadRect (slotBuf m (rblkM s j) c (sq3 (oblkVal m j (srcDev c s)))))
      = rowsOf m c s j := recv_payload m c s j hs

theorem recv_rows_00 (c : Dev nD) (h : (0 : Fin 4) ≠ bIdx c) :
    k0_pay57 (View.readAt (Elt F) rblkW.view (Rect.unit (s := S4x2x128x2048) ![0, 0, 0, 0] S1x1x128x2048.size inb_S4x2x128x2048_S1x1x128x2048_0_0_0_0).toLoadRect
      (slotBuf m (rblkM 0 0) c (sq3 (oblkVal m 0 (srcDev c 0))))) = rowsOf m c 0 0 :=
  recv_rows_eq m c 0 0 h
theorem recv_rows_01 (c : Dev nD) (h : (0 : Fin 4) ≠ bIdx c) :
    k0_pay58 (View.readAt (Elt F) rblkW.view (Rect.unit (s := S4x2x128x2048) ![0, 1, 0, 0] S1x1x128x2048.size inb_S4x2x128x2048_S1x1x128x2048_0_1_0_0).toLoadRect
      (slotBuf m (rblkM 0 1) c (sq3 (oblkVal m 1 (srcDev c 0))))) = rowsOf m c 0 1 :=
  recv_rows_eq m c 0 1 h
theorem recv_rows_10 (c : Dev nD) (h : (1 : Fin 4) ≠ bIdx c) :
    k0_pay59 (View.readAt (Elt F) rblkW.view (Rect.unit (s := S4x2x128x2048) ![1, 0, 0, 0] S1x1x128x2048.size inb_S4x2x128x2048_S1x1x128x2048_1_0_0_0).toLoadRect
      (slotBuf m (rblkM 1 0) c (sq3 (oblkVal m 0 (srcDev c 1))))) = rowsOf m c 1 0 :=
  recv_rows_eq m c 1 0 h
theorem recv_rows_11 (c : Dev nD) (h : (1 : Fin 4) ≠ bIdx c) :
    k0_pay60 (View.readAt (Elt F) rblkW.view (Rect.unit (s := S4x2x128x2048) ![1, 1, 0, 0] S1x1x128x2048.size inb_S4x2x128x2048_S1x1x128x2048_1_1_0_0).toLoadRect
      (slotBuf m (rblkM 1 1) c (sq3 (oblkVal m 1 (srcDev c 1))))) = rowsOf m c 1 1 :=
  recv_rows_eq m c 1 1 h
theorem recv_rows_20 (c : Dev nD) (h : (2 : Fin 4) ≠ bIdx c) :
    k0_pay61 (View.readAt (Elt F) rblkW.view (Rect.unit (s := S4x2x128x2048) ![2, 0, 0, 0] S1x1x128x2048.size inb_S4x2x128x2048_S1x1x128x2048_2_0_0_0).toLoadRect
      (slotBuf m (rblkM 2 0) c (sq3 (oblkVal m 0 (srcDev c 2))))) = rowsOf m c 2 0 :=
  recv_rows_eq m c 2 0 h
theorem recv_rows_21 (c : Dev nD) (h : (2 : Fin 4) ≠ bIdx c) :
    k0_pay62 (View.readAt (Elt F) rblkW.view (Rect.unit (s := S4x2x128x2048) ![2, 1, 0, 0] S1x1x128x2048.size inb_S4x2x128x2048_S1x1x128x2048_2_1_0_0).toLoadRect
      (slotBuf m (rblkM 2 1) c (sq3 (oblkVal m 1 (srcDev c 2))))) = rowsOf m c 2 1 :=
  recv_rows_eq m c 2 1 h
theorem recv_rows_30 (c : Dev nD) (h : (3 : Fin 4) ≠ bIdx c) :
    k0_pay63 (View.readAt (Elt F) rblkW.view (Rect.unit (s := S4x2x128x2048) ![3, 0, 0, 0] S1x1x128x2048.size inb_S4x2x128x2048_S1x1x128x2048_3_0_0_0).toLoadRect
      (slotBuf m (rblkM 3 0) c (sq3 (oblkVal m 0 (srcDev c 3))))) = rowsOf m c 3 0 :=
  recv_rows_eq m c 3 0 h
theorem recv_rows_31 (c : Dev nD) (h : (3 : Fin 4) ≠ bIdx c) :
    k0_pay64 (View.readAt (Elt F) rblkW.view (Rect.unit (s := S4x2x128x2048) ![3, 1, 0, 0] S1x1x128x2048.size inb_S4x2x128x2048_S1x1x128x2048_3_1_0_0).toLoadRect
      (slotBuf m (rblkM 3 1) c (sq3 (oblkVal m 1 (srcDev c 3))))) = rowsOf m c 3 1 :=
  recv_rows_eq m c 3 1 h

end Cert.KernelIdeal.Proto
-- ==== Proof.BodyS9.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.Body0
import proofs.«900573_g7700000000000574_dist_mla_v7x_xyz2x2x2_z_b1_s1024_d2048_dc128_bf16_1_alg».proof.Proof.BodyGeom
import proofs.«900573_g7700000000000574_dist_mla_v7x_xyz2x2x2_z_b1_s1024_d2048_dc128_bf16_1_alg».proof.Proof.Data
import proofs.«900573_g7700000000000574_dist_mla_v7x_xyz2x2x2_z_b1_s1024_d2048_dc128_bf16_1_alg».proof.Proof.SchedVal
import proofs.«900573_g7700000000000574_dist_mla_v7x_xyz2x2x2_z_b1_s1024_d2048_dc128_bf16_1_alg».proof.Proof.BodyS10
import proofs.«900573_g7700000000000574_dist_mla_v7x_xyz2x2x2_z_b1_s1024_d2048_dc128_bf16_1_alg».proof.Proof.BodyS9Geom
import proofs.«900573_g7700000000000574_dist_mla_v7x_xyz2x2x2_z_b1_s1024_d2048_dc128_bf16_1_alg».proof.Proof.BodyS9Val
import proofs.«900573_g7700000000000574_dist_mla_v7x_xyz2x2x2_z_b1_s1024_d2048_dc128_bf16_1_alg».proof.Proof.BodyS9Vals

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] expect_rr duties_rr

def pre9' (c : Dev nD) (W : Waits sig Unit) (g : Buf (Elt F) (outW.view.loc (c : Thread nD τ))) (b b0 b1 b2 : Fin 4) : sProp 𝕄 :=
  iprop(owes (c : Thread nD τ) 0 W
    ∗ cred (tallyAt (cell c (.rr b0 0)) () Nr) ∗ cred (tallyAt (cell c (.rr b0 1)) () Nr)
    ∗ cred (tallyAt (cell c (.rr b1 0)) () Nr) ∗ cred (tallyAt (cell c (.rr b1 1)) () Nr)
    ∗ cred (tallyAt (cell c (.rr b2 0)) () Nr) ∗ cred (tallyAt (cell c (.rr b2 1)) () Nr)
    ∗ atPos ER (cell c (.rr 0 0)) 0 (∅ : Finset DN) 0 ∗ atPos ER (cell c (.rr 0 1)) 0 (∅ : Finset DN) 0
    ∗ atPos ER (cell c (.rr 1 0)) 0 (∅ : Finset DN) 0 ∗ atPos ER (cell c (.rr 1 1)) 0 (∅ : Finset DN) 0
    ∗ atPos ER (cell c (.rr 2 0)) 0 (∅ : Finset DN) 0 ∗ atPos ER (cell c (.rr 2 1)) 0 (∅ : Finset DN) 0
    ∗ atPos ER (cell c (.rr 3 0)) 0 (∅ : Finset DN) 0 ∗ atPos ER (cell c (.rr 3 1)) 0 (∅ : Finset DN) 0
    ∗ (∃ f, pts (rblkM b 0) c fullShare f) ∗ (∃ f, pts (rblkM b 1) c fullShare f)
    ∗ (outW.view.loc (c : Thread nD τ) ↦{fullShare} g))
def pre9 (c : Dev nD) (W : Waits sig Unit) (g : Buf (Elt F) (outW.view.loc (c : Thread nD τ))) : sProp 𝕄 :=
  pre9' c W g (bIdx c) (bIdx (p0 c)) (bIdx (p1 c)) (bIdx (p2 c))

def post9' (c : Dev nD) (r0 r1 r2 r3 : ℕ) : sProp 𝕄 :=
  iprop((∃ W', owes (c : Thread nD τ) 0 W')
    ∗ atPos ER (cell c (.rr 0 0)) r0 (∅ : Finset DN) 0 ∗ atPos ER (cell c (.rr 0 1)) r0 (∅ : Finset DN) 0
    ∗ atPos ER (cell c (.rr 1 0)) r1 (∅ : Finset DN) 0 ∗ atPos ER (cell c (.rr 1 1)) r1 (∅ : Finset DN) 0
    ∗ atPos ER (cell c (.rr 2 0)) r2 (∅ : Finset DN) 0 ∗ atPos ER (cell c (.rr 2 1)) r2 (∅ : Finset DN) 0
    ∗ atPos ER (cell c (.rr 3 0)) r3 (∅ : Finset DN) 0 ∗ atPos ER (cell c (.rr 3 1)) r3 (∅ : Finset DN) 0
    ∗ ((∃ f, pts (rblkM 0 0) c fullShare f) ∗ (∃ f, pts (rblkM 0 1) c fullShare f) ∗ (∃ f, pts (rblkM 1 0) c fullShare f) ∗ (∃ f, pts (rblkM 1 1) c fullShare f)
      ∗ (∃ f, pts (rblkM 2 0) c fullShare f) ∗ (∃ f, pts (rblkM 2 1) c fullShare f) ∗ (∃ f, pts (rblkM 3 0) c fullShare f) ∗ (∃ f, pts (rblkM 3 1) c fullShare f))
    ∗ (outW.view.loc (c : Thread nD τ) ↦{fullShare} outFinal m c))
def post9 (c : Dev nD) : sProp 𝕄 := post9' m c (rrRound c 0) (rrRound c 1) (rrRound c 2) (rrRound c 3)

set_option maxHeartbeats 3200000 in

theorem seg9_b0 (c : Dev nD) (hb : bIdx c = 0) (K : Dev nD × CK → ℕ) (W : Waits sig Unit) (g : Buf (Elt F) (outW.view.loc (c : Thread nD τ)))
    (hg : ∀ j, (outW.access (outR (bIdx c) j)).read (Elt F) g = rowsOf m c (bIdx c) j)
    (k : Prog (TpuEff nD τ sig (Elt F) Λ₀ .tc) PUnit) (Q : PUnit → sProp 𝕄) :
    iprop(records m K ∗ pre9' c W g 0 1 2 3
        ∗ (post9' m c 0 1 1 1 -∗ wp frame (wpE (defs₀ (F := F)) Variants.none c none) Set.univ k Q))
      ⊢ wp frame (wpE (defs₀ (F := F)) Variants.none c none) Set.univ (Seg9 (w2 c) (w5 c) (w9 c) (bw c) 0#32 k) Q := by
  have c0 : Scalar.cmpi .ne (Scalar.extui (Scalar.cmpi .ne (bw c) 0#32)) 0#32 = 0#1 := cond_eq0 c hb
  have c1 : Scalar.cmpi .ne (Scalar.extui (Scalar.cmpi .ne (bw c) 1#32)) 0#32 = 1#1 := cond_ne1 c (by rw [hb]; decide)
  have c2 : Scalar.cmpi .ne (Scalar.extui (Scalar.cmpi .ne (bw c) 2#32)) 0#32 = 1#1 := cond_ne2 c (by rw [hb]; decide)
  have c3 : Scalar.cmpi .ne (Scalar.extui (Scalar.cmpi .ne (bw c) 3#32)) 0#32 = 1#1 := cond_ne3 c (by rw [hb]; decide)
  obtain ⟨h1, h2, h3, hall⟩ := others_of_b0 c hb
  unfold Seg9 P23 withBufs
  simp only [k0_part23_eq_skeleton]
  unfold k0_part23_skel
  simp (config := {decide := true}) only [c0, c1, c2, c3, ↓reduceDIte]
  unfold pre9'
  iintro ⟨#Hrec, ⟨HO, Hc10, Hc11, Hc20, Hc21, Hc30, Hc31, Ha00, Ha01, Ha10, Ha11, Ha20, Ha21, Ha30, Ha31, ⟨%f0, Hs00⟩, ⟨%f1, Hs01⟩, Hout⟩, Hk⟩
  ihave #HI10 := (inv_at m K c (.rr 1 0)) $$ Hrec
  ihave #HI11 := (inv_at m K c (.rr 1 1)) $$ Hrec
  ihave #HI20 := (inv_at m K c (.rr 2 0)) $$ Hrec
  ihave #HI21 := (inv_at m K c (.rr 2 1)) $$ Hrec
  ihave #HI30 := (inv_at m K c (.rr 3 0)) $$ Hrec
  ihave #HI31 := (inv_at m K c (.rr 3 1)) $$ Hrec
  sl_exec (disch := assumption)
  have hv0 : k0_pay59 (seg9_b0.sl.v866 m c) = rowsOf m c 1 0 := recv_rows_10 m c h1
  have hv1 : k0_pay60 (seg9_b0.sl.v866_1 m c) = rowsOf m c 1 1 := recv_rows_11 m c h1
  have hv2 : k0_pay61 (seg9_b0.sl.v866_2 m c) = rowsOf m c 2 0 := recv_rows_20 m c h2
  have hv3 : k0_pay62 (seg9_b0.sl.v866_3 m c) = rowsOf m c 2 1 := recv_rows_21 m c h2
  have hv4 : k0_pay63 (seg9_b0.sl.v866_4 m c) = rowsOf m c 3 0 := recv_rows_30 m c h3
  have hv5 : k0_pay64 (seg9_b0.sl.v866_5 m c) = rowsOf m c 3 1 := recv_rows_31 m c h3
  have conv : ∀ X : Buf (Elt F) (outW.view.loc (c : Thread nD τ)), X = outFinal m c →
      ((outW.view.loc (c : Thread nD τ) ↦{fullShare} X : sProp 𝕄) ⊢ (outW.view.loc (c : Thread nD τ) ↦{fullShare} outFinal m c)) :=
    fun X h => Entails.of_eq (by rw [h])
  ihave Hout2 := (conv _ (by rw [hv5, hv4, hv3, hv2, hv1, hv0]; exact out_after_recv m c 1 2 3 h1 h2 h3 hall g hg)) $$ Hout
  iapply Hk
  unfold post9'
  isplitl [HO]; · iexists _; iexact HO
  isplitl [Ha00]; · iexact Ha00
  isplitl [Ha01]; · iexact Ha01
  isplitl [Ha10]; · iexact Ha10
  isplitl [Ha11]; · iexact Ha11
  isplitl [Ha20]; · iexact Ha20
  isplitl [Ha21]; · iexact Ha21
  isplitl [Ha30]; · iexact Ha30
  isplitl [Ha31]; · iexact Ha31
  isplitl [Hs00 Hs01 Ha10_pay1 Ha11_pay1 Ha20_pay1 Ha21_pay1 Ha30_pay1 Ha31_pay1]
  ·
    isplitl [Hs00]; · iexists _; iexact Hs00
    isplitl [Hs01]; · iexists _; iexact Hs01
    isplitl [Ha10_pay1]; · iexists _; iexact Ha10_pay1
    isplitl [Ha11_pay1]; · iexists _; iexact Ha11_pay1
    isplitl [Ha20_pay1]; · iexists _; iexact Ha20_pay1
    isplitl [Ha21_pay1]; · iexists _; iexact Ha21_pay1
    isplitl [Ha30_pay1]; · iexists _; iexact Ha30_pay1
    iexists _; iexact Ha31_pay1
  iexact Hout2

set_option maxHeartbeats 3200000 in

theorem seg9_b1 (c : Dev nD) (hb : bIdx c = 1) (K : Dev nD × CK → ℕ) (W : Waits sig Unit) (g : Buf (Elt F) (outW.view.loc (c : Thread nD τ)))
    (hg : ∀ j, (outW.access (outR (bIdx c) j)).read (Elt F) g = rowsOf m c (bIdx c) j)
    (k : Prog (TpuEff nD τ sig (Elt F) Λ₀ .tc) PUnit) (Q : PUnit → sProp 𝕄) :
    iprop(records m K ∗ pre9' c W g 1 0 3 2
        ∗ (post9' m c 1 0 1 1 -∗ wp frame (wpE (defs₀ (F := F)) Variants.none c none) Set.univ k Q))
      ⊢ wp frame (wpE (defs₀ (F := F)) Variants.none c none) Set.univ (Seg9 (w2 c) (w5 c) (w9 c) (bw c) 0#32 k) Q := by
  have c0 : Scalar.cmpi .ne (Scalar.extui (Scalar.cmpi .ne (bw c) 0#32)) 0#32 = 1#1 := cond_ne0 c (by rw [hb]; decide)
  have c1 : Scalar.cmpi .ne (Scalar.extui (Scalar.cmpi .ne (bw c) 1#32)) 0#32 = 0#1 := cond_eq1 c hb
  have c2 : Scalar.cmpi .ne (Scalar.extui (Scalar.cmpi .ne (bw c) 2#32)) 0#32 = 1#1 := cond_ne2 c (by rw [hb]; decide)
  have c3 : Scalar.cmpi .ne (Scalar.extui (Scalar.cmpi .ne (bw c) 3#32)) 0#32 = 1#1 := cond_ne3 c (by rw [hb]; decide)
  obtain ⟨h0, h2, h3, hall⟩ := others_of_b1 c hb
  unfold Seg9 P23 withBufs
  simp only [k0_part23_eq_skeleton]
  unfold k0_part23_skel
  simp (config := {decide := true}) only [c0, c1, c2, c3, ↓reduceDIte]
  unfold pre9'
  iintro ⟨#Hrec, ⟨HO, Hc00, Hc01, Hc30, Hc31, Hc20, Hc21, Ha00, Ha01, Ha10, Ha11, Ha20, Ha21, Ha30, Ha31, ⟨%f0, Hs10⟩, ⟨%f1, Hs11⟩, Hout⟩, Hk⟩
  ihave #HI00 := (inv_at m K c (.rr 0 0)) $$ Hrec
  ihave #HI01 := (inv_at m K c (.rr 0 1)) $$ Hrec
  ihave #HI20 := (inv_at m K c (.rr 2 0)) $$ Hrec
  ihave #HI21 := (inv_at m K c (.rr 2 1)) $$ Hrec
  ihave #HI30 := (inv_at m K c (.rr 3 0)) $$ Hrec
  ihave #HI31 := (inv_at m K c (.rr 3 1)) $$ Hrec
  sl_exec (disch := assumption)
  have hv0 : k0_pay57 (seg9_b1.sl.v866 m c) = rowsOf m c 0 0 := recv_rows_00 m c h0
  have hv1 : k0_pay58 (seg9_b1.sl.v866_1 m c) = rowsOf m c 0 1 := recv_rows_01 m c h0
  have hv2 : k0_pay61 (seg9_b1.sl.v866_2 m c) = rowsOf m c 2 0 := recv_rows_20 m c h2
  have hv3 : k0_pay62 (seg9_b1.sl.v866_3 m c) = rowsOf m c 2 1 := recv_rows_21 m c h2
  have hv4 : k0_pay63 (seg9_b1.sl.v866_4 m c) = rowsOf m c 3 0 := recv_rows_30 m c h3
  have hv5 : k0_pay64 (seg9_b1.sl.v866_5 m c) = rowsOf m c 3 1 := recv_rows_31 m c h3
  have conv : ∀ X : Buf (Elt F) (outW.view.loc (c : Thread nD τ)), X = outFinal m c →
      ((outW.view.loc (c : Thread nD τ) ↦{fullShare} X : sProp 𝕄) ⊢ (outW.view.loc (c : Thread nD τ) ↦{fullShare} outFinal m c)) :=
    fun X h => Entails.of_eq (by rw [h])
  ihave Hout2 := (conv _ (by rw [hv5, hv4, hv3, hv2, hv1, hv0]; exact out_after_recv m c 0 2 3 h0 h2 h3 hall g hg)) $$ Hout
  iapply Hk
  unfold post9'
  isplitl [HO]; · iexists _; iexact HO
  isplitl [Ha00]; · iexact Ha00
  isplitl [Ha01]; · iexact Ha01
  isplitl [Ha10]; · iexact Ha10
  isplitl [Ha11]; · iexact Ha11
  isplitl [Ha20]; · iexact Ha20
  isplitl [Ha21]; · iexact Ha21
  isplitl [Ha30]; · iexact Ha30
  isplitl [Ha31]; · iexact Ha31
  isplitl [Ha00_pay1 Ha01_pay1 Hs10 Hs11 Ha20_pay1 Ha21_pay1 Ha30_pay1 Ha31_pay1]
  ·
    isplitl [Ha00_pay1]; · iexists _; iexact Ha00_pay1
    isplitl [Ha01_pay1]; · iexists _; iexact Ha01_pay1
    isplitl [Hs10]; · iexists _; iexact Hs10
    isplitl [Hs11]; · iexists _; iexact Hs11
    isplitl [Ha20_pay1]; · iexists _; iexact Ha20_pay1
    isplitl [Ha21_pay1]; · iexists _; iexact Ha21_pay1
    isplitl [Ha30_pay1]; · iexists _; iexact Ha30_pay1
    iexists _; iexact Ha31_pay1
  iexact Hout2

set_option maxHeartbeats 3200000 in

theorem seg9_b2 (c : Dev nD) (hb : bIdx c = 2) (K : Dev nD × CK → ℕ) (W : Waits sig Unit) (g : Buf (Elt F) (outW.view.loc (c : Thread nD τ)))
    (hg : ∀ j, (outW.access (outR (bIdx c) j)).read (Elt F) g = rowsOf m c (bIdx c) j)
    (k : Prog (TpuEff nD τ sig (Elt F) Λ₀ .tc) PUnit) (Q : PUnit → sProp 𝕄) :
    iprop(records m K ∗ pre9' c W g 2 3 0 1
        ∗ (post9' m c 1 1 0 1 -∗ wp frame (wpE (defs₀ (F := F)) Variants.none c none) Set.univ k Q))
      ⊢ wp frame (wpE (defs₀ (F := F)) Variants.none c none) Set.univ (Seg9 (w2 c) (w5 c) (w9 c) (bw c) 0#32 k) Q := by
  have c0 : Scalar.cmpi .ne (Scalar.extui (Scalar.cmpi .ne (bw c) 0#32)) 0#32 = 1#1 := cond_ne0 c (by rw [hb]; decide)
  have c1 : Scalar.cmpi .ne (Scalar.extui (Scalar.cmpi .ne (bw c) 1#32)) 0#32 = 1#1 := cond_ne1 c (by rw [hb]; decide)
  have c2 : Scalar.cmpi .ne (Scalar.extui (Scalar.cmpi .ne (bw c) 2#32)) 0#32 = 0#1 := cond_eq2 c hb
  have c3 : Scalar.cmpi .ne (Scalar.extui (Scalar.cmpi .ne (bw c) 3#32)) 0#32 = 1#1 := cond_ne3 c (by rw [hb]; decide)
  obtain ⟨h0, h1, h3, hall⟩ := others_of_b2 c hb
  unfold Seg9 P23 withBufs
  simp only [k0_part23_eq_skeleton]
  unfold k0_part23_skel
  simp (config := {decide := true}) only [c0, c1, c2, c3, ↓reduceDIte]
  unfold pre9'
  iintro ⟨#Hrec, ⟨HO, Hc30, Hc31, Hc00, Hc01, Hc10, Hc11, Ha00, Ha01, Ha10, Ha11, Ha20, Ha21, Ha30, Ha31, ⟨%f0, Hs20⟩, ⟨%f1, Hs21⟩, Hout⟩, Hk⟩
  ihave #HI00 := (inv_at m K c (.rr 0 0)) $$ Hrec
  ihave #HI01 := (inv_at m K c (.rr 0 1)) $$ Hrec
  ihave #HI10 := (inv_at m K c (.rr 1 0)) $$ Hrec
  ihave #HI11 := (inv_at m K c (.rr 1 1)) $$ Hrec
  ihave #HI30 := (inv_at m K c (.rr 3 0)) $$ Hrec
  ihave #HI31 := (inv_at m K c (.rr 3 1)) $$ Hrec
  sl_exec (disch := assumption)
  have hv0 : k0_pay57 (seg9_b2.sl.v866 m c) = rowsOf m c 0 0 := recv_rows_00 m c h0
  have hv1 : k0_pay58 (seg9_b2.sl.v866_1 m c) = rowsOf m c 0 1 := recv_rows_01 m c h0
  have hv2 : k0_pay59 (seg9_b2.sl.v866_2 m c) = rowsOf m c 1 0 := recv_rows_10 m c h1
  have hv3 : k0_pay60 (seg9_b2.sl.v866_3 m c) = rowsOf m c 1 1 := recv_rows_11 m c h1
  have hv4 : k0_pay63 (seg9_b2.sl.v866_4 m c) = rowsOf m c 3 0 := recv_rows_30 m c h3
  have hv5 : k0_pay64 (seg9_b2.sl.v866_5 m c) = rowsOf m c 3 1 := recv_rows_31 m c h3
  have conv : ∀ X : Buf (Elt F) (outW.view.loc (c : Thread nD τ)), X = outFinal m c →
      ((outW.view.loc (c : Thread nD τ) ↦{fullShare} X : sProp 𝕄) ⊢ (outW.view.loc (c : Thread nD τ) ↦{fullShare} outFinal m c)) :=
    fun X h => Entails.of_eq (by rw [h])
  ihave Hout2 := (conv _ (by rw [hv5, hv4, hv3, hv2, hv1, hv0]; exact out_after_recv m c 0 1 3 h0 h1 h3 hall g hg)) $$ Hout
  iapply Hk
  unfold post9'
  isplitl [HO]; · iexists _; iexact HO
  isplitl [Ha00]; · iexact Ha00
  isplitl [Ha01]; · iexact Ha01
  isplitl [Ha10]; · iexact Ha10
  isplitl [Ha11]; · iexact Ha11
  isplitl [Ha20]; · iexact Ha20
  isplitl [Ha21]; · iexact Ha21
  isplitl [Ha30]; · iexact Ha30
  isplitl [Ha31]; · iexact Ha31
  isplitl [Ha00_pay1 Ha01_pay1 Ha10_pay1 Ha11_pay1 Hs20 Hs21 Ha30_pay1 Ha31_pay1]
  ·
    isplitl [Ha00_pay1]; · iexists _; iexact Ha00_pay1
    isplitl [Ha01_pay1]; · iexists _; iexact Ha01_pay1
    isplitl [Ha10_pay1]; · iexists _; iexact Ha10_pay1
    isplitl [Ha11_pay1]; · iexists _; iexact Ha11_pay1
    isplitl [Hs20]; · iexists _; iexact Hs20
    isplitl [Hs21]; · iexists _; iexact Hs21
    isplitl [Ha30_pay1]; · iexists _; iexact Ha30_pay1
    iexists _; iexact Ha31_pay1
  iexact Hout2

set_option maxHeartbeats 3200000 in

theorem seg9_b3 (c : Dev nD) (hb : bIdx c = 3) (K : Dev nD × CK → ℕ) (W : Waits sig Unit) (g : Buf (Elt F) (outW.view.loc (c : Thread nD τ)))
    (hg : ∀ j, (outW.access (outR (bIdx c) j)).read (Elt F) g = rowsOf m c (bIdx c) j)
    (k : Prog (TpuEff nD τ sig (Elt F) Λ₀ .tc) PUnit) (Q : PUnit → sProp 𝕄) :
    iprop(records m K ∗ pre9' c W g 3 2 1 0
        ∗ (post9' m c 1 1 1 0 -∗ wp frame (wpE (defs₀ (F := F)) Variants.none c none) Set.univ k Q))
      ⊢ wp frame (wpE (defs₀ (F := F)) Variants.none c none) Set.univ (Seg9 (w2 c) (w5 c) (w9 c) (bw c) 0#32 k) Q := by
  have c0 : Scalar.cmpi .ne (Scalar.extui (Scalar.cmpi .ne (bw c) 0#32)) 0#32 = 1#1 := cond_ne0 c (by rw [hb]; decide)
  have c1 : Scalar.cmpi .ne (Scalar.extui (Scalar.cmpi .ne (bw c) 1#32)) 0#32 = 1#1 := cond_ne1 c (by rw [hb]; decide)
  have c2 : Scalar.cmpi .ne (Scalar.extui (Scalar.cmpi .ne (bw c) 2#32)) 0#32 = 1#1 := cond_ne2 c (by rw [hb]; decide)
  have c3 : Scalar.cmpi .ne (Scalar.extui (Scalar.cmpi .ne (bw c) 3#32)) 0#32 = 0#1 := cond_eq3 c hb
  obtain ⟨h0, h1, h2, hall⟩ := others_of_b3 c hb
  unfold Seg9 P23 withBufs
  simp only [k0_part23_eq_skeleton]
  unfold k0_part23_skel
  simp (config := {decide := true}) only [c0, c1, c2, c3, ↓reduceDIte]
  unfold pre9'
  iintro ⟨#Hrec, ⟨HO, Hc20, Hc21, Hc10, Hc11, Hc00, Hc01, Ha00, Ha01, Ha10, Ha11, Ha20, Ha21, Ha30, Ha31, ⟨%f0, Hs30⟩, ⟨%f1, Hs31⟩, Hout⟩, Hk⟩
  ihave #HI00 := (inv_at m K c (.rr 0 0)) $$ Hrec
  ihave #HI01 := (inv_at m K c (.rr 0 1)) $$ Hrec
  ihave #HI10 := (inv_at m K c (.rr 1 0)) $$ Hrec
  ihave #HI11 := (inv_at m K c (.rr 1 1)) $$ Hrec
  ihave #HI20 := (inv_at m K c (.rr 2 0)) $$ Hrec
  ihave #HI21 := (inv_at m K c (.rr 2 1)) $$ Hrec
  sl_exec (disch := assumption)
  have hv0 : k0_pay57 (seg9_b3.sl.v866 m c) = rowsOf m c 0 0 := recv_rows_00 m c h0
  have hv1 : k0_pay58 (seg9_b3.sl.v866_1 m c) = rowsOf m c 0 1 := recv_rows_01 m c h0
  have hv2 : k0_pay59 (seg9_b3.sl.v866_2 m c) = rowsOf m c 1 0 := recv_rows_10 m c h1
  have hv3 : k0_pay60 (seg9_b3.sl.v866_3 m c) = rowsOf m c 1 1 := recv_rows_11 m c h1
  have hv4 : k0_pay61 (seg9_b3.sl.v866_4 m c) = rowsOf m c 2 0 := recv_rows_20 m c h2
  have hv5 : k0_pay62 (seg9_b3.sl.v866_5 m c) = rowsOf m c 2 1 := recv_rows_21 m c h2
  have conv : ∀ X : Buf (Elt F) (outW.view.loc (c : Thread nD τ)), X = outFinal m c →
      ((outW.view.loc (c : Thread nD τ) ↦{fullShare} X : sProp 𝕄) ⊢ (outW.view.loc (c : Thread nD τ) ↦{fullShare} outFinal m c)) :=
    fun X h => Entails.of_eq (by rw [h])
  ihave Hout2 := (conv _ (by rw [hv5, hv4, hv3, hv2, hv1, hv0]; exact out_after_recv m c 0 1 2 h0 h1 h2 hall g hg)) $$ Hout
  iapply Hk
  unfold post9'
  isplitl [HO]; · iexists _; iexact HO
  isplitl [Ha00]; · iexact Ha00
  isplitl [Ha01]; · iexact Ha01
  isplitl [Ha10]; · iexact Ha10
  isplitl [Ha11]; · iexact Ha11
  isplitl [Ha20]; · iexact Ha20
  isplitl [Ha21]; · iexact Ha21
  isplitl [Ha30]; · iexact Ha30
  isplitl [Ha31]; · iexact Ha31
  isplitl [Ha00_pay1 Ha01_pay1 Ha10_pay1 Ha11_pay1 Ha20_pay1 Ha21_pay1 Hs30 Hs31]
  ·
    isplitl [Ha00_pay1]; · iexists _; iexact Ha00_pay1
    isplitl [Ha01_pay1]; · iexists _; iexact Ha01_pay1
    isplitl [Ha10_pay1]; · iexists _; iexact Ha10_pay1
    isplitl [Ha11_pay1]; · iexists _; iexact Ha11_pay1
    isplitl [Ha20_pay1]; · iexists _; iexact Ha20_pay1
    isplitl [Ha21_pay1]; · iexists _; iexact Ha21_pay1
    isplitl [Hs30]; · iexists _; iexact Hs30
    iexists _; iexact Hs31
  iexact Hout2

theorem seg9 (c : Dev nD) (K : Dev nD × CK → ℕ) (W : Waits sig Unit) (g : Buf (Elt F) (outW.view.loc (c : Thread nD τ)))
    (hg : ∀ j, (outW.access (outR (bIdx c) j)).read (Elt F) g = rowsOf m c (bIdx c) j)
    (k : Prog (TpuEff nD τ sig (Elt F) Λ₀ .tc) PUnit) (Q : PUnit → sProp 𝕄) :
    iprop(records m K ∗ pre9 c W g
        ∗ (post9 m c -∗ wp frame (wpE (defs₀ (F := F)) Variants.none c none) Set.univ k Q))
      ⊢ wp frame (wpE (defs₀ (F := F)) Variants.none c none) Set.univ (Seg9 (w2 c) (w5 c) (w9 c) (bw c) 0#32 k) Q := by
  rcases bIdx_cases c with hb | hb | hb | hb
  · obtain ⟨e0, e1, e2⟩ := peers_of_b0 c hb
    have hpre : pre9 c W g = pre9' c W g 0 1 2 3 := by unfold pre9; rw [hb, e0, e1, e2]
    have r0 : rrRound c 0 = 0 := by unfold rrRound; rw [hb]; rfl
    have r1 : rrRound c 1 = 1 := by unfold rrRound; rw [hb]; rfl
    have r2 : rrRound c 2 = 1 := by unfold rrRound; rw [hb]; rfl
    have r3 : rrRound c 3 = 1 := by unfold rrRound; rw [hb]; rfl
    have hpost : post9 m c = post9' m c 0 1 1 1 := by unfold post9; rw [r0, r1, r2, r3]
    rw [hpre, hpost]; exact seg9_b0 m c hb K W g hg k Q
  · obtain ⟨e0, e1, e2⟩ := peers_of_b1 c hb
    have hpre : pre9 c W g = pre9' c W g 1 0 3 2 := by unfold pre9; rw [hb, e0, e1, e2]
    have r0 : rrRound c 0 = 1 := by unfold rrRound; rw [hb]; rfl
    have r1 : rrRound c 1 = 0 := by unfold rrRound; rw [hb]; rfl
    have r2 : rrRound c 2 = 1 := by unfold rrRound; rw [hb]; rfl
    have r3 : rrRound c 3 = 1 := by unfold rrRound; rw [hb]; rfl
    have hpost : post9 m c = post9' m c 1 0 1 1 := by unfold post9; rw [r0, r1, r2, r3]
    rw [hpre, hpost]; exact seg9_b1 m c hb K W g hg k Q
  · obtain ⟨e0, e1, e2⟩ := peers_of_b2 c hb
    have hpre : pre9 c W g = pre9' c W g 2 3 0 1 := by unfold pre9; rw [hb, e0, e1, e2]
    have r0 : rrRound c 0 = 1 := by unfold rrRound; rw [hb]; rfl
    have r1 : rrRound c 1 = 1 := by unfold rrRound; rw [hb]; rfl
    have r2 : rrRound c 2 = 0 := by unfold rrRound; rw [hb]; rfl
    have r3 : rrRound c 3 = 1 := by unfold rrRound; rw [hb]; rfl
    have hpost : post9 m c = post9' m c 1 1 0 1 := by unfold post9; rw [r0, r1, r2, r3]
    rw [hpre, hpost]; exact seg9_b2 m c hb K W g hg k Q
  · obtain ⟨e0, e1, e2⟩ := peers_of_b3 c hb
    have hpre : pre9 c W g = pre9' c W g 3 2 1 0 := by unfold pre9; rw [hb, e0, e1, e2]
    have r0 : rrRound c 0 = 1 := by unfold rrRound; rw [hb]; rfl
    have r1 : rrRound c 1 = 1 := by unfold rrRound; rw [hb]; rfl
    have r2 : rrRound c 2 = 1 := by unfold rrRound; rw [hb]; rfl
    have r3 : rrRound c 3 = 0 := by unfold rrRound; rw [hb]; rfl
    have hpost : post9 m c = post9' m c 1 1 1 0 := by unfold post9; rw [r0, r1, r2, r3]
    rw [hpre, hpost]; exact seg9_b3 m c hb K W g hg k Q

end Cert.KernelIdeal.Body

end
-- ==== Proof.BodyEpi.lean ====
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.KernelIdeal.Skeleton
import proofs.«900573_g7700000000000574_dist_mla_v7x_xyz2x2x2_z_b1_s1024_d2048_dc128_bf16_1_alg».proof.Proof.Gen.KernelIdeal.Launch
import Idealize.ShloMosaic.Lib.Pipeline.Launch
import Idealize.ShloMosaic.Lib.Pipeline.Kit
import Idealize.ShloMosaic.Lib.Tactic
import proofs.«900573_g7700000000000574_dist_mla_v7x_xyz2x2x2_z_b1_s1024_d2048_dc128_bf16_1_alg».proof.Proof.Body0
import proofs.«900573_g7700000000000574_dist_mla_v7x_xyz2x2x2_z_b1_s1024_d2048_dc128_bf16_1_alg».proof.Proof.BodyWrap
import proofs.«900573_g7700000000000574_dist_mla_v7x_xyz2x2x2_z_b1_s1024_d2048_dc128_bf16_1_alg».proof.Proof.BodyS10

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

theorem epilogue (c : Dev nD) (K : Dev nD × CK → ℕ) (W : Waits sig Unit) (Kt : PUnit → sProp 𝕄) :
    iprop(records m K ∗ pre10 m c W ∗ wlZero c ∗ restPts m c ∗ winsIn m c ∗ (outW.view.loc (c : Thread nD τ) ↦{fullShare} outFinal m c) ∗ (bodyPost m c -∗ Kt ⟨⟩))
      ⊢ wp frame (wpE (defs₀ (F := F)) Variants.none c none) Set.univ (Seg10 c (pure ⟨⟩)) Kt := by
  iintro ⟨#Hrec, Hpre, Hwl, Hrest, Hwin, Hout, Hk⟩
  iapply (seg10 m c K W (pure ⟨⟩) Kt)
  isplitr; · iexact Hrec
  isplitl [Hpre]; · iexact Hpre
  unfold post10
  iintro ⟨Hscr, Hsem, HO⟩
  rw [Prog.pure_eq_ret, wp_ret]; imodintro
  iapply Hk
  unfold bodyPost Φ₁
  isplitl [Hscr Hsem Hwl Hrest]
  · isplitl [Hscr]; · iexact Hscr
    isplitl [Hsem]; · iexact Hsem
    isplitl [Hwl]; · iexact Hwl
    iexact Hrest
  isplitl [HO]; · iexact HO
  isplitl [Hwin]; · iexact Hwin
  iexact Hout

end Cert.KernelIdeal.Body

end
-- ==== Proof.BodySup.lean ====
import proofs.«900573_g7700000000000574_dist_mla_v7x_xyz2x2x2_z_b1_s1024_d2048_dc128_bf16_1_alg».proof.Proof.Body0
import proofs.«900573_g7700000000000574_dist_mla_v7x_xyz2x2x2_z_b1_s1024_d2048_dc128_bf16_1_alg».proof.Proof.SchedVal
import proofs.«900573_g7700000000000574_dist_mla_v7x_xyz2x2x2_z_b1_s1024_d2048_dc128_bf16_1_alg».proof.Proof.BodyOut
import proofs.«900573_g7700000000000574_dist_mla_v7x_xyz2x2x2_z_b1_s1024_d2048_dc128_bf16_1_alg».proof.Proof.BodyS9Geom

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.View (Piece)

variable {F : FTy → Type} [FloatOps F]

variable (m : (ℓ : Loc nD τ sig) → Buf (Elt F) ℓ)

theorem rowsOf_own (c : Dev nD) (j : Fin 2) : rowsOf m c (bIdx c) j = ownRows m j c := if_pos rfl

theorem own_rows_read (c : Dev nD) (fo : Buf (Elt F) (outW.view.loc (c : Thread nD τ))) (j : Fin 2) :
    (outW.access (outR (bIdx c) j)).read (Elt F)
      (outW.view.writes (Elt F)
        (outW.view.writes (Elt F) fo
          [⟨Rect.unit (s := S1x1024x2048) (k0_off7 c 0#32) S1x128x2048.size (k0_off7_inb c 0), ownRows m 0 c⟩])
        [⟨Rect.unit (s := S1x1024x2048) (k0_off7 c 128#32) S1x128x2048.size (k0_off7_inb c 1), ownRows m 1 c⟩])
      = rowsOf m c (bIdx c) j := by
  rw [rowsOf_own, own_piece0 c (ownRows m 0 c), own_piece1 c (ownRows m 1 c)]
  match j with
  | 0 =>
    rw [out_read_writes_ne (s := bIdx c) (s' := bIdx c) (j := 0) (j' := 1) (Or.inr (by decide)), out_read_writes_nil]
    exact out_read_writes_same (bIdx c) 0 fo (ownRows m 0 c) []
  | 1 => exact out_read_writes_same (bIdx c) 1 _ (ownRows m 1 c) []

end Cert.KernelIdeal.Body

end
-- ==== Proof.BodyAll.lean ====
import proofs.«900573_g7700000000000574_dist_mla_v7x_xyz2x2x2_z_b1_s1024_d2048_dc128_bf16_1_alg».proof.Proof.BodyWrap
import proofs.«900573_g7700000000000574_dist_mla_v7x_xyz2x2x2_z_b1_s1024_d2048_dc128_bf16_1_alg».proof.Proof.BodyS1
import proofs.«900573_g7700000000000574_dist_mla_v7x_xyz2x2x2_z_b1_s1024_d2048_dc128_bf16_1_alg».proof.Proof.BodyS2
import proofs.«900573_g7700000000000574_dist_mla_v7x_xyz2x2x2_z_b1_s1024_d2048_dc128_bf16_1_alg».proof.Proof.BodyS3
import proofs.«900573_g7700000000000574_dist_mla_v7x_xyz2x2x2_z_b1_s1024_d2048_dc128_bf16_1_alg».proof.Proof.BodyS4
import proofs.«900573_g7700000000000574_dist_mla_v7x_xyz2x2x2_z_b1_s1024_d2048_dc128_bf16_1_alg».proof.Proof.BodyS5
import proofs.«900573_g7700000000000574_dist_mla_v7x_xyz2x2x2_z_b1_s1024_d2048_dc128_bf16_1_alg».proof.Proof.BodyS6
import proofs.«900573_g7700000000000574_dist_mla_v7x_xyz2x2x2_z_b1_s1024_d2048_dc128_bf16_1_alg».proof.Proof.BodyS7
import proofs.«900573_g7700000000000574_dist_mla_v7x_xyz2x2x2_z_b1_s1024_d2048_dc128_bf16_1_alg».proof.Proof.BodyS8
import proofs.«900573_g7700000000000574_dist_mla_v7x_xyz2x2x2_z_b1_s1024_d2048_dc128_bf16_1_alg».proof.Proof.BodyS9
import proofs.«900573_g7700000000000574_dist_mla_v7x_xyz2x2x2_z_b1_s1024_d2048_dc128_bf16_1_alg».proof.Proof.BodyS10
import proofs.«900573_g7700000000000574_dist_mla_v7x_xyz2x2x2_z_b1_s1024_d2048_dc128_bf16_1_alg».proof.Proof.BodyEpi
import proofs.«900573_g7700000000000574_dist_mla_v7x_xyz2x2x2_z_b1_s1024_d2048_dc128_bf16_1_alg».proof.Proof.BodySup
import proofs.«900573_g7700000000000574_dist_mla_v7x_xyz2x2x2_z_b1_s1024_d2048_dc128_bf16_1_alg».proof.Proof.BodyGeom
import proofs.«900573_g7700000000000574_dist_mla_v7x_xyz2x2x2_z_b1_s1024_d2048_dc128_bf16_1_alg».proof.Proof.BodyGeom2
import proofs.«900573_g7700000000000574_dist_mla_v7x_xyz2x2x2_z_b1_s1024_d2048_dc128_bf16_1_alg».proof.Proof.BodyGeom3
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

theorem rec1_of (K : Dev nD × CK → ℕ) (c : Dev nD) : records m K ⊢ rec1 m K c := by
  unfold rec1
  iintro #H
  isplitr; · iapply (inv_at m K (zp c) CK.bar) $$ H
  isplitr; · iapply (inv_at m K (p0 c) CK.xy) $$ H
  isplitr; · iapply (inv_at m K (p1 c) CK.xy) $$ H
  isplitr; · iapply (inv_at m K (p2 c) CK.xy) $$ H
  isplitr; · iapply (reached_at m K (zp c) CK.bar) $$ H
  isplitr; · iapply (reached_at m K (p0 c) CK.xy) $$ H
  isplitr; · iapply (reached_at m K (p1 c) CK.xy) $$ H
  isplitr; · iapply (reached_at m K (p2 c) CK.xy) $$ H
  isplitr; · iapply (reached_at m K c (CK.zr 0)) $$ H
  isplitr; · iapply (reached_at m K c (CK.zr 1)) $$ H
  isplitr; · iapply (reached_at m K c (CK.zr 2)) $$ H
  isplitr; · iapply (reached_at m K c (CK.orr 0)) $$ H
  isplitr; · iapply (reached_at m K c (CK.orr 1)) $$ H
  isplitr; · iapply (reached_at m K c (CK.rr (bIdx (p0 c)) 0)) $$ H
  isplitr; · iapply (reached_at m K c (CK.rr (bIdx (p0 c)) 1)) $$ H
  isplitr; · iapply (reached_at m K c (CK.rr (bIdx (p1 c)) 0)) $$ H
  isplitr; · iapply (reached_at m K c (CK.rr (bIdx (p1 c)) 1)) $$ H
  isplitr; · iapply (reached_at m K c (CK.rr (bIdx (p2 c)) 0)) $$ H
  iapply (reached_at m K c (CK.rr (bIdx (p2 c)) 1)) $$ H

theorem rec2_of (K : Dev nD × CK → ℕ) (c : Dev nD) : iprop(records m K ∗ levAts L lv) ⊢ rec2 m K c := by
  unfold rec2
  iintro ⟨#H, #Hl⟩
  isplitr; · iapply (inv_at m K c CK.bar) $$ H
  isplitr; · iapply (inv_at m K c (CK.zs 0)) $$ H
  isplitr; · iapply (inv_at m K (zp c) (CK.zr 0)) $$ H
  isplitr; · iapply (reached_at m K c (CK.zs 0)) $$ H
  iexact Hl

theorem rec3_of (K : Dev nD × CK → ℕ) (c : Dev nD) : iprop(records m K ∗ levAts L lv) ⊢ rec3 m K c := by
  unfold rec3
  iintro ⟨#H, #Hl⟩
  isplitr; · iapply (inv_at m K c (CK.zs 0)) $$ H
  isplitr; · iapply (inv_at m K c (CK.zs 1)) $$ H
  isplitr; · iapply (inv_at m K c (CK.zs 2)) $$ H
  isplitr; · iapply (inv_at m K c (CK.zr 0)) $$ H
  isplitr; · iapply (inv_at m K c (CK.zr 1)) $$ H
  isplitr; · iapply (inv_at m K c (CK.zr 2)) $$ H
  isplitr; · iapply (inv_at m K (zp c) (CK.zr 1)) $$ H
  isplitr; · iapply (inv_at m K (zp c) (CK.zr 2)) $$ H
  isplitr; · iapply (reached_at m K c (CK.zs 0)) $$ H
  isplitr; · iapply (reached_at m K c (CK.zs 1)) $$ H
  isplitr; · iapply (reached_at m K c (CK.zs 2)) $$ H
  isplitr; · iapply (reached_at m K (zp c) (CK.zr 1)) $$ H
  isplitr; · iapply (reached_at m K (zp c) (CK.zr 2)) $$ H
  iexact Hl

theorem rec5_of (K : Dev nD × CK → ℕ) (c : Dev nD) : iprop(records m K ∗ levAts L lv) ⊢ rec5 m K c := by
  unfold rec5
  iintro ⟨#H, #Hl⟩
  isplitr; · iapply (inv_at m K c (CK.os 0)) $$ H
  isplitr; · iapply (inv_at m K (zp c) (CK.orr 0)) $$ H
  isplitr; · iapply (reached_at m K c (CK.os 0)) $$ H
  isplitr; · iapply (reached_at m K (zp c) (CK.orr 0)) $$ H
  iexact Hl

theorem rec6_of (K : Dev nD × CK → ℕ) (c : Dev nD) : iprop(records m K ∗ levAts L lv) ⊢ rec6 m K c := by
  unfold rec6
  iintro ⟨#H, #Hl⟩
  isplitr; · iapply (inv_at m K c (CK.os 1)) $$ H
  isplitr; · iapply (inv_at m K (zp c) (CK.orr 1)) $$ H
  isplitr; · iapply (inv_at m K c (CK.orr 0)) $$ H
  isplitr; · iapply (reached_at m K c (CK.os 1)) $$ H
  isplitr; · iapply (reached_at m K (zp c) (CK.orr 1)) $$ H
  iexact Hl

theorem rec7_of (K : Dev nD × CK → ℕ) (c : Dev nD) : iprop(records m K ∗ levAts L lv) ⊢ rec7 m K c := by
  unfold rec7 rsInvs
  iintro ⟨#H, #Hl⟩
  isplitr; · iapply (inv_at m K c CK.xy) $$ H
  isplitr
  · isplitr; · iapply (inv_at m K c (CK.rs 0 0)) $$ H
    isplitr; · iapply (inv_at m K c (CK.rs 1 0)) $$ H
    iapply (inv_at m K c (CK.rs 2 0)) $$ H
  isplitr; · iapply (inv_at m K (p0 c) (CK.rr (bIdx c) 0)) $$ H
  isplitr; · iapply (inv_at m K (p1 c) (CK.rr (bIdx c) 0)) $$ H
  isplitr; · iapply (inv_at m K (p2 c) (CK.rr (bIdx c) 0)) $$ H
  isplitr; · iapply (reached_at m K c (CK.rs 0 0)) $$ H
  isplitr; · iapply (reached_at m K c (CK.rs 1 0)) $$ H
  isplitr; · iapply (reached_at m K c (CK.rs 2 0)) $$ H
  isplitr; · iapply (reached_at m K c CK.xy) $$ H
  iexact Hl

theorem rec8_of (K : Dev nD × CK → ℕ) (c : Dev nD) : iprop(records m K ∗ levAts L lv) ⊢ rec8 m K c := by
  unfold rec8 rsInvs
  iintro ⟨#H, #Hl⟩
  isplitr; · iapply (inv_at m K c (CK.orr 1)) $$ H
  isplitr
  · isplitr; · iapply (inv_at m K c (CK.rs 0 1)) $$ H
    isplitr; · iapply (inv_at m K c (CK.rs 1 1)) $$ H
    iapply (inv_at m K c (CK.rs 2 1)) $$ H
  isplitr; · iapply (inv_at m K (p0 c) (CK.rr (bIdx c) 1)) $$ H
  isplitr; · iapply (inv_at m K (p1 c) (CK.rr (bIdx c) 1)) $$ H
  isplitr; · iapply (inv_at m K (p2 c) (CK.rr (bIdx c) 1)) $$ H
  isplitr; · iapply (reached_at m K c (CK.rs 0 1)) $$ H
  isplitr; · iapply (reached_at m K c (CK.rs 1 1)) $$ H
  isplitr; · iapply (reached_at m K c (CK.rs 2 1)) $$ H
  isplitr; · iapply (reached_at m K (p0 c) (CK.rr (bIdx c) 1)) $$ H
  isplitr; · iapply (reached_at m K (p1 c) (CK.rr (bIdx c) 1)) $$ H
  isplitr; · iapply (reached_at m K (p2 c) (CK.rr (bIdx c) 1)) $$ H
  iexact Hl

theorem atPos_chain (c : Dev nD) :
    (bigSepL allCKs (fun k => atPos ER (cell c k) 0 (∅ : Finset DN) 0) : sProp 𝕄)
      = iprop(atPos ER (cell c CK.bar) 0 (∅ : Finset DN) 0 ∗ atPos ER (cell c CK.xy) 0 (∅ : Finset DN) 0
        ∗ atPos ER (cell c (CK.zs 0)) 0 (∅ : Finset DN) 0 ∗ atPos ER (cell c (CK.zs 1)) 0 (∅ : Finset DN) 0 ∗ atPos ER (cell c (CK.zs 2)) 0 (∅ : Finset DN) 0
        ∗ atPos ER (cell c (CK.zr 0)) 0 (∅ : Finset DN) 0 ∗ atPos ER (cell c (CK.zr 1)) 0 (∅ : Finset DN) 0 ∗ atPos ER (cell c (CK.zr 2)) 0 (∅ : Finset DN) 0
        ∗ atPos ER (cell c (CK.os 0)) 0 (∅ : Finset DN) 0 ∗ atPos ER (cell c (CK.os 1)) 0 (∅ : Finset DN) 0
        ∗ atPos ER (cell c (CK.orr 0)) 0 (∅ : Finset DN) 0 ∗ atPos ER (cell c (CK.orr 1)) 0 (∅ : Finset DN) 0
        ∗ atPos ER (cell c (CK.rs 0 0)) 0 (∅ : Finset DN) 0 ∗ atPos ER (cell c (CK.rs 0 1)) 0 (∅ : Finset DN) 0
        ∗ atPos ER (cell c (CK.rs 1 0)) 0 (∅ : Finset DN) 0 ∗ atPos ER (cell c (CK.rs 1 1)) 0 (∅ : Finset DN) 0
        ∗ atPos ER (cell c (CK.rs 2 0)) 0 (∅ : Finset DN) 0 ∗ atPos ER (cell c (CK.rs 2 1)) 0 (∅ : Finset DN) 0
        ∗ atPos ER (cell c (CK.rr 0 0)) 0 (∅ : Finset DN) 0 ∗ atPos ER (cell c (CK.rr 0 1)) 0 (∅ : Finset DN) 0
        ∗ atPos ER (cell c (CK.rr 1 0)) 0 (∅ : Finset DN) 0 ∗ atPos ER (cell c (CK.rr 1 1)) 0 (∅ : Finset DN) 0
        ∗ atPos ER (cell c (CK.rr 2 0)) 0 (∅ : Finset DN) 0 ∗ atPos ER (cell c (CK.rr 2 1)) 0 (∅ : Finset DN) 0
        ∗ atPos ER (cell c (CK.rr 3 0)) 0 (∅ : Finset DN) 0 ∗ atPos ER (cell c (CK.rr 3 1)) 0 (∅ : Finset DN) 0) := rfl

theorem payToks_chain (c : Dev nD) :
    (payToks c : sProp 𝕄)
      = iprop(dutyTok ER (cell (zp c) CK.bar) 0 (0 : DN)
        ∗ (dutyTok ER (cell (p0 c) CK.xy) 0 (0 : DN) ∗ dutyTok ER (cell (p1 c) CK.xy) 0 (1 : DN) ∗ dutyTok ER (cell (p2 c) CK.xy) 0 (2 : DN))
        ∗ (dutyTok ER (cell c (CK.zs 0)) 0 (0 : DN) ∗ dutyTok ER (cell c (CK.zs 1)) 0 (0 : DN) ∗ dutyTok ER (cell c (CK.zs 2)) 0 (0 : DN))
        ∗ (dutyTok ER (cell (zp c) (CK.zr 0)) 0 (0 : DN) ∗ dutyTok ER (cell (zp c) (CK.zr 1)) 0 (0 : DN) ∗ dutyTok ER (cell (zp c) (CK.zr 2)) 0 (0 : DN))
        ∗ (dutyTok ER (cell c (CK.os 0)) 0 (0 : DN) ∗ dutyTok ER (cell c (CK.os 1)) 0 (0 : DN))
        ∗ (dutyTok ER (cell (zp c) (CK.orr 0)) 0 (0 : DN) ∗ dutyTok ER (cell (zp c) (CK.orr 1)) 0 (0 : DN))
        ∗ ((dutyTok ER (cell c (CK.rs 0 0)) 0 (0 : DN) ∗ dutyTok ER (cell c (CK.rs 0 1)) 0 (0 : DN))
          ∗ (dutyTok ER (cell c (CK.rs 1 0)) 0 (0 : DN) ∗ dutyTok ER (cell c (CK.rs 1 1)) 0 (0 : DN))
          ∗ (dutyTok ER (cell c (CK.rs 2 0)) 0 (0 : DN) ∗ dutyTok ER (cell c (CK.rs 2 1)) 0 (0 : DN)))
        ∗ ((dutyTok ER (cell (p0 c) (CK.rr (bIdx c) 0)) 0 (0 : DN) ∗ dutyTok ER (cell (p0 c) (CK.rr (bIdx c) 1)) 0 (0 : DN))
          ∗ (dutyTok ER (cell (p1 c) (CK.rr (bIdx c) 0)) 0 (0 : DN) ∗ dutyTok ER (cell (p1 c) (CK.rr (bIdx c) 1)) 0 (0 : DN))
          ∗ (dutyTok ER (cell (p2 c) (CK.rr (bIdx c) 0)) 0 (0 : DN) ∗ dutyTok ER (cell (p2 c) (CK.rr (bIdx c) 1)) 0 (0 : DN)))) := rfl

theorem creds_chain (c : Dev nD) :
    (creds m c : sProp 𝕄)
      = iprop(cred (tallyAt (cell c CK.bar) () 1) ∗ cred (tallyAt (cell c CK.xy) () 3)
        ∗ (cred (tallyAt (cell c (CK.zr 0)) () Nc) ∗ cred (tallyAt (cell c (CK.zr 1)) () Nk) ∗ cred (tallyAt (cell c (CK.zr 2)) () Nv))
        ∗ (cred (tallyAt (cell c (CK.orr 0)) () No) ∗ cred (tallyAt (cell c (CK.orr 1)) () No))
        ∗ ((cred (tallyAt (cell c (CK.rr (bIdx (p0 c)) 0)) () Nr) ∗ cred (tallyAt (cell c (CK.rr (bIdx (p0 c)) 1)) () Nr))
          ∗ (cred (tallyAt (cell c (CK.rr (bIdx (p1 c)) 0)) () Nr) ∗ cred (tallyAt (cell c (CK.rr (bIdx (p1 c)) 1)) () Nr))
          ∗ (cred (tallyAt (cell c (CK.rr (bIdx (p2 c)) 0)) () Nr) ∗ cred (tallyAt (cell c (CK.rr (bIdx (p2 c)) 1)) () Nr)))) := by
  unfold creds
  rw [expect_bar, expect_xy]
  simp only [bs2, bs3, expect_zr, expect_orr, expect_rr m c _ _ (bIdx_pk_ne 0 c), expect_rr m c _ _ (bIdx_pk_ne 1 c), expect_rr m c _ _ (bIdx_pk_ne 2 c)]
  rfl

set_option maxHeartbeats 1600000 in
theorem sound_body (c : Dev nD) (Kt : PUnit → sProp 𝕄) :
    iprop(bodyPre m c ∗ (bodyPost m c -∗ Kt ⟨⟩)) ⊢ wp frame (wpE (defs₀ (F := F)) 𝒱₀ c none) Set.univ (bodyProg (F := F)) Kt := by
  rw [bodyProg_eq]
  unfold bodyPre ghost wlZero restPts scratchAny winsIn
  rw [atPos_chain, payToks_chain, creds_chain]
  iintro ⟨⟨⟨%K, #Hrec, ⟨Hab, Haxy, Hazs0, Hazs1, Hazs2, Hazr0, Hazr1, Hazr2, Haos0, Haos1, Haor0, Haor1, Hars00, Hars01, Hars10, Hars11, Hars20, Hars21,
        Harr00, Harr01, Harr10, Harr11, Harr20, Harr21, Harr30, Harr31⟩,
      ⟨Htb, ⟨Htx0, Htx1, Htx2⟩, ⟨Htzs0, Htzs1, Htzs2⟩, ⟨Htzr0, Htzr1, Htzr2⟩, ⟨Htos0, Htos1⟩, ⟨Htor0, Htor1⟩,
        ⟨⟨Htrs00, Htrs01⟩, ⟨Htrs10, Htrs11⟩, ⟨Htrs20, Htrs21⟩⟩, ⟨⟨Htrr00, Htrr01⟩, ⟨Htrr10, Htrr11⟩, ⟨Htrr20, Htrr21⟩⟩⟩⟩,
    ⟨Hcb, Hcxy, ⟨Hczr0, Hczr1, Hczr2⟩, ⟨Hcor0, Hcor1⟩, ⟨⟨Hcrr00, Hcrr01⟩, ⟨Hcrr10, Hcrr11⟩, ⟨Hcrr20, Hcrr21⟩⟩⟩,
    #Hlev, ⟨Hwl0, Hwl1⟩, ⟨Hwq, Hwo⟩,
    ⟨⟨%f9, S0⟩, ⟨%f10, S1⟩, ⟨%f11, S2⟩, ⟨%f12, S3⟩, ⟨%f13, S4⟩, ⟨%f14, S5⟩, ⟨%f15, S6⟩, ⟨%f16, S7⟩, ⟨%f17, S8⟩, ⟨%f18, S9⟩, ⟨%f19, S10⟩⟩,
    ⟨%W, HO⟩, ⟨Hx, Hwdkv, Hwuk, Hwuv, Hwqr, Hwkr⟩, ⟨%fo, Hout⟩⟩, Hpost⟩

  ihave Hq := (slot3_split (F := F) opRecvW c fullShare f19).1 $$ S10
  icases Hq with ⟨Hq0, Hq1⟩
  ihave Hr := (rblk_rows (F := F) c fullShare f16).1 $$ S7
  icases Hr with ⟨⟨Hrb0, Hrb1⟩, ⟨Hr00, Hr01⟩, ⟨Hr10, Hr11⟩, ⟨Hr20, Hr21⟩⟩

  iapply (seg1 m c K W f11 f13)
  isplitr; · iapply (rec1_of m K c) $$ Hrec
  isplitl [Htb Htx0 Htx1 Htx2 HO S1 S3 S5 Hq0 Hq1 Hr00 Hr01 Hr10 Hr11 Hr20 Hr21 Hwuk Hwuv S2 S4]
  · unfold pre1
    isplitl [Htb]; · iexact Htb
    isplitl [Htx0]; · iexact Htx0
    isplitl [Htx1]; · iexact Htx1
    isplitl [Htx2]; · iexact Htx2
    isplitl [HO]; · iexact HO
    isplitl [S1]; · iexists f10; iexact S1
    isplitl [S3]; · iexists f12; iexact S3
    isplitl [S5]; · iexists f14; iexact S5
    isplitl [Hq0]; · iexists f19; iexact Hq0
    isplitl [Hq1]; · iexists f19; iexact Hq1
    isplitl [Hr00]; · iexists f16; iexact Hr00
    isplitl [Hr01]; · iexists f16; iexact Hr01
    isplitl [Hr10]; · iexists f16; iexact Hr10
    isplitl [Hr11]; · iexists f16; iexact Hr11
    isplitl [Hr20]; · iexists f16; iexact Hr20
    isplitl [Hr21]; · iexists f16; iexact Hr21
    isplitl [Hwuk]; · iexact Hwuk
    isplitl [Hwuv]; · iexact Hwuv
    isplitl [S2]; · iexact S2
    iexact S4
  unfold post1
  iintro ⟨HO, Hwuk, Hwuv, S2, S4⟩

  ihave Hw := (wbuf_split (F := F) c fullShare f17).1 $$ S8
  icases Hw with ⟨Hw0, Hw1⟩
  iapply (seg2 m c K W f13 f9 f17 f17)
  isplitr
  · iapply (rec2_of m K c); isplitr; · iexact Hrec
    iexact Hlev
  isplitl [S4 Hx Hwdkv S0 Hwq Hw0 Hw1 Hwl0 Hwl1 HO Hab Hcb Htzs0 Htzr0]
  · unfold pre2
    isplitl [S4]; · iexact S4
    isplitl [Hx]; · iexact Hx
    isplitl [Hwdkv]; · iexact Hwdkv
    isplitl [S0]; · iexact S0
    isplitl [Hwq]; · iexact Hwq
    isplitl [Hw0]; · iexact Hw0
    isplitl [Hw1]; · iexact Hw1
    isplitl [Hwl0]; · iexact Hwl0
    isplitl [Hwl1]; · iexact Hwl1
    isplitl [HO]; · iexact HO
    isplitl [Hab]; · iexact Hab
    isplitl [Hcb]; · iexact Hcb
    isplitl [Htzs0]; · iexact Htzs0
    iexact Htzr0
  unfold post2
  iintro ⟨S4, Hx, Hwdkv, Hwq, Hw0, Hw1, Hwl0, Hwl1, ⟨%W2, HO⟩, Hab, Hczs0, Pk, Pv, Pq0, Pq1, #Rz0, #Rz1, #Rz2, #Ro0, #Ro1⟩

  iapply (seg3 m c K W2)
  isplitr
  · iapply (rec3_of m K c); isplitr; · iexact Hrec
    iexact Hlev
  isplitl [S2 S4 Pk Pv HO Htzs1 Htzs2 Htzr1 Htzr2 Hczs0 Hczr0 Hczr1 Hczr2 Hazs0 Hazs1 Hazs2 Hazr0 Hazr1 Hazr2 Hwqr Hwkr]
  · unfold pre3
    isplitl [S2]; · iexact S2
    isplitl [S4]; · iexact S4
    isplitl [Pk]; · iexact Pk
    isplitl [Pv]; · iexact Pv
    isplitl [HO]; · iexact HO
    isplitl [Htzs1]; · iexact Htzs1
    isplitl [Htzs2]; · iexact Htzs2
    isplitl [Htzr1]; · iexact Htzr1
    isplitl [Htzr2]; · iexact Htzr2
    isplitl [Hczs0]; · iexact Hczs0
    isplitl [Hczr0]; · iexact Hczr0
    isplitl [Hczr1]; · iexact Hczr1
    isplitl [Hczr2]; · iexact Hczr2
    isplitl [Hazs0]; · iexact Hazs0
    isplitl [Hazs1]; · iexact Hazs1
    isplitl [Hazs2]; · iexact Hazs2
    isplitl [Hazr0]; · iexact Hazr0
    isplitl [Hazr1]; · iexact Hazr1
    isplitl [Hazr2]; · iexact Hazr2
    isplitl [Hwqr]; · iexact Hwqr
    iexact Hwkr
  unfold post3
  iintro ⟨⟨%W3, HO⟩, Hazs0, Hazs1, Hazs2, Hazr0, Hazr1, Hazr2, S0, S2, S4, S1, S3, S5, Hwqr, Hwkr⟩

  iapply (seg4 m c)
  isplitl [S1 S3 S5]
  · unfold pre4
    isplitl [S1]; · iexact S1
    isplitl [S3]; · iexact S3
    iexact S5
  unfold pre4
  iintro ⟨S1, S3, S5⟩

  icases Pq0 with ⟨%g190, Pq0⟩
  iapply (seg5 m c K W3 f18 g190)
  isplitr
  · iapply (rec5_of m K c); isplitr; · iexact Hrec
    iexact Hlev
  isplitl [Htos0 Htor0 HO Hwl0 Hwl1 Hwo Hw0 Hw1 S9 Pq0]
  · unfold pre5 toks5
    isplitl [Htos0 Htor0]
    · isplitl [Htos0] <;> iassumption
    isplitl [HO]; · iexact HO
    isplitl [Hwl0]; · iexact Hwl0
    isplitl [Hwl1]; · iexact Hwl1
    isplitl [Hwo]; · iexact Hwo
    isplitl [Hw0]; · iexact Hw0
    isplitl [Hw1]; · iexact Hw1
    isplitl [S9]; · iexact S9
    iexact Pq0
  unfold post5
  iintro ⟨⟨%W5, HO⟩, Hcos0, Hwl0, Hwl1, Hwo, Hw0, Hw1, S9⟩

  iapply (seg6 m c K)
  isplitr
  · iapply (rec6_of m K c); isplitr; · iexact Hrec
    iexact Hlev
  isplitl [Htos1 Htor1 HO Hwl0 Hwl1 Hwo Hw0 Hw1 S9 Pq1 Haor0 Hcor0]
  · unfold pre6 tok6
    isplitl [Htos1 Htor1]
    · isplitl [Htos1] <;> iassumption
    isplitl [HO]; · iexists W5; iexact HO
    isplitl [Hwl0]; · iexact Hwl0
    isplitl [Hwl1]; · iexact Hwl1
    isplitl [Hwo]; · iexact Hwo
    isplitl [Hw0]; · iexact Hw0
    isplitl [Hw1]; · iexact Hw1
    isplitl [S9]; · iexists f18; iexact S9
    isplitl [Pq1]; · iexact Pq1
    isplitl [Haor0]; · iexact Haor0
    iexact Hcor0
  unfold post6
  iintro ⟨⟨%W6, HO⟩, Hwl0, Hwl1, Hwo, Hw0, Hw1, Hcos1, Haor0, Hq0⟩

  ihave S6 := (Entails.of_eq (whole_pts_eq cc0_scratch6 c fullShare f15)) $$ S6
  iapply (seg7 m c K W6 (w2 c) (w5 c) (zw c) (w13 c) (w14 c) (Scalar.muli (bw c) 256#32) (w9 c) (w14 c) (w13 c) fo f15)
  isplitr
  · iapply (rec7_of m K c); isplitr; · iexact Hrec
    iexact Hlev
  isplitl [Hout S6 Haxy Hcxy HO Htrs00 Htrs10 Htrs20 Htrr00 Htrr10 Htrr20]
  · unfold pre7
    isplitl [Hout]; · iexact Hout
    isplitl [S6]; · iexact S6
    isplitl [Haxy]; · iexact Haxy
    isplitl [Hcxy]; · iexact Hcxy
    isplitl [HO]; · iexact HO
    isplitl [Htrs00]; · iexact Htrs00
    isplitl [Htrs10]; · iexact Htrs10
    isplitl [Htrs20]; · iexact Htrs20
    isplitl [Htrr00]; · iexact Htrr00
    isplitl [Htrr10]; · iexact Htrr10
    iexact Htrr20
  unfold post7
  iintro ⟨Hout, Sb0, ⟨%fb1, Sb1⟩, Haxy, X0, X1, X2, #Rr0, #Rr1, #Rr2, Hcrs00, Hcrs10, Hcrs20, HO⟩

  iapply (seg8 m c K (insert (csem .xy, ()) W6) (w2 c) (zw c) (bw c) (w13 c) (w5 c) (w14 c) (w14 c) (w13 c) _)
  isplitr
  · iapply (rec8_of m K c); isplitr; · iexact Hrec
    iexact Hlev
  isplitl [Hcor1 Haor1 HO Htrs01 Htrs11 Htrs21 Htrr01 Htrr11 Htrr21 Hout Sb1 X0 X1 X2]
  · unfold pre8
    isplitl [Hout]; · iexact Hout
    isplitl [Sb1]; · iexists fb1; iexact Sb1
    isplitl [Haor1]; · iexact Haor1
    isplitl [Hcor1]; · iexact Hcor1
    isplitl [HO]; · iexact HO
    isplitl [Htrs01]; · iexact Htrs01
    isplitl [Htrs11]; · iexact Htrs11
    isplitl [Htrs21]; · iexact Htrs21
    isplitl [Htrr01]; · iexact Htrr01
    isplitl [Htrr11]; · iexact Htrr11
    isplitl [Htrr21]; · iexact Htrr21
    isplitl [X0]; · iexact X0
    isplitl [X1]; · iexact X1
    iexact X2
  unfold post8
  iintro ⟨Hout, Sb1, Hq1, Haor1, Hcrs01, Hcrs11, Hcrs21, HO⟩

  iapply (seg9 m c K _ _ (own_rows_read m c fo))
  isplitr; · iexact Hrec
  isplitl [HO Hcrr00 Hcrr01 Hcrr10 Hcrr11 Hcrr20 Hcrr21 Harr00 Harr01 Harr10 Harr11 Harr20 Harr21 Harr30 Harr31 Hrb0 Hrb1 Hout]
  · unfold pre9 pre9'
    isplitl [HO]; · iexact HO
    isplitl [Hcrr00]; · iexact Hcrr00
    isplitl [Hcrr01]; · iexact Hcrr01
    isplitl [Hcrr10]; · iexact Hcrr10
    isplitl [Hcrr11]; · iexact Hcrr11
    isplitl [Hcrr20]; · iexact Hcrr20
    isplitl [Hcrr21]; · iexact Hcrr21
    isplitl [Harr00]; · iexact Harr00
    isplitl [Harr01]; · iexact Harr01
    isplitl [Harr10]; · iexact Harr10
    isplitl [Harr11]; · iexact Harr11
    isplitl [Harr20]; · iexact Harr20
    isplitl [Harr21]; · iexact Harr21
    isplitl [Harr30]; · iexact Harr30
    isplitl [Harr31]; · iexact Harr31
    isplitl [Hrb0]; · iexists f16; iexact Hrb0
    isplitl [Hrb1]; · iexists f16; iexact Hrb1
    iexact Hout
  unfold post9 post9'
  iintro ⟨⟨%W9, HO⟩, Harr00, Harr01, Harr10, Harr11, Harr20, Harr21, Harr30, Harr31, Hslots, Hout⟩

  ihave Hw := (wbuf_join_ex (F := F) c fullShare) $$ [Hw0 Hw1]
  · isplitl [Hw0] <;> iassumption
  iapply (epilogue m c K W9 Kt)
  isplitr; · iexact Hrec
  isplitl [HO Hcrs00 Hcrs10 Hcrs20 Hcrs01 Hcrs11 Hcrs21 Hcos0 Hcos1 Hars00 Hars10 Hars20 Hars01 Hars11 Hars21 Haos0 Haos1 Haxy Hazs0 Hazs1 Hazs2 Hazr0 Hazr1 Hazr2 Haor0 Haor1
    Harr00 Harr01 Harr10 Harr11 Harr20 Harr21 Harr30 Harr31 S0 S1 S2 S3 S4 S5 Sb0 Sb1 Hslots Hw Hq0 Hq1]
  · unfold pre10
    isplitl [HO]; · iexact HO
    isplitl [Hcrs00]; · iexact Hcrs00
    isplitl [Hcrs10]; · iexact Hcrs10
    isplitl [Hcrs20]; · iexact Hcrs20
    isplitl [Hcrs01]; · iexact Hcrs01
    isplitl [Hcrs11]; · iexact Hcrs11
    isplitl [Hcrs21]; · iexact Hcrs21
    isplitl [Hcos0]; · iexact Hcos0
    isplitl [Hcos1]; · iexact Hcos1
    isplitl [Hars00]; · iexact Hars00
    isplitl [Hars10]; · iexact Hars10
    isplitl [Hars20]; · iexact Hars20
    isplitl [Hars01]; · iexact Hars01
    isplitl [Hars11]; · iexact Hars11
    isplitl [Hars21]; · iexact Hars21
    isplitl [Haos0]; · iexact Haos0
    isplitl [Haos1]; · iexact Haos1
    isplitl [Haxy]; · iexact Haxy
    isplitl [Hazs0]; · iexact Hazs0
    isplitl [Hazs1]; · iexact Hazs1
    isplitl [Hazs2]; · iexact Hazs2
    isplitl [Hazr0]; · iexact Hazr0
    isplitl [Hazr1]; · iexact Hazr1
    isplitl [Hazr2]; · iexact Hazr2
    isplitl [Haor0]; · iexact Haor0
    isplitl [Haor1]; · iexact Haor1
    isplitl [Harr00]; · iexact Harr00
    isplitl [Harr01]; · iexact Harr01
    isplitl [Harr10]; · iexact Harr10
    isplitl [Harr11]; · iexact Harr11
    isplitl [Harr20]; · iexact Harr20
    isplitl [Harr21]; · iexact Harr21
    isplitl [Harr30]; · iexact Harr30
    isplitl [Harr31]; · iexact Harr31
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [Sb0]; · iexact Sb0
    isplitl [Sb1]; · iexact Sb1
    isplitl [Hslots]; · iexact Hslots
    isplitl [Hw]; · iexact Hw
    isplitl [Hq0]; · iexists _; iexact Hq0
    iexists _; iexact Hq1
  isplitl [Hwl0 Hwl1]
  · unfold wlZero; isplitl [Hwl0] <;> iassumption
  isplitl [Hwq Hwo]
  · unfold restPts; isplitl [Hwq] <;> iassumption
  isplitl [Hx Hwdkv Hwuk Hwuv Hwqr Hwkr]
  · unfold winsIn
    isplitl [Hx]; · iexact Hx
    isplitl [Hwdkv]; · iexact Hwdkv
    isplitl [Hwuk]; · iexact Hwuk
    isplitl [Hwuv]; · iexact Hwuv
    isplitl [Hwqr]; · iexact Hwqr
    iexact Hwkr
  isplitl [Hout]; · iexact Hout
  iexact Hpost

theorem body_obligation (m : (ℓ : Loc nD τ sig) → Buf (Elt F) ℓ) (ρ : Dev nD → PrngReg) :
    ∀ c, BodyObligation (dats (F := F) m ρ 0 c) (defs₀ (F := F)) 𝒱₀ () Set.univ :=
  fun c => body_obligation_of m ρ c (sound_body m c)

end Cert.KernelIdeal.Body

end
-- ==== Proof.Spec.lean ====
import Idealize.ShloMosaic.PureOps.Ideal
import Mathlib.Algebra.BigOperators.Fin

noncomputable section

namespace Cert.MLA

open scoped BigOperators

def hcol (h : Fin 16) (d : Fin 128) : Fin 2048 := ⟨128 * h.val + d.val, by omega⟩

def rcol (h : Fin 16) (r : Fin 32) : Fin 512 := ⟨32 * h.val + r.val, by omega⟩

def mm {I K J : Type} [Fintype K] (a : I → K → EReal) (b : K → J → EReal) (i : I) (j : J) : EReal := ∑ k, a i k * b k j

variable (x : Fin 1024 → Fin 2048 → EReal) (wdkv : Fin 2048 → Fin 256 → EReal)
  (wuk wuv : Fin 256 → Fin 2048 → EReal) (wq : Fin 2048 → Fin 2048 → EReal) (wqr : Fin 2048 → Fin 512 → EReal)
  (wkr : Fin 2048 → Fin 32 → EReal) (wo : Fin 2048 → Fin 2048 → EReal) (σ : EReal)

def lat : Fin 1024 → Fin 256 → EReal := mm x wdkv

def keys : Fin 1024 → Fin 2048 → EReal := mm (lat x wdkv) wuk

def vals : Fin 1024 → Fin 2048 → EReal := mm (lat x wdkv) wuv

def qry : Fin 1024 → Fin 2048 → EReal := mm x wq

def qrot : Fin 1024 → Fin 512 → EReal := mm x wqr

def krot : Fin 1024 → Fin 32 → EReal := mm x wkr

def score (h : Fin 16) (s t : Fin 1024) : EReal :=
  ((∑ d : Fin 128, qry x wq s (hcol h d) * keys x wdkv wuk t (hcol h d))
    + (∑ r : Fin 32, qrot x wqr s (rcol h r) * krot x wkr t r)) * σ

def rowMax (h : Fin 16) (s : Fin 1024) : EReal :=
  Finset.univ.fold max ⊥ (fun t => score x wdkv wuk wq wqr wkr σ h s t)

abbrev eexp : EReal → EReal := Idealize.ShloMosaic.Ideal.exp

abbrev ediv : EReal → EReal → EReal := Idealize.ShloMosaic.Ideal.div

def prob (h : Fin 16) (s t : Fin 1024) : EReal :=
  ediv (eexp (score x wdkv wuk wq wqr wkr σ h s t - rowMax x wdkv wuk wq wqr wkr σ h s))
    (∑ u, eexp (score x wdkv wuk wq wqr wkr σ h s u - rowMax x wdkv wuk wq wqr wkr σ h s))

def attn (s : Fin 1024) (h : Fin 16) (d : Fin 128) : EReal :=
  ∑ t, prob x wdkv wuk wq wqr wkr σ h s t * vals x wdkv wuv t (hcol h d)

def attnRaw (s : Fin 1024) (h : Fin 16) (d : Fin 128) : EReal :=
  (∑ t, eexp (score x wdkv wuk wq wqr wkr σ h s t) * vals x wdkv wuv t (hcol h d))
    * ediv 1 (∑ t, eexp (score x wdkv wuk wq wqr wkr σ h s t))

def out (s : Fin 1024) (n : Fin 2048) : EReal :=
  ∑ h : Fin 16, ∑ d : Fin 128, attn x wdkv wuk wuv wq wqr wkr σ s h d * wo (hcol h d) n

end Cert.MLA

end
-- ==== Proof.RefValue.lean ====
import proofs.«900573_g7700000000000574_dist_mla_v7x_xyz2x2x2_z_b1_s1024_d2048_dc128_bf16_1_alg».proof.Defs
import proofs.«900573_g7700000000000574_dist_mla_v7x_xyz2x2x2_z_b1_s1024_d2048_dc128_bf16_1_alg».proof.Proof.Spec
import proofs.«900573_g7700000000000574_dist_mla_v7x_xyz2x2x2_z_b1_s1024_d2048_dc128_bf16_1_alg».proof.Proof.Gen.ReferenceIdeal
import proofs.«900573_g7700000000000574_dist_mla_v7x_xyz2x2x2_z_b1_s1024_d2048_dc128_bf16_1_alg».proof.Proof.Gen.Pre_finite_inputs_ReferenceIdeal
import proofs.«900573_g7700000000000574_dist_mla_v7x_xyz2x2x2_z_b1_s1024_d2048_dc128_bf16_1_alg».proof.Proof.Gen.ReferenceIdeal.Run
import proofs.«900573_g7700000000000574_dist_mla_v7x_xyz2x2x2_z_b1_s1024_d2048_dc128_bf16_1_alg».proof.Proof.Gen.ReferenceIdeal.Read
import Idealize.ShloMosaic.Lib.ValueIdx
import Idealize.ShloMosaic.Lib.Pipeline.Value
import Idealize.ShloMosaic.Lib.StableHlo.Run
import Idealize.ShloMosaic.PureOps.Ideal.Laws
import Mathlib.Algebra.BigOperators.Fin

noncomputable section

namespace Cert.MLA.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

abbrev rx (a : (⟨S1x1024x2048, .f32⟩ : BufTy).Contents (Elt Ideal)) : Fin 1024 → Fin 2048 → EReal :=
  fun s k => a (ix3 (0 : Fin 1) s k)

abbrev rm {n0 n1 : Nat} (a : (⟨⟨2, ![n0, n1]⟩, .f32⟩ : BufTy).Contents (Elt Ideal)) : Fin n0 → Fin n1 → EReal :=
  fun k e => a (ix2 k e)

def colEquiv : Fin 16 × Fin 128 ≃ Fin 2048 where
  toFun p := Cert.MLA.hcol p.1 p.2
  invFun k := (⟨k.val / 128, by omega⟩, ⟨k.val % 128, Nat.mod_lt _ (by decide)⟩)
  left_inv p := Prod.ext
    (Fin.ext (by have h1 := p.1.isLt; have h2 := p.2.isLt; show (128 * p.1.val + p.2.val) / 128 = p.1.val; omega))
    (Fin.ext (by have h1 := p.1.isLt; have h2 := p.2.isLt; show (128 * p.1.val + p.2.val) % 128 = p.2.val; omega))
  right_inv k := Fin.ext (by show 128 * (k.val / 128) + k.val % 128 = k.val; omega)

theorem sum_cols {M : Type} [AddCommMonoid M] (g : Fin 16 → Fin 128 → Fin 2048 → M) :
    ∑ k : Fin 2048, g ⟨k.val / 128, by omega⟩ ⟨k.val % 128, Nat.mod_lt _ (by decide)⟩ k
      = ∑ h : Fin 16, ∑ d : Fin 128, g h d (Cert.MLA.hcol h d) := by
  rw [← Fintype.sum_prod_type' (f := fun h d => g h d (Cert.MLA.hcol h d))]
  exact Fintype.sum_equiv colEquiv.symm _ _ fun k => by
    show g _ _ k = g _ _ (Cert.MLA.hcol _ _)
    congr 1
    exact (colEquiv.right_inv k).symm

theorem lidx_v0 (i : S1x1024x256.Idx) (k : Fin 2048) : lidx_main_v0 i k = ix3 (0 : Fin 1) (i 1) k :=
  funext fun a => Fin.ext (by
    match a with
    | ⟨0, _⟩ => have h0 : (i 0).val < 1 := (i 0).isLt; show (i 0).val = 0; omega
    | ⟨1, _⟩ => rfl
    | ⟨2, _⟩ => rfl)
theorem ridx_v0 (i : S1x1024x256.Idx) (k : Fin 2048) : ridx_main_v0 i k = ix2 k (i 2) :=
  funext fun a => Fin.ext (by
    match a with
    | ⟨0, _⟩ => rfl
    | ⟨1, _⟩ => rfl)

theorem v0_eq (a0 : (⟨S1x1024x2048, .f32⟩ : BufTy).Contents (Elt Ideal)) (a1 : (⟨S2048x256, .f32⟩ : BufTy).Contents (Elt Ideal)) (i : S1x1024x256.Idx) :
    val_main_v0 (F := Ideal) a0 a1 i = Cert.MLA.lat (rx a0) (rm a1) (i 1) (i 2) := by
  rw [val_main_v0_apply]
  unfold Cert.MLA.lat Cert.MLA.mm
  refine Finset.sum_congr rfl fun k _ => ?_
  rw [lidx_v0 i k, ridx_v0 i k]
  rfl

theorem ridx_v1 (i : S1x1024x2048.Idx) (k : Fin 256) : ridx_main_v1 i k = ix2 k (i 2) :=
  funext fun a => Fin.ext (by
    match a with
    | ⟨0, _⟩ => rfl
    | ⟨1, _⟩ => rfl)

theorem v1_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (i : S1x1024x2048.Idx) :
    val_main_v1 (F := Ideal) a0 a1 a2 i = Cert.MLA.keys (rx a0) (rm a1) (rm a2) (i 1) (i 2) := by
  rw [val_main_v1_apply]
  unfold Cert.MLA.keys Cert.MLA.mm
  refine Finset.sum_congr rfl fun k _ => ?_
  rw [v0_eq, ridx_v1 i k] <;> rfl

theorem v2_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (i : S1x1024x16x128.Idx) :
    val_main_v2 (F := Ideal) a0 a1 a2 i = Cert.MLA.keys (rx a0) (rm a1) (rm a2) (i 1) (Cert.MLA.hcol (i 2) (i 3)) := by
  rw [val_main_v2_apply, v1_eq]
  have e1 : (idx_main_v2 i) 1 = i 1 := Fin.ext (by
    have h0 : (i 0).val < 1 := (i 0).isLt; have h1 : (i 1).val < 1024 := (i 1).isLt; have h2 : (i 2).val < 16 := (i 2).isLt; have h3 : (i 3).val < 128 := (i 3).isLt
    show ((((i 0).val * 1024 + (i 1).val) * 16 + (i 2).val) * 128 + (i 3).val) / 2048 % 1024 = (i 1).val; omega)
  have e2 : (idx_main_v2 i) 2 = Cert.MLA.hcol (i 2) (i 3) := Fin.ext (by
    have h0 : (i 0).val < 1 := (i 0).isLt; have h1 : (i 1).val < 1024 := (i 1).isLt; have h2 : (i 2).val < 16 := (i 2).isLt; have h3 : (i 3).val < 128 := (i 3).isLt
    show ((((i 0).val * 1024 + (i 1).val) * 16 + (i 2).val) * 128 + (i 3).val) % 2048 = 128 * (i 2).val + (i 3).val; omega)
  rw [e1, e2]

theorem ridx_v3 (i : S1x1024x2048.Idx) (k : Fin 256) : ridx_main_v3 i k = ix2 k (i 2) :=
  funext fun a => Fin.ext (by
    match a with
    | ⟨0, _⟩ => rfl
    | ⟨1, _⟩ => rfl)

theorem v3_eq (a0 : (⟨S1x1024x2048, .f32⟩ : BufTy).Contents (Elt Ideal)) (a1 : (⟨S2048x256, .f32⟩ : BufTy).Contents (Elt Ideal)) (a3 : (⟨S256x2048, .f32⟩ : BufTy).Contents (Elt Ideal)) (i : S1x1024x2048.Idx) :
    val_main_v3 (F := Ideal) a0 a1 a3 i = Cert.MLA.vals (rx a0) (rm a1) (rm a3) (i 1) (i 2) := by
  rw [val_main_v3_apply]
  unfold Cert.MLA.vals Cert.MLA.mm
  refine Finset.sum_congr rfl fun k _ => ?_
  rw [v0_eq, ridx_v3 i k] <;> rfl

theorem v4_eq (a0 : (⟨S1x1024x2048, .f32⟩ : BufTy).Contents (Elt Ideal)) (a1 : (⟨S2048x256, .f32⟩ : BufTy).Contents (Elt Ideal)) (a3 : (⟨S256x2048, .f32⟩ : BufTy).Contents (Elt Ideal)) (i : S1x1024x16x128.Idx) :
    val_main_v4 (F := Ideal) a0 a1 a3 i = Cert.MLA.vals (rx a0) (rm a1) (rm a3) (i 1) (Cert.MLA.hcol (i 2) (i 3)) := by
  rw [val_main_v4_apply, v3_eq]
  have e1 : (idx_main_v4 i) 1 = i 1 := Fin.ext (by
    have h0 : (i 0).val < 1 := (i 0).isLt; have h1 : (i 1).val < 1024 := (i 1).isLt; have h2 : (i 2).val < 16 := (i 2).isLt; have h3 : (i 3).val < 128 := (i 3).isLt
    show ((((i 0).val * 1024 + (i 1).val) * 16 + (i 2).val) * 128 + (i 3).val) / 2048 % 1024 = (i 1).val; omega)
  have e2 : (idx_main_v4 i) 2 = Cert.MLA.hcol (i 2) (i 3) := Fin.ext (by
    have h0 : (i 0).val < 1 := (i 0).isLt; have h1 : (i 1).val < 1024 := (i 1).isLt; have h2 : (i 2).val < 16 := (i 2).isLt; have h3 : (i 3).val < 128 := (i 3).isLt
    show ((((i 0).val * 1024 + (i 1).val) * 16 + (i 2).val) * 128 + (i 3).val) % 2048 = 128 * (i 2).val + (i 3).val; omega)
  rw [e1, e2]

theorem lidx_v5 (i : S1x1024x2048.Idx) (k : Fin 2048) : lidx_main_v5 i k = ix3 (0 : Fin 1) (i 1) k :=
  funext fun a => Fin.ext (by
    match a with
    | ⟨0, _⟩ => have h0 : (i 0).val < 1 := (i 0).isLt; show (i 0).val = 0; omega
    | ⟨1, _⟩ => rfl
    | ⟨2, _⟩ => rfl)
theorem ridx_v5 (i : S1x1024x2048.Idx) (k : Fin 2048) : ridx_main_v5 i k = ix2 k (i 2) :=
  funext fun a => Fin.ext (by
    match a with
    | ⟨0, _⟩ => rfl
    | ⟨1, _⟩ => rfl)

theorem v5_eq (a0 : (⟨S1x1024x2048, .f32⟩ : BufTy).Contents (Elt Ideal)) (a4 : (⟨S2048x2048, .f32⟩ : BufTy).Contents (Elt Ideal)) (i : S1x1024x2048.Idx) :
    val_main_v5 (F := Ideal) a0 a4 i = Cert.MLA.qry (rx a0) (rm a4) (i 1) (i 2) := by
  rw [val_main_v5_apply]
  unfold Cert.MLA.qry Cert.MLA.mm
  refine Finset.sum_congr rfl fun k _ => ?_
  rw [lidx_v5 i k, ridx_v5 i k]
  rfl

theorem v6_eq (a0 : (⟨S1x1024x2048, .f32⟩ : BufTy).Contents (Elt Ideal)) (a4 : (⟨S2048x2048, .f32⟩ : BufTy).Contents (Elt Ideal)) (i : S1x1024x16x128.Idx) :
    val_main_v6 (F := Ideal) a0 a4 i = Cert.MLA.qry (rx a0) (rm a4) (i 1) (Cert.MLA.hcol (i 2) (i 3)) := by
  rw [val_main_v6_apply, v5_eq]
  have e1 : (idx_main_v6 i) 1 = i 1 := Fin.ext (by
    have h0 : (i 0).val < 1 := (i 0).isLt; have h1 : (i 1).val < 1024 := (i 1).isLt; have h2 : (i 2).val < 16 := (i 2).isLt; have h3 : (i 3).val < 128 := (i 3).isLt
    show ((((i 0).val * 1024 + (i 1).val) * 16 + (i 2).val) * 128 + (i 3).val) / 2048 % 1024 = (i 1).val; omega)
  have e2 : (idx_main_v6 i) 2 = Cert.MLA.hcol (i 2) (i 3) := Fin.ext (by
    have h0 : (i 0).val < 1 := (i 0).isLt; have h1 : (i 1).val < 1024 := (i 1).isLt; have h2 : (i 2).val < 16 := (i 2).isLt; have h3 : (i 3).val < 128 := (i 3).isLt
    show ((((i 0).val * 1024 + (i 1).val) * 16 + (i 2).val) * 128 + (i 3).val) % 2048 = 128 * (i 2).val + (i 3).val; omega)
  rw [e1, e2]

theorem lidx_v7 (i : S1x1024x512.Idx) (k : Fin 2048) : lidx_main_v7 i k = ix3 (0 : Fin 1) (i 1) k :=
  funext fun a => Fin.ext (by
    match a with
    | ⟨0, _⟩ => have h0 : (i 0).val < 1 := (i 0).isLt; show (i 0).val = 0; omega
    | ⟨1, _⟩ => rfl
    | ⟨2, _⟩ => rfl)
theorem ridx_v7 (i : S1x1024x512.Idx) (k : Fin 2048) : ridx_main_v7 i k = ix2 k (i 2) :=
  funext fun a => Fin.ext (by
    match a with
    | ⟨0, _⟩ => rfl
    | ⟨1, _⟩ => rfl)

theorem v7_eq (a0 : (⟨S1x1024x2048, .f32⟩ : BufTy).Contents (Elt Ideal)) (a5 : (⟨S2048x512, .f32⟩ : BufTy).Contents (Elt Ideal)) (i : S1x1024x512.Idx) :
    val_main_v7 (F := Ideal) a0 a5 i = Cert.MLA.qrot (rx a0) (rm a5) (i 1) (i 2) := by
  rw [val_main_v7_apply]
  unfold Cert.MLA.qrot Cert.MLA.mm
  refine Finset.sum_congr rfl fun k _ => ?_
  rw [lidx_v7 i k, ridx_v7 i k]
  rfl

theorem v8_eq (a0 : (⟨S1x1024x2048, .f32⟩ : BufTy).Contents (Elt Ideal)) (a5 : (⟨S2048x512, .f32⟩ : BufTy).Contents (Elt Ideal)) (i : S1x1024x16x32.Idx) :
    val_main_v8 (F := Ideal) a0 a5 i = Cert.MLA.qrot (rx a0) (rm a5) (i 1) (Cert.MLA.rcol (i 2) (i 3)) := by
  rw [val_main_v8_apply, v7_eq]
  have e1 : (idx_main_v8 i) 1 = i 1 := Fin.ext (by
    have h0 : (i 0).val < 1 := (i 0).isLt; have h1 : (i 1).val < 1024 := (i 1).isLt; have h2 : (i 2).val < 16 := (i 2).isLt; have h3 : (i 3).val < 32 := (i 3).isLt
    show ((((i 0).val * 1024 + (i 1).val) * 16 + (i 2).val) * 32 + (i 3).val) / 512 % 1024 = (i 1).val; omega)
  have e2 : (idx_main_v8 i) 2 = Cert.MLA.rcol (i 2) (i 3) := Fin.ext (by
    have h0 : (i 0).val < 1 := (i 0).isLt; have h1 : (i 1).val < 1024 := (i 1).isLt; have h2 : (i 2).val < 16 := (i 2).isLt; have h3 : (i 3).val < 32 := (i 3).isLt
    show ((((i 0).val * 1024 + (i 1).val) * 16 + (i 2).val) * 32 + (i 3).val) % 512 = 32 * (i 2).val + (i 3).val; omega)
  rw [e1, e2]

theorem lidx_v9 (i : S1x1024x32.Idx) (k : Fin 2048) : lidx_main_v9 i k = ix3 (0 : Fin 1) (i 1) k :=
  funext fun a => Fin.ext (by
    match a with
    | ⟨0, _⟩ => have h0 : (i 0).val < 1 := (i 0).isLt; show (i 0).val = 0; omega
    | ⟨1, _⟩ => rfl
    | ⟨2, _⟩ => rfl)
theorem ridx_v9 (i : S1x1024x32.Idx) (k : Fin 2048) : ridx_main_v9 i k = ix2 k (i 2) :=
  funext fun a => Fin.ext (by
    match a with
    | ⟨0, _⟩ => rfl
    | ⟨1, _⟩ => rfl)

theorem v9_eq (a0 : (⟨S1x1024x2048, .f32⟩ : BufTy).Contents (Elt Ideal)) (a6 : (⟨S2048x32, .f32⟩ : BufTy).Contents (Elt Ideal)) (i : S1x1024x32.Idx) :
    val_main_v9 (F := Ideal) a0 a6 i = Cert.MLA.krot (rx a0) (rm a6) (i 1) (i 2) := by
  rw [val_main_v9_apply]
  unfold Cert.MLA.krot Cert.MLA.mm
  refine Finset.sum_congr rfl fun k _ => ?_
  rw [lidx_v9 i k, ridx_v9 i k]
  rfl

theorem v10_eq (a0 : (⟨S1x1024x2048, .f32⟩ : BufTy).Contents (Elt Ideal)) (a6 : (⟨S2048x32, .f32⟩ : BufTy).Contents (Elt Ideal)) (i : S1x1024x1x32.Idx) :
    val_main_v10 (F := Ideal) a0 a6 i = Cert.MLA.krot (rx a0) (rm a6) (i 1) (i 3) := by
  rw [val_main_v10_apply, v9_eq]
  have e1 : (idx_main_v10 i) 1 = i 1 := Fin.ext (by
    have h0 : (i 0).val < 1 := (i 0).isLt; have h1 : (i 1).val < 1024 := (i 1).isLt; have h2 : (i 2).val < 1 := (i 2).isLt; have h3 : (i 3).val < 32 := (i 3).isLt
    show ((((i 0).val * 1024 + (i 1).val) * 1 + (i 2).val) * 32 + (i 3).val) / 32 % 1024 = (i 1).val; omega)
  have e2 : (idx_main_v10 i) 2 = i 3 := Fin.ext (by
    have h0 : (i 0).val < 1 := (i 0).isLt; have h1 : (i 1).val < 1024 := (i 1).isLt; have h2 : (i 2).val < 1 := (i 2).isLt; have h3 : (i 3).val < 32 := (i 3).isLt
    show ((((i 0).val * 1024 + (i 1).val) * 1 + (i 2).val) * 32 + (i 3).val) % 32 = (i 3).val; omega)
  rw [e1, e2]

theorem v12_eq (a0 : (⟨S1x1024x2048, .f32⟩ : BufTy).Contents (Elt Ideal)) (a6 : (⟨S2048x32, .f32⟩ : BufTy).Contents (Elt Ideal)) (i : S1x1024x16x32.Idx) :
    val_main_v12 (F := Ideal) a0 a6 i = Cert.MLA.krot (rx a0) (rm a6) (i 1) (i 3) := by
  rw [val_main_v12_apply, v10_eq] <;> rfl

theorem v11_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a4 : (⟨S2048x2048, .f32⟩ : BufTy).Contents (Elt Ideal)) (i : S1x16x1024x1024.Idx) :
    val_main_v11 (F := Ideal) a0 a1 a2 a4 i
      = ∑ d : Fin 128, Cert.MLA.qry (rx a0) (rm a4) (i 2) (Cert.MLA.hcol (i 1) d) * Cert.MLA.keys (rx a0) (rm a1) (rm a2) (i 3) (Cert.MLA.hcol (i 1) d) := by
  rw [val_main_v11_apply]
  refine Finset.sum_congr rfl fun d _ => ?_
  rw [v6_eq, v2_eq] <;> rfl

theorem v13_eq (a0 : (⟨S1x1024x2048, .f32⟩ : BufTy).Contents (Elt Ideal)) (a5 : (⟨S2048x512, .f32⟩ : BufTy).Contents (Elt Ideal)) (a6 : (⟨S2048x32, .f32⟩ : BufTy).Contents (Elt Ideal)) (i : S1x16x1024x1024.Idx) :
    val_main_v13 (F := Ideal) a0 a5 a6 i
      = ∑ r : Fin 32, Cert.MLA.qrot (rx a0) (rm a5) (i 2) (Cert.MLA.rcol (i 1) r) * Cert.MLA.krot (rx a0) (rm a6) (i 3) r := by
  rw [val_main_v13_apply]
  refine Finset.sum_congr rfl fun r _ => ?_
  rw [v8_eq, v12_eq] <;> rfl

theorem v16_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (i : S1x16x1024x1024.Idx) :
    val_main_v16 (F := Ideal) a0 a1 a2 a4 a5 a6 i = Cert.MLA.score (rx a0) (rm a1) (rm a2) (rm a4) (rm a5) (rm a6) (Ideal.ofBits .f32 0x3DA1E89B#32) (i 1) (i 2) (i 3) := by
  rw [val_main_v16_apply, val_main_v14_apply, val_main_v15_apply, val_main_cst_apply, v11_eq, v13_eq] <;> rfl

theorem v17_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (j : S1x16x1024.Idx) :
    val_main_v17 (F := Ideal) a0 a1 a2 a4 a5 a6 j = Cert.MLA.rowMax (rx a0) (rm a1) (rm a2) (rm a4) (rm a5) (rm a6) (Ideal.ofBits .f32 0x3DA1E89B#32) (j 1) (j 2) := by
  unfold val_main_v17
  have hR : S1x16x1024x1024.Reduces [3] S1x16x1024 := by decide
  refine (Host.reduce_eq_fold_single (FloatOps.maximumf (F := Ideal) (φ := .f32)) _ _ _ hR _ j).trans ?_
  have hb : val_main_cst_0 (F := Ideal) (Shape.Idx.first h_S_) = (⊥ : EReal) := by
    show Ideal.ofBits .f32 0xFF800000#32 = ⊥
    simp [Ideal.ofBits, Ideal.ieee]
  have hf : (val_main_v16 (F := Ideal) a0 a1 a2 a4 a5 a6 ∘ hR.lift j)
      = fun t => Cert.MLA.score (rx a0) (rm a1) (rm a2) (rm a4) (rm a5) (rm a6) (Ideal.ofBits .f32 0x3DA1E89B#32) (j 1) (j 2) t := by
    funext t
    show val_main_v16 (F := Ideal) a0 a1 a2 a4 a5 a6 (hR.lift j t) = _
    rw [v16_eq] <;> rfl
  rw [hb, hf]
  rfl

theorem v19_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (i : S1x16x1024x1024.Idx) :
    val_main_v19 (F := Ideal) a0 a1 a2 a4 a5 a6 i = Cert.MLA.rowMax (rx a0) (rm a1) (rm a2) (rm a4) (rm a5) (rm a6) (Ideal.ofBits .f32 0x3DA1E89B#32) (i 1) (i 2) := by
  rw [val_main_v19_apply, val_main_v18_apply, v17_eq] <;> rfl

theorem v21_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (i : S1x16x1024x1024.Idx) :
    val_main_v21 (F := Ideal) a0 a1 a2 a4 a5 a6 i
      = Cert.MLA.eexp (Cert.MLA.score (rx a0) (rm a1) (rm a2) (rm a4) (rm a5) (rm a6) (Ideal.ofBits .f32 0x3DA1E89B#32) (i 1) (i 2) (i 3) - Cert.MLA.rowMax (rx a0) (rm a1) (rm a2) (rm a4) (rm a5) (rm a6) (Ideal.ofBits .f32 0x3DA1E89B#32) (i 1) (i 2)) := by
  rw [val_main_v21_apply, val_main_v20_apply, v16_eq, v19_eq] <;> rfl

theorem v22_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (j : S1x16x1024.Idx) :
    val_main_v22 (F := Ideal) a0 a1 a2 a4 a5 a6 j
      = ∑ u : Fin 1024, Cert.MLA.eexp (Cert.MLA.score (rx a0) (rm a1) (rm a2) (rm a4) (rm a5) (rm a6) (Ideal.ofBits .f32 0x3DA1E89B#32) (j 1) (j 2) u - Cert.MLA.rowMax (rx a0) (rm a1) (rm a2) (rm a4) (rm a5) (rm a6) (Ideal.ofBits .f32 0x3DA1E89B#32) (j 1) (j 2)) := by
  rw [val_main_v22_apply, val_main_cst_1_apply, Ideal.ofBits_def, Ideal.ofBits_zero_f32, zero_add]
  refine Finset.sum_congr rfl fun u _ => ?_
  rw [v21_eq] <;> rfl

theorem v24_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (i : S1x16x1024x1024.Idx) :
    val_main_v24 (F := Ideal) a0 a1 a2 a4 a5 a6 i
      = ∑ u : Fin 1024, Cert.MLA.eexp (Cert.MLA.score (rx a0) (rm a1) (rm a2) (rm a4) (rm a5) (rm a6) (Ideal.ofBits .f32 0x3DA1E89B#32) (i 1) (i 2) u - Cert.MLA.rowMax (rx a0) (rm a1) (rm a2) (rm a4) (rm a5) (rm a6) (Ideal.ofBits .f32 0x3DA1E89B#32) (i 1) (i 2)) := by
  rw [val_main_v24_apply, val_main_v23_apply, v22_eq] <;> rfl

theorem v25_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (i : S1x16x1024x1024.Idx) :
    val_main_v25 (F := Ideal) a0 a1 a2 a4 a5 a6 i = Cert.MLA.prob (rx a0) (rm a1) (rm a2) (rm a4) (rm a5) (rm a6) (Ideal.ofBits .f32 0x3DA1E89B#32) (i 1) (i 2) (i 3) := by
  rw [val_main_v25_apply, v21_eq, v24_eq] <;> rfl

theorem v26_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a3 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (i : S1x16x128x1024.Idx) :
    val_main_v26 (F := Ideal) a0 a1 a2 a3 a4 a5 a6 i = Cert.MLA.attn (rx a0) (rm a1) (rm a2) (rm a3) (rm a4) (rm a5) (rm a6) (Ideal.ofBits .f32 0x3DA1E89B#32) (i 3) (i 1) (i 2) := by
  rw [val_main_v26_apply]
  unfold Cert.MLA.attn
  refine Finset.sum_congr rfl fun t _ => ?_
  rw [v4_eq, v25_eq]
  exact mul_comm _ _

theorem v27_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a3 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (i : S1x1024x16x128.Idx) :
    val_main_v27 (F := Ideal) a0 a1 a2 a3 a4 a5 a6 i = Cert.MLA.attn (rx a0) (rm a1) (rm a2) (rm a3) (rm a4) (rm a5) (rm a6) (Ideal.ofBits .f32 0x3DA1E89B#32) (i 1) (i 2) (i 3) := by
  rw [val_main_v27_apply, v26_eq] <;> rfl

theorem v28_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a3 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (i : S1x1024x2048.Idx) (h : Fin 16) (d : Fin 128)
    (hi : (i 2).val = 128 * h.val + d.val) :
    val_main_v28 (F := Ideal) a0 a1 a2 a3 a4 a5 a6 i = Cert.MLA.attn (rx a0) (rm a1) (rm a2) (rm a3) (rm a4) (rm a5) (rm a6) (Ideal.ofBits .f32 0x3DA1E89B#32) (i 1) h d := by
  rw [val_main_v28_apply, v27_eq]
  have e1 : (idx_main_v28 i) 1 = i 1 := Fin.ext (by
    have h0 : (i 0).val < 1 := (i 0).isLt; have h1 : (i 1).val < 1024 := (i 1).isLt; have h2 : (i 2).val < 2048 := (i 2).isLt
    show (((i 0).val * 1024 + (i 1).val) * 2048 + (i 2).val) / 2048 % 1024 = (i 1).val; omega)
  have e2 : (idx_main_v28 i) 2 = h := Fin.ext (by
    have h0 : (i 0).val < 1 := (i 0).isLt; have h1 : (i 1).val < 1024 := (i 1).isLt; have hh := h.isLt; have hd := d.isLt
    show (((i 0).val * 1024 + (i 1).val) * 2048 + (i 2).val) / 128 % 16 = h.val; omega)
  have e3 : (idx_main_v28 i) 3 = d := Fin.ext (by
    have h0 : (i 0).val < 1 := (i 0).isLt; have h1 : (i 1).val < 1024 := (i 1).isLt; have hh := h.isLt; have hd := d.isLt
    show (((i 0).val * 1024 + (i 1).val) * 2048 + (i 2).val) % 128 = d.val; omega)
  rw [e1, e2, e3]

theorem ridx_v29 (i : S1x1024x2048.Idx) (k : Fin 2048) : ridx_main_v29 i k = ix2 k (i 2) :=
  funext fun a => Fin.ext (by
    match a with
    | ⟨0, _⟩ => rfl
    | ⟨1, _⟩ => rfl)

theorem result_at (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a3 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (a7 : (⟨S2048x2048, .f32⟩ : BufTy).Contents (Elt Ideal)) (i : S1x1024x2048.Idx) :
    val_main_v29 (F := Ideal) a0 a1 a2 a3 a4 a5 a6 a7 i = Cert.MLA.out (rx a0) (rm a1) (rm a2) (rm a3) (rm a4) (rm a5) (rm a6) (rm a7) (Ideal.ofBits .f32 0x3DA1E89B#32) (i 1) (i 2) := by
  rw [val_main_v29_apply]
  unfold Cert.MLA.out
  refine Eq.trans ?_ (sum_cols (fun h d k => Cert.MLA.attn (rx a0) (rm a1) (rm a2) (rm a3) (rm a4) (rm a5) (rm a6) (Ideal.ofBits .f32 0x3DA1E89B#32) (i 1) h d * rm a7 k (i 2)))
  refine Finset.sum_congr rfl fun k _ => ?_
  rw [v28_eq a0 a1 a2 a3 a4 a5 a6 (lidx_main_v29 i k) ⟨k.val / 128, by omega⟩ ⟨k.val % 128, Nat.mod_lt _ (by decide)⟩
      (by show k.val = 128 * (k.val / 128) + k.val % 128; omega), ridx_v29 i k] <;> rfl

def spec (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a3 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (a7 : (⟨S2048x2048, .f32⟩ : BufTy).Contents (Elt Ideal)) : (⟨S1x1024x2048, .f32⟩ : BufTy).Contents (Elt Ideal) :=
  fun i => Cert.MLA.out (fun s k => a0 (ix3 (0 : Fin 1) s k)) (fun k e => a1 (ix2 k e)) (fun k e => a2 (ix2 k e))
    (fun k e => a3 (ix2 k e)) (fun k e => a4 (ix2 k e)) (fun k e => a5 (ix2 k e)) (fun k e => a6 (ix2 k e))
    (fun k e => a7 (ix2 k e)) (Ideal.ofBits .f32 0x3DA1E89B#32) (i 1) (i 2)

theorem result_eq (a0 : (⟨S1x1024x2048, .f32⟩ : BufTy).Contents (Elt Ideal)) (a1 : (⟨S2048x256, .f32⟩ : BufTy).Contents (Elt Ideal)) (a2 : (⟨S256x2048, .f32⟩ : BufTy).Contents (Elt Ideal)) (a3 : (⟨S256x2048, .f32⟩ : BufTy).Contents (Elt Ideal)) (a4 : (⟨S2048x2048, .f32⟩ : BufTy).Contents (Elt Ideal)) (a5 : (⟨S2048x512, .f32⟩ : BufTy).Contents (Elt Ideal)) (a6 : (⟨S2048x32, .f32⟩ : BufTy).Contents (Elt Ideal)) (a7 : (⟨S2048x2048, .f32⟩ : BufTy).Contents (Elt Ideal)) :
    val_main_v29 (F := Ideal) a0 a1 a2 a3 a4 a5 a6 a7 = spec a0 a1 a2 a3 a4 a5 a6 a7 :=
  funext fun i => result_at a0 a1 a2 a3 a4 a5 a6 a7 i

theorem frame : Cert.frame_ReferenceIdeal :=
  fun m ρ _ => (θ_run Cert.ReferenceIdeal.defs _ _).mono (fun _ h c => (h c).2)
    (Cert.ReferenceIdeal.Value.run (F := Ideal) m ρ)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
        = spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans ((val_main_v29_eq m c).trans (result_eq _ _ _ _ _ _ _ _)), (h c).2⟩)
    (Cert.ReferenceIdeal.Value.run (F := Ideal) m ρ)

end Cert.MLA.Ref

end
-- ==== Proof.PayAttn.lean ====
import proofs.«900573_g7700000000000574_dist_mla_v7x_xyz2x2x2_z_b1_s1024_d2048_dc128_bf16_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.MLA.Pay

open Idealize.ShloMosaic Idealize.ShloMosaic.ValueIdx Cert.KernelIdeal Cert.KernelIdeal.Gen
open scoped BigOperators

theorem slice2_apply {α : Type} {n0 n1 m0 m1 : ℕ} (o0 o1 : ℕ) (X : (⟨2, ![n0, n1]⟩ : Shape).Idx → α)
    (h : (⟨2, ![n0, n1]⟩ : Shape).Slices ![o0, o1] ⟨2, ![m0, m1]⟩) (i : Fin m0) (j : Fin m1) (a : Fin n0) (b : Fin n1)
    (ha : a.val = o0 + i.val) (hb : b.val = o1 + j.val) :
    extractStridedSlice ⟨2, ![m0, m1]⟩ ![o0, o1] X h (ix2 i j) = X (ix2 a b) :=
  extractStridedSlice_apply _ _ _ _ _ (fun ax => by
    match ax with
    | ⟨0, _⟩ => exact ha
    | ⟨1, _⟩ => exact hb)

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem matmul_plain_zero_apply {m k n : ℕ} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (r : Fin m) (c : Fin n) :
    matmul (⟨[1], [0], [0], [1], [], [], w⟩ : DotDims _ _ _) none A B (constant ⟨2, ![m, n]⟩ .f32 0x00000000#32) (ix2 r c)
      = ∑ x : Fin k, A (ix2 r x) * B (ix2 x c) := by
  show FloatOps.matmul _ none A B (constant ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun x _ => ?_
  have c2 := contrEquiv1_symm_val
    (⟨[1], [0], [0], [1], [], [], w⟩ : DotDims ⟨2, ![m, k]⟩ ⟨2, ![k, n]⟩ ⟨2, ![m, n]⟩) k rfl rfl x
  have l2 : (⟨[1], [0], [0], [1], [], [], w⟩ : DotDims ⟨2, ![m, k]⟩ ⟨2, ![k, n]⟩ ⟨2, ![m, n]⟩).lhsIdx (ix2 r c)
      ((contrEquiv1 _ k rfl rfl).symm x) = ix2 r x := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm x) = ix2 x c := by
    funext ax; apply Fin.ext
    match ax with
    | ⟨0, _⟩ => simp [DotDims.rhsIdx]; exact c2
    | ⟨1, _⟩ => simp [DotDims.rhsIdx]; rfl
  rw [l2, r2]

def σK : EReal := Ideal.ofBits .f32 0x3DA1E89B#32

theorem ofBits_one_f32 : Ideal.ofBits .f32 0x3F800000#32 = 1 := by
  simp [Ideal.ofBits, Ideal.ieee]
  first
    | done
    | (norm_num; done)
    | (rw [← EReal.coe_mul]; norm_num; done)
    | (norm_cast; norm_num; done)
    | (rw [← EReal.coe_mul]; norm_cast; norm_num)

def qkV (qS : FVec Ideal S128x128 .bf16) (kS : FVec Ideal S1024x128 .bf16) : FVec Ideal S128x1024 .f32 :=
  matmul dot_S128x128_S128x1024_S128x1024_1_0_0_1_n_n none qS
    (transpose S128x1024 [1, 0] kS transposes_S1024x128_p1_0_S128x1024) (constant S128x1024 .f32 0x00000000#32)

def qrV (qrS : FVec Ideal S128x32 .bf16) (krT : FVec Ideal S32x1024 .bf16) : FVec Ideal S128x1024 .f32 :=
  matmul dot_S128x32_S32x1024_S128x1024_1_0_0_1_n_n none qrS krT (constant S128x1024 .f32 0x00000000#32)

def scaleV (a b : FVec Ideal S128x1024 .f32) : FVec Ideal S128x1024 .f32 :=
  mulf (addf a b) (broadcast S128x1024 (Scalar.ofBits .f32 0x3DA1E89B#32))

def rowSum (p : FVec Ideal S128x1024 .f32) : FVec Ideal S128x1 .f32 :=
  shapeCast S128x1 (multiReduction .add [1] S128 p 0x00000000#32 reduces_S128x1024_S128 (.inl rfl) rfl) shapeCasts_S128_S128x1

def pvV (p : FVec Ideal S128x1024 .f32) (vS : FVec Ideal S1024x128 .bf16) : FVec Ideal S128x128 .f32 :=
  matmul dot_S128x1024_S1024x128_S128x128_1_0_0_1_n_n none (truncf .bf16 p bitsLt_bf16_f32) vS (constant S128x128 .f32 0x00000000#32)

def rcpV (l : FVec Ideal S128x1 .f32) : FVec Ideal S128x1 .f32 :=
  divf (broadcast S128x1 (Scalar.ofBits .f32 0x3F800000#32)) l

def scaleRows (o : FVec Ideal S128x128 .f32) (c : FVec Ideal S128x1 .f32) : FVec Ideal S128x128 .f32 :=
  mulf o (broadcastTo S128x128 c broadcasts_S128x1_S128x128)

theorem qkV_apply (qS : FVec Ideal S128x128 .bf16) (kS : FVec Ideal S1024x128 .bf16) (r : Fin 128) (t : Fin 1024) :
    qkV qS kS (ix2 r t) = ∑ e : Fin 128, qS (ix2 r e) * kS (ix2 t e) := by
  unfold qkV
  refine (matmul_plain_zero_apply dot_S128x128_S128x1024_S128x1024_1_0_0_1_n_n.wf qS _ r t).trans ?_
  refine Finset.sum_congr rfl fun e _ => ?_
  rw [transpose_ix2_apply]

theorem qrV_apply (qrS : FVec Ideal S128x32 .bf16) (krT : FVec Ideal S32x1024 .bf16) (r : Fin 128) (t : Fin 1024) :
    qrV qrS krT (ix2 r t) = ∑ ρ : Fin 32, qrS (ix2 r ρ) * krT (ix2 ρ t) :=
  matmul_plain_zero_apply dot_S128x32_S32x1024_S128x1024_1_0_0_1_n_n.wf qrS krT r t

theorem scaleV_apply (a b : FVec Ideal S128x1024 .f32) (i : S128x1024.Idx) :
    scaleV a b i = (a i + b i) * σK := rfl

theorem exp_apply (x : FVec Ideal S128x1024 .f32) (i : S128x1024.Idx) : exp x i = Ideal.exp (x i) := rfl

theorem rowSum_apply (p : FVec Ideal S128x1024 .f32) (r : Fin 128) (u : Fin 1) :
    rowSum p (ix2 r u) = ∑ t : Fin 1024, p (ix2 r t) := by
  unfold rowSum
  rw [shapeCast_a_a1_apply]
  refine (Ideal.multiReduction_add_single p 0x00000000#32 reduces_S128x1024_S128 (.inl rfl) rfl (ix1 r)).trans ?_
  refine Finset.sum_congr rfl fun t _ => ?_
  congr 1
  funext ax
  apply Fin.ext
  match ax with
  | ⟨0, _⟩ => rfl
  | ⟨1, _⟩ => rfl

theorem pvV_apply (p : FVec Ideal S128x1024 .f32) (vS : FVec Ideal S1024x128 .bf16) (r : Fin 128) (d : Fin 128) :
    pvV p vS (ix2 r d) = ∑ t : Fin 1024, p (ix2 r t) * vS (ix2 t d) :=
  matmul_plain_zero_apply dot_S128x1024_S1024x128_S128x128_1_0_0_1_n_n.wf (truncf .bf16 p bitsLt_bf16_f32) vS r d

theorem rcpV_apply (l : FVec Ideal S128x1 .f32) (i : S128x1.Idx) : rcpV l i = Ideal.div 1 (l i) := by
  show Ideal.div (Ideal.ofBits .f32 0x3F800000#32) (l i) = _
  rw [ofBits_one_f32]

theorem scaleRows_apply (o : FVec Ideal S128x128 .f32) (c : FVec Ideal S128x1 .f32) (r d : Fin 128) :
    scaleRows o c (ix2 r d) = o (ix2 r d) * c (ix2 r (0 : Fin 1)) := by
  unfold scaleRows
  rw [mulf_apply, broadcastTo_a1_ab_apply]

def headOut (qS : FVec Ideal S128x128 .bf16) (kS : FVec Ideal S1024x128 .bf16) (qrS : FVec Ideal S128x32 .bf16)
    (krT : FVec Ideal S32x1024 .bf16) (vS : FVec Ideal S1024x128 .bf16) : FVec Ideal S128x128 .f32 :=
  scaleRows (pvV (exp (scaleV (qkV qS kS) (qrV qrS krT))) vS) (rcpV (rowSum (exp (scaleV (qkV qS kS) (qrV qrS krT)))))

def scoreAt (qS : FVec Ideal S128x128 .bf16) (kS : FVec Ideal S1024x128 .bf16) (qrS : FVec Ideal S128x32 .bf16)
    (krT : FVec Ideal S32x1024 .bf16) (r : Fin 128) (t : Fin 1024) : EReal :=
  ((∑ e : Fin 128, qS (ix2 r e) * kS (ix2 t e)) + (∑ ρ : Fin 32, qrS (ix2 r ρ) * krT (ix2 ρ t))) * σK

theorem expScore_apply (qS : FVec Ideal S128x128 .bf16) (kS : FVec Ideal S1024x128 .bf16) (qrS : FVec Ideal S128x32 .bf16)
    (krT : FVec Ideal S32x1024 .bf16) (r : Fin 128) (t : Fin 1024) :
    exp (scaleV (qkV qS kS) (qrV qrS krT)) (ix2 r t) = Ideal.exp (scoreAt qS kS qrS krT r t) := by
  rw [exp_apply, scaleV_apply, qkV_apply, qrV_apply]
  rfl

theorem headOut_apply (qS : FVec Ideal S128x128 .bf16) (kS : FVec Ideal S1024x128 .bf16) (qrS : FVec Ideal S128x32 .bf16)
    (krT : FVec Ideal S32x1024 .bf16) (vS : FVec Ideal S1024x128 .bf16) (r d : Fin 128) :
    headOut qS kS qrS krT vS (ix2 r d)
      = (∑ t : Fin 1024, Ideal.exp (scoreAt qS kS qrS krT r t) * vS (ix2 t d))
          * Ideal.div 1 (∑ t : Fin 1024, Ideal.exp (scoreAt qS kS qrS krT r t)) := by
  unfold headOut
  rw [scaleRows_apply, pvV_apply, rcpV_apply, rowSum_apply]
  simp only [expScore_apply]

end Cert.MLA.Pay

end
-- ==== Proof.PayOut.lean ====
import proofs.«900573_g7700000000000574_dist_mla_v7x_xyz2x2x2_z_b1_s1024_d2048_dc128_bf16_1_alg».proof.Proof.PayAttn

noncomputable section

namespace Cert.MLA.Pay

open Idealize.ShloMosaic Idealize.ShloMosaic.ValueIdx Cert.KernelIdeal Cert.KernelIdeal.Gen
open scoped BigOperators

theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

def opHalf (o : FVec Ideal S128x1024 .bf16) (c0 : ℕ) (hs : S128x1024.Slices ![0, c0] S128x512)
    (w : Vec Ideal S1x512x2048 .f32) : FVec Ideal S128x2048 .f32 :=
  matmul dot_S128x512_S512x2048_S128x2048_1_0_0_1_n_n none (extractStridedSlice S128x512 ![0, c0] o hs)
    (truncf .bf16 (shapeCast S512x2048 w shapeCasts_S1x512x2048_S512x2048) bitsLt_bf16_f32) (constant S128x2048 .f32 0x00000000#32)

theorem opHalf_apply (o : FVec Ideal S128x1024 .bf16) (c0 : ℕ) (hs : S128x1024.Slices ![0, c0] S128x512)
    (w : Vec Ideal S1x512x2048 .f32) (col : Fin 512 → Fin 1024) (hcol : ∀ x, (col x).val = c0 + x.val) (r : Fin 128) (n : Fin 2048) :
    opHalf o c0 hs w (ix2 r n) = ∑ x : Fin 512, o (ix2 r (col x)) * w (ix3 (0 : Fin 1) x n) := by
  unfold opHalf
  refine (matmul_plain_zero_apply dot_S128x512_S512x2048_S128x2048_1_0_0_1_n_n.wf _ _ r n).trans ?_
  refine Finset.sum_congr rfl fun x _ => ?_
  rw [slice2_apply 0 c0 o hs r x r (col x) (Nat.zero_add _).symm (hcol x), truncf_apply, shapeCast_1ab_ab_apply]

def opSum (o : FVec Ideal S128x1024 .bf16) (w0 w1 : Vec Ideal S1x512x2048 .f32) (r : Fin 128) (n : Fin 2048) : EReal :=
  (∑ x : Fin 512, o (ix2 r ⟨x.val, by omega⟩) * w0 (ix3 (0 : Fin 1) x n))
    + (∑ x : Fin 512, o (ix2 r ⟨512 + x.val, by omega⟩) * w1 (ix3 (0 : Fin 1) x n))

theorem addHalves_apply (o : FVec Ideal S128x1024 .bf16) (w0 w1 : Vec Ideal S1x512x2048 .f32) (r : Fin 128) (n : Fin 2048) :
    addf (opHalf o 0 slices_S128x1024_o0_0_S128x512 w0) (opHalf o 512 slices_S128x1024_o0_512_S128x512 w1) (ix2 r n)
      = opSum o w0 w1 r n := by
  rw [addf_apply, opHalf_apply o 0 _ w0 (fun x => ⟨x.val, by omega⟩) (fun x => (Nat.zero_add _).symm),
    opHalf_apply o 512 _ w1 (fun x => ⟨512 + x.val, by omega⟩) (fun x => rfl)]
  rfl

theorem pay34_apply (v389 : FVec Ideal S128x1024 .bf16) (v408 v418 : Vec Ideal S1x512x2048 .f32) (r : Fin 128) (n : Fin 2048) :
    k0_pay34 v389 v408 v418 (ix2 r n) = opSum v389 v408 v418 r n :=
  addHalves_apply v389 v408 v418 r n

theorem pay35_apply (v389 : FVec Ideal S128x1024 .bf16) (v408 v418 : Vec Ideal S1x512x2048 .f32) (u : Fin 1) (r : Fin 128) (n : Fin 2048) :
    k0_pay35 v389 v408 v418 (ix3 u r n) = opSum v389 v408 v418 r n := by
  unfold k0_pay35
  rw [shapeCast_ab_1ab_apply, truncf_apply]
  exact pay34_apply v389 v408 v418 r n

theorem pay49_apply (v594 : FVec Ideal S128x1024 .bf16) (v613 v623 : Vec Ideal S1x512x2048 .f32) (r : Fin 128) (n : Fin 2048) :
    k0_pay49 v594 v613 v623 (ix2 r n) = opSum v594 v613 v623 r n :=
  addHalves_apply v594 v613 v623 r n

theorem pay50_apply (v594 : FVec Ideal S128x1024 .bf16) (v613 v623 : Vec Ideal S1x512x2048 .f32) (u : Fin 1) (r : Fin 128) (n : Fin 2048) :
    k0_pay50 v594 v613 v623 (ix3 u r n) = opSum v594 v613 v623 r n := by
  unfold k0_pay50
  rw [shapeCast_ab_1ab_apply, truncf_apply]
  exact pay49_apply v594 v613 v623 r n

theorem pay51_apply (v422 : FVec Ideal S128x2048 .f32) (v658 : Vec Ideal S1x128x2048 .bf16) (r : Fin 128) (n : Fin 2048) :
    k0_pay51 v422 v658 (ix2 r n) = v422 (ix2 r n) + v658 (ix3 (0 : Fin 1) r n) := by
  unfold k0_pay51
  rw [addf_apply, extf_apply, shapeCast_1ab_ab_apply]

theorem pay52_apply (v661 : FVec Ideal S128x2048 .f32) (u : Fin 1) (r : Fin 128) (n : Fin 2048) :
    k0_pay52 v661 (ix3 u r n) = v661 (ix2 r n) := by
  unfold k0_pay52
  rw [shapeCast_ab_1ab_apply]

theorem pay53_apply (v661 : FVec Ideal S128x2048 .f32) (u : Fin 1) (r : Fin 128) (n : Fin 2048) :
    k0_pay53 v661 (ix3 u r n) = v661 (ix2 r n) := by
  unfold k0_pay53
  rw [shapeCast_ab_1ab_apply, truncf_apply]

theorem pay54_apply (v627 : FVec Ideal S128x2048 .f32) (v726 : Vec Ideal S1x128x2048 .bf16) (r : Fin 128) (n : Fin 2048) :
    k0_pay54 v627 v726 (ix2 r n) = v627 (ix2 r n) + v726 (ix3 (0 : Fin 1) r n) := by
  unfold k0_pay54
  rw [addf_apply, extf_apply, shapeCast_1ab_ab_apply]

theorem pay55_apply (v627 : FVec Ideal S128x2048 .f32) (v726 : Vec Ideal S1x128x2048 .bf16) (u : Fin 1) (r : Fin 128) (n : Fin 2048) :
    k0_pay55 v627 v726 (ix3 u r n) = v627 (ix2 r n) + v726 (ix3 (0 : Fin 1) r n) := by
  unfold k0_pay55
  rw [shapeCast_ab_1ab_apply]
  exact pay54_apply v627 v726 r n

theorem pay56_apply (v627 : FVec Ideal S128x2048 .f32) (v726 : Vec Ideal S1x128x2048 .bf16) (u : Fin 1) (r : Fin 128) (n : Fin 2048) :
    k0_pay56 v627 v726 (ix3 u r n) = v627 (ix2 r n) + v726 (ix3 (0 : Fin 1) r n) := by
  unfold k0_pay56
  rw [shapeCast_ab_1ab_apply, truncf_apply]
  exact pay54_apply v627 v726 r n

def recvBlock (v866 : Vec Ideal S1x1x128x2048 .bf16) : FVec Ideal S1x128x2048 .f32 :=
  shapeCast S1x128x2048 (extf .f32 (shapeCast S128x2048 v866 shapeCasts_S1x1x128x2048_S128x2048) bitsLt_bf16_f32)
    shapeCasts_S128x2048_S1x128x2048

theorem recvBlock_apply (v866 : Vec Ideal S1x1x128x2048 .bf16) (u : Fin 1) (r : Fin 128) (n : Fin 2048) :
    recvBlock v866 (ix3 u r n) = v866 (ix4 (0 : Fin 1) (0 : Fin 1) r n) := by
  unfold recvBlock
  rw [shapeCast_ab_1ab_apply, extf_apply, shapeCast_11ab_ab_apply]

theorem pay57_apply (v866 : Vec Ideal S1x1x128x2048 .bf16) (u : Fin 1) (r : Fin 128) (n : Fin 2048) :
    k0_pay57 v866 (ix3 u r n) = v866 (ix4 (0 : Fin 1) (0 : Fin 1) r n) :=
  recvBlock_apply v866 u r n

theorem pay58_apply (v866 : Vec Ideal S1x1x128x2048 .bf16) (u : Fin 1) (r : Fin 128) (n : Fin 2048) :
    k0_pay58 v866 (ix3 u r n) = v866 (ix4 (0 : Fin 1) (0 : Fin 1) r n) :=
  recvBlock_apply v866 u r n

theorem pay59_apply (v866 : Vec Ideal S1x1x128x2048 .bf16) (u : Fin 1) (r : Fin 128) (n : Fin 2048) :
    k0_pay59 v866 (ix3 u r n) = v866 (ix4 (0 : Fin 1) (0 : Fin 1) r n) :=
  recvBlock_apply v866 u r n

theorem pay60_apply (v866 : Vec Ideal S1x1x128x2048 .bf16) (u : Fin 1) (r : Fin 128) (n : Fin 2048) :
    k0_pay60 v866 (ix3 u r n) = v866 (ix4 (0 : Fin 1) (0 : Fin 1) r n) :=
  recvBlock_apply v866 u r n

theorem pay61_apply (v866 : Vec Ideal S1x1x128x2048 .bf16) (u : Fin 1) (r : Fin 128) (n : Fin 2048) :
    k0_pay61 v866 (ix3 u r n) = v866 (ix4 (0 : Fin 1) (0 : Fin 1) r n) :=
  recvBlock_apply v866 u r n

theorem pay62_apply (v866 : Vec Ideal S1x1x128x2048 .bf16) (u : Fin 1) (r : Fin 128) (n : Fin 2048) :
    k0_pay62 v866 (ix3 u r n) = v866 (ix4 (0 : Fin 1) (0 : Fin 1) r n) :=
  recvBlock_apply v866 u r n

theorem pay63_apply (v866 : Vec Ideal S1x1x128x2048 .bf16) (u : Fin 1) (r : Fin 128) (n : Fin 2048) :
    k0_pay63 v866 (ix3 u r n) = v866 (ix4 (0 : Fin 1) (0 : Fin 1) r n) :=
  recvBlock_apply v866 u r n

theorem pay64_apply (v866 : Vec Ideal S1x1x128x2048 .bf16) (u : Fin 1) (r : Fin 128) (n : Fin 2048) :
    k0_pay64 v866 (ix3 u r n) = v866 (ix4 (0 : Fin 1) (0 : Fin 1) r n) :=
  recvBlock_apply v866 u r n

end Cert.MLA.Pay

end
-- ==== Proof.BlockIdx.lean ====
import Idealize.ShloMosaic.Lib.Layout
import Idealize.ShloMosaic.Lib.ValueIdx

namespace Cert.MLA.Glue

open Idealize.ShloMosaic Idealize.ShloMosaic.ValueIdx

def zOf (c : Fin 8) : Fin 2 := ⟨c.val % 2, Nat.mod_lt _ (by decide)⟩

def bOf (c : Fin 8) : Fin 4 := ⟨c.val / 2, by have := c.isLt; omega⟩

theorem meshLin_nil (c : Nat) : Layout.meshLin [2, 2, 2] c [] = 0 := rfl

theorem meshLin_last (c : Nat) : Layout.meshLin [2, 2, 2] c [2] = c % 2 := by
  show (c / 1) % 2 * 1 + 0 = c % 2
  omega

theorem colBlock_apply {α : Type} (c : Fin 8) (W : (⟨2, ![2048, 256]⟩ : Shape).Idx → α)
    (hm : ∀ b : Fin 2, ∀ i ∈ (![[], [2]] : Fin 2 → List Nat) b, 0 < ([2, 2, 2] : List Nat).getD i 0)
    (h : Layout.TilesN ⟨2, ![2048, 128]⟩ ⟨2, ![2048, 256]⟩
      (fun b => Layout.cutSize [2, 2, 2] ((![[], [2]] : Fin 2 → List Nat) b)))
    (k : Fin 2048) (e : Fin 128) :
    Layout.blockN ⟨2, ![2048, 128]⟩ ⟨2, ![2048, 256]⟩ (Layout.meshBlock [2, 2, 2] ![[], [2]] c hm) W h (ix2 k e)
      = W (ix2 k ⟨128 * (c.val % 2) + e.val, by have := e.isLt; omega⟩) := by
  rw [Layout.blockN_apply]
  refine congrArg W (funext fun b => Fin.ext ?_)
  match b with
  | ⟨0, _⟩ =>
    show Layout.meshLin [2, 2, 2] c.val [] * 2048 + k.val = k.val
    rw [meshLin_nil]; omega
  | ⟨1, _⟩ =>
    show Layout.meshLin [2, 2, 2] c.val [2] * 128 + e.val = 128 * (c.val % 2) + e.val
    rw [meshLin_last]; omega

theorem rowBlock_apply {α : Type} (c : Fin 8) (W : (⟨2, ![256, 2048]⟩ : Shape).Idx → α)
    (hm : ∀ b : Fin 2, ∀ i ∈ (![[2], []] : Fin 2 → List Nat) b, 0 < ([2, 2, 2] : List Nat).getD i 0)
    (h : Layout.TilesN ⟨2, ![128, 2048]⟩ ⟨2, ![256, 2048]⟩
      (fun b => Layout.cutSize [2, 2, 2] ((![[2], []] : Fin 2 → List Nat) b)))
    (e : Fin 128) (j : Fin 2048) :
    Layout.blockN ⟨2, ![128, 2048]⟩ ⟨2, ![256, 2048]⟩ (Layout.meshBlock [2, 2, 2] ![[2], []] c hm) W h (ix2 e j)
      = W (ix2 ⟨128 * (c.val % 2) + e.val, by have := e.isLt; omega⟩ j) := by
  rw [Layout.blockN_apply]
  refine congrArg W (funext fun b => Fin.ext ?_)
  match b with
  | ⟨0, _⟩ =>
    show Layout.meshLin [2, 2, 2] c.val [2] * 128 + e.val = 128 * (c.val % 2) + e.val
    rw [meshLin_last]; omega
  | ⟨1, _⟩ =>
    show Layout.meshLin [2, 2, 2] c.val [] * 2048 + j.val = j.val
    rw [meshLin_nil]; omega

def peer (c : Nat) : Nat := 4 * (c / 4) + 2 * ((c / 2) % 2) + 1 - c % 2

theorem peer_mod (c : Nat) (hc : c < 8) : peer c % 2 = 1 - c % 2 := by unfold peer; omega

theorem peer_div (c : Nat) (hc : c < 8) : peer c / 2 = c / 2 := by unfold peer; omega

end Cert.MLA.Glue
-- ==== Proof.Finite.lean ====
import proofs.«900573_g7700000000000574_dist_mla_v7x_xyz2x2x2_z_b1_s1024_d2048_dc128_bf16_1_alg».proof.Pre_finite_inputs_Kernel
import proofs.«900573_g7700000000000574_dist_mla_v7x_xyz2x2x2_z_b1_s1024_d2048_dc128_bf16_1_alg».proof.Proof.Gen.Pre_finite_inputs_Kernel
import Idealize.ShloMosaic.PureOps.Ideal
import Idealize.ShloMosaic.Lib.ReduceAll
import Idealize.ShloMosaic.Lib.ValueIdx

namespace Cert.MLA.Fin

open Idealize.ShloMosaic
open Cert.Pre_finite_inputs_Kernel

instance subsingleton_scalarIdx : Subsingleton S_.Idx := ⟨fun a b => funext fun d => d.elim0⟩

theorem ofBits_inf : Ideal.ofBits .f32 0x7F800000#32 = (⊤ : EReal) := by
  simp [Ideal.ofBits, Ideal.ieee]

theorem exists_real_of_abs_lt_top (x : EReal) (h : max x (-x) < (⊤ : EReal)) : ∃ r : ℝ, x = (r : EReal) := by
  induction x using EReal.rec with
  | bot => simp at h
  | coe r => exact ⟨r, rfl⟩
  | top => simp at h

theorem exists_real_of_cmp (x : EReal)
    (h : Ideal.cmp .olt (max x (-x)) (Ideal.ofBits .f32 0x7F800000#32) = 1#1) : ∃ r : ℝ, x = (r : EReal) := by
  rw [ofBits_inf] at h
  have h' : BitVec.ofBool (decide (max x (-x) < (⊤ : EReal))) = 1#1 := h
  by_cases hlt : max x (-x) < (⊤ : EReal)
  · exact exists_real_of_abs_lt_top x hlt
  · rw [decide_eq_false hlt] at h'
    exact absurd h' (by decide)

theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1)
    (h : Host.reduce IntOp.andi
          (cmpf .olt (Host.absf a) (broadcastInDim s ![] hb (constant (F := Ideal) S_ .f32 0x7F800000#32)))
          init hr hu ValueIdx.ix0 = 1#1) :
    ∀ i : s.Idx, ∃ r : ℝ, a i = (r : EReal) := by
  intro i
  have hi := Host.reduce_andi_all _ init hr hu ValueIdx.ix0 h i
  exact exists_real_of_cmp (a i) hi

theorem real_of_pre [inst : Cert.Pre_finite_inputs_Kernel.Facts]
    (a0 : FVec Ideal S1x1024x2048 .f32) (a1 : FVec Ideal S2048x128 .f32) (a2 : FVec Ideal S128x2048 .f32)
    (a3 : FVec Ideal S128x2048 .f32) (a4 : FVec Ideal S2048x2048 .f32) (a5 : FVec Ideal S2048x512 .f32)
    (a6 : FVec Ideal S2048x32 .f32) (a7 : FVec Ideal S2048x2048 .f32)
    (h : Cert.Pre_finite_inputs_Kernel.fn (F := Ideal) a0 a1 a2 a3 a4 a5 a6 a7 = (fun _ => 1#1)) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) := by
  have h0 := congrFun h ValueIdx.ix0
  dsimp only [Cert.Pre_finite_inputs_Kernel.fn, Cert.Pre_finite_inputs_Kernel.fn_part1,
    Cert.Pre_finite_inputs_Kernel.fn_part2, Idealize.ShloMosaic.andi] at h0
  simp only [IntOp.andi_eq_one] at h0
  obtain ⟨⟨⟨⟨⟨⟨⟨h0, h1⟩, h2⟩, h3⟩, h4⟩, h5⟩, h6⟩, h7⟩ := h0
  exact ⟨all_real a0 _ _ _ _ h0, all_real a1 _ _ _ _ h1, all_real a2 _ _ _ _ h2, all_real a3 _ _ _ _ h3,
    all_real a4 _ _ _ _ h4, all_real a5 _ _ _ _ h5, all_real a6 _ _ _ _ h6, all_real a7 _ _ _ _ h7⟩

end Cert.MLA.Fin
-- ==== Proof.WholeReal.lean ====
import proofs.«900573_g7700000000000574_dist_mla_v7x_xyz2x2x2_z_b1_s1024_d2048_dc128_bf16_1_alg».proof.Defs
import proofs.«900573_g7700000000000574_dist_mla_v7x_xyz2x2x2_z_b1_s1024_d2048_dc128_bf16_1_alg».proof.Proof.Finite
import Idealize.ShloMosaic.Lib.Layout
import Idealize.ShloMosaic.PureOps.Ideal

namespace Cert.MLA.Fin

open Idealize.ShloMosaic Idealize.SL.Sem

theorem ieee_real (e m : Nat) {w : Nat} (b : BitVec w) (h : (b.extractLsb' m e).toNat ≠ 2 ^ e - 1) :
    ∃ r : ℝ, Ideal.ieee e m b = (r : EReal) := by
  dsimp only [Ideal.ieee]
  rw [if_neg h]
  by_cases h0 : (b.extractLsb' m e).toNat = 0
  · rw [if_pos h0]; exact ⟨_, rfl⟩
  · rw [if_neg h0]; exact ⟨_, rfl⟩

theorem scale_real : ∃ r : ℝ, Idealize.ShloMosaic.Ideal.ofBits .f32 0x3DA1E89B#32 = (r : EReal) :=
  ieee_real 8 23 (0x3DA1E89B#32 : BitVec 32) (by decide)

theorem whole_real_cols (W : (⟨2, ![2048, 256]⟩ : Shape).Idx → EReal)
    (B : Fin 8 → (⟨2, ![2048, 128]⟩ : Shape).Idx → EReal)
    (hB : ∀ c : Fin 8, B c = Layout.blockN ⟨2, ![2048, 128]⟩ ⟨2, ![2048, 256]⟩ (Layout.meshBlock [2, 2, 2] ![[], [2]] c) W)
    (hR : ∀ (c : Fin 8) (i : (⟨2, ![2048, 128]⟩ : Shape).Idx), ∃ r : ℝ, B c i = (r : EReal)) :
    ∀ i : (⟨2, ![2048, 256]⟩ : Shape).Idx, ∃ r : ℝ, W i = (r : EReal) := by
  intro i
  have h256 : (i 1).val < 256 := (i 1).isLt
  by_cases hlt : (i 1).val < 128
  · obtain ⟨r, hr⟩ := hR 0 (ValueIdx.ix2 (i 0) ⟨(i 1).val, hlt⟩)
    refine ⟨r, ?_⟩
    rw [hB 0, Layout.blockN_apply] at hr
    rw [← hr]
    congr 1
    funext d
    match d with
    | ⟨0, _⟩ =>
      apply Fin.ext
      show (i 0).val = 0 * 2048 + (i 0).val
      omega
    | ⟨1, _⟩ =>
      apply Fin.ext
      show (i 1).val = 0 * 128 + (i 1).val
      omega
  · obtain ⟨r, hr⟩ := hR 1 (ValueIdx.ix2 (i 0) ⟨(i 1).val - 128, by omega⟩)
    refine ⟨r, ?_⟩
    rw [hB 1, Layout.blockN_apply] at hr
    rw [← hr]
    congr 1
    funext d
    match d with
    | ⟨0, _⟩ =>
      apply Fin.ext
      show (i 0).val = 0 * 2048 + (i 0).val
      omega
    | ⟨1, _⟩ =>
      apply Fin.ext
      show (i 1).val = 1 * 128 + ((i 1).val - 128)
      omega

theorem whole_real_rows (W : (⟨2, ![256, 2048]⟩ : Shape).Idx → EReal)
    (B : Fin 8 → (⟨2, ![128, 2048]⟩ : Shape).Idx → EReal)
    (hB : ∀ c : Fin 8, B c = Layout.blockN ⟨2, ![128, 2048]⟩ ⟨2, ![256, 2048]⟩ (Layout.meshBlock [2, 2, 2] ![[2], []] c) W)
    (hR : ∀ (c : Fin 8) (i : (⟨2, ![128, 2048]⟩ : Shape).Idx), ∃ r : ℝ, B c i = (r : EReal)) :
    ∀ i : (⟨2, ![256, 2048]⟩ : Shape).Idx, ∃ r : ℝ, W i = (r : EReal) := by
  intro i
  have h256 : (i 0).val < 256 := (i 0).isLt
  by_cases hlt : (i 0).val < 128
  · obtain ⟨r, hr⟩ := hR 0 (ValueIdx.ix2 ⟨(i 0).val, hlt⟩ (i 1))
    refine ⟨r, ?_⟩
    rw [hB 0, Layout.blockN_apply] at hr
    rw [← hr]
    congr 1
    funext d
    match d with
    | ⟨0, _⟩ =>
      apply Fin.ext
      show (i 0).val = 0 * 128 + (i 0).val
      omega
    | ⟨1, _⟩ =>
      apply Fin.ext
      show (i 1).val = 0 * 2048 + (i 1).val
      omega
  · obtain ⟨r, hr⟩ := hR 1 (ValueIdx.ix2 ⟨(i 0).val - 128, by omega⟩ (i 1))
    refine ⟨r, ?_⟩
    rw [hB 1, Layout.blockN_apply] at hr
    rw [← hr]
    congr 1
    funext d
    match d with
    | ⟨0, _⟩ =>
      apply Fin.ext
      show (i 0).val = 1 * 128 + ((i 0).val - 128)
      omega
    | ⟨1, _⟩ =>
      apply Fin.ext
      show (i 1).val = 0 * 2048 + (i 1).val
      omega

theorem whole_real [hPre_finite_inputs_Kernel : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2, 2] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2, 2] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) :
    (∀ i : (⟨3, ![1, 1024, 2048]⟩ : Shape).Idx, ∃ r : ℝ, m' (((0 : Dev Cert.ReferenceIdeal.nD).tc : Thread Cert.ReferenceIdeal.nD Cert.ReferenceIdeal.τ).loc Cert.ReferenceIdeal.main_arg0) i = (r : EReal)) ∧
    (∀ i : (⟨2, ![2048, 256]⟩ : Shape).Idx, ∃ r : ℝ, m' (((0 : Dev Cert.ReferenceIdeal.nD).tc : Thread Cert.ReferenceIdeal.nD Cert.ReferenceIdeal.τ).loc Cert.ReferenceIdeal.main_arg1) i = (r : EReal)) ∧
    (∀ i : (⟨2, ![256, 2048]⟩ : Shape).Idx, ∃ r : ℝ, m' (((0 : Dev Cert.ReferenceIdeal.nD).tc : Thread Cert.ReferenceIdeal.nD Cert.ReferenceIdeal.τ).loc Cert.ReferenceIdeal.main_arg2) i = (r : EReal)) ∧
    (∀ i : (⟨2, ![256, 2048]⟩ : Shape).Idx, ∃ r : ℝ, m' (((0 : Dev Cert.ReferenceIdeal.nD).tc : Thread Cert.ReferenceIdeal.nD Cert.ReferenceIdeal.τ).loc Cert.ReferenceIdeal.main_arg3) i = (r : EReal)) ∧
    (∀ i : (⟨2, ![2048, 2048]⟩ : Shape).Idx, ∃ r : ℝ, m' (((0 : Dev Cert.ReferenceIdeal.nD).tc : Thread Cert.ReferenceIdeal.nD Cert.ReferenceIdeal.τ).loc Cert.ReferenceIdeal.main_arg4) i = (r : EReal)) ∧
    (∀ i : (⟨2, ![2048, 512]⟩ : Shape).Idx, ∃ r : ℝ, m' (((0 : Dev Cert.ReferenceIdeal.nD).tc : Thread Cert.ReferenceIdeal.nD Cert.ReferenceIdeal.τ).loc Cert.ReferenceIdeal.main_arg5) i = (r : EReal)) ∧
    (∀ i : (⟨2, ![2048, 32]⟩ : Shape).Idx, ∃ r : ℝ, m' (((0 : Dev Cert.ReferenceIdeal.nD).tc : Thread Cert.ReferenceIdeal.nD Cert.ReferenceIdeal.τ).loc Cert.ReferenceIdeal.main_arg6) i = (r : EReal)) ∧
    (∀ i : (⟨2, ![2048, 2048]⟩ : Shape).Idx, ∃ r : ℝ, m' (((0 : Dev Cert.ReferenceIdeal.nD).tc : Thread Cert.ReferenceIdeal.nD Cert.ReferenceIdeal.τ).loc Cert.ReferenceIdeal.main_arg7) i = (r : EReal)) := by
  have hdev : ∀ c : Dev Cert.KernelIdeal.nD, _ := fun c => real_of_pre _ _ _ _ _ _ _ _ (hpre c)
  obtain ⟨p0, -, -, -, p4, p5, p6, p7⟩ := hdev 0
  obtain ⟨e0, -, -, -, e4, e5, e6, e7⟩ := hagree 0
  refine ⟨?_, ?_, ?_, ?_, ?_, ?_, ?_, ?_⟩
  · intro i; rw [← e0]; exact p0 i
  · exact whole_real_cols _ (fun c : Dev Cert.KernelIdeal.nD => m ((c.tc : Thread Cert.KernelIdeal.nD Cert.KernelIdeal.τ).loc Cert.KernelIdeal.main_arg1)) (fun c => (hagree c).2.1) (fun c => (hdev c).2.1)
  · exact whole_real_rows _ (fun c : Dev Cert.KernelIdeal.nD => m ((c.tc : Thread Cert.KernelIdeal.nD Cert.KernelIdeal.τ).loc Cert.KernelIdeal.main_arg2)) (fun c => (hagree c).2.2.1) (fun c => (hdev c).2.2.1)
  · exact whole_real_rows _ (fun c : Dev Cert.KernelIdeal.nD => m ((c.tc : Thread Cert.KernelIdeal.nD Cert.KernelIdeal.τ).loc Cert.KernelIdeal.main_arg3)) (fun c => (hagree c).2.2.2.1) (fun c => (hdev c).2.2.2.1)
  · intro i; rw [← e4]; exact p4 i
  · intro i; rw [← e5]; exact p5 i
  · intro i; rw [← e6]; exact p6 i
  · intro i; rw [← e7]; exact p7 i

end Cert.MLA.Fin
-- ==== Proof.PayProj.lean ====
import proofs.«900573_g7700000000000574_dist_mla_v7x_xyz2x2x2_z_b1_s1024_d2048_dc128_bf16_1_alg».proof.Proof.Gen.KernelIdeal.Skeleton
import Idealize.ShloMosaic.Lib.ValueLayout
import Idealize.ShloMosaic.Lib.StackMember

noncomputable section

namespace Cert.MLA.Pay

open Idealize.ShloMosaic Idealize.ShloMosaic.ValueIdx Cert.KernelIdeal Cert.KernelIdeal.Gen
open scoped BigOperators

theorem matmul_plain_apply {M K N : Nat} {φ₁ φ₂ : FTy}
    (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (a : Fin M) (b : Fin N) :
    matmul D none A B (constant (F := Ideal) ⟨2, ![M, N]⟩ .f32 0x00000000#32) (ix2 a b)
      = ∑ c : Fin K, A (ix2 a c) * B (ix2 c b) := by
  subst hD
  rw [matmul_zero_eq_dotGeneral]
  exact StackMember.dotGeneral_plain_apply none A B a b

theorem cmpi_eq_zero_zero : Scalar.cmpi .eq (0#32) 0#32 = 1#1 := rfl
theorem cmpi_eq_one_zero : Scalar.cmpi .eq (1#32) 0#32 = 0#1 := rfl

theorem pay1_apply (v42 : Vec Ideal S128x2048 .f32) (i : S128x2048.Idx) :
    Gen.k0_pay1 (F := Ideal) v42 i = v42 i := by
  unfold Gen.k0_pay1
  simp only [truncf_apply, shapeCast_self]

theorem pay2_apply (v45 : Vec Ideal S128x2048 .f32) (i : S128x2048.Idx) :
    Gen.k0_pay2 (F := Ideal) v45 i = v45 i := by
  unfold Gen.k0_pay2
  simp only [truncf_apply, shapeCast_self]

theorem pay3_apply_zero (v8 : BitVec 32) (h8 : v8 = 0#32) (v42 : Vec Ideal S128x2048 .f32) (e : Fin 128) (j : Fin 1024) :
    Gen.k0_pay3 (F := Ideal) v8 v42 (ix2 e j) = v42 (ix2 e ⟨j.val, by omega⟩) := by
  subst h8
  unfold Gen.k0_pay3
  simp only [cmpi_eq_zero_zero, select_one]
  rw [slice2_axis1_apply 0 _ _ e j ⟨j.val, by omega⟩ (by simp), pay1_apply]

theorem pay3_apply_one (v8 : BitVec 32) (h8 : v8 = 1#32) (v42 : Vec Ideal S128x2048 .f32) (e : Fin 128) (j : Fin 1024) :
    Gen.k0_pay3 (F := Ideal) v8 v42 (ix2 e j) = v42 (ix2 e ⟨1024 + j.val, by omega⟩) := by
  subst h8
  unfold Gen.k0_pay3
  simp only [cmpi_eq_one_zero, select_zero]
  rw [slice2_axis1_apply 1024 _ _ e j ⟨1024 + j.val, by omega⟩ rfl, pay1_apply]

theorem pay4_apply_zero (v8 : BitVec 32) (h8 : v8 = 0#32) (v45 : Vec Ideal S128x2048 .f32) (e : Fin 128) (j : Fin 1024) :
    Gen.k0_pay4 (F := Ideal) v8 v45 (ix2 e j) = v45 (ix2 e ⟨j.val, by omega⟩) := by
  subst h8
  unfold Gen.k0_pay4
  simp only [cmpi_eq_zero_zero, select_one]
  rw [slice2_axis1_apply 0 _ _ e j ⟨j.val, by omega⟩ (by simp), pay2_apply]

theorem pay4_apply_one (v8 : BitVec 32) (h8 : v8 = 1#32) (v45 : Vec Ideal S128x2048 .f32) (e : Fin 128) (j : Fin 1024) :
    Gen.k0_pay4 (F := Ideal) v8 v45 (ix2 e j) = v45 (ix2 e ⟨1024 + j.val, by omega⟩) := by
  subst h8
  unfold Gen.k0_pay4
  simp only [cmpi_eq_one_zero, select_zero]
  rw [slice2_axis1_apply 1024 _ _ e j ⟨1024 + j.val, by omega⟩ rfl, pay2_apply]

theorem pay5_apply_zero (v8 : BitVec 32) (h8 : v8 = 0#32) (v42 : Vec Ideal S128x2048 .f32) (e : Fin 128) (j : Fin 1024) :
    Gen.k0_pay5 (F := Ideal) v8 v42 (ix2 e j) = v42 (ix2 e ⟨1024 + j.val, by omega⟩) := by
  subst h8
  unfold Gen.k0_pay5
  simp only [cmpi_eq_zero_zero, select_one, shapeCast_self]
  rw [slice2_axis1_apply 1024 _ _ e j ⟨1024 + j.val, by omega⟩ rfl, pay1_apply]

theorem pay5_apply_one (v8 : BitVec 32) (h8 : v8 = 1#32) (v42 : Vec Ideal S128x2048 .f32) (e : Fin 128) (j : Fin 1024) :
    Gen.k0_pay5 (F := Ideal) v8 v42 (ix2 e j) = v42 (ix2 e ⟨j.val, by omega⟩) := by
  subst h8
  unfold Gen.k0_pay5
  simp only [cmpi_eq_one_zero, select_zero, shapeCast_self]
  rw [slice2_axis1_apply 0 _ _ e j ⟨j.val, by omega⟩ (by simp), pay1_apply]

theorem pay6_apply_zero (v8 : BitVec 32) (h8 : v8 = 0#32) (v45 : Vec Ideal S128x2048 .f32) (e : Fin 128) (j : Fin 1024) :
    Gen.k0_pay6 (F := Ideal) v8 v45 (ix2 e j) = v45 (ix2 e ⟨1024 + j.val, by omega⟩) := by
  subst h8
  unfold Gen.k0_pay6
  simp only [cmpi_eq_zero_zero, select_one]
  rw [slice2_axis1_apply 1024 _ _ e j ⟨1024 + j.val, by omega⟩ rfl, pay2_apply]

theorem pay6_apply_one (v8 : BitVec 32) (h8 : v8 = 1#32) (v45 : Vec Ideal S128x2048 .f32) (e : Fin 128) (j : Fin 1024) :
    Gen.k0_pay6 (F := Ideal) v8 v45 (ix2 e j) = v45 (ix2 e ⟨j.val, by omega⟩) := by
  subst h8
  unfold Gen.k0_pay6
  simp only [cmpi_eq_one_zero, select_zero]
  rw [slice2_axis1_apply 0 _ _ e j ⟨j.val, by omega⟩ (by simp), pay2_apply]

theorem pay7_apply (v66 : FVec Ideal S128x1024 .bf16) (i : S128x1024.Idx) :
    Gen.k0_pay7 (F := Ideal) v66 i = v66 i := by
  unfold Gen.k0_pay7
  simp only [shapeCast_self]

theorem pay8_apply (v70 : Vec Ideal S1x1024x2048 .f32) (s : Fin 1024) (k : Fin 2048) :
    Gen.k0_pay8 (F := Ideal) v70 (ix2 s k) = v70 (ix3 (0 : Fin 1) s k) := by
  unfold Gen.k0_pay8
  simp only [truncf_apply]
  exact shapeCast_1ab_ab_apply _ _ s k

theorem pay11_apply (v83 : Vec Ideal S1x256x2048 .f32) (r : Fin 256) (k : Fin 2048) :
    Gen.k0_pay11 (F := Ideal) v83 (ix2 r k) = v83 (ix3 (0 : Fin 1) r k) := by
  unfold Gen.k0_pay11
  simp only [truncf_apply]
  exact shapeCast_1ab_ab_apply _ _ r k

theorem pay9_apply (v70 : Vec Ideal S1x1024x2048 .f32) (v73 : Vec Ideal S2048x128 .f32) (s : Fin 1024) (e : Fin 128) :
    Gen.k0_pay9 (F := Ideal) v70 v73 (ix2 s e) = ∑ k : Fin 2048, v70 (ix3 (0 : Fin 1) s k) * v73 (ix2 k e) := by
  unfold Gen.k0_pay9
  simp only [truncf_apply]
  rw [matmul_plain_apply dot_S1024x2048_S2048x128_S1024x128_1_0_0_1_n_n rfl]
  refine Finset.sum_congr rfl fun k _ => ?_
  rw [pay8_apply, truncf_apply, shapeCast_self]

theorem pay10_eq_pay9 (v70 : Vec Ideal S1x1024x2048 .f32) (v73 : Vec Ideal S2048x128 .f32) (i : S1024x128.Idx) :
    Gen.k0_pay10 (F := Ideal) v70 v73 i = Gen.k0_pay9 (F := Ideal) v70 v73 i := by
  unfold Gen.k0_pay10
  simp only [shapeCast_self]

theorem pay10_apply (v70 : Vec Ideal S1x1024x2048 .f32) (v73 : Vec Ideal S2048x128 .f32) (s : Fin 1024) (e : Fin 128) :
    Gen.k0_pay10 (F := Ideal) v70 v73 (ix2 s e) = ∑ k : Fin 2048, v70 (ix3 (0 : Fin 1) s k) * v73 (ix2 k e) := by
  rw [pay10_eq_pay9, pay9_apply]

theorem pay12_apply (v85 : FVec Ideal S256x2048 .bf16) (v102 v117 : Vec Ideal S1x512x1024 .f32) (r : Fin 256) (j : Fin 1024) :
    Gen.k0_pay12 (F := Ideal) v85 v102 v117 (ix2 r j)
      = (∑ k : Fin 512, v85 (ix2 r ⟨k.val, by omega⟩) * v102 (ix3 (0 : Fin 1) k j))
        + ∑ k : Fin 512, v85 (ix2 r ⟨512 + k.val, by omega⟩) * v117 (ix3 (0 : Fin 1) k j) := by
  unfold Gen.k0_pay12
  simp only [addf_apply]
  rw [matmul_plain_apply dot_S256x512_S512x1024_S256x1024_1_0_0_1_n_n rfl,
    matmul_plain_apply dot_S256x512_S512x1024_S256x1024_1_0_0_1_n_n rfl]
  congr 1
  · refine Finset.sum_congr rfl fun k _ => ?_
    rw [slice2_axis1_apply 0 _ _ r k ⟨k.val, by omega⟩ (by simp), truncf_apply, shapeCast_1ab_ab_apply]
  · refine Finset.sum_congr rfl fun k _ => ?_
    rw [slice2_axis1_apply 512 _ _ r k ⟨512 + k.val, by omega⟩ rfl, truncf_apply, shapeCast_1ab_ab_apply]

theorem pay13_apply (v85 : FVec Ideal S256x2048 .bf16) (v126 : FVec Ideal S256x1024 .f32)
    (v133 v144 : Vec Ideal S1x512x1024 .f32) (r : Fin 256) (j : Fin 1024) :
    Gen.k0_pay13 (F := Ideal) v85 v126 v133 v144 (ix2 r j)
      = v126 (ix2 r j)
        + (∑ k : Fin 512, v85 (ix2 r ⟨1024 + k.val, by omega⟩) * v133 (ix3 (0 : Fin 1) k j))
        + ∑ k : Fin 512, v85 (ix2 r ⟨1536 + k.val, by omega⟩) * v144 (ix3 (0 : Fin 1) k j) := by
  unfold Gen.k0_pay13
  simp only [truncf_apply, addf_apply]
  rw [matmul_plain_apply dot_S256x512_S512x1024_S256x1024_1_0_0_1_n_n rfl,
    matmul_plain_apply dot_S256x512_S512x1024_S256x1024_1_0_0_1_n_n rfl]
  congr 1
  · congr 1
    refine Finset.sum_congr rfl fun k _ => ?_
    rw [slice2_axis1_apply 1024 _ _ r k ⟨1024 + k.val, by omega⟩ rfl, truncf_apply, shapeCast_1ab_ab_apply]
  · refine Finset.sum_congr rfl fun k _ => ?_
    rw [slice2_axis1_apply 1536 _ _ r k ⟨1536 + k.val, by omega⟩ rfl, truncf_apply, shapeCast_1ab_ab_apply]

theorem pay13_pay12_apply (v85 : FVec Ideal S256x2048 .bf16) (v102 v117 v133 v144 : Vec Ideal S1x512x1024 .f32)
    (r : Fin 256) (j : Fin 1024) :
    Gen.k0_pay13 (F := Ideal) v85 (Gen.k0_pay12 (F := Ideal) v85 v102 v117) v133 v144 (ix2 r j)
      = (∑ k : Fin 512, v85 (ix2 r ⟨k.val, by omega⟩) * v102 (ix3 (0 : Fin 1) k j))
        + (∑ k : Fin 512, v85 (ix2 r ⟨512 + k.val, by omega⟩) * v117 (ix3 (0 : Fin 1) k j))
        + (∑ k : Fin 512, v85 (ix2 r ⟨1024 + k.val, by omega⟩) * v133 (ix3 (0 : Fin 1) k j))
        + ∑ k : Fin 512, v85 (ix2 r ⟨1536 + k.val, by omega⟩) * v144 (ix3 (0 : Fin 1) k j) := by
  rw [pay13_apply, pay12_apply]

theorem pay14_apply_zero (v8 : BitVec 32) (h8 : v8 = 0#32) (v85 : FVec Ideal S256x2048 .bf16)
    (v180 : Vec Ideal S2048x512 .f32) (r : Fin 256) (c : Fin 256) :
    Gen.k0_pay14 (F := Ideal) v8 v85 v180 (ix2 r c)
      = ∑ k : Fin 2048, v85 (ix2 r k) * v180 (ix2 k ⟨c.val, by omega⟩) := by
  subst h8
  unfold Gen.k0_pay14
  simp only [truncf_apply, cmpi_eq_zero_zero, select_one]
  rw [matmul_plain_apply dot_S256x2048_S2048x256_S256x256_1_0_0_1_n_n rfl]
  refine Finset.sum_congr rfl fun k _ => ?_
  rw [slice2_axis1_apply 0 _ _ k c ⟨c.val, by omega⟩ (by simp), truncf_apply, shapeCast_self]

theorem pay14_apply_one (v8 : BitVec 32) (h8 : v8 = 1#32) (v85 : FVec Ideal S256x2048 .bf16)
    (v180 : Vec Ideal S2048x512 .f32) (r : Fin 256) (c : Fin 256) :
    Gen.k0_pay14 (F := Ideal) v8 v85 v180 (ix2 r c)
      = ∑ k : Fin 2048, v85 (ix2 r k) * v180 (ix2 k ⟨256 + c.val, by omega⟩) := by
  subst h8
  unfold Gen.k0_pay14
  simp only [truncf_apply, cmpi_eq_one_zero, select_zero]
  rw [matmul_plain_apply dot_S256x2048_S2048x256_S256x256_1_0_0_1_n_n rfl]
  refine Finset.sum_congr rfl fun k _ => ?_
  rw [slice2_axis1_apply 256 _ _ k c ⟨256 + c.val, by omega⟩ rfl, truncf_apply, shapeCast_self]

theorem pay15_apply (v72 : FVec Ideal S1024x2048 .bf16) (v189 : Vec Ideal S2048x32 .f32) (t : Fin 1024) (r : Fin 32) :
    Gen.k0_pay15 (F := Ideal) v72 v189 (ix2 t r) = ∑ k : Fin 2048, v72 (ix2 t k) * v189 (ix2 k r) := by
  unfold Gen.k0_pay15
  simp only [truncf_apply]
  rw [matmul_plain_apply dot_S1024x2048_S2048x32_S1024x32_1_0_0_1_n_n rfl]
  refine Finset.sum_congr rfl fun k _ => ?_
  rw [truncf_apply, shapeCast_self]

theorem pay16_apply (v51 : FVec Ideal S128x1024 .bf16) (v77 : FVec Ideal S1024x128 .bf16) (t : Fin 1024) (j : Fin 1024) :
    Gen.k0_pay16 (F := Ideal) v51 v77 (ix2 t j) = ∑ e : Fin 128, v77 (ix2 t e) * v51 (ix2 e j) := by
  unfold Gen.k0_pay16
  exact matmul_plain_apply dot_S1024x128_S128x1024_S1024x1024_1_0_0_1_n_n rfl v77 v51 t j

theorem pay17_apply (v55 : FVec Ideal S128x1024 .bf16) (v77 : FVec Ideal S1024x128 .bf16) (t : Fin 1024) (j : Fin 1024) :
    Gen.k0_pay17 (F := Ideal) v55 v77 (ix2 t j) = ∑ e : Fin 128, v77 (ix2 t e) * v55 (ix2 e j) := by
  unfold Gen.k0_pay17
  exact matmul_plain_apply dot_S1024x128_S128x1024_S1024x1024_1_0_0_1_n_n rfl v77 v55 t j

theorem pay18_apply (v194 : FVec Ideal S1024x1024 .f32) (v226 : Vec Ideal S1024x128 .bf16) (v227 : Vec Ideal S128x1024 .bf16)
    (t : Fin 1024) (j : Fin 1024) :
    Gen.k0_pay18 (F := Ideal) v194 v226 v227 (ix2 t j)
      = v194 (ix2 t j) + ∑ e : Fin 128, v226 (ix2 t e) * v227 (ix2 e j) := by
  unfold Gen.k0_pay18
  simp only [truncf_apply, addf_apply]
  rw [matmul_plain_apply dot_S1024x128_S128x1024_S1024x1024_1_0_0_1_n_n rfl]

theorem pay19_apply (v195 : FVec Ideal S1024x1024 .f32) (v226 : Vec Ideal S1024x128 .bf16) (v231 : Vec Ideal S128x1024 .bf16)
    (t : Fin 1024) (j : Fin 1024) :
    Gen.k0_pay19 (F := Ideal) v195 v226 v231 (ix2 t j)
      = v195 (ix2 t j) + ∑ e : Fin 128, v226 (ix2 t e) * v231 (ix2 e j) := by
  unfold Gen.k0_pay19
  simp only [truncf_apply, addf_apply]
  rw [matmul_plain_apply dot_S1024x128_S128x1024_S1024x1024_1_0_0_1_n_n rfl]

theorem pay18_pay16_apply (v51 : FVec Ideal S128x1024 .bf16) (v77 : FVec Ideal S1024x128 .bf16)
    (v226 : Vec Ideal S1024x128 .bf16) (v227 : Vec Ideal S128x1024 .bf16) (t : Fin 1024) (j : Fin 1024) :
    Gen.k0_pay18 (F := Ideal) (Gen.k0_pay16 (F := Ideal) v51 v77) v226 v227 (ix2 t j)
      = (∑ e : Fin 128, v77 (ix2 t e) * v51 (ix2 e j)) + ∑ e : Fin 128, v226 (ix2 t e) * v227 (ix2 e j) := by
  rw [pay18_apply, pay16_apply]

theorem pay19_pay17_apply (v55 : FVec Ideal S128x1024 .bf16) (v77 : FVec Ideal S1024x128 .bf16)
    (v226 : Vec Ideal S1024x128 .bf16) (v231 : Vec Ideal S128x1024 .bf16) (t : Fin 1024) (j : Fin 1024) :
    Gen.k0_pay19 (F := Ideal) (Gen.k0_pay17 (F := Ideal) v55 v77) v226 v231 (ix2 t j)
      = (∑ e : Fin 128, v77 (ix2 t e) * v55 (ix2 e j)) + ∑ e : Fin 128, v226 (ix2 t e) * v231 (ix2 e j) := by
  rw [pay19_apply, pay17_apply]

end Cert.MLA.Pay

end
-- ==== Proof.SpecLaws.lean ====
import proofs.«900573_g7700000000000574_dist_mla_v7x_xyz2x2x2_z_b1_s1024_d2048_dc128_bf16_1_alg».proof.Proof.Spec
import Mathlib.Algebra.BigOperators.Fin
import Mathlib.Data.EReal.Operations

noncomputable section

namespace Cert.MLA

open scoped BigOperators

def IsReal (a : EReal) : Prop := ∃ r : ℝ, a = (r : EReal)

theorem IsReal.coe (r : ℝ) : IsReal (r : EReal) := ⟨r, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.zero : IsReal (0 : EReal) := ⟨0, EReal.coe_zero.symm⟩

theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

theorem mm_real {I K J : Type} [Fintype K] (a : I → K → EReal) (b : K → J → EReal)
    (ha : ∀ i k, IsReal (a i k)) (hb : ∀ k j, IsReal (b k j)) (i : I) (j : J) : IsReal (mm a b i j) :=
  IsReal.sum _ _ fun k _ => (ha i k).mul (hb k j)

theorem sum_heads_split (f : Fin 16 → EReal) :
    ∑ h : Fin 16, f h = (∑ hl : Fin 8, f ⟨hl.val, by omega⟩) + (∑ hl : Fin 8, f ⟨8 + hl.val, by omega⟩) := by
  have := Fin.sum_univ_add (M := EReal) (a := 8) (b := 8) (fun i : Fin (8 + 8) => f ⟨i.val, by omega⟩)
  simpa [Fin.castAdd, Fin.natAdd] using this

theorem sum_lat_split (f : Fin 256 → EReal) :
    ∑ e : Fin 256, f e = (∑ e : Fin 128, f ⟨e.val, by omega⟩) + (∑ e : Fin 128, f ⟨128 + e.val, by omega⟩) := by
  have := Fin.sum_univ_add (M := EReal) (a := 128) (b := 128) (fun i : Fin (128 + 128) => f ⟨i.val, by omega⟩)
  simpa [Fin.castAdd, Fin.natAdd] using this

section
variable (x : Fin 1024 → Fin 2048 → EReal) (wdkv : Fin 2048 → Fin 256 → EReal)
  (wuk wuv : Fin 256 → Fin 2048 → EReal) (wq : Fin 2048 → Fin 2048 → EReal) (wqr : Fin 2048 → Fin 512 → EReal)
  (wkr : Fin 2048 → Fin 32 → EReal) (wo : Fin 2048 → Fin 2048 → EReal) (σ : EReal)

theorem score_real (hx : ∀ s k, IsReal (x s k)) (hd : ∀ k e, IsReal (wdkv k e)) (hk : ∀ e j, IsReal (wuk e j))
    (hq : ∀ k j, IsReal (wq k j)) (hqr : ∀ k j, IsReal (wqr k j)) (hkr : ∀ k r, IsReal (wkr k r)) (hσ : IsReal σ)
    (h : Fin 16) (s t : Fin 1024) : IsReal (score x wdkv wuk wq wqr wkr σ h s t) := by
  unfold score
  refine IsReal.mul (IsReal.add (IsReal.sum _ _ fun d _ => ?_) (IsReal.sum _ _ fun r _ => ?_)) hσ
  · exact (mm_real x wq hx hq _ _).mul (mm_real _ wuk (mm_real x wdkv hx hd) hk _ _)
  · exact (mm_real x wqr hx hqr _ _).mul (mm_real x wkr hx hkr _ _)

theorem vals_real (hx : ∀ s k, IsReal (x s k)) (hd : ∀ k e, IsReal (wdkv k e)) (hv : ∀ e j, IsReal (wuv e j))
    (t : Fin 1024) (j : Fin 2048) : IsReal (vals x wdkv wuv t j) :=
  mm_real _ wuv (mm_real x wdkv hx hd) hv t j

end

end Cert.MLA

end
-- ==== Proof.ProjGlue.lean ====
import proofs.«900573_g7700000000000574_dist_mla_v7x_xyz2x2x2_z_b1_s1024_d2048_dc128_bf16_1_alg».proof.Proof.PayProj
import proofs.«900573_g7700000000000574_dist_mla_v7x_xyz2x2x2_z_b1_s1024_d2048_dc128_bf16_1_alg».proof.Proof.Spec
import proofs.«900573_g7700000000000574_dist_mla_v7x_xyz2x2x2_z_b1_s1024_d2048_dc128_bf16_1_alg».proof.Proof.SpecLaws

noncomputable section

namespace Cert.MLA.Glue

open Idealize.ShloMosaic Idealize.ShloMosaic.ValueIdx Cert.KernelIdeal Cert.KernelIdeal.Gen Cert.MLA Cert.MLA.Pay
open scoped BigOperators

theorem sum_split_at {M : Type*} [AddCommMonoid M] {n : ℕ} (a b : ℕ) (h : n = a + b) (f : Fin n → M) :
    ∑ k, f k = (∑ k : Fin a, f ⟨k.val, by omega⟩) + ∑ k : Fin b, f ⟨a + k.val, by omega⟩ := by
  subst h
  rw [Fin.sum_univ_add]
  rfl

theorem sum_2048_four (f : Fin 2048 → EReal) :
    ∑ k, f k = (∑ k : Fin 512, f ⟨k.val, by omega⟩) + (∑ k : Fin 512, f ⟨512 + k.val, by omega⟩)
      + (∑ k : Fin 512, f ⟨1024 + k.val, by omega⟩) + ∑ k : Fin 512, f ⟨1536 + k.val, by omega⟩ := by
  refine (sum_split_at 1024 1024 rfl f).trans ?_
  refine (congrArg₂ (· + ·) (sum_split_at 512 512 rfl (fun k : Fin 1024 => f ⟨k.val, by omega⟩))
    (sum_split_at 512 512 rfl (fun k : Fin 1024 => f ⟨1024 + k.val, by omega⟩))).trans ?_
  rw [← add_assoc]
  refine congrArg₂ (· + ·) rfl ?_
  exact Finset.sum_congr rfl fun k _ => congrArg f (Fin.ext (by
    show 1024 + (512 + k.val) = 1536 + k.val
    omega))

theorem sum_halves (z zb : Fin 2) (hzb : zb.val = 1 - z.val) (f : Fin 256 → EReal) :
    (∑ e : Fin 128, f ⟨128 * z.val + e.val, by omega⟩) + (∑ e : Fin 128, f ⟨128 * zb.val + e.val, by omega⟩)
      = ∑ e : Fin 256, f e := by
  rw [sum_lat_split f]
  have hz : z.val = 0 ∨ z.val = 1 := by omega
  rcases hz with hz | hz
  · have hb : zb.val = 1 := by omega
    refine congrArg₂ (· + ·) ?_ ?_ <;>
      exact Finset.sum_congr rfl fun e _ => congrArg f (Fin.ext (by (try simp only [Fin.val_mk]); omega))
  · have hb : zb.val = 0 := by omega
    rw [add_comm]
    refine congrArg₂ (· + ·) ?_ ?_ <;>
      exact Finset.sum_congr rfl fun e _ => congrArg f (Fin.ext (by (try simp only [Fin.val_mk]); omega))

theorem pay3_sel (z : Fin 2) (v8 : BitVec 32) (hv8 : v8 = BitVec.ofNat 32 z.val) (v42 : Vec Ideal S128x2048 .f32)
    (e : Fin 128) (j : Fin 1024) :
    Gen.k0_pay3 (F := Ideal) v8 v42 (ix2 e j) = v42 (ix2 e ⟨1024 * z.val + j.val, by omega⟩) := by
  have hz : z.val = 0 ∨ z.val = 1 := by omega
  rcases hz with hz | hz
  · rw [pay3_apply_zero v8 (by rw [hv8, hz]) v42 e j]
    exact congrArg (fun c => v42 (ix2 e c)) (Fin.ext (by (try simp only [Fin.val_mk]); omega))
  · rw [pay3_apply_one v8 (by rw [hv8, hz]) v42 e j]
    exact congrArg (fun c => v42 (ix2 e c)) (Fin.ext (by (try simp only [Fin.val_mk]); omega))

theorem pay4_sel (z : Fin 2) (v8 : BitVec 32) (hv8 : v8 = BitVec.ofNat 32 z.val) (v45 : Vec Ideal S128x2048 .f32)
    (e : Fin 128) (j : Fin 1024) :
    Gen.k0_pay4 (F := Ideal) v8 v45 (ix2 e j) = v45 (ix2 e ⟨1024 * z.val + j.val, by omega⟩) := by
  have hz : z.val = 0 ∨ z.val = 1 := by omega
  rcases hz with hz | hz
  · rw [pay4_apply_zero v8 (by rw [hv8, hz]) v45 e j]
    exact congrArg (fun c => v45 (ix2 e c)) (Fin.ext (by (try simp only [Fin.val_mk]); omega))
  · rw [pay4_apply_one v8 (by rw [hv8, hz]) v45 e j]
    exact congrArg (fun c => v45 (ix2 e c)) (Fin.ext (by (try simp only [Fin.val_mk]); omega))

theorem pay5_sel (z zb : Fin 2) (hzb : zb.val = 1 - z.val) (v8' : BitVec 32) (hv8' : v8' = BitVec.ofNat 32 zb.val)
    (v42' : Vec Ideal S128x2048 .f32) (e : Fin 128) (j : Fin 1024) :
    Gen.k0_pay5 (F := Ideal) v8' v42' (ix2 e j) = v42' (ix2 e ⟨1024 * z.val + j.val, by omega⟩) := by
  have hz : zb.val = 0 ∨ zb.val = 1 := by omega
  rcases hz with hz | hz
  · rw [pay5_apply_zero v8' (by rw [hv8', hz]) v42' e j]
    exact congrArg (fun c => v42' (ix2 e c)) (Fin.ext (by (try simp only [Fin.val_mk]); omega))
  · rw [pay5_apply_one v8' (by rw [hv8', hz]) v42' e j]
    exact congrArg (fun c => v42' (ix2 e c)) (Fin.ext (by (try simp only [Fin.val_mk]); omega))

theorem pay6_sel (z zb : Fin 2) (hzb : zb.val = 1 - z.val) (v8' : BitVec 32) (hv8' : v8' = BitVec.ofNat 32 zb.val)
    (v45' : Vec Ideal S128x2048 .f32) (e : Fin 128) (j : Fin 1024) :
    Gen.k0_pay6 (F := Ideal) v8' v45' (ix2 e j) = v45' (ix2 e ⟨1024 * z.val + j.val, by omega⟩) := by
  have hz : zb.val = 0 ∨ zb.val = 1 := by omega
  rcases hz with hz | hz
  · rw [pay6_apply_zero v8' (by rw [hv8', hz]) v45' e j]
    exact congrArg (fun c => v45' (ix2 e c)) (Fin.ext (by (try simp only [Fin.val_mk]); omega))
  · rw [pay6_apply_one v8' (by rw [hv8', hz]) v45' e j]
    exact congrArg (fun c => v45' (ix2 e c)) (Fin.ext (by (try simp only [Fin.val_mk]); omega))

theorem pay14_sel (z : Fin 2) (v8 : BitVec 32) (hv8 : v8 = BitVec.ofNat 32 z.val) (v85 : FVec Ideal S256x2048 .bf16)
    (v180 : Vec Ideal S2048x512 .f32) (r : Fin 256) (c : Fin 256) :
    Gen.k0_pay14 (F := Ideal) v8 v85 v180 (ix2 r c)
      = ∑ k : Fin 2048, v85 (ix2 r k) * v180 (ix2 k ⟨256 * z.val + c.val, by omega⟩) := by
  have hz : z.val = 0 ∨ z.val = 1 := by omega
  rcases hz with hz | hz
  · rw [pay14_apply_zero v8 (by rw [hv8, hz]) v85 v180 r c]
    exact Finset.sum_congr rfl fun k _ => congrArg (fun c' => v85 (ix2 r k) * v180 (ix2 k c'))
      (Fin.ext (by (try simp only [Fin.val_mk]); omega))
  · rw [pay14_apply_one v8 (by rw [hv8, hz]) v85 v180 r c]
    exact Finset.sum_congr rfl fun k _ => congrArg (fun c' => v85 (ix2 r k) * v180 (ix2 k c'))
      (Fin.ext (by (try simp only [Fin.val_mk]); omega))

theorem latBlk (z : Fin 2) (X : Fin 1024 → Fin 2048 → EReal) (Wdkv : Fin 2048 → Fin 256 → EReal)
    (v70 : Vec Ideal S1x1024x2048 .f32) (v73 : Vec Ideal S2048x128 .f32)
    (h70 : ∀ (s : Fin 1024) (k : Fin 2048), v70 (ix3 (0 : Fin 1) s k) = X s k)
    (h73 : ∀ (k : Fin 2048) (e : Fin 128), v73 (ix2 k e) = Wdkv k ⟨128 * z.val + e.val, by omega⟩)
    (s : Fin 1024) (e : Fin 128) :
    Gen.k0_pay9 (F := Ideal) v70 v73 (ix2 s e) = lat X Wdkv s ⟨128 * z.val + e.val, by omega⟩ := by
  rw [pay9_apply]
  unfold lat mm
  exact Finset.sum_congr rfl fun k _ => by rw [h70, h73]

theorem latBlk10 (z : Fin 2) (X : Fin 1024 → Fin 2048 → EReal) (Wdkv : Fin 2048 → Fin 256 → EReal)
    (v70 : Vec Ideal S1x1024x2048 .f32) (v73 : Vec Ideal S2048x128 .f32)
    (h70 : ∀ (s : Fin 1024) (k : Fin 2048), v70 (ix3 (0 : Fin 1) s k) = X s k)
    (h73 : ∀ (k : Fin 2048) (e : Fin 128), v73 (ix2 k e) = Wdkv k ⟨128 * z.val + e.val, by omega⟩)
    (s : Fin 1024) (e : Fin 128) :
    Gen.k0_pay10 (F := Ideal) v70 v73 (ix2 s e) = lat X Wdkv s ⟨128 * z.val + e.val, by omega⟩ := by
  rw [pay10_eq_pay9]
  exact latBlk z X Wdkv v70 v73 h70 h73 s e

theorem kHalf (z zb : Fin 2) (hzb : zb.val = 1 - z.val)
    (X : Fin 1024 → Fin 2048 → EReal) (Wdkv : Fin 2048 → Fin 256 → EReal) (Wuk : Fin 256 → Fin 2048 → EReal)
    (v8 v8' : BitVec 32) (hv8 : v8 = BitVec.ofNat 32 z.val) (hv8' : v8' = BitVec.ofNat 32 zb.val)
    (v70 : Vec Ideal S1x1024x2048 .f32) (v73 v73' : Vec Ideal S2048x128 .f32) (v42 v42' : Vec Ideal S128x2048 .f32)
    (h70 : ∀ (s : Fin 1024) (k : Fin 2048), v70 (ix3 (0 : Fin 1) s k) = X s k)
    (h73 : ∀ (k : Fin 2048) (e : Fin 128), v73 (ix2 k e) = Wdkv k ⟨128 * z.val + e.val, by omega⟩)
    (h73' : ∀ (k : Fin 2048) (e : Fin 128), v73' (ix2 k e) = Wdkv k ⟨128 * zb.val + e.val, by omega⟩)
    (h42 : ∀ (e : Fin 128) (j : Fin 2048), v42 (ix2 e j) = Wuk ⟨128 * z.val + e.val, by omega⟩ j)
    (h42' : ∀ (e : Fin 128) (j : Fin 2048), v42' (ix2 e j) = Wuk ⟨128 * zb.val + e.val, by omega⟩ j)
    (t : Fin 1024) (j : Fin 1024) :
    Gen.k0_pay18 (F := Ideal)
        (Gen.k0_pay16 (F := Ideal) (Gen.k0_pay3 (F := Ideal) v8 v42) (Gen.k0_pay9 (F := Ideal) v70 v73))
        (Gen.k0_pay10 (F := Ideal) v70 v73') (Gen.k0_pay5 (F := Ideal) v8' v42') (ix2 t j)
      = keys X Wdkv Wuk t ⟨1024 * z.val + j.val, by omega⟩ := by
  rw [pay18_pay16_apply]
  have A : ∀ e : Fin 128, Gen.k0_pay9 (F := Ideal) v70 v73 (ix2 t e) * Gen.k0_pay3 (F := Ideal) v8 v42 (ix2 e j)
      = lat X Wdkv t ⟨128 * z.val + e.val, by omega⟩
        * Wuk ⟨128 * z.val + e.val, by omega⟩ ⟨1024 * z.val + j.val, by omega⟩ := fun e => by
    rw [latBlk z X Wdkv v70 v73 h70 h73 t e, pay3_sel z v8 hv8 v42 e j, h42]
  have B : ∀ e : Fin 128, Gen.k0_pay10 (F := Ideal) v70 v73' (ix2 t e) * Gen.k0_pay5 (F := Ideal) v8' v42' (ix2 e j)
      = lat X Wdkv t ⟨128 * zb.val + e.val, by omega⟩
        * Wuk ⟨128 * zb.val + e.val, by omega⟩ ⟨1024 * z.val + j.val, by omega⟩ := fun e => by
    rw [latBlk10 zb X Wdkv v70 v73' h70 h73' t e, pay5_sel z zb hzb v8' hv8' v42' e j, h42']
  rw [Finset.sum_congr rfl fun e _ => A e, Finset.sum_congr rfl fun e _ => B e]
  unfold keys mm
  exact sum_halves z zb hzb fun e => lat X Wdkv t e * Wuk e ⟨1024 * z.val + j.val, by omega⟩

theorem vHalf (z zb : Fin 2) (hzb : zb.val = 1 - z.val)
    (X : Fin 1024 → Fin 2048 → EReal) (Wdkv : Fin 2048 → Fin 256 → EReal) (Wuv : Fin 256 → Fin 2048 → EReal)
    (v8 v8' : BitVec 32) (hv8 : v8 = BitVec.ofNat 32 z.val) (hv8' : v8' = BitVec.ofNat 32 zb.val)
    (v70 : Vec Ideal S1x1024x2048 .f32) (v73 v73' : Vec Ideal S2048x128 .f32) (v45 v45' : Vec Ideal S128x2048 .f32)
    (h70 : ∀ (s : Fin 1024) (k : Fin 2048), v70 (ix3 (0 : Fin 1) s k) = X s k)
    (h73 : ∀ (k : Fin 2048) (e : Fin 128), v73 (ix2 k e) = Wdkv k ⟨128 * z.val + e.val, by omega⟩)
    (h73' : ∀ (k : Fin 2048) (e : Fin 128), v73' (ix2 k e) = Wdkv k ⟨128 * zb.val + e.val, by omega⟩)
    (h45 : ∀ (e : Fin 128) (j : Fin 2048), v45 (ix2 e j) = Wuv ⟨128 * z.val + e.val, by omega⟩ j)
    (h45' : ∀ (e : Fin 128) (j : Fin 2048), v45' (ix2 e j) = Wuv ⟨128 * zb.val + e.val, by omega⟩ j)
    (t : Fin 1024) (j : Fin 1024) :
    Gen.k0_pay19 (F := Ideal)
        (Gen.k0_pay17 (F := Ideal) (Gen.k0_pay4 (F := Ideal) v8 v45) (Gen.k0_pay9 (F := Ideal) v70 v73))
        (Gen.k0_pay10 (F := Ideal) v70 v73') (Gen.k0_pay7 (F := Ideal) (Gen.k0_pay6 (F := Ideal) v8' v45')) (ix2 t j)
      = vals X Wdkv Wuv t ⟨1024 * z.val + j.val, by omega⟩ := by
  rw [pay19_pay17_apply]
  have A : ∀ e : Fin 128, Gen.k0_pay9 (F := Ideal) v70 v73 (ix2 t e) * Gen.k0_pay4 (F := Ideal) v8 v45 (ix2 e j)
      = lat X Wdkv t ⟨128 * z.val + e.val, by omega⟩
        * Wuv ⟨128 * z.val + e.val, by omega⟩ ⟨1024 * z.val + j.val, by omega⟩ := fun e => by
    rw [latBlk z X Wdkv v70 v73 h70 h73 t e, pay4_sel z v8 hv8 v45 e j, h45]
  have B : ∀ e : Fin 128, Gen.k0_pay10 (F := Ideal) v70 v73' (ix2 t e)
        * Gen.k0_pay7 (F := Ideal) (Gen.k0_pay6 (F := Ideal) v8' v45') (ix2 e j)
      = lat X Wdkv t ⟨128 * zb.val + e.val, by omega⟩
        * Wuv ⟨128 * zb.val + e.val, by omega⟩ ⟨1024 * z.val + j.val, by omega⟩ := fun e => by
    rw [latBlk10 zb X Wdkv v70 v73' h70 h73' t e, pay7_apply, pay6_sel z zb hzb v8' hv8' v45' e j, h45']
  rw [Finset.sum_congr rfl fun e _ => A e, Finset.sum_congr rfl fun e _ => B e]
  unfold vals mm
  exact sum_halves z zb hzb fun e => lat X Wdkv t e * Wuv e ⟨1024 * z.val + j.val, by omega⟩

theorem qBlk (z : Fin 2) (b : Fin 4) (X : Fin 1024 → Fin 2048 → EReal) (Wq : Fin 2048 → Fin 2048 → EReal)
    (v83 : Vec Ideal S1x256x2048 .f32) (v102 v117 v133 v144 : Vec Ideal S1x512x1024 .f32)
    (h83 : ∀ (r : Fin 256) (k : Fin 2048), v83 (ix3 (0 : Fin 1) r k) = X ⟨256 * b.val + r.val, by omega⟩ k)
    (h102 : ∀ (k : Fin 512) (j : Fin 1024),
      v102 (ix3 (0 : Fin 1) k j) = Wq ⟨k.val, by omega⟩ ⟨1024 * z.val + j.val, by omega⟩)
    (h117 : ∀ (k : Fin 512) (j : Fin 1024),
      v117 (ix3 (0 : Fin 1) k j) = Wq ⟨512 + k.val, by omega⟩ ⟨1024 * z.val + j.val, by omega⟩)
    (h133 : ∀ (k : Fin 512) (j : Fin 1024),
      v133 (ix3 (0 : Fin 1) k j) = Wq ⟨1024 + k.val, by omega⟩ ⟨1024 * z.val + j.val, by omega⟩)
    (h144 : ∀ (k : Fin 512) (j : Fin 1024),
      v144 (ix3 (0 : Fin 1) k j) = Wq ⟨1536 + k.val, by omega⟩ ⟨1024 * z.val + j.val, by omega⟩)
    (r : Fin 256) (j : Fin 1024) :
    Gen.k0_pay13 (F := Ideal) (Gen.k0_pay11 (F := Ideal) v83)
        (Gen.k0_pay12 (F := Ideal) (Gen.k0_pay11 (F := Ideal) v83) v102 v117) v133 v144 (ix2 r j)
      = qry X Wq ⟨256 * b.val + r.val, by omega⟩ ⟨1024 * z.val + j.val, by omega⟩ := by
  rw [pay13_pay12_apply]
  have e0 : ∀ K : Fin 2048, Gen.k0_pay11 (F := Ideal) v83 (ix2 r K) = X ⟨256 * b.val + r.val, by omega⟩ K :=
    fun K => (pay11_apply v83 r K).trans (h83 r K)
  simp only [e0, h102, h117, h133, h144]
  unfold qry mm
  exact (sum_2048_four fun k => X ⟨256 * b.val + r.val, by omega⟩ k * Wq k ⟨1024 * z.val + j.val, by omega⟩).symm

theorem qrBlk (z : Fin 2) (b : Fin 4) (X : Fin 1024 → Fin 2048 → EReal) (Wqr : Fin 2048 → Fin 512 → EReal)
    (v8 : BitVec 32) (hv8 : v8 = BitVec.ofNat 32 z.val)
    (v83 : Vec Ideal S1x256x2048 .f32) (v180 : Vec Ideal S2048x512 .f32)
    (h83 : ∀ (r : Fin 256) (k : Fin 2048), v83 (ix3 (0 : Fin 1) r k) = X ⟨256 * b.val + r.val, by omega⟩ k)
    (h180 : ∀ (k : Fin 2048) (c : Fin 512), v180 (ix2 k c) = Wqr k c)
    (r : Fin 256) (c : Fin 256) :
    Gen.k0_pay14 (F := Ideal) v8 (Gen.k0_pay11 (F := Ideal) v83) v180 (ix2 r c)
      = qrot X Wqr ⟨256 * b.val + r.val, by omega⟩ ⟨256 * z.val + c.val, by omega⟩ := by
  rw [pay14_sel z v8 hv8]
  unfold qrot mm
  exact Finset.sum_congr rfl fun k _ => by rw [pay11_apply, h83, h180]

theorem krAll (X : Fin 1024 → Fin 2048 → EReal) (Wkr : Fin 2048 → Fin 32 → EReal)
    (v70 : Vec Ideal S1x1024x2048 .f32) (v189 : Vec Ideal S2048x32 .f32)
    (h70 : ∀ (s : Fin 1024) (k : Fin 2048), v70 (ix3 (0 : Fin 1) s k) = X s k)
    (h189 : ∀ (k : Fin 2048) (r : Fin 32), v189 (ix2 k r) = Wkr k r)
    (t : Fin 1024) (r : Fin 32) :
    Gen.k0_pay15 (F := Ideal) (Gen.k0_pay8 (F := Ideal) v70) v189 (ix2 t r) = krot X Wkr t r := by
  rw [pay15_apply]
  unfold krot mm
  exact Finset.sum_congr rfl fun k _ => by rw [pay8_apply, h70, h189]

end Cert.MLA.Glue

end
-- ==== Proof.SoftmaxAlg.lean ====
import Idealize.ShloMosaic.PureOps.Ideal
import Mathlib.Data.EReal.Inv
import Mathlib.Analysis.Complex.Exponential
import Mathlib.Algebra.BigOperators.Fin
import Mathlib.Algebra.Order.BigOperators.Group.Finset
import Mathlib.Data.Finset.Fold
import Mathlib.Data.Finset.Lattice.Fold

namespace Cert.MLA.Alg

open Idealize.ShloMosaic
open scoped BigOperators

theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem sum_eq_coe {ι : Type*} (S : Finset ι) (g : ι → EReal) (f : ι → ℝ)
    (h : ∀ i ∈ S, g i = (f i : EReal)) : ∑ i ∈ S, g i = ((∑ i ∈ S, f i : ℝ) : EReal) := by
  rw [coe_sum]; exact Finset.sum_congr rfl h

theorem sum_exp_pos {ι : Type*} [Fintype ι] [Nonempty ι] (s : ι → ℝ) : 0 < ∑ t, Real.exp (s t) :=
  Finset.sum_pos (fun t _ => Real.exp_pos (s t)) Finset.univ_nonempty

theorem sum_exp_ne_zero {ι : Type*} [Fintype ι] [Nonempty ι] (s : ι → ℝ) : (∑ t, Real.exp (s t)) ≠ 0 :=
  (sum_exp_pos s).ne'

theorem sum_exp_sub {ι : Type*} [Fintype ι] (s : ι → ℝ) (m : ℝ) :
    ∑ u, Real.exp (s u - m) = (∑ u, Real.exp (s u)) / Real.exp m := by
  rw [Finset.sum_div]; exact Finset.sum_congr rfl fun u _ => Real.exp_sub (s u) m

theorem softmax_weight_shift {ι : Type*} [Fintype ι] (s : ι → ℝ) (m : ℝ) (t : ι) :
    Real.exp (s t - m) / ∑ u, Real.exp (s u - m) = Real.exp (s t) / ∑ u, Real.exp (s u) := by
  rw [sum_exp_sub, Real.exp_sub, div_div_div_cancel_right₀ (Real.exp_pos m).ne']

theorem softmax_shift_real {ι : Type*} [Fintype ι] (s v : ι → ℝ) (m : ℝ) :
    (∑ t, Real.exp (s t) * v t) * (1 / ∑ t, Real.exp (s t))
      = ∑ t, (Real.exp (s t - m) / ∑ u, Real.exp (s u - m)) * v t := by
  rw [Finset.sum_mul]
  refine Finset.sum_congr rfl fun t _ => ?_
  rw [softmax_weight_shift]; ring

theorem exp_coe (r : ℝ) : Ideal.exp (r : EReal) = ((Real.exp r : ℝ) : EReal) := rfl

theorem exp_coe_sub (r m : ℝ) :
    Ideal.exp ((r : EReal) - (m : EReal)) = ((Real.exp (r - m) : ℝ) : EReal) := by
  rw [← EReal.coe_sub]; rfl

theorem div_coe_coe (x : ℝ) {y : ℝ} (hy : y ≠ 0) :
    Ideal.div (x : EReal) (y : EReal) = ((x / y : ℝ) : EReal) := by
  rw [Ideal.div_coe hy, ← EReal.coe_mul, mul_one_div]

theorem div_one_coe {y : ℝ} (hy : y ≠ 0) : Ideal.div 1 (y : EReal) = ((1 / y : ℝ) : EReal) := by
  rw [Ideal.div_coe hy, one_mul]

theorem unshifted_row_coe {ι : Type*} [Fintype ι] [Nonempty ι] (s v : ι → ℝ) :
    (∑ t, Ideal.exp (s t : EReal) * (v t : EReal)) * Ideal.div 1 (∑ t, Ideal.exp (s t : EReal))
      = (((∑ t, Real.exp (s t) * v t) * (1 / ∑ t, Real.exp (s t)) : ℝ) : EReal) := by
  rw [sum_eq_coe Finset.univ (fun t => Ideal.exp (s t : EReal) * (v t : EReal))
        (fun t => Real.exp (s t) * v t) (fun t _ => by rw [exp_coe, EReal.coe_mul]),
      sum_eq_coe Finset.univ (fun t => Ideal.exp (s t : EReal)) (fun t => Real.exp (s t))
        (fun t _ => exp_coe (s t)),
      div_one_coe (sum_exp_ne_zero s), ← EReal.coe_mul]

theorem shifted_row_coe {ι : Type*} [Fintype ι] [Nonempty ι] (s v : ι → ℝ) (m : ℝ) :
    (∑ t, Ideal.div (Ideal.exp ((s t : EReal) - (m : EReal)))
        (∑ u, Ideal.exp ((s u : EReal) - (m : EReal))) * (v t : EReal))
      = ((∑ t, (Real.exp (s t - m) / ∑ u, Real.exp (s u - m)) * v t : ℝ) : EReal) := by
  have hden : (∑ u, Ideal.exp ((s u : EReal) - (m : EReal)))
      = ((∑ u, Real.exp (s u - m) : ℝ) : EReal) :=
    sum_eq_coe Finset.univ _ (fun u => Real.exp (s u - m)) (fun u _ => exp_coe_sub (s u) m)
  rw [hden]
  refine sum_eq_coe Finset.univ _ _ (fun t _ => ?_)
  rw [exp_coe_sub, div_coe_coe _ (sum_exp_ne_zero fun u => s u - m), ← EReal.coe_mul]

theorem softmax_shift_ereal {ι : Type*} [Fintype ι] [Nonempty ι] (s v : ι → ℝ) (m : ℝ) :
    (∑ t, Ideal.exp (s t : EReal) * (v t : EReal)) * Ideal.div 1 (∑ t, Ideal.exp (s t : EReal))
      = ∑ t, Ideal.div (Ideal.exp ((s t : EReal) - (m : EReal)))
          (∑ u, Ideal.exp ((s u : EReal) - (m : EReal))) * (v t : EReal) := by
  rw [unshifted_row_coe, shifted_row_coe, softmax_shift_real s v m]

theorem fold_max_bot_coe {ι : Type*} (S : Finset ι) (hS : S.Nonempty) (f : ι → ℝ) :
    S.fold max (⊥ : EReal) (fun i => (f i : EReal)) = ((S.sup' hS f : ℝ) : EReal) := by
  apply le_antisymm
  · rw [Finset.fold_max_le]
    exact ⟨bot_le, fun i hi => EReal.coe_le_coe_iff.2 (Finset.le_sup' f hi)⟩
  · obtain ⟨i, hi, hsup⟩ := Finset.exists_mem_eq_sup' hS f
    rw [Finset.le_fold_max]
    exact Or.inr ⟨i, hi, by rw [hsup]⟩

theorem exists_real_max {ι : Type*} (S : Finset ι) (hS : S.Nonempty) (f : ι → ℝ) :
    ∃ m : ℝ, S.fold max (⊥ : EReal) (fun i => (f i : EReal)) = (m : EReal) :=
  ⟨S.sup' hS f, fold_max_bot_coe S hS f⟩

theorem exists_real_max_of_coe {ι : Type*} (S : Finset ι) (hS : S.Nonempty) (g : ι → EReal)
    (hg : ∀ i, ∃ r : ℝ, g i = (r : EReal)) :
    ∃ m : ℝ, S.fold max (⊥ : EReal) g = (m : EReal) := by
  choose f hf using hg
  obtain rfl : g = fun i => (f i : EReal) := funext hf
  exact exists_real_max S hS f

theorem softmax_shift_of_coe {ι : Type*} [Fintype ι] [Nonempty ι] (sc val : ι → EReal) (M : EReal)
    (hsc : ∀ t, ∃ r : ℝ, sc t = (r : EReal)) (hval : ∀ t, ∃ r : ℝ, val t = (r : EReal))
    (hM : ∃ r : ℝ, M = (r : EReal)) :
    (∑ t, Ideal.exp (sc t) * val t) * Ideal.div 1 (∑ t, Ideal.exp (sc t))
      = ∑ t, Ideal.div (Ideal.exp (sc t - M)) (∑ u, Ideal.exp (sc u - M)) * val t := by
  choose s hs using hsc
  choose v hv using hval
  obtain ⟨m, rfl⟩ := hM
  obtain rfl : sc = fun t => (s t : EReal) := funext hs
  obtain rfl : val = fun t => (v t : EReal) := funext hv
  exact softmax_shift_ereal s v m

theorem softmax_rowmax_of_coe {ι : Type*} [Fintype ι] [Nonempty ι] (sc val : ι → EReal)
    (hsc : ∀ t, ∃ r : ℝ, sc t = (r : EReal)) (hval : ∀ t, ∃ r : ℝ, val t = (r : EReal)) :
    (∑ t, Ideal.div (Ideal.exp (sc t - Finset.univ.fold max ⊥ sc))
        (∑ u, Ideal.exp (sc u - Finset.univ.fold max ⊥ sc)) * val t)
      = (∑ t, Ideal.exp (sc t) * val t) * Ideal.div 1 (∑ t, Ideal.exp (sc t)) :=
  (softmax_shift_of_coe sc val _ hsc hval
    (exists_real_max_of_coe Finset.univ Finset.univ_nonempty sc hsc)).symm

end Cert.MLA.Alg
-- ==== Proof.Distrib.lean ====
import proofs.«900573_g7700000000000574_dist_mla_v7x_xyz2x2x2_z_b1_s1024_d2048_dc128_bf16_1_alg».proof.Proof.SpecLaws
import proofs.«900573_g7700000000000574_dist_mla_v7x_xyz2x2x2_z_b1_s1024_d2048_dc128_bf16_1_alg».proof.Proof.SoftmaxAlg
import Mathlib.Logic.Equiv.Fin.Basic
import Mathlib.Data.Fintype.BigOperators

noncomputable section

namespace Cert.MLA

open scoped BigOperators

theorem block_lt {a b : ℕ} (p : Fin a) (q : Fin b) : b * p.val + q.val < a * b := by
  have hp := p.isLt; have hq := q.isLt
  calc b * p.val + q.val < b * p.val + b := Nat.add_lt_add_left hq _
    _ = b * (p.val + 1) := (Nat.mul_succ b p.val).symm
    _ ≤ b * a := Nat.mul_le_mul_left _ hp
    _ = a * b := Nat.mul_comm b a

theorem sum_blocks {M : Type} [AddCommMonoid M] {n : ℕ} (a b : ℕ) (h : a * b = n) (f : Fin n → M) :
    ∑ i : Fin n, f i = ∑ p : Fin a, ∑ q : Fin b, f ⟨b * p.val + q.val, (block_lt p q).trans_eq h⟩ := by
  subst h
  rw [← Fintype.sum_prod_type' (fun (p : Fin a) (q : Fin b) => f ⟨b * p.val + q.val, block_lt p q⟩)]
  exact (Fintype.sum_equiv finProdFinEquiv _ _ fun pq => congrArg f (Fin.ext (by
    rw [finProdFinEquiv_apply_val]; exact Nat.add_comm _ _))).symm

theorem sum_1024_heads {M : Type} [AddCommMonoid M] (f : Fin 1024 → M) :
    ∑ j : Fin 1024, f j = ∑ hl : Fin 8, ∑ d : Fin 128, f ⟨128 * hl.val + d.val, by omega⟩ :=
  sum_blocks 8 128 (by norm_num) f

theorem sum_1024_chunks {M : Type} [AddCommMonoid M] (f : Fin 1024 → M) :
    ∑ j : Fin 1024, f j = ∑ i : Fin 2, ∑ k : Fin 512, f ⟨512 * i.val + k.val, by omega⟩ :=
  sum_blocks 2 512 (by norm_num) f

def headOf (z : Fin 2) (hl : Fin 8) : Fin 16 := ⟨8 * z.val + hl.val, by omega⟩

theorem hcol_headOf (z : Fin 2) (hl : Fin 8) (d : Fin 128) :
    (hcol (headOf z hl) d).val = 1024 * z.val + (128 * hl.val + d.val) := by
  show 128 * (8 * z.val + hl.val) + d.val = 1024 * z.val + (128 * hl.val + d.val)
  omega

theorem rcol_headOf (z : Fin 2) (hl : Fin 8) (r : Fin 32) :
    (rcol (headOf z hl) r).val = 256 * z.val + (32 * hl.val + r.val) := by
  show 32 * (8 * z.val + hl.val) + r.val = 256 * z.val + (32 * hl.val + r.val)
  omega

theorem sum_heads_halves (z : Fin 2) (g : Fin 16 → EReal) :
    ∑ h : Fin 16, g h
      = (∑ hl : Fin 8, g (headOf z hl)) + (∑ hl : Fin 8, g (headOf ⟨1 - z.val, by omega⟩ hl)) := by
  rw [sum_heads_split g]
  rcases (by omega : z.val = 0 ∨ z.val = 1) with hz | hz
  · have e0 : ∀ hl : Fin 8, headOf z hl = ⟨hl.val, by omega⟩ := fun hl =>
      Fin.ext (show 8 * z.val + hl.val = hl.val by omega)
    have e1 : ∀ hl : Fin 8, headOf ⟨1 - z.val, by omega⟩ hl = ⟨8 + hl.val, by omega⟩ := fun hl =>
      Fin.ext (show 8 * (1 - z.val) + hl.val = 8 + hl.val by omega)
    simp only [e0, e1]
  · have e0 : ∀ hl : Fin 8, headOf z hl = ⟨8 + hl.val, by omega⟩ := fun hl =>
      Fin.ext (show 8 * z.val + hl.val = 8 + hl.val by omega)
    have e1 : ∀ hl : Fin 8, headOf ⟨1 - z.val, by omega⟩ hl = ⟨hl.val, by omega⟩ := fun hl =>
      Fin.ext (show 8 * (1 - z.val) + hl.val = hl.val by omega)
    simp only [e0, e1]
    exact add_comm _ _

theorem proj_heads_chunks (o w : Fin 1024 → EReal) :
    (∑ hl : Fin 8, ∑ d : Fin 128, o ⟨128 * hl.val + d.val, by omega⟩ * w ⟨128 * hl.val + d.val, by omega⟩)
      = ∑ i : Fin 2, ∑ k : Fin 512, o ⟨512 * i.val + k.val, by omega⟩ * w ⟨512 * i.val + k.val, by omega⟩ :=
  (sum_1024_heads fun j => o j * w j).symm.trans (sum_1024_chunks fun j => o j * w j)

section
variable (x : Fin 1024 → Fin 2048 → EReal) (wdkv : Fin 2048 → Fin 256 → EReal)
  (wuk wuv : Fin 256 → Fin 2048 → EReal) (wq : Fin 2048 → Fin 2048 → EReal) (wqr : Fin 2048 → Fin 512 → EReal)
  (wkr : Fin 2048 → Fin 32 → EReal) (wo : Fin 2048 → Fin 2048 → EReal) (σ : EReal)

theorem out_halves (z : Fin 2) (s : Fin 1024) (n : Fin 2048) :
    out x wdkv wuk wuv wq wqr wkr wo σ s n
      = (∑ hl : Fin 8, ∑ d : Fin 128, attn x wdkv wuk wuv wq wqr wkr σ s (headOf z hl) d * wo (hcol (headOf z hl) d) n)
        + (∑ hl : Fin 8, ∑ d : Fin 128, attn x wdkv wuk wuv wq wqr wkr σ s (headOf ⟨1 - z.val, by omega⟩ hl) d
            * wo (hcol (headOf ⟨1 - z.val, by omega⟩ hl) d) n) :=
  sum_heads_halves z fun h => ∑ d : Fin 128, attn x wdkv wuk wuv wq wqr wkr σ s h d * wo (hcol h d) n

theorem attn_eq_attnRaw (hx : ∀ s k, IsReal (x s k)) (hd : ∀ k e, IsReal (wdkv k e)) (hk : ∀ e j, IsReal (wuk e j))
    (hv : ∀ e j, IsReal (wuv e j)) (hq : ∀ k j, IsReal (wq k j)) (hqr : ∀ k j, IsReal (wqr k j))
    (hkr : ∀ k r, IsReal (wkr k r)) (hσ : IsReal σ) (s : Fin 1024) (h : Fin 16) (d : Fin 128) :
    attn x wdkv wuk wuv wq wqr wkr σ s h d = attnRaw x wdkv wuk wuv wq wqr wkr σ s h d := by
  unfold attn attnRaw prob rowMax
  exact Alg.softmax_rowmax_of_coe (fun t => score x wdkv wuk wq wqr wkr σ h s t)
    (fun t => vals x wdkv wuv t (hcol h d))
    (fun t => score_real x wdkv wuk wq wqr wkr σ hx hd hk hq hqr hkr hσ h s t)
    (fun t => vals_real x wdkv wuv hx hd hv t (hcol h d))

theorem out_raw_halves (hx : ∀ s k, IsReal (x s k)) (hd : ∀ k e, IsReal (wdkv k e)) (hk : ∀ e j, IsReal (wuk e j))
    (hv : ∀ e j, IsReal (wuv e j)) (hq : ∀ k j, IsReal (wq k j)) (hqr : ∀ k j, IsReal (wqr k j))
    (hkr : ∀ k r, IsReal (wkr k r)) (hσ : IsReal σ) (z : Fin 2) (s : Fin 1024) (n : Fin 2048) :
    out x wdkv wuk wuv wq wqr wkr wo σ s n
      = (∑ hl : Fin 8, ∑ d : Fin 128,
            attnRaw x wdkv wuk wuv wq wqr wkr σ s (headOf z hl) d * wo (hcol (headOf z hl) d) n)
        + (∑ hl : Fin 8, ∑ d : Fin 128, attnRaw x wdkv wuk wuv wq wqr wkr σ s (headOf ⟨1 - z.val, by omega⟩ hl) d
            * wo (hcol (headOf ⟨1 - z.val, by omega⟩ hl) d) n) := by
  rw [out_halves x wdkv wuk wuv wq wqr wkr wo σ z s n]
  simp only [attn_eq_attnRaw x wdkv wuk wuv wq wqr wkr σ hx hd hk hv hq hqr hkr hσ]

end

end Cert.MLA

end
-- ==== Proof.AttnLoc.lean ====
import proofs.«900573_g7700000000000574_dist_mla_v7x_xyz2x2x2_z_b1_s1024_d2048_dc128_bf16_1_alg».proof.Proof.Distrib

noncomputable section

namespace Cert.MLA

open scoped BigOperators

def scoreLoc (q : Fin 256 → Fin 1024 → EReal) (qr : Fin 256 → Fin 256 → EReal) (k : Fin 1024 → Fin 1024 → EReal)
    (krT : Fin 32 → Fin 1024 → EReal) (σ : EReal) (row : Fin 256) (hl : Fin 8) (t : Fin 1024) : EReal :=
  ((∑ d : Fin 128, q row ⟨128 * hl.val + d.val, by omega⟩ * k t ⟨128 * hl.val + d.val, by omega⟩)
    + (∑ r : Fin 32, qr row ⟨32 * hl.val + r.val, by omega⟩ * krT r t)) * σ

def attnLoc (q : Fin 256 → Fin 1024 → EReal) (qr : Fin 256 → Fin 256 → EReal) (k v : Fin 1024 → Fin 1024 → EReal)
    (krT : Fin 32 → Fin 1024 → EReal) (σ : EReal) (row : Fin 256) (hl : Fin 8) (d : Fin 128) : EReal :=
  (∑ t, eexp (scoreLoc q qr k krT σ row hl t) * v t ⟨128 * hl.val + d.val, by omega⟩)
    * ediv 1 (∑ t, eexp (scoreLoc q qr k krT σ row hl t))

theorem partial_proj (z : Fin 2) (n : Fin 2048) (wo : Fin 2048 → Fin 2048 → EReal) (A : Fin 8 → Fin 128 → EReal)
    (o w : Fin 1024 → EReal)
    (ho : ∀ (hl : Fin 8) (d : Fin 128), o ⟨128 * hl.val + d.val, by omega⟩ = A hl d)
    (hw : ∀ (hl : Fin 8) (d : Fin 128), w ⟨128 * hl.val + d.val, by omega⟩ = wo (hcol (headOf z hl) d) n) :
    (∑ i : Fin 2, ∑ kk : Fin 512, o ⟨512 * i.val + kk.val, by omega⟩ * w ⟨512 * i.val + kk.val, by omega⟩)
      = ∑ hl : Fin 8, ∑ d : Fin 128, A hl d * wo (hcol (headOf z hl) d) n := by
  rw [← proj_heads_chunks o w]
  simp only [ho, hw]

section
variable (x : Fin 1024 → Fin 2048 → EReal) (wdkv : Fin 2048 → Fin 256 → EReal)
  (wuk wuv : Fin 256 → Fin 2048 → EReal) (wq : Fin 2048 → Fin 2048 → EReal) (wqr : Fin 2048 → Fin 512 → EReal)
  (wkr : Fin 2048 → Fin 32 → EReal) (wo : Fin 2048 → Fin 2048 → EReal) (σ : EReal)

theorem scoreLoc_eq_score (z : Fin 2) (b : Fin 4)
    (q : Fin 256 → Fin 1024 → EReal) (qr : Fin 256 → Fin 256 → EReal) (k : Fin 1024 → Fin 1024 → EReal)
    (krT : Fin 32 → Fin 1024 → EReal)
    (hq : ∀ (r : Fin 256) (j : Fin 1024),
      q r j = qry x wq ⟨256 * b.val + r.val, by omega⟩ ⟨1024 * z.val + j.val, by omega⟩)
    (hqr : ∀ (r : Fin 256) (c : Fin 256),
      qr r c = qrot x wqr ⟨256 * b.val + r.val, by omega⟩ ⟨256 * z.val + c.val, by omega⟩)
    (hk : ∀ (t : Fin 1024) (j : Fin 1024), k t j = keys x wdkv wuk t ⟨1024 * z.val + j.val, by omega⟩)
    (hkr : ∀ (r : Fin 32) (t : Fin 1024), krT r t = krot x wkr t r)
    (row : Fin 256) (hl : Fin 8) (t : Fin 1024) :
    scoreLoc q qr k krT σ row hl t
      = score x wdkv wuk wq wqr wkr σ (headOf z hl) ⟨256 * b.val + row.val, by omega⟩ t := by
  have e1 : ∀ d : Fin 128,
      (⟨1024 * z.val + (128 * hl.val + d.val), by omega⟩ : Fin 2048) = hcol (headOf z hl) d :=
    fun d => Fin.ext (hcol_headOf z hl d).symm
  have e2 : ∀ r : Fin 32,
      (⟨256 * z.val + (32 * hl.val + r.val), by omega⟩ : Fin 512) = rcol (headOf z hl) r :=
    fun r => Fin.ext (rcol_headOf z hl r).symm
  unfold scoreLoc score
  simp only [hq, hqr, hk, hkr, e1, e2]

theorem attnLoc_eq_attnRaw (z : Fin 2) (b : Fin 4)
    (q : Fin 256 → Fin 1024 → EReal) (qr : Fin 256 → Fin 256 → EReal) (k v : Fin 1024 → Fin 1024 → EReal)
    (krT : Fin 32 → Fin 1024 → EReal)
    (hq : ∀ (r : Fin 256) (j : Fin 1024),
      q r j = qry x wq ⟨256 * b.val + r.val, by omega⟩ ⟨1024 * z.val + j.val, by omega⟩)
    (hqr : ∀ (r : Fin 256) (c : Fin 256),
      qr r c = qrot x wqr ⟨256 * b.val + r.val, by omega⟩ ⟨256 * z.val + c.val, by omega⟩)
    (hk : ∀ (t : Fin 1024) (j : Fin 1024), k t j = keys x wdkv wuk t ⟨1024 * z.val + j.val, by omega⟩)
    (hv : ∀ (t : Fin 1024) (j : Fin 1024), v t j = vals x wdkv wuv t ⟨1024 * z.val + j.val, by omega⟩)
    (hkr : ∀ (r : Fin 32) (t : Fin 1024), krT r t = krot x wkr t r)
    (row : Fin 256) (hl : Fin 8) (d : Fin 128) :
    attnLoc q qr k v krT σ row hl d
      = attnRaw x wdkv wuk wuv wq wqr wkr σ ⟨256 * b.val + row.val, by omega⟩ (headOf z hl) d := by
  have e1 : (⟨1024 * z.val + (128 * hl.val + d.val), by omega⟩ : Fin 2048) = hcol (headOf z hl) d :=
    Fin.ext (hcol_headOf z hl d).symm
  unfold attnLoc attnRaw
  simp only [scoreLoc_eq_score x wdkv wuk wq wqr wkr σ z b q qr k krT hq hqr hk hkr, hv, e1]

structure DeviceArrays (z : Fin 2) (b : Fin 4)
    (q : Fin 256 → Fin 1024 → EReal) (qr : Fin 256 → Fin 256 → EReal) (k v : Fin 1024 → Fin 1024 → EReal)
    (krT : Fin 32 → Fin 1024 → EReal) : Prop where
  hq : ∀ (r : Fin 256) (j : Fin 1024),
    q r j = qry x wq ⟨256 * b.val + r.val, by omega⟩ ⟨1024 * z.val + j.val, by omega⟩
  hqr : ∀ (r : Fin 256) (c : Fin 256),
    qr r c = qrot x wqr ⟨256 * b.val + r.val, by omega⟩ ⟨256 * z.val + c.val, by omega⟩
  hk : ∀ (t : Fin 1024) (j : Fin 1024), k t j = keys x wdkv wuk t ⟨1024 * z.val + j.val, by omega⟩
  hv : ∀ (t : Fin 1024) (j : Fin 1024), v t j = vals x wdkv wuv t ⟨1024 * z.val + j.val, by omega⟩
  hkr : ∀ (r : Fin 32) (t : Fin 1024), krT r t = krot x wkr t r

theorem out_attnLoc_halves (hx : ∀ s k, IsReal (x s k)) (hd : ∀ k e, IsReal (wdkv k e)) (hk : ∀ e j, IsReal (wuk e j))
    (hv : ∀ e j, IsReal (wuv e j)) (hq : ∀ k j, IsReal (wq k j)) (hqr : ∀ k j, IsReal (wqr k j))
    (hkr : ∀ k r, IsReal (wkr k r)) (hσ : IsReal σ) (z : Fin 2) (b : Fin 4)
    (q : Fin 256 → Fin 1024 → EReal) (qr : Fin 256 → Fin 256 → EReal) (k v : Fin 1024 → Fin 1024 → EReal)
    (krT : Fin 32 → Fin 1024 → EReal)
    (q' : Fin 256 → Fin 1024 → EReal) (qr' : Fin 256 → Fin 256 → EReal) (k' v' : Fin 1024 → Fin 1024 → EReal)
    (krT' : Fin 32 → Fin 1024 → EReal)
    (H : DeviceArrays x wdkv wuk wuv wq wqr wkr z b q qr k v krT)
    (H' : DeviceArrays x wdkv wuk wuv wq wqr wkr ⟨1 - z.val, by omega⟩ b q' qr' k' v' krT')
    (row : Fin 256) (n : Fin 2048) :
    out x wdkv wuk wuv wq wqr wkr wo σ ⟨256 * b.val + row.val, by omega⟩ n
      = (∑ hl : Fin 8, ∑ d : Fin 128, attnLoc q qr k v krT σ row hl d * wo (hcol (headOf z hl) d) n)
        + (∑ hl : Fin 8, ∑ d : Fin 128,
            attnLoc q' qr' k' v' krT' σ row hl d * wo (hcol (headOf ⟨1 - z.val, by omega⟩ hl) d) n) := by
  rw [out_raw_halves x wdkv wuk wuv wq wqr wkr wo σ hx hd hk hv hq hqr hkr hσ z]
  simp only [attnLoc_eq_attnRaw x wdkv wuk wuv wq wqr wkr σ z b q qr k v krT H.hq H.hqr H.hk H.hv H.hkr,
    attnLoc_eq_attnRaw x wdkv wuk wuv wq wqr wkr σ ⟨1 - z.val, by omega⟩ b q' qr' k' v' krT'
      H'.hq H'.hqr H'.hk H'.hv H'.hkr]

theorem device_rows (hx : ∀ s k, IsReal (x s k)) (hd : ∀ k e, IsReal (wdkv k e)) (hk : ∀ e j, IsReal (wuk e j))
    (hv : ∀ e j, IsReal (wuv e j)) (hq : ∀ k j, IsReal (wq k j)) (hqr : ∀ k j, IsReal (wqr k j))
    (hkr : ∀ k r, IsReal (wkr k r)) (hσ : IsReal σ) (z : Fin 2) (b : Fin 4)
    (q : Fin 256 → Fin 1024 → EReal) (qr : Fin 256 → Fin 256 → EReal) (k v : Fin 1024 → Fin 1024 → EReal)
    (krT : Fin 32 → Fin 1024 → EReal)
    (q' : Fin 256 → Fin 1024 → EReal) (qr' : Fin 256 → Fin 256 → EReal) (k' v' : Fin 1024 → Fin 1024 → EReal)
    (krT' : Fin 32 → Fin 1024 → EReal)
    (H : DeviceArrays x wdkv wuk wuv wq wqr wkr z b q qr k v krT)
    (H' : DeviceArrays x wdkv wuk wuv wq wqr wkr ⟨1 - z.val, by omega⟩ b q' qr' k' v' krT')
    (row : Fin 256) (n : Fin 2048) (o w o' w' : Fin 1024 → EReal)
    (ho : ∀ (hl : Fin 8) (d : Fin 128), o ⟨128 * hl.val + d.val, by omega⟩ = attnLoc q qr k v krT σ row hl d)
    (hw : ∀ (hl : Fin 8) (d : Fin 128), w ⟨128 * hl.val + d.val, by omega⟩ = wo (hcol (headOf z hl) d) n)
    (ho' : ∀ (hl : Fin 8) (d : Fin 128),
      o' ⟨128 * hl.val + d.val, by omega⟩ = attnLoc q' qr' k' v' krT' σ row hl d)
    (hw' : ∀ (hl : Fin 8) (d : Fin 128),
      w' ⟨128 * hl.val + d.val, by omega⟩ = wo (hcol (headOf ⟨1 - z.val, by omega⟩ hl) d) n) :
    (∑ i : Fin 2, ∑ kk : Fin 512, o ⟨512 * i.val + kk.val, by omega⟩ * w ⟨512 * i.val + kk.val, by omega⟩)
      + (∑ i : Fin 2, ∑ kk : Fin 512, o' ⟨512 * i.val + kk.val, by omega⟩ * w' ⟨512 * i.val + kk.val, by omega⟩)
      = out x wdkv wuk wuv wq wqr wkr wo σ ⟨256 * b.val + row.val, by omega⟩ n := by
  rw [partial_proj z n wo (fun hl d => attnLoc q qr k v krT σ row hl d) o w ho hw,
    partial_proj ⟨1 - z.val, by omega⟩ n wo (fun hl d => attnLoc q' qr' k' v' krT' σ row hl d) o' w' ho' hw']
  exact (out_attnLoc_halves x wdkv wuk wuv wq wqr wkr wo σ hx hd hk hv hq hqr hkr hσ z b q qr k v krT
    q' qr' k' v' krT' H H' row n).symm

end

end Cert.MLA

end
-- ==== Proof.PayAttnO.lean ====
import proofs.«900573_g7700000000000574_dist_mla_v7x_xyz2x2x2_z_b1_s1024_d2048_dc128_bf16_1_alg».proof.Proof.PayAttn
import proofs.«900573_g7700000000000574_dist_mla_v7x_xyz2x2x2_z_b1_s1024_d2048_dc128_bf16_1_alg».proof.Proof.AttnLoc

noncomputable section

namespace Cert.MLA.Pay

open Idealize.ShloMosaic Idealize.ShloMosaic.ValueIdx Cert.KernelIdeal Cert.KernelIdeal.Gen
open scoped BigOperators

theorem headOut_slices_apply (Q : FVec Ideal S256x1024 .bf16) (QR : FVec Ideal S256x256 .bf16)
    (K V : FVec Ideal S1024x1024 .bf16) (KRT : FVec Ideal S32x1024 .bf16) (r0 c0 cr0 : ℕ) (hl : Fin 8)
    (hc : c0 = 128 * hl.val) (hcr : cr0 = 32 * hl.val)
    (hq : S256x1024.Slices ![r0, c0] S128x128) (hk : S1024x1024.Slices ![0, c0] S1024x128)
    (hqr : S256x256.Slices ![r0, cr0] S128x32) (hv : S1024x1024.Slices ![0, c0] S1024x128)
    (r d : Fin 128) (row : Fin 256) (hrow : row.val = r0 + r.val) :
    headOut (extractStridedSlice S128x128 ![r0, c0] Q hq) (extractStridedSlice S1024x128 ![0, c0] K hk)
        (extractStridedSlice S128x32 ![r0, cr0] QR hqr) KRT (extractStridedSlice S1024x128 ![0, c0] V hv) (ix2 r d)
      = attnLoc (fun i j => Q (ix2 i j)) (fun i j => QR (ix2 i j)) (fun i j => K (ix2 i j)) (fun i j => V (ix2 i j))
          (fun i j => KRT (ix2 i j)) σK row hl d := by
  subst hc hcr
  have hsc : ∀ t : Fin 1024, scoreAt (extractStridedSlice S128x128 ![r0, 128 * hl.val] Q hq)
        (extractStridedSlice S1024x128 ![0, 128 * hl.val] K hk) (extractStridedSlice S128x32 ![r0, 32 * hl.val] QR hqr) KRT r t
      = scoreLoc (fun i j => Q (ix2 i j)) (fun i j => QR (ix2 i j)) (fun i j => K (ix2 i j)) (fun i j => KRT (ix2 i j)) σK row hl t := by
    intro t
    unfold scoreAt scoreLoc
    congr 1
    congr 1
    · refine Finset.sum_congr rfl fun e _ => ?_
      rw [slice2_apply r0 (128 * hl.val) Q hq r e row ⟨128 * hl.val + e.val, by omega⟩ hrow rfl,
        slice2_apply 0 (128 * hl.val) K hk t e t ⟨128 * hl.val + e.val, by omega⟩ (Nat.zero_add _).symm rfl]
    · refine Finset.sum_congr rfl fun ρ _ => ?_
      rw [slice2_apply r0 (32 * hl.val) QR hqr r ρ row ⟨32 * hl.val + ρ.val, by omega⟩ hrow rfl]
  rw [headOut_apply]
  unfold attnLoc
  simp only [hsc]
  congr 1
  refine Finset.sum_congr rfl fun t _ => ?_
  rw [slice2_apply 0 (128 * hl.val) V hv t d t ⟨128 * hl.val + d.val, by omega⟩ (Nat.zero_add _).symm rfl]

def concat8 (p : Fin 8 → FVec Ideal S128x128 .f32) : FVec Ideal S128x1024 .bf16 :=
  truncf .bf16 (concatenate S128x1024 1 [⟨S128x128, p 0⟩, ⟨S128x128, p 1⟩, ⟨S128x128, p 2⟩, ⟨S128x128, p 3⟩, ⟨S128x128, p 4⟩,
    ⟨S128x128, p 5⟩, ⟨S128x128, p 6⟩, ⟨S128x128, p 7⟩]
    concatenates_S128x128_S128x128_S128x128_S128x128_S128x128_S128x128_S128x128_S128x128_S128x1024_d1) bitsLt_bf16_f32

theorem concat8_apply (p : Fin 8 → FVec Ideal S128x128 .f32) (r : Fin 128) (hl : Fin 8) (d : Fin 128) :
    concat8 p (ix2 r ⟨128 * hl.val + d.val, by omega⟩) = p hl (ix2 r d) := by
  unfold concat8
  rw [truncf_apply]
  have hi : ∀ (c : Fin 1024) (b : Fin S128x128.rank), b.cast (rfl : S128x128.rank = S128x1024.rank) ≠ (1 : Fin S128x1024.rank) →
      ((ix2 r d : S128x128.Idx) b).val = ((ix2 r c : S128x1024.Idx) (b.cast rfl)).val := by
    intro c b hb
    match b with
    | ⟨0, _⟩ => rfl
    | ⟨1, _⟩ => exact absurd rfl hb
  match hl with
  | ⟨0, _⟩ =>
    exact concatenate_apply_piece (1 : Fin S128x1024.rank) _ _ _ 0 (by simp) S128x128 (p 0) rfl rfl 0 rfl (ix2 r d) (hi _)
      (by show 0 + d.val = 128 * 0 + d.val; omega)
  | ⟨1, _⟩ =>
    exact concatenate_apply_piece (1 : Fin S128x1024.rank) _ _ _ 1 (by simp) S128x128 (p 1) rfl rfl 128 rfl (ix2 r d) (hi _)
      (by show 128 + d.val = 128 * 1 + d.val; omega)
  | ⟨2, _⟩ =>
    exact concatenate_apply_piece (1 : Fin S128x1024.rank) _ _ _ 2 (by simp) S128x128 (p 2) rfl rfl 256 rfl (ix2 r d) (hi _)
      (by show 256 + d.val = 128 * 2 + d.val; omega)
  | ⟨3, _⟩ =>
    exact concatenate_apply_piece (1 : Fin S128x1024.rank) _ _ _ 3 (by simp) S128x128 (p 3) rfl rfl 384 rfl (ix2 r d) (hi _)
      (by show 384 + d.val = 128 * 3 + d.val; omega)
  | ⟨4, _⟩ =>
    exact concatenate_apply_piece (1 : Fin S128x1024.rank) _ _ _ 4 (by simp) S128x128 (p 4) rfl rfl 512 rfl (ix2 r d) (hi _)
      (by show 512 + d.val = 128 * 4 + d.val; omega)
  | ⟨5, _⟩ =>
    exact concatenate_apply_piece (1 : Fin S128x1024.rank) _ _ _ 5 (by simp) S128x128 (p 5) rfl rfl 640 rfl (ix2 r d) (hi _)
      (by show 640 + d.val = 128 * 5 + d.val; omega)
  | ⟨6, _⟩ =>
    exact concatenate_apply_piece (1 : Fin S128x1024.rank) _ _ _ 6 (by simp) S128x128 (p 6) rfl rfl 768 rfl (ix2 r d) (hi _)
      (by show 768 + d.val = 128 * 6 + d.val; omega)
  | ⟨7, _⟩ =>
    exact concatenate_apply_piece (1 : Fin S128x1024.rank) _ _ _ 7 (by simp) S128x128 (p 7) rfl rfl 896 rfl (ix2 r d) (hi _)
      (by show 896 + d.val = 128 * 7 + d.val; omega)

theorem pay21_apply (v149 : FVec Ideal S256x1024 .bf16) (v188 : FVec Ideal S256x256 .bf16) (v193 : FVec Ideal S1024x32 .bf16) (v194 : FVec Ideal S1024x1024 .f32) (v195 : FVec Ideal S1024x1024 .f32) (v226 : Vec Ideal S1024x128 .bf16) (v227 : Vec Ideal S128x1024 .bf16) (v231 : Vec Ideal S128x1024 .bf16) (r d : Fin 128) :
    k0_pay21 v149 v188 v193 v194 v195 v226 v227 v231 (ix2 r d) = attnLoc (fun i j => v149 (ix2 i j)) (fun i j => v188 (ix2 i j)) (fun i j => (k0_pay18 v194 v226 v227) (ix2 i j)) (fun i j => (k0_pay19 v195 v226 v231) (ix2 i j)) (fun i j => (k0_pay20 v193) (ix2 i j)) σK ⟨r.val, by omega⟩ 0 d :=
  headOut_slices_apply v149 v188 (k0_pay18 v194 v226 v227) (k0_pay19 v195 v226 v231) (k0_pay20 v193) 0 0 0 0 rfl rfl slices_S256x1024_o0_0_S128x128 slices_S1024x1024_o0_0_S1024x128 slices_S256x256_o0_0_S128x32 slices_S1024x1024_o0_0_S1024x128 r d _ (Nat.zero_add _).symm

theorem pay25_apply (v149 : FVec Ideal S256x1024 .bf16) (v188 : FVec Ideal S256x256 .bf16) (v193 : FVec Ideal S1024x32 .bf16) (v194 : FVec Ideal S1024x1024 .f32) (v195 : FVec Ideal S1024x1024 .f32) (v226 : Vec Ideal S1024x128 .bf16) (v227 : Vec Ideal S128x1024 .bf16) (v231 : Vec Ideal S128x1024 .bf16) (r d : Fin 128) :
    k0_pay25 (k0_pay22 v149 v188 v193 v194 v226 v227) (k0_pay23 v149 v188 v193 v194 v226 v227) (k0_pay24 v195 v226 v231) (ix2 r d)
      = attnLoc (fun i j => v149 (ix2 i j)) (fun i j => v188 (ix2 i j)) (fun i j => (k0_pay18 v194 v226 v227) (ix2 i j)) (fun i j => (k0_pay19 v195 v226 v231) (ix2 i j)) (fun i j => (k0_pay20 v193) (ix2 i j)) σK ⟨r.val, by omega⟩ 1 d :=
  headOut_slices_apply v149 v188 (k0_pay18 v194 v226 v227) (k0_pay19 v195 v226 v231) (k0_pay20 v193) 0 128 32 1 rfl rfl slices_S256x1024_o0_128_S128x128 slices_S1024x1024_o0_128_S1024x128 slices_S256x256_o0_32_S128x32 slices_S1024x1024_o0_128_S1024x128 r d _ (Nat.zero_add _).symm

theorem pay26_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    k0_pay26 v149 v188 v230 v234 v235 (ix2 r d) = attnLoc (fun i j => v149 (ix2 i j)) (fun i j => v188 (ix2 i j)) (fun i j => v230 (ix2 i j)) (fun i j => v234 (ix2 i j)) (fun i j => v235 (ix2 i j)) σK ⟨r.val, by omega⟩ 2 d :=
  headOut_slices_apply v149 v188 v230 v234 v235 0 256 64 2 rfl rfl slices_S256x1024_o0_256_S128x128 slices_S1024x1024_o0_256_S1024x128 slices_S256x256_o0_64_S128x32 slices_S1024x1024_o0_256_S1024x128 r d _ (Nat.zero_add _).symm

theorem pay27_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    k0_pay27 v149 v188 v230 v234 v235 (ix2 r d) = attnLoc (fun i j => v149 (ix2 i j)) (fun i j => v188 (ix2 i j)) (fun i j => v230 (ix2 i j)) (fun i j => v234 (ix2 i j)) (fun i j => v235 (ix2 i j)) σK ⟨r.val, by omega⟩ 3 d :=
  headOut_slices_apply v149 v188 v230 v234 v235 0 384 96 3 rfl rfl slices_S256x1024_o0_384_S128x128 slices_S1024x1024_o0_384_S1024x128 slices_S256x256_o0_96_S128x32 slices_S1024x1024_o0_384_S1024x128 r d _ (Nat.zero_add _).symm

theorem pay30_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    k0_pay30 v188 v234 v235 (k0_pay28 v149) (k0_pay29 v230) (ix2 r d) = attnLoc (fun i j => v149 (ix2 i j)) (fun i j => v188 (ix2 i j)) (fun i j => v230 (ix2 i j)) (fun i j => v234 (ix2 i j)) (fun i j => v235 (ix2 i j)) σK ⟨r.val, by omega⟩ 4 d :=
  headOut_slices_apply v149 v188 v230 v234 v235 0 512 128 4 rfl rfl slices_S256x1024_o0_512_S128x128 slices_S1024x1024_o0_512_S1024x128 slices_S256x256_o0_128_S128x32 slices_S1024x1024_o0_512_S1024x128 r d _ (Nat.zero_add _).symm

theorem pay31_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    k0_pay31 v149 v188 v230 v234 v235 (ix2 r d) = attnLoc (fun i j => v149 (ix2 i j)) (fun i j => v188 (ix2 i j)) (fun i j => v230 (ix2 i j)) (fun i j => v234 (ix2 i j)) (fun i j => v235 (ix2 i j)) σK ⟨r.val, by omega⟩ 5 d :=
  headOut_slices_apply v149 v188 v230 v234 v235 0 640 160 5 rfl rfl slices_S256x1024_o0_640_S128x128 slices_S1024x1024_o0_640_S1024x128 slices_S256x256_o0_160_S128x32 slices_S1024x1024_o0_640_S1024x128 r d _ (Nat.zero_add _).symm

theorem pay33_eq (v149 : FVec Ideal S256x1024 .bf16) (v188 : FVec Ideal S256x256 .bf16) (v230 : FVec Ideal S1024x1024 .bf16) (v234 : FVec Ideal S1024x1024 .bf16) (v235 : FVec Ideal S32x1024 .bf16) (v254 v273 v292 v311 v330 v349 : FVec Ideal S128x128 .f32) (v358 : FVec Ideal S128x1024 .f32) :
    k0_pay33 v149 v188 v230 v234 v235 v254 v273 v292 v311 v330 v349 v358
      = concat8 ![v254, v273, v292, v311, v330, v349,
          scaleRows (pvV (exp v358) (extractStridedSlice S1024x128 ![0, 768] v234 slices_S1024x1024_o0_768_S1024x128)) (rcpV (rowSum (exp v358))),
          headOut (extractStridedSlice S128x128 ![0, 896] v149 slices_S256x1024_o0_896_S128x128)
            (extractStridedSlice S1024x128 ![0, 896] v230 slices_S1024x1024_o0_896_S1024x128)
            (extractStridedSlice S128x32 ![0, 224] v188 slices_S256x256_o0_224_S128x32) v235
            (extractStridedSlice S1024x128 ![0, 896] v234 slices_S1024x1024_o0_896_S1024x128)] := rfl

theorem pay33_6_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    scaleRows (pvV (exp (k0_pay32 v149 v188 v230 v235)) (extractStridedSlice S1024x128 ![0, 768] v234 slices_S1024x1024_o0_768_S1024x128))
        (rcpV (rowSum (exp (k0_pay32 v149 v188 v230 v235)))) (ix2 r d) = attnLoc (fun i j => v149 (ix2 i j)) (fun i j => v188 (ix2 i j)) (fun i j => v230 (ix2 i j)) (fun i j => v234 (ix2 i j)) (fun i j => v235 (ix2 i j)) σK ⟨r.val, by omega⟩ 6 d :=
  headOut_slices_apply v149 v188 v230 v234 v235 0 768 192 6 rfl rfl slices_S256x1024_o0_768_S128x128 slices_S1024x1024_o0_768_S1024x128 slices_S256x256_o0_192_S128x32 slices_S1024x1024_o0_768_S1024x128 r d _ (Nat.zero_add _).symm

theorem pay33_7_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    headOut (extractStridedSlice S128x128 ![0, 896] v149 slices_S256x1024_o0_896_S128x128)
        (extractStridedSlice S1024x128 ![0, 896] v230 slices_S1024x1024_o0_896_S1024x128)
        (extractStridedSlice S128x32 ![0, 224] v188 slices_S256x256_o0_224_S128x32) v235
        (extractStridedSlice S1024x128 ![0, 896] v234 slices_S1024x1024_o0_896_S1024x128) (ix2 r d) = attnLoc (fun i j => v149 (ix2 i j)) (fun i j => v188 (ix2 i j)) (fun i j => v230 (ix2 i j)) (fun i j => v234 (ix2 i j)) (fun i j => v235 (ix2 i j)) σK ⟨r.val, by omega⟩ 7 d :=
  headOut_slices_apply v149 v188 v230 v234 v235 0 896 224 7 rfl rfl slices_S256x1024_o0_896_S128x128 slices_S1024x1024_o0_896_S1024x128 slices_S256x256_o0_224_S128x32 slices_S1024x1024_o0_896_S1024x128 r d _ (Nat.zero_add _).symm

def oChunk0 (v149 : FVec Ideal S256x1024 .bf16) (v188 : FVec Ideal S256x256 .bf16) (v193 : FVec Ideal S1024x32 .bf16) (v194 : FVec Ideal S1024x1024 .f32) (v195 : FVec Ideal S1024x1024 .f32) (v226 : Vec Ideal S1024x128 .bf16) (v227 : Vec Ideal S128x1024 .bf16) (v231 : Vec Ideal S128x1024 .bf16) : FVec Ideal S128x1024 .bf16 :=
  k0_pay33 v149 v188 (k0_pay18 v194 v226 v227) (k0_pay19 v195 v226 v231) (k0_pay20 v193)
    (k0_pay21 v149 v188 v193 v194 v195 v226 v227 v231)
    (k0_pay25 (k0_pay22 v149 v188 v193 v194 v226 v227) (k0_pay23 v149 v188 v193 v194 v226 v227) (k0_pay24 v195 v226 v231))
    (k0_pay26 v149 v188 (k0_pay18 v194 v226 v227) (k0_pay19 v195 v226 v231) (k0_pay20 v193))
    (k0_pay27 v149 v188 (k0_pay18 v194 v226 v227) (k0_pay19 v195 v226 v231) (k0_pay20 v193))
    (k0_pay30 v188 (k0_pay19 v195 v226 v231) (k0_pay20 v193) (k0_pay28 v149) (k0_pay29 (k0_pay18 v194 v226 v227)))
    (k0_pay31 v149 v188 (k0_pay18 v194 v226 v227) (k0_pay19 v195 v226 v231) (k0_pay20 v193))
    (k0_pay32 v149 v188 (k0_pay18 v194 v226 v227) (k0_pay20 v193))

theorem o0_apply (v149 : FVec Ideal S256x1024 .bf16) (v188 : FVec Ideal S256x256 .bf16) (v193 : FVec Ideal S1024x32 .bf16) (v194 : FVec Ideal S1024x1024 .f32) (v195 : FVec Ideal S1024x1024 .f32) (v226 : Vec Ideal S1024x128 .bf16) (v227 : Vec Ideal S128x1024 .bf16) (v231 : Vec Ideal S128x1024 .bf16) (r : Fin 128) (hl : Fin 8) (d : Fin 128) :
    oChunk0 v149 v188 v193 v194 v195 v226 v227 v231 (ix2 r ⟨128 * hl.val + d.val, by omega⟩) = attnLoc (fun i j => v149 (ix2 i j)) (fun i j => v188 (ix2 i j)) (fun i j => (k0_pay18 v194 v226 v227) (ix2 i j)) (fun i j => (k0_pay19 v195 v226 v231) (ix2 i j)) (fun i j => (k0_pay20 v193) (ix2 i j)) σK ⟨r.val, by omega⟩ hl d := by
  unfold oChunk0
  rw [pay33_eq, concat8_apply]
  match hl with
  | ⟨0, _⟩ => exact pay21_apply v149 v188 v193 v194 v195 v226 v227 v231 r d
  | ⟨1, _⟩ => exact pay25_apply v149 v188 v193 v194 v195 v226 v227 v231 r d
  | ⟨2, _⟩ => exact pay26_apply v149 v188 _ _ _ r d
  | ⟨3, _⟩ => exact pay27_apply v149 v188 _ _ _ r d
  | ⟨4, _⟩ => exact pay30_apply v149 v188 _ _ _ r d
  | ⟨5, _⟩ => exact pay31_apply v149 v188 _ _ _ r d
  | ⟨6, _⟩ => exact pay33_6_apply v149 v188 _ _ _ r d
  | ⟨7, _⟩ => exact pay33_7_apply v149 v188 _ _ _ r d

theorem pay36_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    k0_pay36 v149 v188 v230 v234 v235 (ix2 r d) = attnLoc (fun i j => v149 (ix2 i j)) (fun i j => v188 (ix2 i j)) (fun i j => v230 (ix2 i j)) (fun i j => v234 (ix2 i j)) (fun i j => v235 (ix2 i j)) σK ⟨128 + r.val, by omega⟩ 0 d :=
  headOut_slices_apply v149 v188 v230 v234 v235 128 0 0 0 rfl rfl slices_S256x1024_o128_0_S128x128 slices_S1024x1024_o0_0_S1024x128 slices_S256x256_o128_0_S128x32 slices_S1024x1024_o0_0_S1024x128 r d _ rfl

theorem pay38_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    k0_pay38 v234 (k0_pay37 v149 v188 v230 v235) (ix2 r d) = attnLoc (fun i j => v149 (ix2 i j)) (fun i j => v188 (ix2 i j)) (fun i j => v230 (ix2 i j)) (fun i j => v234 (ix2 i j)) (fun i j => v235 (ix2 i j)) σK ⟨128 + r.val, by omega⟩ 1 d :=
  headOut_slices_apply v149 v188 v230 v234 v235 128 128 32 1 rfl rfl slices_S256x1024_o128_128_S128x128 slices_S1024x1024_o0_128_S1024x128 slices_S256x256_o128_32_S128x32 slices_S1024x1024_o0_128_S1024x128 r d _ rfl

theorem pay39_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    k0_pay39 v149 v188 v230 v234 v235 (ix2 r d) = attnLoc (fun i j => v149 (ix2 i j)) (fun i j => v188 (ix2 i j)) (fun i j => v230 (ix2 i j)) (fun i j => v234 (ix2 i j)) (fun i j => v235 (ix2 i j)) σK ⟨128 + r.val, by omega⟩ 2 d :=
  headOut_slices_apply v149 v188 v230 v234 v235 128 256 64 2 rfl rfl slices_S256x1024_o128_256_S128x128 slices_S1024x1024_o0_256_S1024x128 slices_S256x256_o128_64_S128x32 slices_S1024x1024_o0_256_S1024x128 r d _ rfl

theorem pay43_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    k0_pay43 (k0_pay41 v149 v188 v230 v234 v235) (k0_pay42 v149 v188 v230 v235) (ix2 r d) = attnLoc (fun i j => v149 (ix2 i j)) (fun i j => v188 (ix2 i j)) (fun i j => v230 (ix2 i j)) (fun i j => v234 (ix2 i j)) (fun i j => v235 (ix2 i j)) σK ⟨128 + r.val, by omega⟩ 3 d :=
  headOut_slices_apply v149 v188 v230 v234 v235 128 384 96 3 rfl rfl slices_S256x1024_o128_384_S128x128 slices_S1024x1024_o0_384_S1024x128 slices_S256x256_o128_96_S128x32 slices_S1024x1024_o0_384_S1024x128 r d _ rfl

theorem pay44_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    k0_pay44 v149 v188 v230 v234 v235 (ix2 r d) = attnLoc (fun i j => v149 (ix2 i j)) (fun i j => v188 (ix2 i j)) (fun i j => v230 (ix2 i j)) (fun i j => v234 (ix2 i j)) (fun i j => v235 (ix2 i j)) σK ⟨128 + r.val, by omega⟩ 4 d :=
  headOut_slices_apply v149 v188 v230 v234 v235 128 512 128 4 rfl rfl slices_S256x1024_o128_512_S128x128 slices_S1024x1024_o0_512_S1024x128 slices_S256x256_o128_128_S128x32 slices_S1024x1024_o0_512_S1024x128 r d _ rfl

theorem pay45_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    k0_pay45 v149 v188 v230 v234 v235 (ix2 r d) = attnLoc (fun i j => v149 (ix2 i j)) (fun i j => v188 (ix2 i j)) (fun i j => v230 (ix2 i j)) (fun i j => v234 (ix2 i j)) (fun i j => v235 (ix2 i j)) σK ⟨128 + r.val, by omega⟩ 5 d :=
  headOut_slices_apply v149 v188 v230 v234 v235 128 640 160 5 rfl rfl slices_S256x1024_o128_640_S128x128 slices_S1024x1024_o0_640_S1024x128 slices_S256x256_o128_160_S128x32 slices_S1024x1024_o0_640_S1024x128 r d _ rfl

theorem pay48_eq (v149 : FVec Ideal S256x1024 .bf16) (v188 : FVec Ideal S256x256 .bf16) (v230 : FVec Ideal S1024x1024 .bf16) (v234 : FVec Ideal S1024x1024 .bf16) (v235 : FVec Ideal S32x1024 .bf16) (v459 v478 v497 v516 v535 v554 : FVec Ideal S128x128 .f32) (v559 v560 : FVec Ideal S128x1024 .f32) :
    k0_pay48 v149 v188 v230 v234 v235 v459 v478 v497 v516 v535 v554 v559 v560
      = concat8 ![v459, v478, v497, v516, v535, v554,
          scaleRows (pvV (exp (scaleV v559 v560)) (extractStridedSlice S1024x128 ![0, 768] v234 slices_S1024x1024_o0_768_S1024x128))
            (rcpV (rowSum (exp (scaleV v559 v560)))),
          headOut (extractStridedSlice S128x128 ![128, 896] v149 slices_S256x1024_o128_896_S128x128)
            (extractStridedSlice S1024x128 ![0, 896] v230 slices_S1024x1024_o0_896_S1024x128)
            (extractStridedSlice S128x32 ![128, 224] v188 slices_S256x256_o128_224_S128x32) v235
            (extractStridedSlice S1024x128 ![0, 896] v234 slices_S1024x1024_o0_896_S1024x128)] := rfl

theorem pay48_6_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    scaleRows (pvV (exp (scaleV (k0_pay46 v149 v230) (k0_pay47 v188 v235)))
          (extractStridedSlice S1024x128 ![0, 768] v234 slices_S1024x1024_o0_768_S1024x128))
        (rcpV (rowSum (exp (scaleV (k0_pay46 v149 v230) (k0_pay47 v188 v235))))) (ix2 r d) = attnLoc (fun i j => v149 (ix2 i j)) (fun i j => v188 (ix2 i j)) (fun i j => v230 (ix2 i j)) (fun i j => v234 (ix2 i j)) (fun i j => v235 (ix2 i j)) σK ⟨128 + r.val, by omega⟩ 6 d :=
  headOut_slices_apply v149 v188 v230 v234 v235 128 768 192 6 rfl rfl slices_S256x1024_o128_768_S128x128 slices_S1024x1024_o0_768_S1024x128 slices_S256x256_o128_192_S128x32 slices_S1024x1024_o0_768_S1024x128 r d _ rfl

theorem pay48_7_apply (v149 : FVec Ideal S256x1024 .bf16) (v188 : FVec Ideal S256x256 .bf16) (v230 : FVec Ideal S1024x1024 .bf16) (v234 : FVec Ideal S1024x1024 .bf16) (v235 : FVec Ideal S32x1024 .bf16) (r d : Fin 128) :
    headOut (extractStridedSlice S128x128 ![128, 896] v149 slices_S256x1024_o128_896_S128x128)
        (extractStridedSlice S1024x128 ![0, 896] v230 slices_S1024x1024_o0_896_S1024x128)
        (extractStridedSlice S128x32 ![128, 224] v188 slices_S256x256_o128_224_S128x32) v235
        (extractStridedSlice S1024x128 ![0, 896] v234 slices_S1024x1024_o0_896_S1024x128) (ix2 r d) = attnLoc (fun i j => v149 (ix2 i j)) (fun i j => v188 (ix2 i j)) (fun i j => v230 (ix2 i j)) (fun i j => v234 (ix2 i j)) (fun i j => v235 (ix2 i j)) σK ⟨128 + r.val, by omega⟩ 7 d :=
  headOut_slices_apply v149 v188 v230 v234 v235 128 896 224 7 rfl rfl slices_S256x1024_o128_896_S128x128 slices_S1024x1024_o0_896_S1024x128 slices_S256x256_o128_224_S128x32 slices_S1024x1024_o0_896_S1024x128 r d _ rfl

def oChunk1 (v149 : FVec Ideal S256x1024 .bf16) (v188 : FVec Ideal S256x256 .bf16) (v230 : FVec Ideal S1024x1024 .bf16) (v234 : FVec Ideal S1024x1024 .bf16) (v235 : FVec Ideal S32x1024 .bf16) : FVec Ideal S128x1024 .bf16 :=
  k0_pay48 v149 v188 v230 v234 v235 (k0_pay36 v149 v188 v230 v234 v235) (k0_pay38 v234 (k0_pay37 v149 v188 v230 v235))
    (k0_pay39 v149 v188 v230 v234 v235) (k0_pay43 (k0_pay41 v149 v188 v230 v234 v235) (k0_pay42 v149 v188 v230 v235))
    (k0_pay44 v149 v188 v230 v234 v235) (k0_pay45 v149 v188 v230 v234 v235) (k0_pay46 v149 v230) (k0_pay47 v188 v235)

theorem o1_apply (v149 : FVec Ideal S256x1024 .bf16) (v188 : FVec Ideal S256x256 .bf16) (v230 : FVec Ideal S1024x1024 .bf16) (v234 : FVec Ideal S1024x1024 .bf16) (v235 : FVec Ideal S32x1024 .bf16) (r : Fin 128) (hl : Fin 8) (d : Fin 128) :
    oChunk1 v149 v188 v230 v234 v235 (ix2 r ⟨128 * hl.val + d.val, by omega⟩) = attnLoc (fun i j => v149 (ix2 i j)) (fun i j => v188 (ix2 i j)) (fun i j => v230 (ix2 i j)) (fun i j => v234 (ix2 i j)) (fun i j => v235 (ix2 i j)) σK ⟨128 + r.val, by omega⟩ hl d := by
  unfold oChunk1
  rw [pay48_eq, concat8_apply]
  match hl with
  | ⟨0, _⟩ => exact pay36_apply v149 v188 v230 v234 v235 r d
  | ⟨1, _⟩ => exact pay38_apply v149 v188 v230 v234 v235 r d
  | ⟨2, _⟩ => exact pay39_apply v149 v188 v230 v234 v235 r d
  | ⟨3, _⟩ => exact pay43_apply v149 v188 v230 v234 v235 r d
  | ⟨4, _⟩ => exact pay44_apply v149 v188 v230 v234 v235 r d
  | ⟨5, _⟩ => exact pay45_apply v149 v188 v230 v234 v235 r d
  | ⟨6, _⟩ => exact pay48_6_apply v149 v188 v230 v234 v235 r d
  | ⟨7, _⟩ => exact pay48_7_apply v149 v188 v230 v234 v235 r d

theorem pay20_apply (v193 : FVec Ideal S1024x32 .bf16) (ρ : Fin 32) (t : Fin 1024) :
    k0_pay20 v193 (ix2 ρ t) = v193 (ix2 t ρ) := by
  unfold k0_pay20
  rw [transpose_ix2_apply]

end Cert.MLA.Pay

end
-- ==== Proof.DevGlue.lean ====
import proofs.«900573_g7700000000000574_dist_mla_v7x_xyz2x2x2_z_b1_s1024_d2048_dc128_bf16_1_alg».proof.Proof.ProjGlue
import proofs.«900573_g7700000000000574_dist_mla_v7x_xyz2x2x2_z_b1_s1024_d2048_dc128_bf16_1_alg».proof.Proof.AttnLoc
import proofs.«900573_g7700000000000574_dist_mla_v7x_xyz2x2x2_z_b1_s1024_d2048_dc128_bf16_1_alg».proof.Proof.BlockIdx
import proofs.«900573_g7700000000000574_dist_mla_v7x_xyz2x2x2_z_b1_s1024_d2048_dc128_bf16_1_alg».proof.Proof.PayAttnO
import proofs.«900573_g7700000000000574_dist_mla_v7x_xyz2x2x2_z_b1_s1024_d2048_dc128_bf16_1_alg».proof.Proof.Sched

noncomputable section

namespace Cert.MLA.Glue

open Idealize.ShloMosaic Idealize.ShloMosaic.ValueIdx Cert.KernelIdeal Cert.KernelIdeal.Gen Cert.MLA Cert.MLA.Pay
open scoped BigOperators

structure DevFacts (X : Fin 1024 → Fin 2048 → EReal) (Wdkv : Fin 2048 → Fin 256 → EReal)
    (Wuk Wuv : Fin 256 → Fin 2048 → EReal) (Wq : Fin 2048 → Fin 2048 → EReal) (Wqr : Fin 2048 → Fin 512 → EReal)
    (Wkr : Fin 2048 → Fin 32 → EReal) (Wo : Fin 2048 → Fin 2048 → EReal)
    (m : (ℓ : Loc nD τ sig) → Buf (Elt Ideal) ℓ) (c : Dev nD) : Prop where
  h70 : ∀ (s : Fin 1024) (k : Fin 2048), Proto.stg0 m c (ix3 (0 : Fin 1) s k) = X s k
  h73 : ∀ (k : Fin 2048) (e : Fin 128), Proto.stg1 m c (ix2 k e) = Wdkv k ⟨128 * (c.val % 2) + e.val, by omega⟩
  h42 : ∀ (e : Fin 128) (j : Fin 2048), Proto.stg2 m c (ix2 e j) = Wuk ⟨128 * (c.val % 2) + e.val, by omega⟩ j
  h45 : ∀ (e : Fin 128) (j : Fin 2048), Proto.stg3 m c (ix2 e j) = Wuv ⟨128 * (c.val % 2) + e.val, by omega⟩ j
  h180 : ∀ (k : Fin 2048) (cc : Fin 512), Proto.stg4 m c (ix2 k cc) = Wqr k cc
  h189 : ∀ (k : Fin 2048) (r : Fin 32), Proto.stg5 m c (ix2 k r) = Wkr k r
  h83 : ∀ (r : Fin 256) (k : Fin 2048),
    Proto.xqLd m c (ix3 (0 : Fin 1) r k) = X ⟨256 * (c.val / 2) + r.val, by have h : c.val < 8 := c.isLt; omega⟩ k
  hq0 : ∀ (k : Fin 512) (j : Fin 1024),
    Proto.wqLd0 m c (ix3 (0 : Fin 1) k j) = Wq ⟨k.val, by omega⟩ ⟨1024 * (c.val % 2) + j.val, by omega⟩
  hq1 : ∀ (k : Fin 512) (j : Fin 1024),
    Proto.wqLd1 m c (ix3 (0 : Fin 1) k j) = Wq ⟨512 + k.val, by omega⟩ ⟨1024 * (c.val % 2) + j.val, by omega⟩
  hq2 : ∀ (k : Fin 512) (j : Fin 1024),
    Proto.wqLd2 m c (ix3 (0 : Fin 1) k j) = Wq ⟨1024 + k.val, by omega⟩ ⟨1024 * (c.val % 2) + j.val, by omega⟩
  hq3 : ∀ (k : Fin 512) (j : Fin 1024),
    Proto.wqLd3 m c (ix3 (0 : Fin 1) k j) = Wq ⟨1536 + k.val, by omega⟩ ⟨1024 * (c.val % 2) + j.val, by omega⟩
  hw0 : ∀ (k : Fin 512) (n : Fin 2048),
    Proto.woLd0 m c (ix3 (0 : Fin 1) k n) = Wo ⟨1024 * (c.val % 2) + k.val, by omega⟩ n
  hw1 : ∀ (k : Fin 512) (n : Fin 2048),
    Proto.woLd1 m c (ix3 (0 : Fin 1) k n) = Wo ⟨1024 * (c.val % 2) + 512 + k.val, by omega⟩ n
  hzw : Proto.zw c = BitVec.ofNat 32 (c.val % 2)

theorem pay10_congr (v70 v70' : Vec Ideal S1x1024x2048 .f32) (v73 : Vec Ideal S2048x128 .f32)
    (h : ∀ (s : Fin 1024) (k : Fin 2048), v70 (ix3 (0 : Fin 1) s k) = v70' (ix3 (0 : Fin 1) s k)) :
    Gen.k0_pay10 (F := Ideal) v70 v73 = Gen.k0_pay10 (F := Ideal) v70' v73 := by
  funext i
  obtain ⟨s, e, rfl⟩ : ∃ (s : Fin 1024) (e : Fin 128), i = ix2 s e := ⟨i 0, i 1, eq_ix2 i⟩
  rw [pay10_apply, pay10_apply]
  exact Finset.sum_congr rfl fun k _ => by rw [h]

theorem hw0_peer (X : Fin 1024 → Fin 2048 → EReal) (Wdkv : Fin 2048 → Fin 256 → EReal)
    (Wuk Wuv : Fin 256 → Fin 2048 → EReal) (Wq : Fin 2048 → Fin 2048 → EReal) (Wqr : Fin 2048 → Fin 512 → EReal)
    (Wkr : Fin 2048 → Fin 32 → EReal) (Wo : Fin 2048 → Fin 2048 → EReal)
    (m : (ℓ : Loc nD τ sig) → Buf (Elt Ideal) ℓ) (c : Dev nD)
    (H' : DevFacts X Wdkv Wuk Wuv Wq Wqr Wkr Wo m (Proto.zp c)) (hzp : (Proto.zp c).val % 2 = 1 - c.val % 2)
    (k : Fin 512) (n : Fin 2048) :
    Proto.woLd0 m (Proto.zp c) (ix3 (0 : Fin 1) k n) = Wo ⟨1024 * (1 - c.val % 2) + k.val, by omega⟩ n :=
  (H'.hw0 k n).trans (congrArg (fun c' => Wo c' n) (Fin.ext (by
    show 1024 * ((Proto.zp c).val % 2) + k.val = 1024 * (1 - c.val % 2) + k.val
    rw [hzp])))

theorem hw1_peer (X : Fin 1024 → Fin 2048 → EReal) (Wdkv : Fin 2048 → Fin 256 → EReal)
    (Wuk Wuv : Fin 256 → Fin 2048 → EReal) (Wq : Fin 2048 → Fin 2048 → EReal) (Wqr : Fin 2048 → Fin 512 → EReal)
    (Wkr : Fin 2048 → Fin 32 → EReal) (Wo : Fin 2048 → Fin 2048 → EReal)
    (m : (ℓ : Loc nD τ sig) → Buf (Elt Ideal) ℓ) (c : Dev nD)
    (H' : DevFacts X Wdkv Wuk Wuv Wq Wqr Wkr Wo m (Proto.zp c)) (hzp : (Proto.zp c).val % 2 = 1 - c.val % 2)
    (k : Fin 512) (n : Fin 2048) :
    Proto.woLd1 m (Proto.zp c) (ix3 (0 : Fin 1) k n) = Wo ⟨1024 * (1 - c.val % 2) + 512 + k.val, by omega⟩ n :=
  (H'.hw1 k n).trans (congrArg (fun c' => Wo c' n) (Fin.ext (by
    show 1024 * ((Proto.zp c).val % 2) + 512 + k.val = 1024 * (1 - c.val % 2) + 512 + k.val
    rw [hzp])))

theorem deviceArrays (X : Fin 1024 → Fin 2048 → EReal) (Wdkv : Fin 2048 → Fin 256 → EReal)
    (Wuk Wuv : Fin 256 → Fin 2048 → EReal) (Wq : Fin 2048 → Fin 2048 → EReal) (Wqr : Fin 2048 → Fin 512 → EReal)
    (Wkr : Fin 2048 → Fin 32 → EReal) (Wo : Fin 2048 → Fin 2048 → EReal)
    (m : (ℓ : Loc nD τ sig) → Buf (Elt Ideal) ℓ) (c : Dev nD)
    (H : DevFacts X Wdkv Wuk Wuv Wq Wqr Wkr Wo m c) (H' : DevFacts X Wdkv Wuk Wuv Wq Wqr Wkr Wo m (Proto.zp c))
    (hzp : (Proto.zp c).val % 2 = 1 - c.val % 2) :
    DeviceArrays X Wdkv Wuk Wuv Wq Wqr Wkr (zOf c) (bOf c)
      (fun r j => Proto.qVal m c (ix2 r j)) (fun r cc => Proto.qrVal m c (ix2 r cc))
      (fun t j => Proto.kVal m c (ix2 t j)) (fun t j => Proto.vVal m c (ix2 t j))
      (fun ρ t => Proto.krT m c (ix2 ρ t)) where
  hq := fun r j =>
    qBlk (zOf c) (bOf c) X Wq (Proto.xqLd m c) (Proto.wqLd0 m c) (Proto.wqLd1 m c) (Proto.wqLd2 m c) (Proto.wqLd3 m c)
      H.h83 H.hq0 H.hq1 H.hq2 H.hq3 r j
  hqr := fun r cc =>
    qrBlk (zOf c) (bOf c) X Wqr (Proto.zw c) H.hzw (Proto.xqLd m c) (Proto.stg4 m c) H.h83 H.h180 r cc
  hk := fun t j => by
    have e : Proto.cLat m (Proto.zp c) = Gen.k0_pay10 (F := Ideal) (Proto.stg0 m c) (Proto.stg1 m (Proto.zp c)) :=
      pay10_congr _ _ _ fun s k => (H'.h70 s k).trans (H.h70 s k).symm
    show Gen.k0_pay18 (F := Ideal) (Gen.k0_pay16 (F := Ideal) (Gen.k0_pay3 (F := Ideal) (Proto.zw c) (Proto.stg2 m c))
        (Gen.k0_pay9 (F := Ideal) (Proto.stg0 m c) (Proto.stg1 m c))) (Proto.cLat m (Proto.zp c))
        (Gen.k0_pay5 (F := Ideal) (Proto.zw (Proto.zp c)) (Proto.stg2 m (Proto.zp c))) (ix2 t j) = _
    rw [e]
    exact kHalf (zOf c) (zOf (Proto.zp c)) hzp X Wdkv Wuk (Proto.zw c) (Proto.zw (Proto.zp c)) H.hzw H'.hzw
      (Proto.stg0 m c) (Proto.stg1 m c) (Proto.stg1 m (Proto.zp c)) (Proto.stg2 m c) (Proto.stg2 m (Proto.zp c))
      H.h70 H.h73 H'.h73 H.h42 H'.h42 t j
  hv := fun t j => by
    have e : Proto.cLat m (Proto.zp c) = Gen.k0_pay10 (F := Ideal) (Proto.stg0 m c) (Proto.stg1 m (Proto.zp c)) :=
      pay10_congr _ _ _ fun s k => (H'.h70 s k).trans (H.h70 s k).symm
    show Gen.k0_pay19 (F := Ideal) (Gen.k0_pay17 (F := Ideal) (Gen.k0_pay4 (F := Ideal) (Proto.zw c) (Proto.stg3 m c))
        (Gen.k0_pay9 (F := Ideal) (Proto.stg0 m c) (Proto.stg1 m c))) (Proto.cLat m (Proto.zp c))
        (Gen.k0_pay7 (F := Ideal) (Gen.k0_pay6 (F := Ideal) (Proto.zw (Proto.zp c)) (Proto.stg3 m (Proto.zp c)))) (ix2 t j) = _
    rw [e]
    exact vHalf (zOf c) (zOf (Proto.zp c)) hzp X Wdkv Wuv (Proto.zw c) (Proto.zw (Proto.zp c)) H.hzw H'.hzw
      (Proto.stg0 m c) (Proto.stg1 m c) (Proto.stg1 m (Proto.zp c)) (Proto.stg3 m c) (Proto.stg3 m (Proto.zp c))
      H.h70 H.h73 H'.h73 H.h45 H'.h45 t j
  hkr := fun ρ t => by
    show Gen.k0_pay20 (F := Ideal) (Gen.k0_pay15 (F := Ideal) (Gen.k0_pay8 (F := Ideal) (Proto.stg0 m c)) (Proto.stg5 m c)) (ix2 ρ t) = _
    rw [pay20_apply]
    exact krAll X Wkr (Proto.stg0 m c) (Proto.stg5 m c) H.h70 H.h189 t ρ

end Cert.MLA.Glue

end
-- ==== Proof.RowsGlue.lean ====
import proofs.«900573_g7700000000000574_dist_mla_v7x_xyz2x2x2_z_b1_s1024_d2048_dc128_bf16_1_alg».proof.Proof.PayAttnO
import proofs.«900573_g7700000000000574_dist_mla_v7x_xyz2x2x2_z_b1_s1024_d2048_dc128_bf16_1_alg».proof.Proof.PayOut
import proofs.«900573_g7700000000000574_dist_mla_v7x_xyz2x2x2_z_b1_s1024_d2048_dc128_bf16_1_alg».proof.Proof.AttnLoc

noncomputable section

namespace Cert.MLA.Glue

open Idealize.ShloMosaic Idealize.ShloMosaic.ValueIdx Cert.KernelIdeal Cert.KernelIdeal.Gen Cert.MLA Cert.MLA.Pay
open scoped BigOperators

theorem opSum_chunks (o : FVec Ideal S128x1024 .bf16) (w0 w1 : Vec Ideal S1x512x2048 .f32) (wcol : Fin 1024 → EReal)
    (r : Fin 128) (n : Fin 2048)
    (h0 : ∀ k : Fin 512, w0 (ix3 (0 : Fin 1) k n) = wcol ⟨k.val, by omega⟩)
    (h1 : ∀ k : Fin 512, w1 (ix3 (0 : Fin 1) k n) = wcol ⟨512 + k.val, by omega⟩) :
    opSum o w0 w1 r n
      = ∑ i : Fin 2, ∑ kk : Fin 512, o (ix2 r ⟨512 * i.val + kk.val, by omega⟩) * wcol ⟨512 * i.val + kk.val, by omega⟩ := by
  have e0 : ∀ (k : Fin 512) (h : 512 * (0 : Fin 2).val + k.val < 1024),
      (⟨512 * (0 : Fin 2).val + k.val, h⟩ : Fin 1024) = ⟨k.val, by omega⟩ := fun k h => Fin.ext (by simp)
  have e1 : ∀ (k : Fin 512) (h : 512 * (1 : Fin 2).val + k.val < 1024),
      (⟨512 * (1 : Fin 2).val + k.val, h⟩ : Fin 1024) = ⟨512 + k.val, by omega⟩ := fun k h => Fin.ext (by simp)
  rw [Fin.sum_univ_two]
  simp only [e0, e1]
  unfold opSum
  simp only [h0, h1]

theorem rows0_eq (x : Fin 1024 → Fin 2048 → EReal) (wdkv : Fin 2048 → Fin 256 → EReal) (wuk wuv : Fin 256 → Fin 2048 → EReal) (wq : Fin 2048 → Fin 2048 → EReal) (wqr : Fin 2048 → Fin 512 → EReal) (wkr : Fin 2048 → Fin 32 → EReal) (wo : Fin 2048 → Fin 2048 → EReal)
    (hx : ∀ s k, IsReal (x s k)) (hd : ∀ k e, IsReal (wdkv k e)) (hk : ∀ e j, IsReal (wuk e j)) (hv : ∀ e j, IsReal (wuv e j)) (hq : ∀ k j, IsReal (wq k j)) (hqr : ∀ k j, IsReal (wqr k j)) (hkr : ∀ k r, IsReal (wkr k r)) (hσ : IsReal σK) (z : Fin 2) (b : Fin 4)
    (v149 : FVec Ideal S256x1024 .bf16) (v188 : FVec Ideal S256x256 .bf16) (v193 : FVec Ideal S1024x32 .bf16) (v194 : FVec Ideal S1024x1024 .f32) (v195 : FVec Ideal S1024x1024 .f32) (v226 : Vec Ideal S1024x128 .bf16) (v227 : Vec Ideal S128x1024 .bf16) (v231 : Vec Ideal S128x1024 .bf16) (w0 w1 : Vec Ideal S1x512x2048 .f32)
    (v149' : FVec Ideal S256x1024 .bf16) (v188' : FVec Ideal S256x256 .bf16) (v193' : FVec Ideal S1024x32 .bf16) (v194' : FVec Ideal S1024x1024 .f32) (v195' : FVec Ideal S1024x1024 .f32) (v226' : Vec Ideal S1024x128 .bf16) (v227' : Vec Ideal S128x1024 .bf16) (v231' : Vec Ideal S128x1024 .bf16) (w0' w1' : Vec Ideal S1x512x2048 .f32)
    (H : DeviceArrays x wdkv wuk wuv wq wqr wkr z b (fun i j => v149 (ix2 i j)) (fun i j => v188 (ix2 i j)) (fun i j => k0_pay18 v194 v226 v227 (ix2 i j)) (fun i j => k0_pay19 v195 v226 v231 (ix2 i j)) (fun i j => k0_pay20 v193 (ix2 i j)))
    (hw0 : ∀ (k : Fin 512) (n : Fin 2048), w0 (ix3 (0 : Fin 1) k n) = wo ⟨1024 * z.val + k.val, by omega⟩ n)
    (hw1 : ∀ (k : Fin 512) (n : Fin 2048), w1 (ix3 (0 : Fin 1) k n) = wo ⟨1024 * z.val + 512 + k.val, by omega⟩ n)
    (H' : DeviceArrays x wdkv wuk wuv wq wqr wkr ⟨1 - z.val, by omega⟩ b (fun i j => v149' (ix2 i j)) (fun i j => v188' (ix2 i j)) (fun i j => k0_pay18 v194' v226' v227' (ix2 i j)) (fun i j => k0_pay19 v195' v226' v231' (ix2 i j)) (fun i j => k0_pay20 v193' (ix2 i j)))
    (hw0' : ∀ (k : Fin 512) (n : Fin 2048), w0' (ix3 (0 : Fin 1) k n) = wo ⟨1024 * (1 - z.val) + k.val, by omega⟩ n)
    (hw1' : ∀ (k : Fin 512) (n : Fin 2048), w1' (ix3 (0 : Fin 1) k n) = wo ⟨1024 * (1 - z.val) + 512 + k.val, by omega⟩ n)
    (r : Fin 128) (n : Fin 2048) :
    k0_pay51 (k0_pay34 (oChunk0 v149 v188 v193 v194 v195 v226 v227 v231) w0 w1) (k0_pay35 (oChunk0 v149' v188' v193' v194' v195' v226' v227' v231') w0' w1') (ix2 r n)
      = out x wdkv wuk wuv wq wqr wkr wo σK ⟨256 * b.val + r.val, by omega⟩ n := by
  rw [pay51_apply, pay34_apply, pay35_apply,
    opSum_chunks (oChunk0 v149 v188 v193 v194 v195 v226 v227 v231) w0 w1 (fun j => wo ⟨1024 * z.val + j.val, by omega⟩ n) r n (fun k => hw0 k n)
      (fun k => (hw1 k n).trans (congrArg (fun c => wo c n) (Fin.ext (Nat.add_assoc _ _ _)))),
    opSum_chunks (oChunk0 v149' v188' v193' v194' v195' v226' v227' v231') w0' w1' (fun j => wo ⟨1024 * (1 - z.val) + j.val, by omega⟩ n) r n (fun k => hw0' k n)
      (fun k => (hw1' k n).trans (congrArg (fun c => wo c n) (Fin.ext (Nat.add_assoc _ _ _))))]
  exact (device_rows x wdkv wuk wuv wq wqr wkr wo σK hx hd hk hv hq hqr hkr hσ z b _ _ _ _ _ _ _ _ _ _ H H' ⟨r.val, by omega⟩ n
    (fun j => oChunk0 v149 v188 v193 v194 v195 v226 v227 v231 (ix2 r j)) (fun j => wo ⟨1024 * z.val + j.val, by omega⟩ n)
    (fun j => oChunk0 v149' v188' v193' v194' v195' v226' v227' v231' (ix2 r j)) (fun j => wo ⟨1024 * (1 - z.val) + j.val, by omega⟩ n)
    (fun hl d => o0_apply v149 v188 v193 v194 v195 v226 v227 v231 r hl d)
    (fun hl d => congrArg (fun c => wo c n) (Fin.ext (hcol_headOf z hl d).symm))
    (fun hl d => o0_apply v149' v188' v193' v194' v195' v226' v227' v231' r hl d)
    (fun hl d => congrArg (fun c => wo c n) (Fin.ext (hcol_headOf ⟨1 - z.val, by omega⟩ hl d).symm)))

theorem rows1_eq (x : Fin 1024 → Fin 2048 → EReal) (wdkv : Fin 2048 → Fin 256 → EReal) (wuk wuv : Fin 256 → Fin 2048 → EReal) (wq : Fin 2048 → Fin 2048 → EReal) (wqr : Fin 2048 → Fin 512 → EReal) (wkr : Fin 2048 → Fin 32 → EReal) (wo : Fin 2048 → Fin 2048 → EReal)
    (hx : ∀ s k, IsReal (x s k)) (hd : ∀ k e, IsReal (wdkv k e)) (hk : ∀ e j, IsReal (wuk e j)) (hv : ∀ e j, IsReal (wuv e j)) (hq : ∀ k j, IsReal (wq k j)) (hqr : ∀ k j, IsReal (wqr k j)) (hkr : ∀ k r, IsReal (wkr k r)) (hσ : IsReal σK) (z : Fin 2) (b : Fin 4)
    (v149 : FVec Ideal S256x1024 .bf16) (v188 : FVec Ideal S256x256 .bf16) (v230 : FVec Ideal S1024x1024 .bf16) (v234 : FVec Ideal S1024x1024 .bf16) (v235 : FVec Ideal S32x1024 .bf16) (w0 w1 : Vec Ideal S1x512x2048 .f32)
    (v149' : FVec Ideal S256x1024 .bf16) (v188' : FVec Ideal S256x256 .bf16) (v230' : FVec Ideal S1024x1024 .bf16) (v234' : FVec Ideal S1024x1024 .bf16) (v235' : FVec Ideal S32x1024 .bf16) (w0' w1' : Vec Ideal S1x512x2048 .f32)
    (H : DeviceArrays x wdkv wuk wuv wq wqr wkr z b (fun i j => v149 (ix2 i j)) (fun i j => v188 (ix2 i j)) (fun i j => v230 (ix2 i j)) (fun i j => v234 (ix2 i j)) (fun i j => v235 (ix2 i j)))
    (hw0 : ∀ (k : Fin 512) (n : Fin 2048), w0 (ix3 (0 : Fin 1) k n) = wo ⟨1024 * z.val + k.val, by omega⟩ n)
    (hw1 : ∀ (k : Fin 512) (n : Fin 2048), w1 (ix3 (0 : Fin 1) k n) = wo ⟨1024 * z.val + 512 + k.val, by omega⟩ n)
    (H' : DeviceArrays x wdkv wuk wuv wq wqr wkr ⟨1 - z.val, by omega⟩ b (fun i j => v149' (ix2 i j)) (fun i j => v188' (ix2 i j)) (fun i j => v230' (ix2 i j)) (fun i j => v234' (ix2 i j)) (fun i j => v235' (ix2 i j)))
    (hw0' : ∀ (k : Fin 512) (n : Fin 2048), w0' (ix3 (0 : Fin 1) k n) = wo ⟨1024 * (1 - z.val) + k.val, by omega⟩ n)
    (hw1' : ∀ (k : Fin 512) (n : Fin 2048), w1' (ix3 (0 : Fin 1) k n) = wo ⟨1024 * (1 - z.val) + 512 + k.val, by omega⟩ n)
    (r : Fin 128) (n : Fin 2048) :
    k0_pay54 (k0_pay49 (oChunk1 v149 v188 v230 v234 v235) w0 w1) (k0_pay50 (oChunk1 v149' v188' v230' v234' v235') w0' w1') (ix2 r n)
      = out x wdkv wuk wuv wq wqr wkr wo σK ⟨256 * b.val + 128 + r.val, by omega⟩ n := by
  rw [pay54_apply, pay49_apply, pay50_apply,
    opSum_chunks (oChunk1 v149 v188 v230 v234 v235) w0 w1 (fun j => wo ⟨1024 * z.val + j.val, by omega⟩ n) r n (fun k => hw0 k n)
      (fun k => (hw1 k n).trans (congrArg (fun c => wo c n) (Fin.ext (Nat.add_assoc _ _ _)))),
    opSum_chunks (oChunk1 v149' v188' v230' v234' v235') w0' w1' (fun j => wo ⟨1024 * (1 - z.val) + j.val, by omega⟩ n) r n (fun k => hw0' k n)
      (fun k => (hw1' k n).trans (congrArg (fun c => wo c n) (Fin.ext (Nat.add_assoc _ _ _))))]
  refine (device_rows x wdkv wuk wuv wq wqr wkr wo σK hx hd hk hv hq hqr hkr hσ z b _ _ _ _ _ _ _ _ _ _ H H' ⟨128 + r.val, by omega⟩ n
    (fun j => oChunk1 v149 v188 v230 v234 v235 (ix2 r j)) (fun j => wo ⟨1024 * z.val + j.val, by omega⟩ n)
    (fun j => oChunk1 v149' v188' v230' v234' v235' (ix2 r j)) (fun j => wo ⟨1024 * (1 - z.val) + j.val, by omega⟩ n)
    (fun hl d => o1_apply v149 v188 v230 v234 v235 r hl d)
    (fun hl d => congrArg (fun c => wo c n) (Fin.ext (hcol_headOf z hl d).symm))
    (fun hl d => o1_apply v149' v188' v230' v234' v235' r hl d)
    (fun hl d => congrArg (fun c => wo c n) (Fin.ext (hcol_headOf ⟨1 - z.val, by omega⟩ hl d).symm))).trans
    (congrArg (fun s => out x wdkv wuk wuv wq wqr wkr wo σK s n) (Fin.ext ?_))
  show 256 * b.val + (128 + r.val) = 256 * b.val + 128 + r.val
  omega

end Cert.MLA.Glue

end
-- ==== Proof.Glue.lean ====
import proofs.«900573_g7700000000000574_dist_mla_v7x_xyz2x2x2_z_b1_s1024_d2048_dc128_bf16_1_alg».proof.Defs
import proofs.«900573_g7700000000000574_dist_mla_v7x_xyz2x2x2_z_b1_s1024_d2048_dc128_bf16_1_alg».proof.Proof.Sched
import proofs.«900573_g7700000000000574_dist_mla_v7x_xyz2x2x2_z_b1_s1024_d2048_dc128_bf16_1_alg».proof.Proof.PayOut
import proofs.«900573_g7700000000000574_dist_mla_v7x_xyz2x2x2_z_b1_s1024_d2048_dc128_bf16_1_alg».proof.Proof.RefValue
import proofs.«900573_g7700000000000574_dist_mla_v7x_xyz2x2x2_z_b1_s1024_d2048_dc128_bf16_1_alg».proof.Proof.BlockIdx
import proofs.«900573_g7700000000000574_dist_mla_v7x_xyz2x2x2_z_b1_s1024_d2048_dc128_bf16_1_alg».proof.Proof.WholeReal
import proofs.«900573_g7700000000000574_dist_mla_v7x_xyz2x2x2_z_b1_s1024_d2048_dc128_bf16_1_alg».proof.Proof.DevGlue
import proofs.«900573_g7700000000000574_dist_mla_v7x_xyz2x2x2_z_b1_s1024_d2048_dc128_bf16_1_alg».proof.Proof.RowsGlue
import Idealize.ShloMosaic.Lib.ValueIdx
import Idealize.ShloMosaic.Lib.ValueLayout

noncomputable section

namespace Cert.MLA.Glue

open Idealize.ShloMosaic Idealize.ShloMosaic.TcCoe Idealize.ShloMosaic.ValueIdx
open Cert.KernelIdeal Cert.KernelIdeal.Gen Cert.KernelIdeal.Proto Cert.MLA Cert.MLA.Pay
open scoped BigOperators

theorem shapeCast_ab_11ab_apply {α : Type} {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_two, Shape.rowMajor_val_four]
    show i.val * b + j.val = ((0 * 1 + 0) * a + i.val) * b + j.val
    simp)

theorem unsq4_sq3_apply (w : Vec Ideal S1x128x2048 .bf16) (r : Fin 128) (n : Fin 2048) :
    unsq4 (sq3 w) (ix4 (0 : Fin 1) (0 : Fin 1) r n) = w (ix3 (0 : Fin 1) r n) := by
  unfold unsq4 sq3
  rw [shapeCast_ab_11ab_apply, shapeCast_1ab_ab_apply]

theorem rowIdx_eq (x : S1x1024x2048.Idx) :
    rowIdx x = ix3 (0 : Fin 1) (⟨(x 1).val % 128, Nat.mod_lt _ (by decide)⟩ : Fin 128) (⟨(x 2).val, (x 2).isLt⟩ : Fin 2048) :=
  funext fun a => Fin.ext (by
    match a with
    | ⟨0, _⟩ => show (x 0).val % 1 = 0; exact Nat.mod_one _
    | ⟨1, _⟩ => rfl
    | ⟨2, _⟩ => show (x 2).val % 2048 = (x 2).val; exact Nat.mod_eq_of_lt (x 2).isLt)

theorem recvRows_apply (s : Fin 4) (j : Fin 2) (v : Vec Ideal S1x1x128x2048 .bf16) (u : Fin 1) (r : Fin 128) (n : Fin 2048) :
    recvRows s j v (ix3 u r n) = v (ix4 (0 : Fin 1) (0 : Fin 1) r n) := by
  match s, j with
  | ⟨0, _⟩, ⟨0, _⟩ => exact pay57_apply v u r n
  | ⟨0, _⟩, ⟨1, _⟩ => exact pay58_apply v u r n
  | ⟨1, _⟩, ⟨0, _⟩ => exact pay59_apply v u r n
  | ⟨1, _⟩, ⟨1, _⟩ => exact pay60_apply v u r n
  | ⟨2, _⟩, ⟨0, _⟩ => exact pay61_apply v u r n
  | ⟨2, _⟩, ⟨1, _⟩ => exact pay62_apply v u r n
  | ⟨3, _⟩, ⟨0, _⟩ => exact pay63_apply v u r n
  | ⟨3, _⟩, ⟨1, _⟩ => exact pay64_apply v u r n

def outRowsJ (m : (ℓ : Loc Cert.KernelIdeal.nD Cert.KernelIdeal.τ Cert.KernelIdeal.sig) → Buf (Elt Ideal) ℓ) (j : Fin 2) (c : Dev nD) : FVec Ideal S128x2048 .f32 :=
  match j with | 0 => outRows0 m c | 1 => outRows1 m c

theorem ownRows_apply (m : (ℓ : Loc Cert.KernelIdeal.nD Cert.KernelIdeal.τ Cert.KernelIdeal.sig) → Buf (Elt Ideal) ℓ) (j : Fin 2) (c : Dev nD) (u : Fin 1) (r : Fin 128) (n : Fin 2048) :
    ownRows m j c (ix3 u r n) = outRowsJ m j c (ix2 r n) := by
  match j with
  | ⟨0, _⟩ =>
    show k0_pay52 (outRows0 m c) (ix3 u r n) = outRows0 m c (ix2 r n)
    exact pay52_apply _ u r n
  | ⟨1, _⟩ =>
    show k0_pay55 (opVal1 m c) (opHalf1 m (zp c)) (ix3 u r n) = k0_pay54 (opVal1 m c) (opHalf1 m (zp c)) (ix2 r n)
    rw [pay55_apply, pay54_apply]

theorem oblkVal_apply (m : (ℓ : Loc Cert.KernelIdeal.nD Cert.KernelIdeal.τ Cert.KernelIdeal.sig) → Buf (Elt Ideal) ℓ) (j : Fin 2) (c : Dev nD) (u : Fin 1) (r : Fin 128) (n : Fin 2048) :
    oblkVal m j c (ix3 u r n) = outRowsJ m j c (ix2 r n) := by
  match j with
  | ⟨0, _⟩ =>
    show k0_pay53 (outRows0 m c) (ix3 u r n) = outRows0 m c (ix2 r n)
    exact pay53_apply _ u r n
  | ⟨1, _⟩ =>
    show k0_pay56 (opVal1 m c) (opHalf1 m (zp c)) (ix3 u r n) = k0_pay54 (opVal1 m c) (opHalf1 m (zp c)) (ix2 r n)
    rw [pay56_apply, pay54_apply]

theorem outFinal_of_outRows (m : (ℓ : Loc Cert.KernelIdeal.nD Cert.KernelIdeal.τ Cert.KernelIdeal.sig) → Buf (Elt Ideal) ℓ) (G : Fin 1024 → Fin 2048 → EReal)
    (hrows : ∀ (c' : Dev nD) (j : Fin 2) (r : Fin 128) (n : Fin 2048),
      outRowsJ m j c' (ix2 r n) = G ⟨256 * (c'.val / 2) + 128 * j.val + r.val, by have hc : c'.val < 8 := c'.isLt; omega⟩ n)
    (c : Dev nD) (x : S1x1024x2048.Idx) :
    outFinal m c x = G (x 1) (x 2) := by
  show outFinal m c x = G (x 1) ⟨(x 2).val, (x 2).isLt⟩
  have hx1 : (x 1).val < 1024 := (x 1).isLt
  have hc : c.val < 8 := c.isLt
  unfold outFinal rowsOf
  rw [rowIdx_eq]
  split
  · next hs =>
    rw [ownRows_apply, hrows]
    have hb : (x 1).val / 256 = c.val / 2 := congrArg Fin.val hs
    exact congrArg (fun i => G i ⟨(x 2).val, (x 2).isLt⟩) (Fin.ext (by
      show 256 * (c.val / 2) + 128 * ((x 1).val / 128 % 2) + (x 1).val % 128 = (x 1).val
      omega))
  · next hs =>
    rw [recvRows_apply, unsq4_sq3_apply, oblkVal_apply, hrows]
    exact congrArg (fun i => G i ⟨(x 2).val, (x 2).isLt⟩) (Fin.ext (by
      show 256 * ((2 * ((x 1).val / 256) + c.val % 2) / 2) + 128 * ((x 1).val / 128 % 2) + (x 1).val % 128 = (x 1).val
      omega))

theorem stg0_eq (m : (ℓ : Loc nD τ sig) → Buf (Elt Ideal) ℓ) (c : Dev nD) : Proto.stg0 m c = m ((c : Thread nD τ).loc main_arg0) := by
  funext y
  unfold Proto.stg0
  rw [View.read_apply]
  show m ((c : Thread nD τ).loc main_arg0) ((win0_0.blk t0_0).view.emb y) = m ((c : Thread nD τ).loc main_arg0) y
  refine congrArg _ (funext fun a => Fin.ext ?_)
  show 0 * _ + 1 * (y a).val = (y a).val
  omega

theorem stg1_eq (m : (ℓ : Loc nD τ sig) → Buf (Elt Ideal) ℓ) (c : Dev nD) : Proto.stg1 m c = m ((c : Thread nD τ).loc main_arg1) := by
  funext y
  unfold Proto.stg1
  rw [View.read_apply]
  show m ((c : Thread nD τ).loc main_arg1) ((win0_1.blk t0_0).view.emb y) = m ((c : Thread nD τ).loc main_arg1) y
  refine congrArg _ (funext fun a => Fin.ext ?_)
  show 0 * _ + 1 * (y a).val = (y a).val
  omega

theorem stg2_eq (m : (ℓ : Loc nD τ sig) → Buf (Elt Ideal) ℓ) (c : Dev nD) : Proto.stg2 m c = m ((c : Thread nD τ).loc main_arg2) := by
  funext y
  unfold Proto.stg2
  rw [View.read_apply]
  show m ((c : Thread nD τ).loc main_arg2) ((win0_2.blk t0_0).view.emb y) = m ((c : Thread nD τ).loc main_arg2) y
  refine congrArg _ (funext fun a => Fin.ext ?_)
  show 0 * _ + 1 * (y a).val = (y a).val
  omega

theorem stg3_eq (m : (ℓ : Loc nD τ sig) → Buf (Elt Ideal) ℓ) (c : Dev nD) : Proto.stg3 m c = m ((c : Thread nD τ).loc main_arg3) := by
  funext y
  unfold Proto.stg3
  rw [View.read_apply]
  show m ((c : Thread nD τ).loc main_arg3) ((win0_3.blk t0_0).view.emb y) = m ((c : Thread nD τ).loc main_arg3) y
  refine congrArg _ (funext fun a => Fin.ext ?_)
  show 0 * _ + 1 * (y a).val = (y a).val
  omega

theorem stg4_eq (m : (ℓ : Loc nD τ sig) → Buf (Elt Ideal) ℓ) (c : Dev nD) : Proto.stg4 m c = m ((c : Thread nD τ).loc main_arg5) := by
  funext y
  unfold Proto.stg4
  rw [View.read_apply]
  show m ((c : Thread nD τ).loc main_arg5) ((win0_4.blk t0_0).view.emb y) = m ((c : Thread nD τ).loc main_arg5) y
  refine congrArg _ (funext fun a => Fin.ext ?_)
  show 0 * _ + 1 * (y a).val = (y a).val
  omega

theorem stg5_eq (m : (ℓ : Loc nD τ sig) → Buf (Elt Ideal) ℓ) (c : Dev nD) : Proto.stg5 m c = m ((c : Thread nD τ).loc main_arg6) := by
  funext y
  unfold Proto.stg5
  rw [View.read_apply]
  show m ((c : Thread nD τ).loc main_arg6) ((win0_5.blk t0_0).view.emb y) = m ((c : Thread nD τ).loc main_arg6) y
  refine congrArg _ (funext fun a => Fin.ext ?_)
  show 0 * _ + 1 * (y a).val = (y a).val
  omega

theorem zw_eq : ∀ c : Dev nD, Proto.zw c = BitVec.ofNat 32 (c.val % 2) := by decide

theorem xqLd_apply (m : (ℓ : Loc nD τ sig) → Buf (Elt Ideal) ℓ) (c : Dev nD) (r : Fin 256) (k : Fin 2048) :
    Proto.xqLd m c (ix3 (0 : Fin 1) r k)
      = Proto.stg0 m c (ix3 (0 : Fin 1) (⟨256 * (c.val / 2) + r.val, by have hc : c.val < 8 := c.isLt; omega⟩ : Fin 1024) k) := by
  have hc : c.val < 8 := c.isLt
  unfold Proto.xqLd
  rw [View.readAt_apply, View.read_apply]
  show Proto.stg0 m c _ = _
  refine congrArg _ (funext fun a => Fin.ext ?_)
  match a with
  | ⟨0, _⟩ => show k0_off1 c 0 + 1 * 0 = 0; rw [congrFun (k0_off1_eq c) 0]; rfl
  | ⟨1, _⟩ =>
    show k0_off1 c 1 + 1 * r.val = 256 * (c.val / 2) + r.val
    rw [congrFun (k0_off1_eq c) 1]
    show 512 * (c.val / 4) + 256 * ((c.val / 2) % 2) + 1 * r.val = _
    omega
  | ⟨2, _⟩ => show k0_off1 c 2 + 1 * k.val = k.val; rw [congrFun (k0_off1_eq c) 2]; show 0 + 1 * k.val = k.val; omega

theorem wqLd0_apply (m : (ℓ : Loc nD τ sig) → Buf (Elt Ideal) ℓ) (c : Dev nD) (k : Fin 512) (j : Fin 1024) :
    Proto.wqLd0 m c (ix3 (0 : Fin 1) k j)
      = m ((c : Thread nD τ).loc main_arg4) (ix2 (⟨k.val, by omega⟩ : Fin 2048) (⟨1024 * (c.val % 2) + j.val, by omega⟩ : Fin 2048)) := by
  unfold Proto.wqLd0
  rw [View.readAt_rect, View.read_apply]
  have he : (Proto.wbufW.view.slice (Rect.unit (s := S2x512x2048) ![0, 0, 0] S1x512x1024.size inb_S2x512x2048_S1x512x1024_0_0_0)).emb (ix3 (0 : Fin 1) k j)
      = Proto.wbufQ0.view.emb (ix2 k j) := by
    show _ = (Proto.wbufW.view.slice _).emb (Shape.reshapeEquiv _ (ix2 k j))
    rw [reshapeEquiv_ix2_1ab]
    rfl
  rw [he, View.write_emb_of_mem _ _ (Finset.mem_univ _), cast_cast, cast_eq, View.read_apply]
  show m ((c : Thread nD τ).loc main_arg4) _ = _
  refine congrArg _ (funext fun a => Fin.ext ?_)
  match a with
  | ⟨0, _⟩ => show k0_off2 c 0 + 1 * k.val = k.val; rw [congrFun (k0_off2_eq c) 0]; show 0 + 1 * k.val = _; omega
  | ⟨1, _⟩ => show k0_off2 c 1 + 1 * j.val = 1024 * (c.val % 2) + j.val; rw [congrFun (k0_off2_eq c) 1]; show 1024 * (c.val % 2) + 1 * j.val = _; omega

theorem wqLd1_apply (m : (ℓ : Loc nD τ sig) → Buf (Elt Ideal) ℓ) (c : Dev nD) (k : Fin 512) (j : Fin 1024) :
    Proto.wqLd1 m c (ix3 (0 : Fin 1) k j)
      = m ((c : Thread nD τ).loc main_arg4) (ix2 (⟨512 + k.val, by omega⟩ : Fin 2048) (⟨1024 * (c.val % 2) + j.val, by omega⟩ : Fin 2048)) := by
  unfold Proto.wqLd1
  rw [View.readAt_rect, View.read_apply]
  have he : (Proto.wbufW.view.slice (Rect.unit (s := S2x512x2048) ![1, 0, 0] S1x512x1024.size inb_S2x512x2048_S1x512x1024_1_0_0)).emb (ix3 (0 : Fin 1) k j)
      = Proto.wbufQ1.view.emb (ix2 k j) := by
    show _ = (Proto.wbufW.view.slice _).emb (Shape.reshapeEquiv _ (ix2 k j))
    rw [reshapeEquiv_ix2_1ab]
    rfl
  rw [he, View.write_emb_of_mem _ _ (Finset.mem_univ _), cast_cast, cast_eq, View.read_apply]
  show m ((c : Thread nD τ).loc main_arg4) _ = _
  refine congrArg _ (funext fun a => Fin.ext ?_)
  match a with
  | ⟨0, _⟩ => show k0_off3 c 0 + 1 * k.val = 512 + k.val; rw [congrFun (k0_off3_eq c) 0]; show 512 + 1 * k.val = _; omega
  | ⟨1, _⟩ => show k0_off3 c 1 + 1 * j.val = 1024 * (c.val % 2) + j.val; rw [congrFun (k0_off3_eq c) 1]; show 1024 * (c.val % 2) + 1 * j.val = _; omega

theorem wqLd2_apply (m : (ℓ : Loc nD τ sig) → Buf (Elt Ideal) ℓ) (c : Dev nD) (k : Fin 512) (j : Fin 1024) :
    Proto.wqLd2 m c (ix3 (0 : Fin 1) k j)
      = m ((c : Thread nD τ).loc main_arg4) (ix2 (⟨1024 + k.val, by omega⟩ : Fin 2048) (⟨1024 * (c.val % 2) + j.val, by omega⟩ : Fin 2048)) := by
  unfold Proto.wqLd2
  rw [View.readAt_rect, View.read_apply]
  have he : (Proto.wbufW.view.slice (Rect.unit (s := S2x512x2048) ![0, 0, 0] S1x512x1024.size inb_S2x512x2048_S1x512x1024_0_0_0)).emb (ix3 (0 : Fin 1) k j)
      = Proto.wbufQ0.view.emb (ix2 k j) := by
    show _ = (Proto.wbufW.view.slice _).emb (Shape.reshapeEquiv _ (ix2 k j))
    rw [reshapeEquiv_ix2_1ab]
    rfl
  rw [he, View.write_emb_of_mem _ _ (Finset.mem_univ _), cast_cast, cast_eq, View.read_apply]
  show m ((c : Thread nD τ).loc main_arg4) _ = _
  refine congrArg _ (funext fun a => Fin.ext ?_)
  match a with
  | ⟨0, _⟩ => show k0_off4 c 0 + 1 * k.val = 1024 + k.val; rw [congrFun (k0_off4_eq c) 0]; show 1024 + 1 * k.val = _; omega
  | ⟨1, _⟩ => show k0_off4 c 1 + 1 * j.val = 1024 * (c.val % 2) + j.val; rw [congrFun (k0_off4_eq c) 1]; show 1024 * (c.val % 2) + 1 * j.val = _; omega

theorem wqLd3_apply (m : (ℓ : Loc nD τ sig) → Buf (Elt Ideal) ℓ) (c : Dev nD) (k : Fin 512) (j : Fin 1024) :
    Proto.wqLd3 m c (ix3 (0 : Fin 1) k j)
      = m ((c : Thread nD τ).loc main_arg4) (ix2 (⟨1536 + k.val, by omega⟩ : Fin 2048) (⟨1024 * (c.val % 2) + j.val, by omega⟩ : Fin 2048)) := by
  unfold Proto.wqLd3
  rw [View.readAt_rect, View.read_apply]
  have he : (Proto.wbufW.view.slice (Rect.unit (s := S2x512x2048) ![1, 0, 0] S1x512x1024.size inb_S2x512x2048_S1x512x1024_1_0_0)).emb (ix3 (0 : Fin 1) k j)
      = Proto.wbufQ1.view.emb (ix2 k j) := by
    show _ = (Proto.wbufW.view.slice _).emb (Shape.reshapeEquiv _ (ix2 k j))
    rw [reshapeEquiv_ix2_1ab]
    rfl
  rw [he, View.write_emb_of_mem _ _ (Finset.mem_univ _), cast_cast, cast_eq, View.read_apply]
  show m ((c : Thread nD τ).loc main_arg4) _ = _
  refine congrArg _ (funext fun a => Fin.ext ?_)
  match a with
  | ⟨0, _⟩ => show k0_off5 c 0 + 1 * k.val = 1536 + k.val; rw [congrFun (k0_off5_eq c) 0]; show 1536 + 1 * k.val = _; omega
  | ⟨1, _⟩ => show k0_off5 c 1 + 1 * j.val = 1024 * (c.val % 2) + j.val; rw [congrFun (k0_off5_eq c) 1]; show 1024 * (c.val % 2) + 1 * j.val = _; omega

theorem woLd0_apply (m : (ℓ : Loc nD τ sig) → Buf (Elt Ideal) ℓ) (c : Dev nD) (k : Fin 512) (n : Fin 2048) :
    Proto.woLd0 m c (ix3 (0 : Fin 1) k n)
      = m ((c : Thread nD τ).loc main_arg7) (ix2 (⟨1024 * (c.val % 2) + k.val, by omega⟩ : Fin 2048) n) := by
  have ho : k0_off6 c 0#32 = ![1024 * (c.val % 2) + 512 * 0, 0] := k0_off6_eq c ⟨0, by decide⟩
  unfold Proto.woLd0
  rw [View.readAt_rect, View.read_apply]
  have he : (Proto.wbufW.view.slice (Rect.unit (s := S2x512x2048) ![0, 0, 0] S1x512x2048.size inb_S2x512x2048_S1x512x2048_0_0_0)).emb (ix3 (0 : Fin 1) k n)
      = Proto.wbufO0.view.emb (ix2 k n) := by
    show _ = (Proto.wbufW.view.slice _).emb (Shape.reshapeEquiv _ (ix2 k n))
    rw [reshapeEquiv_ix2_1ab]
    rfl
  rw [he, View.write_emb_of_mem _ _ (Finset.mem_univ _), cast_cast, cast_eq, View.read_apply]
  show m ((c : Thread nD τ).loc main_arg7) _ = _
  refine congrArg _ (funext fun a => Fin.ext ?_)
  match a with
  | ⟨0, _⟩ => show k0_off6 c 0#32 0 + 1 * k.val = 1024 * (c.val % 2) + k.val; rw [congrFun ho 0]; show 1024 * (c.val % 2) + 512 * 0 + 1 * k.val = _; omega
  | ⟨1, _⟩ => show k0_off6 c 0#32 1 + 1 * n.val = n.val; rw [congrFun ho 1]; show 0 + 1 * n.val = n.val; omega

theorem woLd1_apply (m : (ℓ : Loc nD τ sig) → Buf (Elt Ideal) ℓ) (c : Dev nD) (k : Fin 512) (n : Fin 2048) :
    Proto.woLd1 m c (ix3 (0 : Fin 1) k n)
      = m ((c : Thread nD τ).loc main_arg7) (ix2 (⟨1024 * (c.val % 2) + 512 + k.val, by omega⟩ : Fin 2048) n) := by
  have ho : k0_off6 c 512#32 = ![1024 * (c.val % 2) + 512 * 1, 0] := k0_off6_eq c ⟨1, by decide⟩
  unfold Proto.woLd1
  rw [View.readAt_rect, View.read_apply]
  have he : (Proto.wbufW.view.slice (Rect.unit (s := S2x512x2048) ![1, 0, 0] S1x512x2048.size inb_S2x512x2048_S1x512x2048_1_0_0)).emb (ix3 (0 : Fin 1) k n)
      = Proto.wbufO1.view.emb (ix2 k n) := by
    show _ = (Proto.wbufW.view.slice _).emb (Shape.reshapeEquiv _ (ix2 k n))
    rw [reshapeEquiv_ix2_1ab]
    rfl
  rw [he, View.write_emb_of_mem _ _ (Finset.mem_univ _), cast_cast, cast_eq, View.read_apply]
  show m ((c : Thread nD τ).loc main_arg7) _ = _
  refine congrArg _ (funext fun a => Fin.ext ?_)
  match a with
  | ⟨0, _⟩ => show k0_off6 c 512#32 0 + 1 * k.val = 1024 * (c.val % 2) + 512 + k.val; rw [congrFun ho 0]; show 1024 * (c.val % 2) + 512 * 1 + 1 * k.val = _; omega
  | ⟨1, _⟩ => show k0_off6 c 512#32 1 + 1 * n.val = n.val; rw [congrFun ho 1]; show 0 + 1 * n.val = n.val; omega

theorem zp_mod (c : Dev nD) : (Proto.zp c).val % 2 = 1 - c.val % 2 := by
  rw [Proto.zp_val]; exact peer_mod c.val c.isLt
theorem zp_div (c : Dev nD) : (Proto.zp c).val / 2 = c.val / 2 := by
  rw [Proto.zp_val]; exact peer_div c.val c.isLt

theorem outRows0_apply (X : Fin 1024 → Fin 2048 → EReal) (Wdkv : Fin 2048 → Fin 256 → EReal) (Wuk Wuv : Fin 256 → Fin 2048 → EReal) (Wq : Fin 2048 → Fin 2048 → EReal) (Wqr : Fin 2048 → Fin 512 → EReal) (Wkr : Fin 2048 → Fin 32 → EReal) (Wo : Fin 2048 → Fin 2048 → EReal)
    (hx : ∀ s k, IsReal (X s k)) (hd : ∀ k e, IsReal (Wdkv k e)) (hk : ∀ e j, IsReal (Wuk e j)) (hv : ∀ e j, IsReal (Wuv e j)) (hq : ∀ k j, IsReal (Wq k j)) (hqr : ∀ k j, IsReal (Wqr k j)) (hkr : ∀ k r, IsReal (Wkr k r)) (hσ : IsReal σK) (m : (ℓ : Loc nD τ sig) → Buf (Elt Ideal) ℓ)
    (DF : ∀ c : Dev nD, DevFacts X Wdkv Wuk Wuv Wq Wqr Wkr Wo m c) (c : Dev nD) (r : Fin 128) (n : Fin 2048) :
    Proto.outRows0 m c (ix2 r n)
      = out X Wdkv Wuk Wuv Wq Wqr Wkr Wo σK ⟨256 * (c.val / 2) + r.val, by have hc : c.val < 8 := c.isLt; omega⟩ n := by
  have hzp := zp_mod c
  have H := deviceArrays X Wdkv Wuk Wuv Wq Wqr Wkr Wo m c (DF c) (DF (Proto.zp c)) hzp
  have H' := deviceArrays X Wdkv Wuk Wuv Wq Wqr Wkr Wo m (Proto.zp c) (DF (Proto.zp c)) (DF (Proto.zp (Proto.zp c))) (zp_mod (Proto.zp c))
  have ez : zOf (Proto.zp c) = ⟨1 - (zOf c).val, by have := (zOf c).isLt; omega⟩ := Fin.ext hzp
  have eb : bOf (Proto.zp c) = bOf c := Fin.ext (zp_div c)
  rw [ez, eb] at H'
  exact rows0_eq X Wdkv Wuk Wuv Wq Wqr Wkr Wo hx hd hk hv hq hqr hkr hσ (zOf c) (bOf c)
    (Proto.qVal m c) (Proto.qrVal m c) (Proto.krVal m c) (Proto.kpVal m c) (Proto.vpVal m c)
    (Proto.cLat m (Proto.zp c)) (Proto.wukSend m (Proto.zp c)) (Proto.wuvSend m (Proto.zp c)) (Proto.woLd0 m c) (Proto.woLd1 m c)
    (Proto.qVal m (Proto.zp c)) (Proto.qrVal m (Proto.zp c)) (Proto.krVal m (Proto.zp c)) (Proto.kpVal m (Proto.zp c))
    (Proto.vpVal m (Proto.zp c)) (Proto.cLat m (Proto.zp (Proto.zp c))) (Proto.wukSend m (Proto.zp (Proto.zp c)))
    (Proto.wuvSend m (Proto.zp (Proto.zp c))) (Proto.woLd0 m (Proto.zp c)) (Proto.woLd1 m (Proto.zp c))
    H (DF c).hw0 (DF c).hw1 H' (hw0_peer X Wdkv Wuk Wuv Wq Wqr Wkr Wo m c (DF (Proto.zp c)) hzp) (hw1_peer X Wdkv Wuk Wuv Wq Wqr Wkr Wo m c (DF (Proto.zp c)) hzp) r n

theorem outRows1_apply (X : Fin 1024 → Fin 2048 → EReal) (Wdkv : Fin 2048 → Fin 256 → EReal) (Wuk Wuv : Fin 256 → Fin 2048 → EReal) (Wq : Fin 2048 → Fin 2048 → EReal) (Wqr : Fin 2048 → Fin 512 → EReal) (Wkr : Fin 2048 → Fin 32 → EReal) (Wo : Fin 2048 → Fin 2048 → EReal)
    (hx : ∀ s k, IsReal (X s k)) (hd : ∀ k e, IsReal (Wdkv k e)) (hk : ∀ e j, IsReal (Wuk e j)) (hv : ∀ e j, IsReal (Wuv e j)) (hq : ∀ k j, IsReal (Wq k j)) (hqr : ∀ k j, IsReal (Wqr k j)) (hkr : ∀ k r, IsReal (Wkr k r)) (hσ : IsReal σK) (m : (ℓ : Loc nD τ sig) → Buf (Elt Ideal) ℓ)
    (DF : ∀ c : Dev nD, DevFacts X Wdkv Wuk Wuv Wq Wqr Wkr Wo m c) (c : Dev nD) (r : Fin 128) (n : Fin 2048) :
    Proto.outRows1 m c (ix2 r n)
      = out X Wdkv Wuk Wuv Wq Wqr Wkr Wo σK ⟨256 * (c.val / 2) + 128 + r.val, by have hc : c.val < 8 := c.isLt; omega⟩ n := by
  have hzp := zp_mod c
  have H := deviceArrays X Wdkv Wuk Wuv Wq Wqr Wkr Wo m c (DF c) (DF (Proto.zp c)) hzp
  have H' := deviceArrays X Wdkv Wuk Wuv Wq Wqr Wkr Wo m (Proto.zp c) (DF (Proto.zp c)) (DF (Proto.zp (Proto.zp c))) (zp_mod (Proto.zp c))
  have ez : zOf (Proto.zp c) = ⟨1 - (zOf c).val, by have := (zOf c).isLt; omega⟩ := Fin.ext hzp
  have eb : bOf (Proto.zp c) = bOf c := Fin.ext (zp_div c)
  rw [ez, eb] at H'
  exact rows1_eq X Wdkv Wuk Wuv Wq Wqr Wkr Wo hx hd hk hv hq hqr hkr hσ (zOf c) (bOf c)
    (Proto.qVal m c) (Proto.qrVal m c) (Proto.kVal m c) (Proto.vVal m c) (Proto.krT m c) (Proto.woLd0 m c) (Proto.woLd1 m c)
    (Proto.qVal m (Proto.zp c)) (Proto.qrVal m (Proto.zp c)) (Proto.kVal m (Proto.zp c)) (Proto.vVal m (Proto.zp c))
    (Proto.krT m (Proto.zp c)) (Proto.woLd0 m (Proto.zp c)) (Proto.woLd1 m (Proto.zp c))
    H (DF c).hw0 (DF c).hw1 H' (hw0_peer X Wdkv Wuk Wuv Wq Wqr Wkr Wo m c (DF (Proto.zp c)) hzp) (hw1_peer X Wdkv Wuk Wuv Wq Wqr Wkr Wo m c (DF (Proto.zp c)) hzp) r n

theorem outFinal_spec (X : Fin 1024 → Fin 2048 → EReal) (Wdkv : Fin 2048 → Fin 256 → EReal) (Wuk Wuv : Fin 256 → Fin 2048 → EReal) (Wq : Fin 2048 → Fin 2048 → EReal) (Wqr : Fin 2048 → Fin 512 → EReal) (Wkr : Fin 2048 → Fin 32 → EReal) (Wo : Fin 2048 → Fin 2048 → EReal)
    (hx : ∀ s k, IsReal (X s k)) (hd : ∀ k e, IsReal (Wdkv k e)) (hk : ∀ e j, IsReal (Wuk e j)) (hv : ∀ e j, IsReal (Wuv e j)) (hq : ∀ k j, IsReal (Wq k j)) (hqr : ∀ k j, IsReal (Wqr k j)) (hkr : ∀ k r, IsReal (Wkr k r)) (hσ : IsReal σK) (m : (ℓ : Loc nD τ sig) → Buf (Elt Ideal) ℓ)
    (DF : ∀ c : Dev nD, DevFacts X Wdkv Wuk Wuv Wq Wqr Wkr Wo m c) (c : Dev nD) (x : S1x1024x2048.Idx) :
    Proto.outFinal m c x = out X Wdkv Wuk Wuv Wq Wqr Wkr Wo σK (x 1) (x 2) :=
  outFinal_of_outRows m (fun s n => out X Wdkv Wuk Wuv Wq Wqr Wkr Wo σK s n) (fun c' j r n => by
    match j with
    | ⟨0, _⟩ =>
      show Proto.outRows0 m c' (ix2 r n) = _
      rw [outRows0_apply X Wdkv Wuk Wuv Wq Wqr Wkr Wo hx hd hk hv hq hqr hkr hσ m DF c' r n]
      exact congrArg (fun s => out X Wdkv Wuk Wuv Wq Wqr Wkr Wo σK s n) (Fin.ext (by
        show 256 * (c'.val / 2) + r.val = 256 * (c'.val / 2) + 128 * 0 + r.val
        omega))
    | ⟨1, _⟩ =>
      show Proto.outRows1 m c' (ix2 r n) = _
      rw [outRows1_apply X Wdkv Wuk Wuv Wq Wqr Wkr Wo hx hd hk hv hq hqr hkr hσ m DF c' r n]
      exact congrArg (fun s => out X Wdkv Wuk Wuv Wq Wqr Wkr Wo σK s n) (Fin.ext (by
        show 256 * (c'.val / 2) + 128 + r.val = 256 * (c'.val / 2) + 128 * 1 + r.val
        omega))) c x

theorem devFacts (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2, 2] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2, 2] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)))
    (c : Dev Cert.KernelIdeal.nD) :
    DevFacts (fun s k => (m' (((0 : Dev Cert.ReferenceIdeal.nD).tc : Thread Cert.ReferenceIdeal.nD Cert.ReferenceIdeal.τ).loc Cert.ReferenceIdeal.main_arg0)) (ix3 (0 : Fin 1) s k)) (fun k e => (m' (((0 : Dev Cert.ReferenceIdeal.nD).tc : Thread Cert.ReferenceIdeal.nD Cert.ReferenceIdeal.τ).loc Cert.ReferenceIdeal.main_arg1)) (ix2 k e)) (fun k e => (m' (((0 : Dev Cert.ReferenceIdeal.nD).tc : Thread Cert.ReferenceIdeal.nD Cert.ReferenceIdeal.τ).loc Cert.ReferenceIdeal.main_arg2)) (ix2 k e)) (fun k e => (m' (((0 : Dev Cert.ReferenceIdeal.nD).tc : Thread Cert.ReferenceIdeal.nD Cert.ReferenceIdeal.τ).loc Cert.ReferenceIdeal.main_arg3)) (ix2 k e)) (fun k e => (m' (((0 : Dev Cert.ReferenceIdeal.nD).tc : Thread Cert.ReferenceIdeal.nD Cert.ReferenceIdeal.τ).loc Cert.ReferenceIdeal.main_arg4)) (ix2 k e)) (fun k e => (m' (((0 : Dev Cert.ReferenceIdeal.nD).tc : Thread Cert.ReferenceIdeal.nD Cert.ReferenceIdeal.τ).loc Cert.ReferenceIdeal.main_arg5)) (ix2 k e)) (fun k e => (m' (((0 : Dev Cert.ReferenceIdeal.nD).tc : Thread Cert.ReferenceIdeal.nD Cert.ReferenceIdeal.τ).loc Cert.ReferenceIdeal.main_arg6)) (ix2 k e)) (fun k e => (m' (((0 : Dev Cert.ReferenceIdeal.nD).tc : Thread Cert.ReferenceIdeal.nD Cert.ReferenceIdeal.τ).loc Cert.ReferenceIdeal.main_arg7)) (ix2 k e)) m c where
  h70 := fun s k => by rw [stg0_eq m c, (hagree c).1]
  h73 := fun k e => by rw [stg1_eq m c, (hagree c).2.1, colBlock_apply]
  h42 := fun e j => by rw [stg2_eq m c, (hagree c).2.2.1, rowBlock_apply]
  h45 := fun e j => by rw [stg3_eq m c, (hagree c).2.2.2.1, rowBlock_apply]
  h180 := fun k cc => by rw [stg4_eq m c, (hagree c).2.2.2.2.2.1]
  h189 := fun k r => by rw [stg5_eq m c, (hagree c).2.2.2.2.2.2.1]
  h83 := fun r k => by rw [xqLd_apply m c r k, stg0_eq m c, (hagree c).1]
  hq0 := fun k j => by rw [wqLd0_apply m c k j, (hagree c).2.2.2.2.1]
  hq1 := fun k j => by rw [wqLd1_apply m c k j, (hagree c).2.2.2.2.1]
  hq2 := fun k j => by rw [wqLd2_apply m c k j, (hagree c).2.2.2.2.1]
  hq3 := fun k j => by rw [wqLd3_apply m c k j, (hagree c).2.2.2.2.1]
  hw0 := fun k n => by rw [woLd0_apply m c k n, (hagree c).2.2.2.2.2.2.2]
  hw1 := fun k n => by rw [woLd1_apply m c k n, (hagree c).2.2.2.2.2.2.2]
  hzw := zw_eq c

theorem outFinal_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2, 2] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2, 2] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)))
    (c : Dev Cert.KernelIdeal.nD) :
    Proto.outFinal (F := Ideal) m c = Cert.MLA.Ref.spec (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7)) := by
  obtain ⟨w0, w1, w2, w3, w4, w5, w6, w7⟩ := Cert.MLA.Fin.whole_real m m' hpre hagree
  funext x
  rw [outFinal_spec (fun s k => (m' (((0 : Dev Cert.ReferenceIdeal.nD).tc : Thread Cert.ReferenceIdeal.nD Cert.ReferenceIdeal.τ).loc Cert.ReferenceIdeal.main_arg0)) (ix3 (0 : Fin 1) s k)) (fun k e => (m' (((0 : Dev Cert.ReferenceIdeal.nD).tc : Thread Cert.ReferenceIdeal.nD Cert.ReferenceIdeal.τ).loc Cert.ReferenceIdeal.main_arg1)) (ix2 k e)) (fun k e => (m' (((0 : Dev Cert.ReferenceIdeal.nD).tc : Thread Cert.ReferenceIdeal.nD Cert.ReferenceIdeal.τ).loc Cert.ReferenceIdeal.main_arg2)) (ix2 k e)) (fun k e => (m' (((0 : Dev Cert.ReferenceIdeal.nD).tc : Thread Cert.ReferenceIdeal.nD Cert.ReferenceIdeal.τ).loc Cert.ReferenceIdeal.main_arg3)) (ix2 k e)) (fun k e => (m' (((0 : Dev Cert.ReferenceIdeal.nD).tc : Thread Cert.ReferenceIdeal.nD Cert.ReferenceIdeal.τ).loc Cert.ReferenceIdeal.main_arg4)) (ix2 k e)) (fun k e => (m' (((0 : Dev Cert.ReferenceIdeal.nD).tc : Thread Cert.ReferenceIdeal.nD Cert.ReferenceIdeal.τ).loc Cert.ReferenceIdeal.main_arg5)) (ix2 k e)) (fun k e => (m' (((0 : Dev Cert.ReferenceIdeal.nD).tc : Thread Cert.ReferenceIdeal.nD Cert.ReferenceIdeal.τ).loc Cert.ReferenceIdeal.main_arg6)) (ix2 k e)) (fun k e => (m' (((0 : Dev Cert.ReferenceIdeal.nD).tc : Thread Cert.ReferenceIdeal.nD Cert.ReferenceIdeal.τ).loc Cert.ReferenceIdeal.main_arg7)) (ix2 k e))
    (fun s k => w0 _) (fun k e => w1 _) (fun e j => w2 _) (fun e j => w3 _) (fun k j => w4 _) (fun k j => w5 _)
    (fun k r => w6 _) Cert.MLA.Fin.scale_real m (fun c' => devFacts m m' hagree c') c x]
  rfl

end Cert.MLA.Glue

end
-- ==== Proof.lean ====
/-
  Fused multi-head latent attention on a 2 × 2 × 2 mesh against its one-device reference. Per head both compute
  softmax((Q·Kᵀ + Qr·Krᵀ)·σ)·V·Wo with K = (x·Wdkv)·Wuk, V = (x·Wdkv)·Wuv, Q = x·Wq, Qr = x·Wqr, Kr = x·Wkr.
  The latent width is cut in two along z: a device sums its half of the latent products with its z-peer's, attends for
  one half of the heads on one quarter of the rows, adds its z-peer's partial output projection to its own, and the four
  devices of a z-plane exchange the finished quarters. The reference subtracts each row's maximum before the exponential,
  which changes no value over the reals once every score is a real number.
-/
import proofs.«900573_g7700000000000574_dist_mla_v7x_xyz2x2x2_z_b1_s1024_d2048_dc128_bf16_1_alg».proof.Defs
import proofs.«900573_g7700000000000574_dist_mla_v7x_xyz2x2x2_z_b1_s1024_d2048_dc128_bf16_1_alg».proof.Proof.Gen.Kernel
import proofs.«900573_g7700000000000574_dist_mla_v7x_xyz2x2x2_z_b1_s1024_d2048_dc128_bf16_1_alg».proof.Proof.Gen.KernelIdeal
import proofs.«900573_g7700000000000574_dist_mla_v7x_xyz2x2x2_z_b1_s1024_d2048_dc128_bf16_1_alg».proof.Proof.Gen.ReferenceIdeal
import proofs.«900573_g7700000000000574_dist_mla_v7x_xyz2x2x2_z_b1_s1024_d2048_dc128_bf16_1_alg».proof.Proof.Gen.Pre_finite_inputs_Kernel
import proofs.«900573_g7700000000000574_dist_mla_v7x_xyz2x2x2_z_b1_s1024_d2048_dc128_bf16_1_alg».proof.Proof.Gen.Pre_finite_inputs_ReferenceIdeal
import proofs.«900573_g7700000000000574_dist_mla_v7x_xyz2x2x2_z_b1_s1024_d2048_dc128_bf16_1_alg».proof.Proof.Launch
import proofs.«900573_g7700000000000574_dist_mla_v7x_xyz2x2x2_z_b1_s1024_d2048_dc128_bf16_1_alg».proof.Proof.BodyAll
import proofs.«900573_g7700000000000574_dist_mla_v7x_xyz2x2x2_z_b1_s1024_d2048_dc128_bf16_1_alg».proof.Proof.RefValue
import proofs.«900573_g7700000000000574_dist_mla_v7x_xyz2x2x2_z_b1_s1024_d2048_dc128_bf16_1_alg».proof.Proof.Glue
import Idealize.ShloMosaic.Adequacy
import Idealize.ShloMosaic.Init

noncomputable section

namespace Cert.Proof

open Idealize.ShloMosaic Idealize.SL.Sem

/-- The idealized kernel's run is proved at every float instance; at the exact one its frame is that run, values dropped. -/
theorem frame_ki : Cert.frame_KernelIdeal := fun m ρ _ =>
  (θ_run Cert.KernelIdeal.defs _ _).mono (fun _ h c => (h c).2)
    (Cert.KernelIdeal.Proto.run_main_val (F := Ideal) m ρ (Cert.KernelIdeal.Body.body_obligation m ρ))

/-- Both printed kernels run the same body. -/
theorem defs₀_eq {F : FTy → Type} [FloatOps F] : Cert.Kernel.defs₀ (F := F) = Cert.KernelIdeal.defs₀ (F := F) := by
  unfold Cert.Kernel.defs₀ Cert.KernelIdeal.defs₀
  congr 1
  funext l x
  match l, x with
  | 0, (t, s) => rfl

/-- The word-level kernel is the same program as the idealized one, so its frame is the same run at the word-level instance. -/
theorem frame_k : Cert.frame_Kernel := fun m ρ _ => by
  rw [show Cert.Kernel.defs (F := Bits) = Cert.KernelIdeal.defs (F := Bits) from
    congrArg (Pipeline.defs Cert.KernelIdeal.pcfgs) defs₀_eq]
  exact (θ_run Cert.KernelIdeal.defs _ _).mono (fun _ h c => (h c).2)
    (Cert.KernelIdeal.Proto.run_main_val (F := Bits) m ρ (Cert.KernelIdeal.Body.body_obligation m ρ))

/-- Every device's result ends at the specification of the reference's whole arrays, where the reference's own result ends. -/
theorem algebraic : Cert.algebraic_KernelIdeal_ReferenceIdeal := fun m ρ m' ρ' hpre hagree =>
  ⟨_, (θ_run Cert.KernelIdeal.defs _ _).mono
      (fun _ h c => ⟨(h c).1.trans (Cert.MLA.Glue.outFinal_eq m m' hpre hagree c), (h c).2⟩)
      (Cert.KernelIdeal.Proto.run_main_val (F := Ideal) m ρ (Cert.KernelIdeal.Body.body_obligation m ρ)),
    (θ_run Cert.ReferenceIdeal.defs _ _).mono (fun _ h => h 0) (Cert.MLA.Ref.run m' ρ')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.MLA.Ref.frame, trivial, algebraic⟩

end Cert.Proof

end
